-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S_ : Shape := ⟨0, ![]⟩
abbrev S1x1600000 : Shape := ⟨2, ![1, 1600000]⟩
abbrev S1600000 : Shape := ⟨1, ![1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : IVec S1x1600000 32 := (extractStridedSlice S1x1600000 ![0, 0] · slices_S2x1600000_S1x1600000_0_0) main_arg1
  let main_v55 : IVec S1600000 32 := shapeCast S1600000 main_v54 shapeCasts_S1x1600000_S1600000
  let main_c_20 : IVec S_ 32 := constantI S_ 32 0#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![0, 0] · slices_S2x1600000_S1x1600000_0_0) main_arg1
  let main_v59 : IVec S1600000 32 := shapeCast S1600000 main_v58 shapeCasts_S1x1600000_S1600000
  let main_c_21 : IVec S_ 32 := constantI S_ 32 50000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  main_v64

def fn_part2 {F : FTy → Type} [FloatOps F] (main_arg1 : IVec S2x1600000 32) (main_arg9 : FVec F S384x384 .f32) (main_arg10 : FVec F S384 .f32) (main_arg11 : FVec F S384x384 .f32) (main_arg12 : FVec F S384 .f32) (main_v33 : IVec S_ 1) : IVec S_ 1 :=
  let main_v34 : FVec F S384x384 .f32 := Host.absf main_arg9
  let main_cst_12 : FVec F S_ .f32 := constant S_ .f32 0x7F800000#32
  let main_v35 : FVec F S384x384 .f32 := broadcastInDim S384x384 ![] bcast_S_S384x384 main_cst_12
  let main_v36 : IVec S384x384 1 := cmpf .olt main_v34 main_v35
  let main_c_13 : IVec S_ 1 := constantI S_ 1 1#1
  let main_v37 : IVec S_ 1 := (fun x v => Host.reduce IntOp.andi x v reducesTo_S384x384_S_d0_1 h_S_) main_v36 main_c_13
  let main_v38 : IVec S_ 1 := andi main_v33 main_v37
  let main_v39 : FVec F S384 .f32 := Host.absf main_arg10
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384x384 .f32 := Host.absf main_arg11
  let main_cst_16 : FVec F S_ .f32 := constant S_ .f32 0x7F800000#32
  let main_v45 : FVec F S384x384 .f32 := broadcastInDim S384x384 ![] bcast_S_S384x384 main_cst_16
  let main_v46 : IVec S384x384 1 := cmpf .olt main_v44 main_v45
  let main_c_17 : IVec S_ 1 := constantI S_ 1 1#1
  let main_v47 : IVec S_ 1 := (fun x v => Host.reduce IntOp.andi x v reducesTo_S384x384_S_d0_1 h_S_) main_v46 main_c_17
  let main_v48 : IVec S_ 1 := andi main_v43 main_v47
  let main_v49 : FVec F S384 .f32 := Host.absf main_arg12
  let main_cst_18 : FVec F S_ .f32 := constant S_ .f32 0x7F800000#32
  let main_v50 : FVec F S384 .f32 := broadcastInDim S384 ![] bcast_S_S384 main_cst_18
  fn_part3 (F := F) main_arg1 main_v48 main_v49 main_v50

def fn_part1 {F : FTy → Type} [FloatOps F] (main_arg1 : IVec S2x1600000 32) (main_arg6 : FVec F S3x128 .f32) (main_arg7 : FVec F S3x128 .f32) (main_arg8 : FVec F S3x128 .f32) (main_arg9 : FVec F S384x384 .f32) (main_arg10 : FVec F S384 .f32) (main_arg11 : FVec F S384x384 .f32) (main_arg12 : FVec F S384 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S50000x128 .f32) (main_arg1 : IVec S2x1600000 32) (main_arg2 : IVec S50000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) (main_arg9 : FVec F S384x384 .f32) (main_arg10 : FVec F S384 .f32) (main_arg11 : FVec F S384x384 .f32) (main_arg12 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S50000x384 : Shape := ⟨2, ![50000, 384]⟩
abbrev S512x384 : Shape := ⟨2, ![512, 384]⟩
abbrev S50000x1 : Shape := ⟨2, ![50000, 1]⟩
abbrev S1x384 : Shape := ⟨2, ![1, 384]⟩

abbrev nBuf : Space → Nat
  | .hbm => 211
  | .vmem => 66
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S384x384, .f32⟩
  | 10 => ⟨S384, .f32⟩
  | 11 => ⟨S384x384, .f32⟩
  | 12 => ⟨S384, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1, .i32⟩
  | 26 => ⟨S_, .i32⟩
  | 27 => ⟨S1600000x1, .i32⟩
  | 28 => ⟨S1600000x1, .i1⟩
  | 29 => ⟨S1x1, .i32⟩
  | 30 => ⟨S1600000x1, .i32⟩
  | 31 => ⟨S1600000x1, .i1⟩
  | 32 => ⟨S1600000x1, .i1⟩
  | 33 => ⟨S_, .i1⟩
  | 34 => ⟨S1600000, .i1⟩
  | 35 => ⟨S1600000x128, .f32⟩
  | 36 => ⟨S1600000x128, .i1⟩
  | 37 => ⟨S_, .f32⟩
  | 38 => ⟨S1600000x128, .f32⟩
  | 39 => ⟨S1600000x128, .f32⟩
  | 40 => ⟨S_, .f32⟩
  | 41 => ⟨S50000x128, .f32⟩
  | 42 => ⟨S1600000x1, .i32⟩
  | 43 => ⟨S50000x128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S50000x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S128, .f32⟩
  | 75 => ⟨S1x128, .f32⟩
  | 76 => ⟨S1x128, .f32⟩
  | 77 => ⟨S1x128, .f32⟩
  | 78 => ⟨S50000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1, .i32⟩
  | 88 => ⟨S_, .i32⟩
  | 89 => ⟨S1600000x1, .i32⟩
  | 90 => ⟨S1600000x1, .i1⟩
  | 91 => ⟨S1x1, .i32⟩
  | 92 => ⟨S1600000x1, .i32⟩
  | 93 => ⟨S1600000x1, .i1⟩
  | 94 => ⟨S1600000x1, .i1⟩
  | 95 => ⟨S_, .i1⟩
  | 96 => ⟨S1600000, .i1⟩
  | 97 => ⟨S1600000x128, .f32⟩
  | 98 => ⟨S1600000x128, .i1⟩
  | 99 => ⟨S_, .f32⟩
  | 100 => ⟨S1600000x128, .f32⟩
  | 101 => ⟨S1600000x128, .f32⟩
  | 102 => ⟨S_, .f32⟩
  | 103 => ⟨S50000x128, .f32⟩
  | 104 => ⟨S1600000x1, .i32⟩
  | 105 => ⟨S50000x128, .f32⟩
  | 106 => ⟨S1x128x128, .f32⟩
  | 107 => ⟨S128x128, .f32⟩
  | 108 => ⟨S1x128, .f32⟩
  | 109 => ⟨S128, .f32⟩
  | 110 => ⟨S1x128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S50000x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S128, .f32⟩
  | 9 => ⟨S1x128, .f32⟩
  | 10 => ⟨S1x128, .f32⟩
  | 11 => ⟨S1x128, .f32⟩
  | 12 => ⟨S50000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1, .i32⟩
  | 22 => ⟨S_, .i32⟩
  | 23 => ⟨S1600000x1, .i32⟩
  | 24 => ⟨S1600000x1, .i1⟩
  | 25 => ⟨S1x1, .i32⟩
  | 26 => ⟨S1600000x1, .i32⟩
  | 27 => ⟨S1600000x1, .i1⟩
  | 28 => ⟨S1600000x1, .i1⟩
  | 29 => ⟨S_, .i1⟩
  | 30 => ⟨S1600000, .i1⟩
  | 31 => ⟨S1600000x128, .f32⟩
  | 32 => ⟨S1600000x128, .i1⟩
  | 33 => ⟨S_, .f32⟩
  | 34 => ⟨S1600000x128, .f32⟩
  | 35 => ⟨S1600000x128, .f32⟩
  | 36 => ⟨S_, .f32⟩
  | 37 => ⟨S50000x128, .f32⟩
  | 38 => ⟨S1600000x1, .i32⟩
  | 39 => ⟨S50000x128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S50000x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S128, .f32⟩
  | 71 => ⟨S1x128, .f32⟩
  | 72 => ⟨S1x128, .f32⟩
  | 73 => ⟨S1x128, .f32⟩
  | 74 => ⟨S50000x128, .f32⟩
  | 75 => ⟨S50000x384, .f32⟩
  | 76 => ⟨S_, .f32⟩
  | 77 => ⟨S512x384, .f32⟩
  | 78 => ⟨S50000x1, .i32⟩
  | 79 => ⟨S512x384, .f32⟩
  | 80 => ⟨S1x384, .f32⟩
  | 81 => ⟨S1x384, .f32⟩
  | 82 => ⟨S512x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S512x384, .f32⟩
  | .local _ .vmem, ⟨61, _⟩ => ⟨S384x384, .f32⟩
  | .local _ .vmem, ⟨62, _⟩ => ⟨S1x384, .f32⟩
  | .local _ .vmem, ⟨63, _⟩ => ⟨S384x384, .f32⟩
  | .local _ .vmem, ⟨64, _⟩ => ⟨S1x384, .f32⟩
  | .local _ .vmem, ⟨65, _⟩ => ⟨S512x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_cst : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18_0 : Ref sig .tc := ⟨.hbm, 54, rfl⟩
abbrev main_v18_1 : Ref sig .tc := ⟨.hbm, 55, rfl⟩
abbrev main_v18_2 : Ref sig .tc := ⟨.hbm, 56, rfl⟩
abbrev main_cst_0 : Ref sig .tc := ⟨.hbm, 57, rfl⟩
abbrev main_v19 : Ref sig .tc := ⟨.hbm, 58, rfl⟩
abbrev main_v20 : Ref sig .tc := ⟨.hbm, 59, rfl⟩
abbrev main_cst_1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_2 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_c_2 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_3 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_cst : Ref sig .tc := ⟨.hbm, 99, rfl⟩
abbrev main_call1_v15 : Ref sig .tc := ⟨.hbm, 100, rfl⟩
abbrev main_v38 : Ref sig .tc := ⟨.hbm, 101, rfl⟩
abbrev main_cst_3 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52_0 : Ref sig .tc := ⟨.hbm, 116, rfl⟩
abbrev main_v52_1 : Ref sig .tc := ⟨.hbm, 117, rfl⟩
abbrev main_v52_2 : Ref sig .tc := ⟨.hbm, 118, rfl⟩
abbrev main_cst_4 : Ref sig .tc := ⟨.hbm, 119, rfl⟩
abbrev main_v53 : Ref sig .tc := ⟨.hbm, 120, rfl⟩
abbrev main_v54 : Ref sig .tc := ⟨.hbm, 121, rfl⟩
abbrev main_cst_5 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_6 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_call2_c : Ref sig .tc := ⟨.hbm, 141, rfl⟩
abbrev main_call2_v0 : Ref sig .tc := ⟨.hbm, 142, rfl⟩
abbrev main_call2_v1 : Ref sig .tc := ⟨.hbm, 143, rfl⟩
abbrev main_call2_c_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_c_1 : Ref sig .tc := ⟨.hbm, 149, rfl⟩
abbrev main_call2_c_2 : Ref sig .tc := ⟨.hbm, 150, rfl⟩
abbrev main_call2_v6 : Ref sig .tc := ⟨.hbm, 151, rfl⟩
abbrev main_call2_v7 : Ref sig .tc := ⟨.hbm, 152, rfl⟩
abbrev main_call2_v8 : Ref sig .tc := ⟨.hbm, 153, rfl⟩
abbrev main_call2_v9 : Ref sig .tc := ⟨.hbm, 154, rfl⟩
abbrev main_call2_v10 : Ref sig .tc := ⟨.hbm, 155, rfl⟩
abbrev main_call2_v11 : Ref sig .tc := ⟨.hbm, 156, rfl⟩
abbrev main_call2_c_3 : Ref sig .tc := ⟨.hbm, 157, rfl⟩
abbrev main_call2_v12 : Ref sig .tc := ⟨.hbm, 158, rfl⟩
abbrev main_call2_v13 : Ref sig .tc := ⟨.hbm, 159, rfl⟩
abbrev main_call2_v14 : Ref sig .tc := ⟨.hbm, 160, rfl⟩
abbrev main_call2_cst : Ref sig .tc := ⟨.hbm, 161, rfl⟩
abbrev main_call2_v15 : Ref sig .tc := ⟨.hbm, 162, rfl⟩
abbrev main_v72 : Ref sig .tc := ⟨.hbm, 163, rfl⟩
abbrev main_cst_7 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86_0 : Ref sig .tc := ⟨.hbm, 178, rfl⟩
abbrev main_v86_1 : Ref sig .tc := ⟨.hbm, 179, rfl⟩
abbrev main_v86_2 : Ref sig .tc := ⟨.hbm, 180, rfl⟩
abbrev main_cst_8 : Ref sig .tc := ⟨.hbm, 181, rfl⟩
abbrev main_v87 : Ref sig .tc := ⟨.hbm, 182, rfl⟩
abbrev main_v88 : Ref sig .tc := ⟨.hbm, 183, rfl⟩
abbrev main_cst_9 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_cst_10 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_cst_11 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem8_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v45 : BitVec 1 := Scalar.cmpi .eq arg0 c24_i32
  let v46 : BitVec 32 := Scalar.extui v45
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_27 : BitVec 32 := 0#32
  let v48 : BitVec 1 := Scalar.cmpi .ne v47 c0_i32_27
  v48

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_27 : BitVec 32 := 0#32
  let v48 : BitVec 1 := Scalar.cmpi .ne v47 c0_i32_27
  v48

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x384 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S384x384 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x384 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S384x384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x384 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  bcast_S_S512x384 : S_.BroadcastsInDim S512x384 (![] : Fin 0 → Fin S512x384.rank)
  bcast_S50000_S50000x1_0 : S50000.BroadcastsInDim S50000x1 (![0] : Fin 1 → Fin S50000x1.rank)
  shapeCasts_S384_S1x384 : S384.ShapeCasts S1x384
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x384_S384x384_0_0 : ∀ a, (![0, 0] : Fin 2 → Nat) a + S384x384.size a ≤ S384x384.size a
  h_S384x384 : 0 < S384x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  scatter_S512x384_S50000x1_S50000x384_1_0_0_1_wf : ScatterDims.WF S512x384 S50000x1 S50000x384 [1] [0] [0] 1
  dot_S512x384_S384x384_S512x384_1_0_0_1_n_n_wf : DotDims.WF S512x384 S384x384 S512x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x384.size a ≤ S512x384.size a
  hwx6_0 : ∀ i : grid6.Coords, EltTy.bits .f32 = 32 ∨ (Rect.block (s := S512x384) S512x384.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S384x384.size a ≤ S384x384.size a
  hwx6_1 : ∀ i : grid6.Coords, EltTy.bits .f32 = 32 ∨ (Rect.block (s := S384x384) S384x384.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x384.size a ≤ S1x384.size a
  hwx6_2 : ∀ i : grid6.Coords, EltTy.bits .f32 = 32 ∨ (Rect.block (s := S1x384) S1x384.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S384x384.size a ≤ S384x384.size a
  hwx6_3 : ∀ i : grid6.Coords, EltTy.bits .f32 = 32 ∨ (Rect.block (s := S384x384) S384x384.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x384.size a ≤ S1x384.size a
  hwx6_4 : ∀ i : grid6.Coords, EltTy.bits .f32 = 32 ∨ (Rect.block (s := S1x384) S1x384.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x384.size a ≤ S512x384.size a
  hwx6_5 : ∀ i : grid6.Coords, EltTy.bits .f32 = 32 ∨ (Rect.block (s := S512x384) S512x384.size (cc6_transform_5 i) (hinb6_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x384_S50000x1_S50000x384_1_0_0_1 : ScatterDims S512x384 S50000x1 S50000x384 where
  updateWindowDims := [1]
  insertedWindowDims := [0]
  scatterDimsToOperandDims := [0]
  indexVectorDim := 1
  wf := scatter_S512x384_S50000x1_S50000x384_1_0_0_1_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf

abbrev win0_0 : Pipeline.Window sig grid0 :=
  Pipeline.Window.ofSpec (Memref.whole main_v7) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v18_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v52_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v52_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v75) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v86_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v86_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v86_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v86_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v109) S512x384.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S384x384.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S1x384.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S384x384.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S1x384.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112) S512x384.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x384 : Shape := ⟨2, ![50000, 384]⟩
abbrev S512x384 : Shape := ⟨2, ![512, 384]⟩
abbrev S50000x1 : Shape := ⟨2, ![50000, 1]⟩
abbrev S1x384 : Shape := ⟨2, ![1, 384]⟩

abbrev nBuf : Space → Nat
  | .hbm => 285
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S384x384, .f32⟩
  | 10 => ⟨S384, .f32⟩
  | 11 => ⟨S384x384, .f32⟩
  | 12 => ⟨S384, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S50000x128, .f32⟩
  | 28 => ⟨S1600000x1, .i32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S50000x128, .f32⟩
  | 112 => ⟨S1600000x1, .i32⟩
  | 113 => ⟨S50000x128, .f32⟩
  | 114 => ⟨S50000x128, .f32⟩
  | 115 => ⟨S1x128x128, .f32⟩
  | 116 => ⟨S128x128, .f32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S_, .f32⟩
  | 41 => ⟨S128, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S50000x128, .f32⟩
  | 68 => ⟨S1600000x1, .i32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S50000x128, .f32⟩
  | 106 => ⟨S50000x128, .f32⟩
  | 107 => ⟨S50000x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S128, .f32⟩
  | 127 => ⟨S128, .f32⟩
  | _ => ⟨S50000x128, .f32⟩

abbrev hbmTy0_2 (i : Nat) : BufTy := match i % 128 with
  | 0 => ⟨S1x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S50000x384, .f32⟩
  | 14 => ⟨S_, .f32⟩
  | 15 => ⟨S512x384, .f32⟩
  | 16 => ⟨S50000x1, .i32⟩
  | 17 => ⟨S512x384, .f32⟩
  | 18 => ⟨S512x384, .f32⟩
  | 19 => ⟨S1x384, .f32⟩
  | 20 => ⟨S512x384, .f32⟩
  | 21 => ⟨S512x384, .f32⟩
  | 22 => ⟨S_, .f32⟩
  | 23 => ⟨S512x384, .f32⟩
  | 24 => ⟨S512x384, .f32⟩
  | 25 => ⟨S512x384, .f32⟩
  | 26 => ⟨S1x384, .f32⟩
  | 27 => ⟨S512x384, .f32⟩
  | 28 => ⟨S512x384, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_c_3 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_cst_1 : Ref sig .tc := ⟨.hbm, 69, rfl⟩
abbrev main_call2_v8 : Ref sig .tc := ⟨.hbm, 70, rfl⟩
abbrev main_call2_cst_2 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_cst_3 : Ref sig .tc := ⟨.hbm, 75, rfl⟩
abbrev main_call2_v12 : Ref sig .tc := ⟨.hbm, 76, rfl⟩
abbrev main_call2_cst_4 : Ref sig .tc := ⟨.hbm, 77, rfl⟩
abbrev main_call2_call0_v0 : Ref sig .tc := ⟨.hbm, 78, rfl⟩
abbrev main_call2_call0_v1 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_4 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_c_5 : Ref sig .tc := ⟨.hbm, 101, rfl⟩
abbrev main_v56 : Ref sig .tc := ⟨.hbm, 102, rfl⟩
abbrev main_v57 : Ref sig .tc := ⟨.hbm, 103, rfl⟩
abbrev main_c_6 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_7 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_call3_cst : Ref sig .tc := ⟨.hbm, 123, rfl⟩
abbrev main_call3_v0 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_call4_cst : Ref sig .tc := ⟨.hbm, 134, rfl⟩
abbrev main_call4_v0 : Ref sig .tc := ⟨.hbm, 135, rfl⟩
abbrev main_v84 : Ref sig .tc := ⟨.hbm, 136, rfl⟩
abbrev main_cst_8 : Ref sig .tc := ⟨.hbm, 137, rfl⟩
abbrev main_v85 : Ref sig .tc := ⟨.hbm, 138, rfl⟩
abbrev main_cst_9 : Ref sig .tc := ⟨.hbm, 139, rfl⟩
abbrev main_v86 : Ref sig .tc := ⟨.hbm, 140, rfl⟩
abbrev main_v87 : Ref sig .tc := ⟨.hbm, 141, rfl⟩
abbrev main_c_10 : Ref sig .tc := ⟨.hbm, 142, rfl⟩
abbrev main_call5_cst : Ref sig .tc := ⟨.hbm, 143, rfl⟩
abbrev main_call5_v0 : Ref sig .tc := ⟨.hbm, 144, rfl⟩
abbrev main_call5_v1 : Ref sig .tc := ⟨.hbm, 145, rfl⟩
abbrev main_call5_cst_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_v6 : Ref sig .tc := ⟨.hbm, 151, rfl⟩
abbrev main_call5_v7 : Ref sig .tc := ⟨.hbm, 152, rfl⟩
abbrev main_call5_cst_1 : Ref sig .tc := ⟨.hbm, 153, rfl⟩
abbrev main_call5_v8 : Ref sig .tc := ⟨.hbm, 154, rfl⟩
abbrev main_call5_cst_2 : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_cst_3 : Ref sig .tc := ⟨.hbm, 159, rfl⟩
abbrev main_call5_v12 : Ref sig .tc := ⟨.hbm, 160, rfl⟩
abbrev main_call5_cst_4 : Ref sig .tc := ⟨.hbm, 161, rfl⟩
abbrev main_call5_call0_v0 : Ref sig .tc := ⟨.hbm, 162, rfl⟩
abbrev main_call5_call0_v1 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_cst_11 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_c_12 : Ref sig .tc := ⟨.hbm, 185, rfl⟩
abbrev main_v108 : Ref sig .tc := ⟨.hbm, 186, rfl⟩
abbrev main_v109 : Ref sig .tc := ⟨.hbm, 187, rfl⟩
abbrev main_c_13 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_14 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_call6_cst : Ref sig .tc := ⟨.hbm, 207, rfl⟩
abbrev main_call6_v0 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_call7_cst : Ref sig .tc := ⟨.hbm, 218, rfl⟩
abbrev main_call7_v0 : Ref sig .tc := ⟨.hbm, 219, rfl⟩
abbrev main_v136 : Ref sig .tc := ⟨.hbm, 220, rfl⟩
abbrev main_cst_15 : Ref sig .tc := ⟨.hbm, 221, rfl⟩
abbrev main_v137 : Ref sig .tc := ⟨.hbm, 222, rfl⟩
abbrev main_cst_16 : Ref sig .tc := ⟨.hbm, 223, rfl⟩
abbrev main_v138 : Ref sig .tc := ⟨.hbm, 224, rfl⟩
abbrev main_v139 : Ref sig .tc := ⟨.hbm, 225, rfl⟩
abbrev main_c_17 : Ref sig .tc := ⟨.hbm, 226, rfl⟩
abbrev main_call8_cst : Ref sig .tc := ⟨.hbm, 227, rfl⟩
abbrev main_call8_v0 : Ref sig .tc := ⟨.hbm, 228, rfl⟩
abbrev main_call8_v1 : Ref sig .tc := ⟨.hbm, 229, rfl⟩
abbrev main_call8_cst_0 : Ref sig .tc := ⟨.hbm, 230, rfl⟩
abbrev main_call8_v2 : Ref sig .tc := ⟨.hbm, 231, rfl⟩
abbrev main_call8_v3 : Ref sig .tc := ⟨.hbm, 232, rfl⟩
abbrev main_call8_v4 : Ref sig .tc := ⟨.hbm, 233, rfl⟩
abbrev main_call8_v5 : Ref sig .tc := ⟨.hbm, 234, rfl⟩
abbrev main_call8_v6 : Ref sig .tc := ⟨.hbm, 235, rfl⟩
abbrev main_call8_v7 : Ref sig .tc := ⟨.hbm, 236, rfl⟩
abbrev main_call8_cst_1 : Ref sig .tc := ⟨.hbm, 237, rfl⟩
abbrev main_call8_v8 : Ref sig .tc := ⟨.hbm, 238, rfl⟩
abbrev main_call8_cst_2 : Ref sig .tc := ⟨.hbm, 239, rfl⟩
abbrev main_call8_v9 : Ref sig .tc := ⟨.hbm, 240, rfl⟩
abbrev main_call8_v10 : Ref sig .tc := ⟨.hbm, 241, rfl⟩
abbrev main_call8_v11 : Ref sig .tc := ⟨.hbm, 242, rfl⟩
abbrev main_call8_cst_3 : Ref sig .tc := ⟨.hbm, 243, rfl⟩
abbrev main_call8_v12 : Ref sig .tc := ⟨.hbm, 244, rfl⟩
abbrev main_call8_cst_4 : Ref sig .tc := ⟨.hbm, 245, rfl⟩
abbrev main_call8_call0_v0 : Ref sig .tc := ⟨.hbm, 246, rfl⟩
abbrev main_call8_call0_v1 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_cst_18 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_cst_19 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_call9_cst : Ref sig .tc := ⟨.hbm, 278, rfl⟩
abbrev main_call9_v0 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  bcast_S_S512x384 : S_.BroadcastsInDim S512x384 (![] : Fin 0 → Fin S512x384.rank)
  bcast_S50000_S50000x1_0 : S50000.BroadcastsInDim S50000x1 (![0] : Fin 1 → Fin S50000x1.rank)
  bcast_S384_S1x384_1 : S384.BroadcastsInDim S1x384 (![1] : Fin 1 → Fin S1x384.rank)
  bcast_S1x384_S512x384_0_1 : S1x384.BroadcastsInDim S512x384 (![0, 1] : Fin 2 → Fin S512x384.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S512x384_S50000x1_S50000x384_1_0_0_1_wf : ScatterDims.WF S512x384 S50000x1 S50000x384 [1] [0] [0] 1
  dot_S512x384_S384x384_S512x384_1_0_0_1_n_n_wf : DotDims.WF S512x384 S384x384 S512x384 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x384_S50000x1_S50000x384_1_0_0_1 : ScatterDims S512x384 S50000x1 S50000x384 where
  updateWindowDims := [1]
  insertedWindowDims := [0]
  scatterDimsToOperandDims := [0]
  indexVectorDim := 1
  wf := scatter_S512x384_S50000x1_S50000x384_1_0_0_1_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf

class Facts : Prop extends Facts₀ where

variable [Facts]
-- ==== Proof.K.C0Runs.lean ====
import proofs.«407439_j85349590106293_1_alg».proof.Proof.Gen.Kernel.Launch
import proofs.«407439_j85349590106293_1_alg».proof.Proof.Gen.Kernel.Skeleton
import proofs.«407439_j85349590106293_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_1 (i : grid0.Coords) : Prop :=
  (Scalar.cmpi .ne (Scalar.extui (Scalar.cmpi .eq (BitVec.ofNat 32 (i 0).val) 0#32)) 0#32) = 1#1
-- The two conditions split the grid into its first point, its last point and the rest.
theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond2 i = 1#1
theorem hcond0_2 : ∀ t : Fin cfg0.N, cond0_2 (grid0.coords t) ↔ t.val = 24 :=
  (by decide +kernel : ∀ t : Fin grid0.N, cond0_2 (grid0.coords t) ↔ t.val = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7 : ∀ t : Fin cfg0.N, t.val ≠ 24 → cfg0.idle 7 (grid0.coords t) = true := by decide +kernel
theorem idleAt0_8 : ∀ t : Fin cfg0.N, t.val ≠ 24 → cfg0.idle 8 (grid0.coords t) = true := by decide +kernel
theorem noFlush0_7 : ∀ t : Fin cfg0.N, t.val ≠ 24 → (cfg0.win 7).flush t = false := by decide +kernel
theorem noFlush0_8 : ∀ t : Fin cfg0.N, t.val ≠ 24 → (cfg0.win 8).flush t = false := by decide +kernel
theorem liveAt0_7 : ∀ t : Fin cfg0.N, t.val = 24 → cfg0.idle 7 (grid0.coords t) = false := by decide +kernel
theorem liveAt0_8 : ∀ t : Fin cfg0.N, t.val = 24 → cfg0.idle 8 (grid0.coords t) = false := by decide +kernel

abbrev r0_a : Rect S2000x128 := Rect.unit (s := S2000x128) ![0, 0] ![2000, 128] inb_S2000x128_S2000x128_0_0
abbrev r0_b : Rect S128x128 := Rect.unit (s := S128x128) ![0, 0] ![128, 128] inb_S128x128_S128x128_0_0
abbrev r0_c : Rect S1x128 := Rect.unit (s := S1x128) ![0, 0] ![1, 128] inb_S1x128_S1x128_0_0

theorem zeros0 : (![0, 0] : Fin 2 → Nat) = fun _ => 0 := funext fun a => by fin_cases a <;> rfl

section
variable (x0 x1 : Vec F S2000x128 .f32) (x2 : Vec F S128x128 .f32) (x3 : Vec F S1x128 .f32) (x4 : Vec F S128x128 .f32) (x5 : Vec F S1x128 .f32) (prev : Vec F S1x128 .f32)
def out0_6 : Vec F S2000x128 .f32 := k0_pay5 x0 x1 x2 x3 x4 x5
def sum0 : Vec F S1x128 .f32 := k0_pay1 (k0_pay6 x0 x1 x2 x3 x4 x5 prev)
def sq0 : Vec F S1x128 .f32 := k0_pay2 (k0_pay5 x0 x1 x2 x3 x4 x5) prev
end

section
variable {κ : Kind} {sp : Space} {S : Shape} {e : EltTy} (v : View sig κ sp S e) (f : v.ty.Contents (Elt F))
  {off : Fin S.rank → Nat} (h : off = fun _ => 0) (inb : ∀ a, off a + S.size a ≤ S.size a)
include h

-- At zero offsets and the buffer's own sizes the rectangle is every index, so the load is the identity.
theorem readAt_whole0 : v.readAt (Elt F) (Rect.unit off S.size inb).toLoadRect f = v.read (Elt F) f :=
  View.ld_unit_zero h inb _

-- The last piece covers every index, so neither earlier pieces nor the prior contents are read.
theorem read_store_whole0 (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)
end

section
variable {κ : Kind} {sp : Space}
theorem r0_a_rd (v : View sig κ sp S2000x128 .f32) (f : v.ty.Contents (Elt F)) : v.readAt (Elt F) r0_a.toLoadRect f = v.read (Elt F) f := readAt_whole0 v f zeros0 _
theorem r0_b_rd (v : View sig κ sp S128x128 .f32) (f : v.ty.Contents (Elt F)) : v.readAt (Elt F) r0_b.toLoadRect f = v.read (Elt F) f := readAt_whole0 v f zeros0 _
theorem r0_c_rd (v : View sig κ sp S1x128 .f32) (f : v.ty.Contents (Elt F)) : v.readAt (Elt F) r0_c.toLoadRect f = v.read (Elt F) f := readAt_whole0 v f zeros0 _
theorem r0_a_st (v : View sig κ sp S2000x128 .f32) (f : v.ty.Contents (Elt F)) (w : S2000x128.Idx → Elt F .f32) (L : List (View.Piece (Elt F) S2000x128 .f32)) :
    v.read (Elt F) (v.writes (Elt F) f ((⟨r0_a, w⟩ : View.Piece (Elt F) S2000x128 .f32) :: L)) = w := read_store_whole0 v f zeros0 _ w L
theorem r0_c_st (v : View sig κ sp S1x128 .f32) (f : v.ty.Contents (Elt F)) (w : S1x128.Idx → Elt F .f32) (L : List (View.Piece (Elt F) S1x128 .f32)) :
    v.read (Elt F) (v.writes (Elt F) f ((⟨r0_c, w⟩ : View.Piece (Elt F) S1x128 .f32) :: L)) = w := read_store_whole0 v f zeros0 _ w L
end

variable (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)

-- The first point: both accumulators are reset, whatever they held.
theorem sound_kernel0_A (hc1 : cond0_1 i) (hc2 : ¬cond0_2 i) (x0 x1 : Vec F S2000x128 .f32) (x2 : Vec F S128x128 .f32) (x3 : Vec F S1x128 .f32) (x4 : Vec F S128x128 .f32) (x5 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ (∃ d, owns c arg10 fullShare d) ∗ (∃ d, owns c arg11 fullShare d)
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out0_6 x0 x1 x2 x3 x4 x5) ∗ owns c arg10 fullShare (sum0 x0 x1 x2 x3 x4 x5 k0_pay3) ∗ owns c arg11 fullShare (sq0 x0 x1 x2 x3 x4 x5 k0_pay4)) -∗ K ⟨⟩))
      ⊢ wp frame (wpE (defs₀ (F := F)) Variants.none c none) E (cc0__compute_kernel i arg1 harg1 arg2 harg2 arg3 harg3 arg4 harg4 arg5 harg5 arg6 harg6 arg7 harg7 arg8 harg8 arg9 harg9 arg10 harg10 arg11 harg11) K := by
  simp only [cc0__compute_kernel_eq_skeleton]; unfold cc0__compute_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0 hf1 hf2 hf3 hf4 hf5
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [HS0]
  all_goals (iexists _; isplitr; swap; iassumption; ipureintro; sl_unfold_run_names; simp only [r0_a_rd, r0_b_rd, r0_c_rd, r0_a_st, r0_c_st, View.readCov_cons_toLoadRect, out0_6, sum0, sq0])

-- A middle point: both accumulators are updated over what the point before left.
theorem sound_kernel0_B (hc1 : ¬cond0_1 i) (hc2 : ¬cond0_2 i) (x0 x1 : Vec F S2000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ owns c arg10 fullShare xs0 ∗ owns c arg11 fullShare xs1
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out0_6 x0 x1 x2 x3 x4 x5) ∗ owns c arg10 fullShare (sum0 x0 x1 x2 x3 x4 x5 xs0) ∗ owns c arg11 fullShare (sq0 x0 x1 x2 x3 x4 x5 xs1)) -∗ K ⟨⟩))
      ⊢ wp frame (wpE (defs₀ (F := F)) Variants.none c none) E (cc0__compute_kernel i arg1 harg1 arg2 harg2 arg3 harg3 arg4 harg4 arg5 harg5 arg6 harg6 arg7 harg7 arg8 harg8 arg9 harg9 arg10 harg10 arg11 harg11) K := by
  simp only [cc0__compute_kernel_eq_skeleton]; unfold cc0__compute_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, Hk⟩
  subst hf0 hf1 hf2 hf3 hf4 hf5 hs0 hs1
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [HS0]
  all_goals (iexists _; isplitr; swap; iassumption; ipureintro; sl_unfold_run_names; simp only [r0_a_rd, r0_b_rd, r0_c_rd, r0_a_st, r0_c_st, View.readCov_cons_toLoadRect, out0_6, sum0, sq0])

-- The last point: as a middle point, and the updated accumulators are also copied out.
theorem sound_kernel0_C (hc1 : ¬cond0_1 i) (hc2 : cond0_2 i) (x0 x1 : Vec F S2000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ (∃ d, owns c arg8 fullShare d) ∗ (∃ d, owns c arg9 fullShare d) ∗ owns c arg10 fullShare xs0 ∗ owns c arg11 fullShare xs1
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out0_6 x0 x1 x2 x3 x4 x5) ∗ owns c arg8 fullShare (sum0 x0 x1 x2 x3 x4 x5 xs0) ∗ owns c arg9 fullShare (sq0 x0 x1 x2 x3 x4 x5 xs1) ∗ owns c arg10 fullShare (sum0 x0 x1 x2 x3 x4 x5 xs0) ∗ owns c arg11 fullShare (sq0 x0 x1 x2 x3 x4 x5 xs1)) -∗ K ⟨⟩))
      ⊢ wp frame (wpE (defs₀ (F := F)) Variants.none c none) E (cc0__compute_kernel i arg1 harg1 arg2 harg2 arg3 harg3 arg4 harg4 arg5 harg5 arg6 harg6 arg7 harg7 arg8 harg8 arg9 harg9 arg10 harg10 arg11 harg11) K := by
  simp only [cc0__compute_kernel_eq_skeleton]; unfold cc0__compute_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hs0, HS0⟩, ⟨%fs1, %hs1, HS1⟩, Hk⟩
  subst hf0 hf1 hf2 hf3 hf4 hf5 hs0 hs1
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro; sl_unfold_run_names; simp only [r0_a_rd, r0_b_rd, r0_c_rd, r0_a_st, r0_c_st, View.readCov_cons_toLoadRect, out0_6, sum0, sq0])

end Cert.Kernel.Hand

end
-- ==== Proof.K.C0.lean ====
import proofs.«407439_j85349590106293_1_alg».proof.Proof.K.C0Runs

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b)) (c : Dev nD)

/-- The part of `V`'s array for window `w` that grid point `t` addresses. -/
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0_0 : Memref sig .tc .vmem S1x128 .f32 := Memref.whole cc0_scratch0
abbrev scM0_1 : Memref sig .tc .vmem S1x128 .f32 := Memref.whole cc0_scratch1

/-- The class invariant with the two accumulators split off, each at some contents. -/
theorem PhiA0_eq :
    (Pipeline.ΦA spec0 c : sProp 𝕄)
      = iprop(iprop(iprop((∃ d, owns (c : Thread nD τ) scM0_0 fullShare d) ∗ (∃ d, owns (c : Thread nD τ) scM0_1 fullShare d))
        ∗ Pipeline.scopedRestBut (Ix := Unit) (Name := ℕ) (U := UR sig nD τ) (Lvl := ℕ) (Val := Elt F) spec0 c [cc0_scratch0, cc0_scratch1])
      ∗ (∃ r, prngReg c r)) := by
  unfold Pipeline.ΦA; rw [scopedRest0_split]; simp only [scM0_0, scM0_1, owns_whole]; try rfl

/-- Column sum and column sum of squares accumulated over points `0..n`, starting from zeros. -/
def scrAt0 : (n : ℕ) → n < cfg0.N → Vec F S1x128 .f32 × Vec F S1x128 .f32
  | 0, hn => (sum0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) k0_pay3, sq0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) k0_pay4)
  | n + 1, hn => (sum0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (scrAt0 n (Nat.lt_of_succ_lt hn)).1,
      sq0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (scrAt0 n (Nat.lt_of_succ_lt hn)).2)

/-- The three outputs and the two accumulators after point `n`; outputs 7 and 8 equal the accumulators. -/
def outsAt0 (n : ℕ) (hn : n < cfg0.N) :
    (Vec F S2000x128 .f32 × Vec F S1x128 .f32 × Vec F S1x128 .f32) × (Vec F S1x128 .f32 × Vec F S1x128 .f32) :=
  ((out0_6 (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩), (scrAt0 V c n hn).1, (scrAt0 V c n hn).2), scrAt0 V c n hn)

theorem outsAt0_7 (n : ℕ) (hn : n < cfg0.N) : (outsAt0 V c n hn).1.2.1 = (outsAt0 V c n hn).2.1 := rfl
theorem outsAt0_8 (n : ℕ) (hn : n < cfg0.N) : (outsAt0 V c n hn).1.2.2 = (outsAt0 V c n hn).2.2 := rfl

/-- The loop invariant before point `n`: from the second point on the accumulators are `scrAt0` of the point before. -/
def PhiS0 : (n : ℕ) → n ≤ cfg0.N → sProp 𝕄
  | 0, _ => Pipeline.ΦA spec0 c
  | n + 1, hn => iprop(iprop(iprop(owns (c : Thread nD τ) scM0_0 fullShare (scrAt0 V c n hn).1 ∗ owns (c : Thread nD τ) scM0_1 fullShare (scrAt0 V c n hn).2)
        ∗ Pipeline.scopedRestBut (Ix := Unit) (Name := ℕ) (U := UR sig nD τ) (Lvl := ℕ) (Val := Elt F) spec0 c [cc0_scratch0, cc0_scratch1])
      ∗ (∃ r, prngReg c r))

/-- Proof data: arrays as in `V`, inputs unchanged by a point, outputs as `outsAt0` says. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1.1
    | ⟨7, _⟩ => (outsAt0 V c t.val t.isLt).1.2.1
    | ⟨8, _⟩ => (outsAt0 V c t.val t.isLt).1.2.2
  Φ t := PhiS0 V c t.val (Nat.le_of_lt_succ t.isLt)
  q _ := fullShare
  owed _ := 0

theorem A_eq0 (w : Fin cfg0.W) : (dat0 V c).A w = V c (Pipeline.arrRef spec0 w) := rfl
theorem after0_6 (t : Fin cfg0.N) : (dat0 V c).after 6 t = (outsAt0 V c t.val t.isLt).1.1 := rfl
theorem after0_7 (t : Fin cfg0.N) : (dat0 V c).after 7 t = (outsAt0 V c t.val t.isLt).1.2.1 := rfl
theorem after0_8 (t : Fin cfg0.N) : (dat0 V c).after 8 t = (outsAt0 V c t.val t.isLt).1.2.2 := rfl

/-- The six inputs are read-only: at every point each is its block of `V`'s array. -/
theorem before0 (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) ∧ (∀ d, (dat0 V c).before 5 t d = iblk0 V c 5 t) := by
  refine ⟨?_, ?_, ?_, ?_, ?_, ?_⟩ <;>
    exact fun d => (Dat.before_in_eq_fetched _ _ rfl (fun _ => rfl) (fun _ _ _ => rfl) (fun _ => rfl) t d).trans rfl

theorem live0 (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

/-- One point of the loop, by the kernel's triple for its case (first, middle or last point). -/
theorem sound_body0 (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d)))
      ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t)) := by
  obtain ⟨b0, b1, b2, b3, b4, b5⟩ := before0 V c t
  unfold bodyAt0
  simp only [b0, b1, b2, b3, b4, b5]
  rw [live0 V c 0 t (liveAt0_0 t), live0 V c 1 t (liveAt0_1 t), live0 V c 2 t (liveAt0_2 t), live0 V c 3 t (liveAt0_3 t),
    live0 V c 4 t (liveAt0_4 t), live0 V c 5 t (liveAt0_5 t), live0 V c 6 t (liveAt0_6 t),
    show (dat0 V c).Φ t.succ = PhiS0 V c (t.val + 1) t.isLt from rfl, PhiS0]
  by_cases h24 : t.val = 24
  on_goal 1 => rw [live0 V c 7 t (liveAt0_7 t h24), live0 V c 8 t (liveAt0_8 t h24)]
  on_goal 2 => rw [Dat.leavesExact_idle (dat0 V c) 7 t (idleAt0_7 t h24) (noFlush0_7 t h24),
    Dat.leavesExact_idle (dat0 V c) 8 t (idleAt0_8 t h24) (noFlush0_8 t h24)]
  all_goals obtain ⟨_ | n, hn⟩ := t
  · exact absurd h24 (show (0 : ℕ) ≠ 24 by decide)
  all_goals first
    | rw [show (dat0 V c).Φ (Fin.castSucc ⟨0, hn⟩) = _ from PhiA0_eq c]
    | rw [show (dat0 V c).Φ (Fin.castSucc ⟨n + 1, hn⟩) = PhiS0 V c (n + 1) (Nat.le_of_lt hn) from rfl, PhiS0]
  all_goals iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
  on_goal 1 => iapply (sound_kernel0_C c Set.univ _ _ _ _ _ _ _ _ _ _ _ _ _ _ _ _ _ _ _ _ _ _ _ (fun h => absurd ((hcond0_1 ⟨n + 1, hn⟩).mp h) n.succ_ne_zero) ((hcond0_2 ⟨n + 1, hn⟩).mpr h24)
    (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (scrAt0 V c n (Nat.lt_of_succ_lt hn)).1 (scrAt0 V c n (Nat.lt_of_succ_lt hn)).2 _)
  on_goal 2 => iapply (sound_kernel0_A c Set.univ _ _ _ _ _ _ _ _ _ _ _ _ _ _ _ _ _ _ _ _ _ _ _ ((hcond0_1 ⟨0, hn⟩).mpr rfl) (fun h => h24 ((hcond0_2 ⟨0, hn⟩).mp h))
    (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) _)
  on_goal 3 => iapply (sound_kernel0_B c Set.univ _ _ _ _ _ _ _ _ _ _ _ _ _ _ _ _ _ _ _ _ _ _ _ (fun h => absurd ((hcond0_1 ⟨n + 1, hn⟩).mp h) n.succ_ne_zero) (fun h => h24 ((hcond0_2 ⟨n + 1, hn⟩).mp h))
    (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (scrAt0 V c n (Nat.lt_of_succ_lt hn)).1 (scrAt0 V c n (Nat.lt_of_succ_lt hn)).2 _)
  all_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
  on_goal 1 =>
    isplitl [H7]; · icases H7 with ⟨%d, H7⟩; iexists _; iexact H7
    isplitl [H8]; · icases H8 with ⟨%d, H8⟩; iexists _; iexact H8
  all_goals
    isplitl [HS0]; · iexact HS0
    isplitl [HS1]; · iexact HS1
    first
      | iintro ⟨H0, H1, H2, H3, H4, H5, H6, H7, H8, HS0, HS1⟩
      | iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := by
  rw [show (dat0 V c).Φ 0 = Pipeline.ΦA spec0 c from rfl]

/-- After the last point the invariant implies the class invariant: the accumulators' contents are forgotten. -/
theorem hout0 : (dat0 V c).Φ (Fin.last cfg0.N) ⊢ Pipeline.ΦA spec0 c := by
  rw [show (dat0 V c).Φ (Fin.last cfg0.N) = PhiS0 V c (24 + 1) (by decide) from rfl, PhiS0, PhiA0_eq]
  iintro ⟨⟨⟨HS0, HS1⟩, Hrest⟩, Hg⟩
  isplitl [HS0 HS1 Hrest]
  · isplitl [HS0 HS1]
    · isplitl [HS0] <;> iexists _ <;> iassumption
    iexact Hrest
  iexact Hg

end Regions

end Cert.Kernel.Hand

end
-- ==== Proof.K.NRuns.lean ====
import proofs.«407439_j85349590106293_1_alg».proof.Proof.Gen.Kernel.Launch
import proofs.«407439_j85349590106293_1_alg».proof.Proof.Gen.Kernel.Skeleton
import proofs.«407439_j85349590106293_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

-- One kernel function serves the three regions that run it.
def normK {F : FTy → Type} [FloatOps F] := cc1__normalize_kernel (F := F)

theorem hz1 : (![0, 0] : Fin 2 → Nat) = fun _ => 0 := funext fun a => by fin_cases a <;> rfl

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

-- The one store's payload, laid over the whole output block.
def out1_3 (x0 : Vec F S2000x128 .f32) (x1 x2 : Vec F S1x128 .f32) : Vec F S2000x128 .f32 :=
  View.canon [⟨r1_0, k1_pay1 (View.ld x0 r1_0) (View.ld x1 r1_1) (View.ld x2 r1_1)⟩]

-- The kernel keeps its three inputs and leaves `out1_3` of them in the output: the one store's rectangle is the whole block.
theorem sound_kernel1 (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (normK i arg1 harg1 arg2 harg2 arg3 harg3 arg4 harg4) K := by
  unfold normK
  simp only [cc1__normalize_kernel_eq_skeleton]; unfold cc1__normalize_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x128.size (by rfl))

end Cert.Kernel.Hand

end
-- ==== Proof.K.N1.lean ====
import proofs.«407439_j85349590106293_1_alg».proof.Proof.Gen.Kernel.Launch
import proofs.«407439_j85349590106293_1_alg».proof.Proof.Gen.Kernel.Skeleton
import proofs.«407439_j85349590106293_1_alg».proof.Proof.Gen.Kernel.Points
import proofs.«407439_j85349590106293_1_alg».proof.Proof.K.NRuns
import Idealize.ShloMosaic.Lib.Pipeline.FrameBody
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_3 (t : Fin cfg1.N) :
    (dat1 V c).after 3 t = out1_3 (iblk1 V c 0 t) (iblk1 V c 1 t) (iblk1 V c 2 t) := by dsimp only [dat1]

-- Proof data over `V`'s arrays whose body returns every input block unchanged finds, in each input window, that window's block.
theorem before1_of (dat : Dat τ (Elt F) Unit ℕ (UR sig nD τ) ℕ cfg1 c) (hA : ∀ w, dat.A w = V c (Pipeline.arrRef spec1 w))
    (h : (∀ t, dat.after 0 t = iblk1 V c 0 t) ∧ (∀ t, dat.after 1 t = iblk1 V c 1 t)
      ∧ ∀ t, dat.after 2 t = iblk1 V c 2 t) (t : Fin cfg1.N) :
    (∀ d, dat.before 0 t d = iblk1 V c 0 t) ∧ (∀ d, dat.before 1 t d = iblk1 V c 1 t)
      ∧ ∀ d, dat.before 2 t d = iblk1 V c 2 t := by
  obtain ⟨h0, h1, h2⟩ := h
  refine ⟨?_, ?_, ?_⟩ <;>
    exact fun d => (dat.before_in_eq_fetched _ rfl (fun _ => rfl) (fun _ _ _ => rfl)
      (fun t => by (first | rw [h0] | rw [h1] | rw [h2]); unfold Dat.blockOf iblk1; rw [hA]; try rfl) t d).trans
      (by unfold Dat.fetched Dat.blockOf iblk1; rw [hA]; try rfl)

theorem cc_eq1 : cc1__normalize_kernel (F := F) = normK := rfl

-- At every point the kernel's triple applies to the input blocks; everything else is framed.
theorem body_obligation1 : BodyObligation (dat1 (F := F) V c) (defs₀ (F := F)) Variants.none () Set.univ := fun t => by
  rw [bigSep_W1, bigSep_W1]
  show _ ⊢ wp frame _ _ (bodyAt1 t) _
  unfold bodyAt1
  dsimp only
  rw [cc_eq1]
  obtain ⟨b0, b1, b2⟩ := before1_of V c (dat1 V c) (fun _ => rfl) ⟨fun _ => rfl, fun _ => rfl, fun _ => rfl⟩ t
  simp only [b0, b1, b2]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro H
  iframe HΦ Ho
  iexact H

theorem hin1 : Pipeline.ΦA spec1 c ⊢ (dat1 V c).Φ 0 := .rfl

theorem hout1 : (dat1 V c).Φ (Fin.last cfg1.N) ⊢ Pipeline.ΦA spec1 c := .rfl

end Cert.Kernel.Hand

end
-- ==== Proof.K.CRuns.lean ====
import proofs.«407439_j85349590106293_1_alg».proof.Proof.Gen.Kernel.Launch
import proofs.«407439_j85349590106293_1_alg».proof.Proof.Gen.Kernel.Skeleton
import proofs.«407439_j85349590106293_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- One kernel function serves both regions that run it.
def computeK {F : FTy → Type} [FloatOps F] := @cc2__compute_kernel F _

abbrev cond2_1 (i : grid2.Coords) : Prop :=
  (Scalar.cmpi .ne (Scalar.extui (Scalar.cmpi .eq (BitVec.ofNat 32 (i 0).val) 0#32)) 0#32) = 1#1
abbrev cond2_2 (i : grid2.Coords) : Prop := k2_cond2 i = 1#1
abbrev r2_a : Rect S2000x128 := Rect.unit (s := S2000x128) ![0, 0] ![2000, 128] inb_S2000x128_S2000x128_0_0
abbrev r2_b : Rect S128x128 := Rect.unit (s := S128x128) ![0, 0] ![128, 128] inb_S128x128_S128x128_0_0
abbrev r2_c : Rect S1x128 := Rect.unit (s := S1x128) ![0, 0] ![1, 128] inb_S1x128_S1x128_0_0

theorem zeros2 : (![0, 0] : Fin 2 → Nat) = fun _ => 0 := funext fun a => by fin_cases a <;> rfl

section
variable (x0 x1 : Vec F S2000x128 .f32) (x2 : Vec F S128x128 .f32) (x3 : Vec F S1x128 .f32) (x4 : Vec F S128x128 .f32) (x5 : Vec F S1x128 .f32) (prev : Vec F S1x128 .f32)
def out2_6 : Vec F S2000x128 .f32 := k2_pay5 x0 x1 x2 x3 x4 x5
def sum2 : Vec F S1x128 .f32 := k2_pay1 prev (k2_pay6 x0 x1 x2 x3 x4 x5)
def sq2 : Vec F S1x128 .f32 := k2_pay2 (k2_pay5 x0 x1 x2 x3 x4 x5) prev
end

section
variable {κ : Kind} {sp : Space} {S : Shape} {e : EltTy} (v : View sig κ sp S e) (f : v.ty.Contents (Elt F))
  {off : Fin S.rank → Nat} (h : off = fun _ => 0) (inb : ∀ a, off a + S.size a ≤ S.size a)
include h

-- At zero offsets and the buffer's own sizes the rectangle is every index, so the load is the identity.
theorem readAt_whole2 : v.readAt (Elt F) (Rect.unit off S.size inb).toLoadRect f = v.read (Elt F) f :=
  View.ld_unit_zero h inb _

-- The last piece covers every index, so neither earlier pieces nor the prior contents are read.
theorem read_store_whole2 (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)
end

section
variable {κ : Kind} {sp : Space}
theorem r2_a_rd (v : View sig κ sp S2000x128 .f32) (f : v.ty.Contents (Elt F)) : v.readAt (Elt F) r2_a.toLoadRect f = v.read (Elt F) f := readAt_whole2 v f zeros2 _
theorem r2_b_rd (v : View sig κ sp S128x128 .f32) (f : v.ty.Contents (Elt F)) : v.readAt (Elt F) r2_b.toLoadRect f = v.read (Elt F) f := readAt_whole2 v f zeros2 _
theorem r2_c_rd (v : View sig κ sp S1x128 .f32) (f : v.ty.Contents (Elt F)) : v.readAt (Elt F) r2_c.toLoadRect f = v.read (Elt F) f := readAt_whole2 v f zeros2 _
theorem r2_a_st (v : View sig κ sp S2000x128 .f32) (f : v.ty.Contents (Elt F)) (w : S2000x128.Idx → Elt F .f32) (L : List (View.Piece (Elt F) S2000x128 .f32)) :
    v.read (Elt F) (v.writes (Elt F) f ((⟨r2_a, w⟩ : View.Piece (Elt F) S2000x128 .f32) :: L)) = w := read_store_whole2 v f zeros2 _ w L
theorem r2_c_st (v : View sig κ sp S1x128 .f32) (f : v.ty.Contents (Elt F)) (w : S1x128.Idx → Elt F .f32) (L : List (View.Piece (Elt F) S1x128 .f32)) :
    v.read (Elt F) (v.writes (Elt F) f ((⟨r2_c, w⟩ : View.Piece (Elt F) S1x128 .f32) :: L)) = w := read_store_whole2 v f zeros2 _ w L
end

variable (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)

theorem sound_kernel2_A (hc1 : cond2_1 i) (hc2 : ¬cond2_2 i) (x0 x1 : Vec F S2000x128 .f32) (x2 : Vec F S128x128 .f32) (x3 : Vec F S1x128 .f32) (x4 : Vec F S128x128 .f32) (x5 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ (∃ d, owns c arg10 fullShare d) ∗ (∃ d, owns c arg11 fullShare d)
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out2_6 x0 x1 x2 x3 x4 x5) ∗ owns c arg10 fullShare (sum2 x0 x1 x2 x3 x4 x5 k2_pay3) ∗ owns c arg11 fullShare (sq2 x0 x1 x2 x3 x4 x5 k2_pay4)) -∗ K ⟨⟩))
      ⊢ wp frame (wpE (defs₀ (F := F)) Variants.none c none) E (computeK i arg1 harg1 arg2 harg2 arg3 harg3 arg4 harg4 arg5 harg5 arg6 harg6 arg7 harg7 arg8 harg8 arg9 harg9 arg10 harg10 arg11 harg11) K := by
  unfold computeK
  simp only [cc2__compute_kernel_eq_skeleton]; unfold cc2__compute_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0 hf1 hf2 hf3 hf4 hf5
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [HS0]
  all_goals (iexists _; isplitr; swap; iassumption; ipureintro; sl_unfold_run_names; simp only [r2_a_rd, r2_b_rd, r2_c_rd, r2_a_st, r2_c_st, View.readCov_cons_toLoadRect, out2_6, sum2, sq2])

theorem sound_kernel2_B (hc1 : ¬cond2_1 i) (hc2 : ¬cond2_2 i) (x0 x1 : Vec F S2000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ owns c arg10 fullShare xs0 ∗ owns c arg11 fullShare xs1
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out2_6 x0 x1 x2 x3 x4 x5) ∗ owns c arg10 fullShare (sum2 x0 x1 x2 x3 x4 x5 xs0) ∗ owns c arg11 fullShare (sq2 x0 x1 x2 x3 x4 x5 xs1)) -∗ K ⟨⟩))
      ⊢ wp frame (wpE (defs₀ (F := F)) Variants.none c none) E (computeK i arg1 harg1 arg2 harg2 arg3 harg3 arg4 harg4 arg5 harg5 arg6 harg6 arg7 harg7 arg8 harg8 arg9 harg9 arg10 harg10 arg11 harg11) K := by
  unfold computeK
  simp only [cc2__compute_kernel_eq_skeleton]; unfold cc2__compute_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, Hk⟩
  subst hf0 hf1 hf2 hf3 hf4 hf5 hs0 hs1
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [HS0]
  all_goals (iexists _; isplitr; swap; iassumption; ipureintro; sl_unfold_run_names; simp only [r2_a_rd, r2_b_rd, r2_c_rd, r2_a_st, r2_c_st, View.readCov_cons_toLoadRect, out2_6, sum2, sq2])

theorem sound_kernel2_C (hc1 : ¬cond2_1 i) (hc2 : cond2_2 i) (x0 x1 : Vec F S2000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ (∃ d, owns c arg8 fullShare d) ∗ (∃ d, owns c arg9 fullShare d) ∗ owns c arg10 fullShare xs0 ∗ owns c arg11 fullShare xs1
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out2_6 x0 x1 x2 x3 x4 x5) ∗ owns c arg8 fullShare (sum2 x0 x1 x2 x3 x4 x5 xs0) ∗ owns c arg9 fullShare (sq2 x0 x1 x2 x3 x4 x5 xs1) ∗ owns c arg10 fullShare (sum2 x0 x1 x2 x3 x4 x5 xs0) ∗ owns c arg11 fullShare (sq2 x0 x1 x2 x3 x4 x5 xs1)) -∗ K ⟨⟩))
      ⊢ wp frame (wpE (defs₀ (F := F)) Variants.none c none) E (computeK i arg1 harg1 arg2 harg2 arg3 harg3 arg4 harg4 arg5 harg5 arg6 harg6 arg7 harg7 arg8 harg8 arg9 harg9 arg10 harg10 arg11 harg11) K := by
  unfold computeK
  simp only [cc2__compute_kernel_eq_skeleton]; unfold cc2__compute_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hs0, HS0⟩, ⟨%fs1, %hs1, HS1⟩, Hk⟩
  subst hf0 hf1 hf2 hf3 hf4 hf5 hs0 hs1
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro; sl_unfold_run_names; simp only [r2_a_rd, r2_b_rd, r2_c_rd, r2_a_st, r2_c_st, View.readCov_cons_toLoadRect, out2_6, sum2, sq2])

end Cert.Kernel.Hand

end
-- ==== Proof.K.C2Runs.lean ====
import proofs.«407439_j85349590106293_1_alg».proof.Proof.K.CRuns

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The two conditions split the grid into its first point, its last point and the rest.
theorem hcond2_1 : ∀ t : Fin cfg2.N, cond2_1 (grid2.coords t) ↔ t.val = 0 :=
  (by decide +kernel : ∀ t : Fin grid2.N, cond2_1 (grid2.coords t) ↔ t.val = 0)

theorem hcond2_2 : ∀ t : Fin cfg2.N, cond2_2 (grid2.coords t) ↔ t.val = 24 :=
  (by decide +kernel : ∀ t : Fin grid2.N, cond2_2 (grid2.coords t) ↔ t.val = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem idleAt2_7 : ∀ t : Fin cfg2.N, t.val ≠ 24 → cfg2.idle 7 (grid2.coords t) = true := by decide +kernel
theorem idleAt2_8 : ∀ t : Fin cfg2.N, t.val ≠ 24 → cfg2.idle 8 (grid2.coords t) = true := by decide +kernel
theorem noFlush2_7 : ∀ t : Fin cfg2.N, t.val ≠ 24 → (cfg2.win 7).flush t = false := by decide +kernel
theorem noFlush2_8 : ∀ t : Fin cfg2.N, t.val ≠ 24 → (cfg2.win 8).flush t = false := by decide +kernel
theorem liveAt2_7 : ∀ t : Fin cfg2.N, t.val = 24 → cfg2.idle 7 (grid2.coords t) = false := by decide +kernel
theorem liveAt2_8 : ∀ t : Fin cfg2.N, t.val = 24 → cfg2.idle 8 (grid2.coords t) = false := by decide +kernel

theorem cc_eq2 : @cc2__compute_kernel F _ _ = computeK := rfl

end Cert.Kernel.Hand

end
-- ==== Proof.K.C2.lean ====
import proofs.«407439_j85349590106293_1_alg».proof.Proof.K.C2Runs

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b)) (c : Dev nD)

/-- The part of `V`'s array for window `w` that grid point `t` addresses. -/
def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2_0 : Memref sig .tc .vmem S1x128 .f32 := Memref.whole cc2_scratch0
abbrev scM2_1 : Memref sig .tc .vmem S1x128 .f32 := Memref.whole cc2_scratch1

/-- The class invariant with the two accumulators split off, each at some contents. -/
theorem PhiA2_eq :
    (Pipeline.ΦA spec2 c : sProp 𝕄)
      = iprop(iprop(iprop((∃ d, owns (c : Thread nD τ) scM2_0 fullShare d) ∗ (∃ d, owns (c : Thread nD τ) scM2_1 fullShare d))
        ∗ Pipeline.scopedRestBut (Ix := Unit) (Name := ℕ) (U := UR sig nD τ) (Lvl := ℕ) (Val := Elt F) spec2 c [cc2_scratch0, cc2_scratch1])
      ∗ (∃ r, prngReg c r)) := by
  unfold Pipeline.ΦA; rw [scopedRest2_split]; simp only [scM2_0, scM2_1, owns_whole]; try rfl

/-- Column sum and column sum of squares accumulated over points `0..n`, starting from zeros. -/
def scrAt2 : (n : ℕ) → n < cfg2.N → Vec F S1x128 .f32 × Vec F S1x128 .f32
  | 0, hn => (sum2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) k2_pay3, sq2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) k2_pay4)
  | n + 1, hn => (sum2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (scrAt2 n (Nat.lt_of_succ_lt hn)).1,
      sq2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (scrAt2 n (Nat.lt_of_succ_lt hn)).2)

/-- The three outputs and the two accumulators after point `n`; outputs 7 and 8 equal the accumulators. -/
def outsAt2 (n : ℕ) (hn : n < cfg2.N) :
    (Vec F S2000x128 .f32 × Vec F S1x128 .f32 × Vec F S1x128 .f32) × (Vec F S1x128 .f32 × Vec F S1x128 .f32) :=
  ((out2_6 (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩), (scrAt2 V c n hn).1, (scrAt2 V c n hn).2), scrAt2 V c n hn)

theorem outsAt2_7 (n : ℕ) (hn : n < cfg2.N) : (outsAt2 V c n hn).1.2.1 = (outsAt2 V c n hn).2.1 := rfl
theorem outsAt2_8 (n : ℕ) (hn : n < cfg2.N) : (outsAt2 V c n hn).1.2.2 = (outsAt2 V c n hn).2.2 := rfl

/-- The loop invariant before point `n`: from the second point on the accumulators are `scrAt2` of the point before. -/
def PhiS2 : (n : ℕ) → n ≤ cfg2.N → sProp 𝕄
  | 0, _ => Pipeline.ΦA spec2 c
  | n + 1, hn => iprop(iprop(iprop(owns (c : Thread nD τ) scM2_0 fullShare (scrAt2 V c n hn).1 ∗ owns (c : Thread nD τ) scM2_1 fullShare (scrAt2 V c n hn).2)
        ∗ Pipeline.scopedRestBut (Ix := Unit) (Name := ℕ) (U := UR sig nD τ) (Lvl := ℕ) (Val := Elt F) spec2 c [cc2_scratch0, cc2_scratch1])
      ∗ (∃ r, prngReg c r))

/-- Proof data: arrays as in `V`, inputs unchanged by a point, outputs as `outsAt2` says. -/
def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1.1
    | ⟨7, _⟩ => (outsAt2 V c t.val t.isLt).1.2.1
    | ⟨8, _⟩ => (outsAt2 V c t.val t.isLt).1.2.2
  Φ t := PhiS2 V c t.val (Nat.le_of_lt_succ t.isLt)
  q _ := fullShare
  owed _ := 0

theorem A_eq2 (w : Fin cfg2.W) : (dat2 V c).A w = V c (Pipeline.arrRef spec2 w) := rfl
theorem after2_6 (t : Fin cfg2.N) : (dat2 V c).after 6 t = (outsAt2 V c t.val t.isLt).1.1 := rfl
theorem after2_7 (t : Fin cfg2.N) : (dat2 V c).after 7 t = (outsAt2 V c t.val t.isLt).1.2.1 := rfl
theorem after2_8 (t : Fin cfg2.N) : (dat2 V c).after 8 t = (outsAt2 V c t.val t.isLt).1.2.2 := rfl

/-- The six inputs are read-only: at every point each is its block of `V`'s array. -/
theorem before2 (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) ∧ (∀ d, (dat2 V c).before 5 t d = iblk2 V c 5 t) := by
  refine ⟨?_, ?_, ?_, ?_, ?_, ?_⟩ <;>
    exact fun d => (Dat.before_in_eq_fetched _ _ rfl (fun _ => rfl) (fun _ _ _ => rfl) (fun _ => rfl) t d).trans rfl

theorem live2 (w : Fin cfg2.W) (t : Fin cfg2.N) (h : cfg2.idle w (cfg2.grid.coords t) = false) :
    (dat2 V c).leavesExact w t = owns (c : Thread nD τ) ((cfg2.win w).stage (cfg2.slots t w)) fullShare ((dat2 V c).after w t) := by
  unfold Dat.leavesExact; rw [h]

/-- One point of the loop, by the kernel's triple for its case (first, middle or last point). -/
theorem sound_body2 (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))
      ∗ (∃ d, owns (c : Thread nD τ) (st2_8 t) fullShare ((dat2 V c).before 8 t d)))
      ⊢ wp frame (wpE (defs₀ (F := F)) Variants.none c none) Set.univ (bodyAt2 t) (fun _ =>
        iprop((dat2 V c).Φ t.succ ∗ (dat2 V c).owesAt () t.succ
          ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t)) := by
  obtain ⟨b0, b1, b2, b3, b4, b5⟩ := before2 V c t
  unfold bodyAt2
  rw [cc_eq2]
  simp only [b0, b1, b2, b3, b4, b5]
  rw [live2 V c 0 t (liveAt2_0 t), live2 V c 1 t (liveAt2_1 t), live2 V c 2 t (liveAt2_2 t), live2 V c 3 t (liveAt2_3 t),
    live2 V c 4 t (liveAt2_4 t), live2 V c 5 t (liveAt2_5 t), live2 V c 6 t (liveAt2_6 t),
    show (dat2 V c).Φ t.succ = PhiS2 V c (t.val + 1) t.isLt from rfl, PhiS2]
  by_cases h24 : t.val = 24
  on_goal 1 => rw [live2 V c 7 t (liveAt2_7 t h24), live2 V c 8 t (liveAt2_8 t h24)]
  on_goal 2 => rw [Dat.leavesExact_idle (dat2 V c) 7 t (idleAt2_7 t h24) (noFlush2_7 t h24),
    Dat.leavesExact_idle (dat2 V c) 8 t (idleAt2_8 t h24) (noFlush2_8 t h24)]
  all_goals obtain ⟨_ | n, hn⟩ := t
  · exact absurd h24 (show (0 : ℕ) ≠ 24 by decide)
  all_goals first
    | rw [show (dat2 V c).Φ (Fin.castSucc ⟨0, hn⟩) = _ from PhiA2_eq c]
    | rw [show (dat2 V c).Φ (Fin.castSucc ⟨n + 1, hn⟩) = PhiS2 V c (n + 1) (Nat.le_of_lt hn) from rfl, PhiS2]
  all_goals iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
  on_goal 1 => iapply (sound_kernel2_C c Set.univ _ _ _ _ _ _ _ _ _ _ _ _ _ _ _ _ _ _ _ _ _ _ _ (fun h => absurd ((hcond2_1 ⟨n + 1, hn⟩).mp h) n.succ_ne_zero) ((hcond2_2 ⟨n + 1, hn⟩).mpr h24)
    (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (scrAt2 V c n (Nat.lt_of_succ_lt hn)).1 (scrAt2 V c n (Nat.lt_of_succ_lt hn)).2 _)
  on_goal 2 => iapply (sound_kernel2_A c Set.univ _ _ _ _ _ _ _ _ _ _ _ _ _ _ _ _ _ _ _ _ _ _ _ ((hcond2_1 ⟨0, hn⟩).mpr rfl) (fun h => h24 ((hcond2_2 ⟨0, hn⟩).mp h))
    (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) _)
  on_goal 3 => iapply (sound_kernel2_B c Set.univ _ _ _ _ _ _ _ _ _ _ _ _ _ _ _ _ _ _ _ _ _ _ _ (fun h => absurd ((hcond2_1 ⟨n + 1, hn⟩).mp h) n.succ_ne_zero) (fun h => h24 ((hcond2_2 ⟨n + 1, hn⟩).mp h))
    (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (scrAt2 V c n (Nat.lt_of_succ_lt hn)).1 (scrAt2 V c n (Nat.lt_of_succ_lt hn)).2 _)
  all_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
  on_goal 1 =>
    isplitl [H7]; · icases H7 with ⟨%d, H7⟩; iexists _; iexact H7
    isplitl [H8]; · icases H8 with ⟨%d, H8⟩; iexists _; iexact H8
  all_goals
    isplitl [HS0]; · iexact HS0
    isplitl [HS1]; · iexact HS1
    first
      | iintro ⟨H0, H1, H2, H3, H4, H5, H6, H7, H8, HS0, HS1⟩
      | iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := by
  rw [show (dat2 V c).Φ 0 = Pipeline.ΦA spec2 c from rfl]

/-- After the last point the invariant implies the class invariant: the accumulators' contents are forgotten. -/
theorem hout2 : (dat2 V c).Φ (Fin.last cfg2.N) ⊢ Pipeline.ΦA spec2 c := by
  rw [show (dat2 V c).Φ (Fin.last cfg2.N) = PhiS2 V c (24 + 1) (by decide) from rfl, PhiS2, PhiA2_eq]
  iintro ⟨⟨⟨HS0, HS1⟩, Hrest⟩, Hg⟩
  isplitl [HS0 HS1 Hrest]
  · isplitl [HS0 HS1]
    · isplitl [HS0] <;> iexists _ <;> iassumption
    iexact Hrest
  iexact Hg

end Regions

end Cert.Kernel.Hand

end
-- ==== Proof.K.N3.lean ====
import proofs.«407439_j85349590106293_1_alg».proof.Proof.Gen.Kernel.Launch
import proofs.«407439_j85349590106293_1_alg».proof.Proof.Gen.Kernel.Skeleton
import proofs.«407439_j85349590106293_1_alg».proof.Proof.Gen.Kernel.Points
import proofs.«407439_j85349590106293_1_alg».proof.Proof.K.NRuns
import Idealize.ShloMosaic.Lib.Pipeline.FrameBody
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out1_3 (iblk3 V c 0 t) (iblk3 V c 1 t) (iblk3 V c 2 t)
  Φ _ := Pipeline.ΦA spec3 c
  q _ := fullShare
  owed _ := 0

theorem A_eq3 (w : Fin cfg3.W) : (dat3 V c).A w = V c (Pipeline.arrRef spec3 w) := rfl

theorem after3_3 (t : Fin cfg3.N) :
    (dat3 V c).after 3 t = out1_3 (iblk3 V c 0 t) (iblk3 V c 1 t) (iblk3 V c 2 t) := by dsimp only [dat3]

-- Proof data over `V`'s arrays whose body returns every input block unchanged finds, in each input window, that window's block.
theorem before3_of (dat : Dat τ (Elt F) Unit ℕ (UR sig nD τ) ℕ cfg3 c) (hA : ∀ w, dat.A w = V c (Pipeline.arrRef spec3 w))
    (h : (∀ t, dat.after 0 t = iblk3 V c 0 t) ∧ (∀ t, dat.after 1 t = iblk3 V c 1 t)
      ∧ ∀ t, dat.after 2 t = iblk3 V c 2 t) (t : Fin cfg3.N) :
    (∀ d, dat.before 0 t d = iblk3 V c 0 t) ∧ (∀ d, dat.before 1 t d = iblk3 V c 1 t)
      ∧ ∀ d, dat.before 2 t d = iblk3 V c 2 t := by
  obtain ⟨h0, h1, h2⟩ := h
  refine ⟨?_, ?_, ?_⟩ <;>
    exact fun d => (dat.before_in_eq_fetched _ rfl (fun _ => rfl) (fun _ _ _ => rfl)
      (fun t => by (first | rw [h0] | rw [h1] | rw [h2]); unfold Dat.blockOf iblk3; rw [hA]; try rfl) t d).trans
      (by unfold Dat.fetched Dat.blockOf iblk3; rw [hA]; try rfl)

theorem cc_eq3 : cc3__normalize_kernel (F := F) = normK := rfl

-- At every point the kernel's triple applies to the input blocks; everything else is framed.
theorem body_obligation3 : BodyObligation (dat3 (F := F) V c) (defs₀ (F := F)) Variants.none () Set.univ := fun t => by
  rw [bigSep_W3, bigSep_W3]
  show _ ⊢ wp frame _ _ (bodyAt3 t) _
  unfold bodyAt3
  dsimp only
  rw [cc_eq3]
  obtain ⟨b0, b1, b2⟩ := before3_of V c (dat3 V c) (fun _ => rfl) ⟨fun _ => rfl, fun _ => rfl, fun _ => rfl⟩ t
  simp only [b0, b1, b2]
  rw [show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩⟩
  iapply (sound_kernel1 c Set.univ _ _ _ _ _ _ _ _ _ (iblk3 V c 0 t) (iblk3 V c 1 t) (iblk3 V c 2 t) _)
  iframe H0 H1 H2
  isplitl [H3]; · iexists _; iexact H3
  iintro H
  iframe HΦ Ho
  iexact H

theorem hin3 : Pipeline.ΦA spec3 c ⊢ (dat3 V c).Φ 0 := .rfl

theorem hout3 : (dat3 V c).Φ (Fin.last cfg3.N) ⊢ Pipeline.ΦA spec3 c := .rfl

end Cert.Kernel.Hand

end
-- ==== Proof.K.C4Runs.lean ====
import proofs.«407439_j85349590106293_1_alg».proof.Proof.K.CRuns

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The two conditions split the grid into its first point, its last point and the rest.
theorem hcond4_1 : ∀ t : Fin cfg4.N, cond2_1 (grid4.coords t) ↔ t.val = 0 :=
  (by decide +kernel : ∀ t : Fin grid4.N, cond2_1 (grid4.coords t) ↔ t.val = 0)

theorem hcond4_2 : ∀ t : Fin cfg4.N, cond2_2 (grid4.coords t) ↔ t.val = 24 :=
  (by decide +kernel : ∀ t : Fin grid4.N, cond2_2 (grid4.coords t) ↔ t.val = 24)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
theorem idleAt4_7 : ∀ t : Fin cfg4.N, t.val ≠ 24 → cfg4.idle 7 (grid4.coords t) = true := by decide +kernel
theorem idleAt4_8 : ∀ t : Fin cfg4.N, t.val ≠ 24 → cfg4.idle 8 (grid4.coords t) = true := by decide +kernel
theorem noFlush4_7 : ∀ t : Fin cfg4.N, t.val ≠ 24 → (cfg4.win 7).flush t = false := by decide +kernel
theorem noFlush4_8 : ∀ t : Fin cfg4.N, t.val ≠ 24 → (cfg4.win 8).flush t = false := by decide +kernel
theorem liveAt4_7 : ∀ t : Fin cfg4.N, t.val = 24 → cfg4.idle 7 (grid4.coords t) = false := by decide +kernel
theorem liveAt4_8 : ∀ t : Fin cfg4.N, t.val = 24 → cfg4.idle 8 (grid4.coords t) = false := by decide +kernel

theorem cc_eq4 : @cc4__compute_kernel F _ _ = computeK := rfl

end Cert.Kernel.Hand

end
-- ==== Proof.K.C4.lean ====
import proofs.«407439_j85349590106293_1_alg».proof.Proof.K.C4Runs

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b)) (c : Dev nD)

/-- The part of `V`'s array for window `w` that grid point `t` addresses. -/
def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4_0 : Memref sig .tc .vmem S1x128 .f32 := Memref.whole cc4_scratch0
abbrev scM4_1 : Memref sig .tc .vmem S1x128 .f32 := Memref.whole cc4_scratch1

/-- The class invariant with the two accumulators split off, each at some contents. -/
theorem PhiA4_eq :
    (Pipeline.ΦA spec4 c : sProp 𝕄)
      = iprop(iprop(iprop((∃ d, owns (c : Thread nD τ) scM4_0 fullShare d) ∗ (∃ d, owns (c : Thread nD τ) scM4_1 fullShare d))
        ∗ Pipeline.scopedRestBut (Ix := Unit) (Name := ℕ) (U := UR sig nD τ) (Lvl := ℕ) (Val := Elt F) spec4 c [cc4_scratch0, cc4_scratch1])
      ∗ (∃ r, prngReg c r)) := by
  unfold Pipeline.ΦA; rw [scopedRest4_split]; simp only [scM4_0, scM4_1, owns_whole]; try rfl

/-- Column sum and column sum of squares accumulated over points `0..n`, starting from zeros. -/
def scrAt4 : (n : ℕ) → n < cfg4.N → Vec F S1x128 .f32 × Vec F S1x128 .f32
  | 0, hn => (sum2 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) k2_pay3, sq2 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) k2_pay4)
  | n + 1, hn => (sum2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (scrAt4 n (Nat.lt_of_succ_lt hn)).1,
      sq2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (scrAt4 n (Nat.lt_of_succ_lt hn)).2)

/-- The three outputs and the two accumulators after point `n`; outputs 7 and 8 equal the accumulators. -/
def outsAt4 (n : ℕ) (hn : n < cfg4.N) :
    (Vec F S2000x128 .f32 × Vec F S1x128 .f32 × Vec F S1x128 .f32) × (Vec F S1x128 .f32 × Vec F S1x128 .f32) :=
  ((out2_6 (iblk4 V c 0 ⟨n, hn⟩) (iblk4 V c 1 ⟨n, hn⟩) (iblk4 V c 2 ⟨n, hn⟩) (iblk4 V c 3 ⟨n, hn⟩) (iblk4 V c 4 ⟨n, hn⟩) (iblk4 V c 5 ⟨n, hn⟩), (scrAt4 V c n hn).1, (scrAt4 V c n hn).2), scrAt4 V c n hn)

theorem outsAt4_7 (n : ℕ) (hn : n < cfg4.N) : (outsAt4 V c n hn).1.2.1 = (outsAt4 V c n hn).2.1 := rfl
theorem outsAt4_8 (n : ℕ) (hn : n < cfg4.N) : (outsAt4 V c n hn).1.2.2 = (outsAt4 V c n hn).2.2 := rfl

/-- The loop invariant before point `n`: from the second point on the accumulators are `scrAt4` of the point before. -/
def PhiS4 : (n : ℕ) → n ≤ cfg4.N → sProp 𝕄
  | 0, _ => Pipeline.ΦA spec4 c
  | n + 1, hn => iprop(iprop(iprop(owns (c : Thread nD τ) scM4_0 fullShare (scrAt4 V c n hn).1 ∗ owns (c : Thread nD τ) scM4_1 fullShare (scrAt4 V c n hn).2)
        ∗ Pipeline.scopedRestBut (Ix := Unit) (Name := ℕ) (U := UR sig nD τ) (Lvl := ℕ) (Val := Elt F) spec4 c [cc4_scratch0, cc4_scratch1])
      ∗ (∃ r, prngReg c r))

/-- Proof data: arrays as in `V`, inputs unchanged by a point, outputs as `outsAt4` says. -/
def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1.1
    | ⟨7, _⟩ => (outsAt4 V c t.val t.isLt).1.2.1
    | ⟨8, _⟩ => (outsAt4 V c t.val t.isLt).1.2.2
  Φ t := PhiS4 V c t.val (Nat.le_of_lt_succ t.isLt)
  q _ := fullShare
  owed _ := 0

theorem A_eq4 (w : Fin cfg4.W) : (dat4 V c).A w = V c (Pipeline.arrRef spec4 w) := rfl
theorem after4_6 (t : Fin cfg4.N) : (dat4 V c).after 6 t = (outsAt4 V c t.val t.isLt).1.1 := rfl
theorem after4_7 (t : Fin cfg4.N) : (dat4 V c).after 7 t = (outsAt4 V c t.val t.isLt).1.2.1 := rfl
theorem after4_8 (t : Fin cfg4.N) : (dat4 V c).after 8 t = (outsAt4 V c t.val t.isLt).1.2.2 := rfl

/-- The six inputs are read-only: at every point each is its block of `V`'s array. -/
theorem before4 (t : Fin cfg4.N) :
    (∀ d, (dat4 V c).before 0 t d = iblk4 V c 0 t) ∧ (∀ d, (dat4 V c).before 1 t d = iblk4 V c 1 t) ∧ (∀ d, (dat4 V c).before 2 t d = iblk4 V c 2 t)
      ∧ (∀ d, (dat4 V c).before 3 t d = iblk4 V c 3 t) ∧ (∀ d, (dat4 V c).before 4 t d = iblk4 V c 4 t) ∧ (∀ d, (dat4 V c).before 5 t d = iblk4 V c 5 t) := by
  refine ⟨?_, ?_, ?_, ?_, ?_, ?_⟩ <;>
    exact fun d => (Dat.before_in_eq_fetched _ _ rfl (fun _ => rfl) (fun _ _ _ => rfl) (fun _ => rfl) t d).trans rfl

theorem live4 (w : Fin cfg4.W) (t : Fin cfg4.N) (h : cfg4.idle w (cfg4.grid.coords t) = false) :
    (dat4 V c).leavesExact w t = owns (c : Thread nD τ) ((cfg4.win w).stage (cfg4.slots t w)) fullShare ((dat4 V c).after w t) := by
  unfold Dat.leavesExact; rw [h]

/-- One point of the loop, by the kernel's triple for its case (first, middle or last point). -/
theorem sound_body4 (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d))
      ∗ (∃ d, owns (c : Thread nD τ) (st4_4 t) fullShare ((dat4 V c).before 4 t d))
      ∗ (∃ d, owns (c : Thread nD τ) (st4_5 t) fullShare ((dat4 V c).before 5 t d))
      ∗ (∃ d, owns (c : Thread nD τ) (st4_6 t) fullShare ((dat4 V c).before 6 t d))
      ∗ (∃ d, owns (c : Thread nD τ) (st4_7 t) fullShare ((dat4 V c).before 7 t d))
      ∗ (∃ d, owns (c : Thread nD τ) (st4_8 t) fullShare ((dat4 V c).before 8 t d)))
      ⊢ wp frame (wpE (defs₀ (F := F)) Variants.none c none) Set.univ (bodyAt4 t) (fun _ =>
        iprop((dat4 V c).Φ t.succ ∗ (dat4 V c).owesAt () t.succ
          ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t ∗ (dat4 V c).leavesExact 6 t ∗ (dat4 V c).leavesExact 7 t ∗ (dat4 V c).leavesExact 8 t)) := by
  obtain ⟨b0, b1, b2, b3, b4, b5⟩ := before4 V c t
  unfold bodyAt4
  rw [cc_eq4]
  simp only [b0, b1, b2, b3, b4, b5]
  rw [live4 V c 0 t (liveAt4_0 t), live4 V c 1 t (liveAt4_1 t), live4 V c 2 t (liveAt4_2 t), live4 V c 3 t (liveAt4_3 t),
    live4 V c 4 t (liveAt4_4 t), live4 V c 5 t (liveAt4_5 t), live4 V c 6 t (liveAt4_6 t),
    show (dat4 V c).Φ t.succ = PhiS4 V c (t.val + 1) t.isLt from rfl, PhiS4]
  by_cases h24 : t.val = 24
  on_goal 1 => rw [live4 V c 7 t (liveAt4_7 t h24), live4 V c 8 t (liveAt4_8 t h24)]
  on_goal 2 => rw [Dat.leavesExact_idle (dat4 V c) 7 t (idleAt4_7 t h24) (noFlush4_7 t h24),
    Dat.leavesExact_idle (dat4 V c) 8 t (idleAt4_8 t h24) (noFlush4_8 t h24)]
  all_goals obtain ⟨_ | n, hn⟩ := t
  · exact absurd h24 (show (0 : ℕ) ≠ 24 by decide)
  all_goals first
    | rw [show (dat4 V c).Φ (Fin.castSucc ⟨0, hn⟩) = _ from PhiA4_eq c]
    | rw [show (dat4 V c).Φ (Fin.castSucc ⟨n + 1, hn⟩) = PhiS4 V c (n + 1) (Nat.le_of_lt hn) from rfl, PhiS4]
  all_goals iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
  on_goal 1 => iapply (sound_kernel2_C c Set.univ _ _ _ _ _ _ _ _ _ _ _ _ _ _ _ _ _ _ _ _ _ _ _ (fun h => absurd ((hcond4_1 ⟨n + 1, hn⟩).mp h) n.succ_ne_zero) ((hcond4_2 ⟨n + 1, hn⟩).mpr h24)
    (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (scrAt4 V c n (Nat.lt_of_succ_lt hn)).1 (scrAt4 V c n (Nat.lt_of_succ_lt hn)).2 _)
  on_goal 2 => iapply (sound_kernel2_A c Set.univ _ _ _ _ _ _ _ _ _ _ _ _ _ _ _ _ _ _ _ _ _ _ _ ((hcond4_1 ⟨0, hn⟩).mpr rfl) (fun h => h24 ((hcond4_2 ⟨0, hn⟩).mp h))
    (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) _)
  on_goal 3 => iapply (sound_kernel2_B c Set.univ _ _ _ _ _ _ _ _ _ _ _ _ _ _ _ _ _ _ _ _ _ _ _ (fun h => absurd ((hcond4_1 ⟨n + 1, hn⟩).mp h) n.succ_ne_zero) (fun h => h24 ((hcond4_2 ⟨n + 1, hn⟩).mp h))
    (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (scrAt4 V c n (Nat.lt_of_succ_lt hn)).1 (scrAt4 V c n (Nat.lt_of_succ_lt hn)).2 _)
  all_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
  on_goal 1 =>
    isplitl [H7]; · icases H7 with ⟨%d, H7⟩; iexists _; iexact H7
    isplitl [H8]; · icases H8 with ⟨%d, H8⟩; iexists _; iexact H8
  all_goals
    isplitl [HS0]; · iexact HS0
    isplitl [HS1]; · iexact HS1
    first
      | iintro ⟨H0, H1, H2, H3, H4, H5, H6, H7, H8, HS0, HS1⟩
      | iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := by
  rw [show (dat4 V c).Φ 0 = Pipeline.ΦA spec4 c from rfl]

/-- After the last point the invariant implies the class invariant: the accumulators' contents are forgotten. -/
theorem hout4 : (dat4 V c).Φ (Fin.last cfg4.N) ⊢ Pipeline.ΦA spec4 c := by
  rw [show (dat4 V c).Φ (Fin.last cfg4.N) = PhiS4 V c (24 + 1) (by decide) from rfl, PhiS4, PhiA4_eq]
  iintro ⟨⟨⟨HS0, HS1⟩, Hrest⟩, Hg⟩
  isplitl [HS0 HS1 Hrest]
  · isplitl [HS0 HS1]
    · isplitl [HS0] <;> iexists _ <;> iassumption
    iexact Hrest
  iexact Hg

end Regions

end Cert.Kernel.Hand

end
-- ==== Proof.K.N5.lean ====
import proofs.«407439_j85349590106293_1_alg».proof.Proof.Gen.Kernel.Launch
import proofs.«407439_j85349590106293_1_alg».proof.Proof.Gen.Kernel.Skeleton
import proofs.«407439_j85349590106293_1_alg».proof.Proof.Gen.Kernel.Points
import proofs.«407439_j85349590106293_1_alg».proof.Proof.K.NRuns
import Idealize.ShloMosaic.Lib.Pipeline.FrameBody
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out1_3 (iblk5 V c 0 t) (iblk5 V c 1 t) (iblk5 V c 2 t)
  Φ _ := Pipeline.ΦA spec5 c
  q _ := fullShare
  owed _ := 0

theorem A_eq5 (w : Fin cfg5.W) : (dat5 V c).A w = V c (Pipeline.arrRef spec5 w) := rfl

theorem after5_3 (t : Fin cfg5.N) :
    (dat5 V c).after 3 t = out1_3 (iblk5 V c 0 t) (iblk5 V c 1 t) (iblk5 V c 2 t) := by dsimp only [dat5]

-- Proof data over `V`'s arrays whose body returns every input block unchanged finds, in each input window, that window's block.
theorem before5_of (dat : Dat τ (Elt F) Unit ℕ (UR sig nD τ) ℕ cfg5 c) (hA : ∀ w, dat.A w = V c (Pipeline.arrRef spec5 w))
    (h : (∀ t, dat.after 0 t = iblk5 V c 0 t) ∧ (∀ t, dat.after 1 t = iblk5 V c 1 t)
      ∧ ∀ t, dat.after 2 t = iblk5 V c 2 t) (t : Fin cfg5.N) :
    (∀ d, dat.before 0 t d = iblk5 V c 0 t) ∧ (∀ d, dat.before 1 t d = iblk5 V c 1 t)
      ∧ ∀ d, dat.before 2 t d = iblk5 V c 2 t := by
  obtain ⟨h0, h1, h2⟩ := h
  refine ⟨?_, ?_, ?_⟩ <;>
    exact fun d => (dat.before_in_eq_fetched _ rfl (fun _ => rfl) (fun _ _ _ => rfl)
      (fun t => by (first | rw [h0] | rw [h1] | rw [h2]); unfold Dat.blockOf iblk5; rw [hA]; try rfl) t d).trans
      (by unfold Dat.fetched Dat.blockOf iblk5; rw [hA]; try rfl)

theorem cc_eq5 : cc5__normalize_kernel (F := F) = normK := rfl

-- At every point the kernel's triple applies to the input blocks; everything else is framed.
theorem body_obligation5 : BodyObligation (dat5 (F := F) V c) (defs₀ (F := F)) Variants.none () Set.univ := fun t => by
  rw [bigSep_W5, bigSep_W5]
  show _ ⊢ wp frame _ _ (bodyAt5 t) _
  unfold bodyAt5
  dsimp only
  rw [cc_eq5]
  obtain ⟨b0, b1, b2⟩ := before5_of V c (dat5 V c) (fun _ => rfl) ⟨fun _ => rfl, fun _ => rfl, fun _ => rfl⟩ t
  simp only [b0, b1, b2]
  rw [show (dat5 V c).owesAt () t.succ = (dat5 V c).owesAt () t.castSucc from rfl]
  dsimp only [dat5]
  iintro ⟨HΦ, Ho, ⟨%d0, H0⟩, ⟨%d1, H1⟩, ⟨%d2, H2⟩, ⟨%d3, H3⟩⟩
  iapply (sound_kernel1 c Set.univ _ _ _ _ _ _ _ _ _ (iblk5 V c 0 t) (iblk5 V c 1 t) (iblk5 V c 2 t) _)
  iframe H0 H1 H2
  isplitl [H3]; · iexists _; iexact H3
  iintro H
  iframe HΦ Ho
  iexact H

theorem hin5 : Pipeline.ΦA spec5 c ⊢ (dat5 V c).Φ 0 := .rfl

theorem hout5 : (dat5 V c).Φ (Fin.last cfg5.N) ⊢ Pipeline.ΦA spec5 c := .rfl

end Cert.Kernel.Hand

end
-- ==== Proof.K.P6.lean ====
import proofs.«407439_j85349590106293_1_alg».proof.Proof.Gen.Kernel.Launch
import proofs.«407439_j85349590106293_1_alg».proof.Proof.Gen.Kernel.Skeleton
import proofs.«407439_j85349590106293_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S512x384 := Rect.unit (s := S512x384) ![0, 0] S512x384.size inb_S512x384_S512x384_0_0
abbrev r6_1 : Rect S384x384 := Rect.unit (s := S384x384) ![0, 0] S384x384.size inb_S384x384_S384x384_0_0
abbrev r6_2 : Rect S1x384 := Rect.unit (s := S1x384) ![0, 0] S1x384.size inb_S1x384_S1x384_0_0

-- The one store's payload, laid over the whole output block.
def out6_5 (x0 : Vec F S512x384 .f32) (x1 : Vec F S384x384 .f32) (x2 : Vec F S1x384 .f32) (x3 : Vec F S384x384 .f32)
    (x4 : Vec F S1x384 .f32) : Vec F S512x384 .f32 :=
  View.canon [⟨r6_0, k6_pay1 (View.ld x0 r6_0) (View.ld x1 r6_1) (View.ld x2 r6_2) (View.ld x3 r6_1) (View.ld x4 r6_2)⟩]

-- The kernel keeps its five inputs and leaves `out6_5` of them in the output: the one store's rectangle is the whole block.
theorem sound_kernel6 (E : Set ℕ) (i : grid6.Coords)
    (arg1 : Memref sig .tc .vmem S512x384 .f32) (harg1 : arg1.IsWhole) (arg2 : Memref sig .tc .vmem S384x384 .f32) (harg2 : arg2.IsWhole)
    (arg3 : Memref sig .tc .vmem S1x384 .f32) (harg3 : arg3.IsWhole) (arg4 : Memref sig .tc .vmem S384x384 .f32) (harg4 : arg4.IsWhole)
    (arg5 : Memref sig .tc .vmem S1x384 .f32) (harg5 : arg5.IsWhole) (arg6 : Memref sig .tc .vmem S512x384 .f32) (harg6 : arg6.IsWhole)
    (x0 : Vec F S512x384 .f32) (x1 : Vec F S384x384 .f32) (x2 : Vec F S1x384 .f32) (x3 : Vec F S384x384 .f32) (x4 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__proj_kernel i arg1 harg1 arg2 harg2 arg3 harg3 arg4 harg4 arg5 harg5 arg6 harg6) K := by
  simp only [cc6__proj_kernel_eq_skeleton]; unfold cc6__proj_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S512x384.size (by rfl))

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (w : Fin cfg6.W) : (dat6 V c).A w = V c (Pipeline.arrRef spec6 w) := rfl

theorem after6_5 (t : Fin cfg6.N) :
    (dat6 V c).after 5 t = out6_5 (iblk6 V c 0 t) (iblk6 V c 1 t) (iblk6 V c 2 t) (iblk6 V c 3 t) (iblk6 V c 4 t) := by dsimp only [dat6]

-- Proof data over `V`'s arrays whose body returns every input block unchanged finds, in each input window, that window's block.
theorem before6_of (dat : Dat τ (Elt F) Unit ℕ (UR sig nD τ) ℕ cfg6 c) (hA : ∀ w, dat.A w = V c (Pipeline.arrRef spec6 w))
    (h : (∀ t, dat.after 0 t = iblk6 V c 0 t) ∧ (∀ t, dat.after 1 t = iblk6 V c 1 t)
      ∧ (∀ t, dat.after 2 t = iblk6 V c 2 t) ∧ (∀ t, dat.after 3 t = iblk6 V c 3 t)
      ∧ ∀ t, dat.after 4 t = iblk6 V c 4 t) (t : Fin cfg6.N) :
    (∀ d, dat.before 0 t d = iblk6 V c 0 t) ∧ (∀ d, dat.before 1 t d = iblk6 V c 1 t)
      ∧ (∀ d, dat.before 2 t d = iblk6 V c 2 t) ∧ (∀ d, dat.before 3 t d = iblk6 V c 3 t)
      ∧ ∀ d, dat.before 4 t d = iblk6 V c 4 t := by
  obtain ⟨h0, h1, h2, h3, h4⟩ := h
  refine ⟨?_, ?_, ?_, ?_, ?_⟩ <;>
    exact fun d => (dat.before_in_eq_fetched _ rfl (fun _ => rfl) (fun _ _ _ => rfl)
      (fun t => by (first | rw [h0] | rw [h1] | rw [h2] | rw [h3] | rw [h4]); unfold Dat.blockOf iblk6; rw [hA]; try rfl) t d).trans
      (by unfold Dat.fetched Dat.blockOf iblk6; rw [hA]; try rfl)

-- At every point the kernel's triple applies to the input blocks; everything else is framed.
theorem body_obligation6 : BodyObligation (dat6 (F := F) V c) (defs₀ (F := F)) Variants.none () Set.univ := fun t => by
  rw [bigSep_W6, bigSep_W6]
  show _ ⊢ wp frame _ _ (bodyAt6 t) _
  unfold bodyAt6
  dsimp only
  obtain ⟨b0, b1, b2, b3, b4⟩ := before6_of V c (dat6 V c) (fun _ => rfl) ⟨fun _ => rfl, fun _ => rfl, fun _ => rfl, fun _ => rfl, fun _ => rfl⟩ t
  simp only [b0, b1, b2, b3, b4]
  rw [show (dat6 V c).owesAt () t.succ = (dat6 V c).owesAt () t.castSucc from rfl]
  dsimp only [dat6]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  iframe H0 H1 H2 H3 H4
  isplitl [H5]; · iexists _; iexact H5
  iintro H
  iframe HΦ Ho
  iexact H

theorem hin6 : Pipeline.ΦA spec6 c ⊢ (dat6 V c).Φ 0 := .rfl

theorem hout6 : (dat6 V c).Φ (Fin.last cfg6.N) ⊢ Pipeline.ΦA spec6 c := .rfl

end Cert.Kernel.Hand

end
-- ==== Proof.K.Chain.lean ====
import proofs.«407439_j85349590106293_1_alg».proof.Proof.Gen.Kernel.Launch
import proofs.«407439_j85349590106293_1_alg».proof.Proof.Gen.Kernel.Regions
import proofs.«407439_j85349590106293_1_alg».proof.Proof.K.C0
import proofs.«407439_j85349590106293_1_alg».proof.Proof.K.N1
import proofs.«407439_j85349590106293_1_alg».proof.Proof.K.C2
import proofs.«407439_j85349590106293_1_alg».proof.Proof.K.N3
import proofs.«407439_j85349590106293_1_alg».proof.Proof.K.C4
import proofs.«407439_j85349590106293_1_alg».proof.Proof.K.N5
import proofs.«407439_j85349590106293_1_alg».proof.Proof.K.P6
import Idealize.ShloMosaic.Lib.Pipeline.RegionsLoop
import Idealize.ShloMosaic.Lib.Pipeline.FrameSuffix
import Idealize.ShloMosaic.Lib.Tactic

noncomputable section

namespace Cert.Kernel.Hand

open Cert.Kernel.Gen
open Idealize.ShloMosaic Idealize.ShloMosaic.TcCoe

variable {F : FTy → Type}

-- A family of valuations read at the references of kind `.tc`.
abbrev tcOf (W : Dev nD → Valuation τ sig (Elt F)) : (c : Dev nD) → (b : Ref sig .tc) → Buf (Elt F) ((c : Thread nD τ).loc b) :=
  fun c b => W c b

-- Two valuations that agree off a family of arrays, and on those arrays whose flag is off, agree at every reference outside a list holding the flagged arrays.
theorem stay_of {W : ℕ} {arr : Fin W → Ref sig .tc} {out : Fin W → Bool} {outs : List (Ref sig .tc)} {X Y : Valuation τ sig (Elt F)}
    (hout : ∀ w, out w = true → arr w ∈ outs) (hin : ∀ w, out w = false → X (arr w) = Y (arr w))
    (hne : ∀ b : Ref sig .tc, (∀ w, arr w ≠ b) → X b = Y b) {r : Ref sig .tc} (h : r ∉ outs) : X r = Y r := by
  by_cases hr : ∃ w, arr w = r
  · obtain ⟨w, rfl⟩ := hr
    refine hin w ?_
    cases hw : out w
    · rfl
    · exact absurd (hout w hw) h
  · exact hne r fun w e => hr ⟨w, e⟩

variable [FloatOps F] (m : (ℓ : Loc nD τ sig) → Buf (Elt F) ℓ)

abbrev W0 (_ρ : Dev nD → PrngReg) : Dev nD → Valuation τ sig (Elt F) := fun c b => m (c, b)

variable (ρ : Dev nD → PrngReg) (c : Dev nD)

abbrev W1 : Dev nD → Valuation τ sig (Elt F) := fun c => StableHlo.after hostOps0 (W0 m ρ c)
theorem W1_of (r : Ref sig .tc) (h : r ∉ hostOps0_W) : W1 m ρ c r = W0 m ρ c r :=
  StableHlo.after_of_writes_sub hostOps0 _ hostOps0_writes h

abbrev W2 : Dev nD → Valuation τ sig (Elt F) := fun c => StableHlo.after hostOps0_1 (W1 m ρ c)
theorem W2_of (r : Ref sig .tc) (h : r ∉ hostOps0_1_W) : W2 m ρ c r = W1 m ρ c r :=
  StableHlo.after_of_writes_sub hostOps0_1 _ hostOps0_1_writes h

abbrev W3 : Dev nD → Valuation τ sig (Elt F) := fun c => StableHlo.after hostOps0_2 (W2 m ρ c)
abbrev V3 := tcOf (W3 m ρ)
theorem W3_of (r : Ref sig .tc) (h : r ∉ hostOps0_2_W) : W3 m ρ c r = W2 m ρ c r :=
  StableHlo.after_of_writes_sub hostOps0_2 _ hostOps0_2_writes h

def W4 : Valuation τ sig (Elt F) :=
  Pipeline.withArrays spec0 c (W3 m ρ c) fun w => (dat0 (V3 m ρ) c).arrAt w cfg0.N
theorem W4_arr (w : Fin cfg0.W) : W4 m ρ c (Pipeline.arrRef spec0 w) = (dat0 (V3 m ρ) c).arrAt w cfg0.N :=
  Pipeline.withArrays_arr spec0 launch0.win.arr_inj c _ _ w
theorem W4_of_ne (b : Ref sig .tc) (hb : ∀ w, Pipeline.arrRef spec0 w ≠ b) : W4 m ρ c b = W3 m ρ c b :=
  Pipeline.withArrays_of_ne spec0 c _ _ b hb
theorem W4_in (w : Fin cfg0.W) (hw : (cfg0.win w).isOut = false) :
    W4 m ρ c (Pipeline.arrRef spec0 w) = W3 m ρ c (Pipeline.arrRef spec0 w) :=
  (W4_arr m ρ c w).trans (((dat0 (V3 m ρ) c).arrAt_in w hw _).trans (A_eq0 (V3 m ρ) c w))
theorem outs0_mem : ∀ w : Fin cfg0.W, (cfg0.win w).isOut = true → Pipeline.arrRef spec0 w ∈ ([main_v18_0, main_v18_1, main_v18_2] : List (Ref sig .tc)) := by decide
theorem W4_stay (r : Ref sig .tc) (h : r ∉ ([main_v18_0, main_v18_1, main_v18_2] : List (Ref sig .tc))) : W4 m ρ c r = W3 m ρ c r :=
  stay_of outs0_mem (W4_in m ρ c) (W4_of_ne m ρ c) h

abbrev W5 : Dev nD → Valuation τ sig (Elt F) := fun c => StableHlo.after hostOps1 (W4 m ρ c)
abbrev V5 := tcOf (W5 m ρ)
theorem W5_of (r : Ref sig .tc) (h : r ∉ hostOps1_W) : W5 m ρ c r = W4 m ρ c r :=
  StableHlo.after_of_writes_sub hostOps1 _ hostOps1_writes h

def W6 : Valuation τ sig (Elt F) :=
  Pipeline.withArrays spec1 c (W5 m ρ c) fun w => (dat1 (V5 m ρ) c).arrAt w cfg1.N
theorem W6_arr (w : Fin cfg1.W) : W6 m ρ c (Pipeline.arrRef spec1 w) = (dat1 (V5 m ρ) c).arrAt w cfg1.N :=
  Pipeline.withArrays_arr spec1 launch1.win.arr_inj c _ _ w
theorem W6_of_ne (b : Ref sig .tc) (hb : ∀ w, Pipeline.arrRef spec1 w ≠ b) : W6 m ρ c b = W5 m ρ c b :=
  Pipeline.withArrays_of_ne spec1 c _ _ b hb
theorem W6_in (w : Fin cfg1.W) (hw : (cfg1.win w).isOut = false) :
    W6 m ρ c (Pipeline.arrRef spec1 w) = W5 m ρ c (Pipeline.arrRef spec1 w) :=
  (W6_arr m ρ c w).trans (((dat1 (V5 m ρ) c).arrAt_in w hw _).trans (A_eq1 (V5 m ρ) c w))
theorem outs1_mem : ∀ w : Fin cfg1.W, (cfg1.win w).isOut = true → Pipeline.arrRef spec1 w ∈ ([main_v37] : List (Ref sig .tc)) := by decide
theorem W6_stay (r : Ref sig .tc) (h : r ∉ ([main_v37] : List (Ref sig .tc))) : W6 m ρ c r = W5 m ρ c r :=
  stay_of outs1_mem (W6_in m ρ c) (W6_of_ne m ρ c) h

abbrev W7 : Dev nD → Valuation τ sig (Elt F) := fun c => StableHlo.after hostOps2 (W6 m ρ c)
theorem W7_of (r : Ref sig .tc) (h : r ∉ hostOps2_W) : W7 m ρ c r = W6 m ρ c r :=
  StableHlo.after_of_writes_sub hostOps2 _ hostOps2_writes h

abbrev W8 : Dev nD → Valuation τ sig (Elt F) := fun c => StableHlo.after hostOps2_1 (W7 m ρ c)
abbrev V8 := tcOf (W8 m ρ)
theorem W8_of (r : Ref sig .tc) (h : r ∉ hostOps2_1_W) : W8 m ρ c r = W7 m ρ c r :=
  StableHlo.after_of_writes_sub hostOps2_1 _ hostOps2_1_writes h

def W9 : Valuation τ sig (Elt F) :=
  Pipeline.withArrays spec2 c (W8 m ρ c) fun w => (dat2 (V8 m ρ) c).arrAt w cfg2.N
theorem W9_arr (w : Fin cfg2.W) : W9 m ρ c (Pipeline.arrRef spec2 w) = (dat2 (V8 m ρ) c).arrAt w cfg2.N :=
  Pipeline.withArrays_arr spec2 launch2.win.arr_inj c _ _ w
theorem W9_of_ne (b : Ref sig .tc) (hb : ∀ w, Pipeline.arrRef spec2 w ≠ b) : W9 m ρ c b = W8 m ρ c b :=
  Pipeline.withArrays_of_ne spec2 c _ _ b hb
theorem W9_in (w : Fin cfg2.W) (hw : (cfg2.win w).isOut = false) :
    W9 m ρ c (Pipeline.arrRef spec2 w) = W8 m ρ c (Pipeline.arrRef spec2 w) :=
  (W9_arr m ρ c w).trans (((dat2 (V8 m ρ) c).arrAt_in w hw _).trans (A_eq2 (V8 m ρ) c w))
theorem outs2_mem : ∀ w : Fin cfg2.W, (cfg2.win w).isOut = true → Pipeline.arrRef spec2 w ∈ ([main_v52_0, main_v52_1, main_v52_2] : List (Ref sig .tc)) := by decide
theorem W9_stay (r : Ref sig .tc) (h : r ∉ ([main_v52_0, main_v52_1, main_v52_2] : List (Ref sig .tc))) : W9 m ρ c r = W8 m ρ c r :=
  stay_of outs2_mem (W9_in m ρ c) (W9_of_ne m ρ c) h

abbrev W10 : Dev nD → Valuation τ sig (Elt F) := fun c => StableHlo.after hostOps3 (W9 m ρ c)
abbrev V10 := tcOf (W10 m ρ)
theorem W10_of (r : Ref sig .tc) (h : r ∉ hostOps3_W) : W10 m ρ c r = W9 m ρ c r :=
  StableHlo.after_of_writes_sub hostOps3 _ hostOps3_writes h

def W11 : Valuation τ sig (Elt F) :=
  Pipeline.withArrays spec3 c (W10 m ρ c) fun w => (dat3 (V10 m ρ) c).arrAt w cfg3.N
theorem W11_arr (w : Fin cfg3.W) : W11 m ρ c (Pipeline.arrRef spec3 w) = (dat3 (V10 m ρ) c).arrAt w cfg3.N :=
  Pipeline.withArrays_arr spec3 launch3.win.arr_inj c _ _ w
theorem W11_of_ne (b : Ref sig .tc) (hb : ∀ w, Pipeline.arrRef spec3 w ≠ b) : W11 m ρ c b = W10 m ρ c b :=
  Pipeline.withArrays_of_ne spec3 c _ _ b hb
theorem W11_in (w : Fin cfg3.W) (hw : (cfg3.win w).isOut = false) :
    W11 m ρ c (Pipeline.arrRef spec3 w) = W10 m ρ c (Pipeline.arrRef spec3 w) :=
  (W11_arr m ρ c w).trans (((dat3 (V10 m ρ) c).arrAt_in w hw _).trans (A_eq3 (V10 m ρ) c w))
theorem outs3_mem : ∀ w : Fin cfg3.W, (cfg3.win w).isOut = true → Pipeline.arrRef spec3 w ∈ ([main_v71] : List (Ref sig .tc)) := by decide
theorem W11_stay (r : Ref sig .tc) (h : r ∉ ([main_v71] : List (Ref sig .tc))) : W11 m ρ c r = W10 m ρ c r :=
  stay_of outs3_mem (W11_in m ρ c) (W11_of_ne m ρ c) h

abbrev W12 : Dev nD → Valuation τ sig (Elt F) := fun c => StableHlo.after hostOps4 (W11 m ρ c)
theorem W12_of (r : Ref sig .tc) (h : r ∉ hostOps4_W) : W12 m ρ c r = W11 m ρ c r :=
  StableHlo.after_of_writes_sub hostOps4 _ hostOps4_writes h

abbrev W13 : Dev nD → Valuation τ sig (Elt F) := fun c => StableHlo.after hostOps4_1 (W12 m ρ c)
abbrev V13 := tcOf (W13 m ρ)
theorem W13_of (r : Ref sig .tc) (h : r ∉ hostOps4_1_W) : W13 m ρ c r = W12 m ρ c r :=
  StableHlo.after_of_writes_sub hostOps4_1 _ hostOps4_1_writes h

def W14 : Valuation τ sig (Elt F) :=
  Pipeline.withArrays spec4 c (W13 m ρ c) fun w => (dat4 (V13 m ρ) c).arrAt w cfg4.N
theorem W14_arr (w : Fin cfg4.W) : W14 m ρ c (Pipeline.arrRef spec4 w) = (dat4 (V13 m ρ) c).arrAt w cfg4.N :=
  Pipeline.withArrays_arr spec4 launch4.win.arr_inj c _ _ w
theorem W14_of_ne (b : Ref sig .tc) (hb : ∀ w, Pipeline.arrRef spec4 w ≠ b) : W14 m ρ c b = W13 m ρ c b :=
  Pipeline.withArrays_of_ne spec4 c _ _ b hb
theorem W14_in (w : Fin cfg4.W) (hw : (cfg4.win w).isOut = false) :
    W14 m ρ c (Pipeline.arrRef spec4 w) = W13 m ρ c (Pipeline.arrRef spec4 w) :=
  (W14_arr m ρ c w).trans (((dat4 (V13 m ρ) c).arrAt_in w hw _).trans (A_eq4 (V13 m ρ) c w))
theorem outs4_mem : ∀ w : Fin cfg4.W, (cfg4.win w).isOut = true → Pipeline.arrRef spec4 w ∈ ([main_v86_0, main_v86_1, main_v86_2] : List (Ref sig .tc)) := by decide
theorem W14_stay (r : Ref sig .tc) (h : r ∉ ([main_v86_0, main_v86_1, main_v86_2] : List (Ref sig .tc))) : W14 m ρ c r = W13 m ρ c r :=
  stay_of outs4_mem (W14_in m ρ c) (W14_of_ne m ρ c) h

abbrev W15 : Dev nD → Valuation τ sig (Elt F) := fun c => StableHlo.after hostOps5 (W14 m ρ c)
abbrev V15 := tcOf (W15 m ρ)
theorem W15_of (r : Ref sig .tc) (h : r ∉ hostOps5_W) : W15 m ρ c r = W14 m ρ c r :=
  StableHlo.after_of_writes_sub hostOps5 _ hostOps5_writes h

def W16 : Valuation τ sig (Elt F) :=
  Pipeline.withArrays spec5 c (W15 m ρ c) fun w => (dat5 (V15 m ρ) c).arrAt w cfg5.N
theorem W16_arr (w : Fin cfg5.W) : W16 m ρ c (Pipeline.arrRef spec5 w) = (dat5 (V15 m ρ) c).arrAt w cfg5.N :=
  Pipeline.withArrays_arr spec5 launch5.win.arr_inj c _ _ w
theorem W16_of_ne (b : Ref sig .tc) (hb : ∀ w, Pipeline.arrRef spec5 w ≠ b) : W16 m ρ c b = W15 m ρ c b :=
  Pipeline.withArrays_of_ne spec5 c _ _ b hb
theorem W16_in (w : Fin cfg5.W) (hw : (cfg5.win w).isOut = false) :
    W16 m ρ c (Pipeline.arrRef spec5 w) = W15 m ρ c (Pipeline.arrRef spec5 w) :=
  (W16_arr m ρ c w).trans (((dat5 (V15 m ρ) c).arrAt_in w hw _).trans (A_eq5 (V15 m ρ) c w))
theorem outs5_mem : ∀ w : Fin cfg5.W, (cfg5.win w).isOut = true → Pipeline.arrRef spec5 w ∈ ([main_v105] : List (Ref sig .tc)) := by decide
theorem W16_stay (r : Ref sig .tc) (h : r ∉ ([main_v105] : List (Ref sig .tc))) : W16 m ρ c r = W15 m ρ c r :=
  stay_of outs5_mem (W16_in m ρ c) (W16_of_ne m ρ c) h

abbrev W17 : Dev nD → Valuation τ sig (Elt F) := fun c => StableHlo.after hostOps6 (W16 m ρ c)
abbrev V17 := tcOf (W17 m ρ)
theorem W17_of (r : Ref sig .tc) (h : r ∉ hostOps6_W) : W17 m ρ c r = W16 m ρ c r :=
  StableHlo.after_of_writes_sub hostOps6 _ hostOps6_writes h

def W18 : Valuation τ sig (Elt F) :=
  Pipeline.withArrays spec6 c (W17 m ρ c) fun w => (dat6 (V17 m ρ) c).arrAt w cfg6.N
theorem W18_arr (w : Fin cfg6.W) : W18 m ρ c (Pipeline.arrRef spec6 w) = (dat6 (V17 m ρ) c).arrAt w cfg6.N :=
  Pipeline.withArrays_arr spec6 launch6.win.arr_inj c _ _ w
theorem W18_of_ne (b : Ref sig .tc) (hb : ∀ w, Pipeline.arrRef spec6 w ≠ b) : W18 m ρ c b = W17 m ρ c b :=
  Pipeline.withArrays_of_ne spec6 c _ _ b hb
theorem W18_in (w : Fin cfg6.W) (hw : (cfg6.win w).isOut = false) :
    W18 m ρ c (Pipeline.arrRef spec6 w) = W17 m ρ c (Pipeline.arrRef spec6 w) :=
  (W18_arr m ρ c w).trans (((dat6 (V17 m ρ) c).arrAt_in w hw _).trans (A_eq6 (V17 m ρ) c w))
theorem outs6_mem : ∀ w : Fin cfg6.W, (cfg6.win w).isOut = true → Pipeline.arrRef spec6 w ∈ ([main_v112] : List (Ref sig .tc)) := by decide
theorem W18_stay (r : Ref sig .tc) (h : r ∉ ([main_v112] : List (Ref sig .tc))) : W18 m ρ c r = W17 m ρ c r :=
  stay_of outs6_mem (W18_in m ρ c) (W18_of_ne m ρ c) h

end Cert.Kernel.Hand

end
-- ==== Proof.K.Run.lean ====
import proofs.«407439_j85349590106293_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Hand
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] (m : (ℓ : Loc nD τ sig) → Buf (Elt F) ℓ) (ρ : Dev nD → PrngReg)
local notation "𝕄" => MT nD τ sig Unit (Elt F) ℕ (UR sig nD τ) ℕ
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V8 m ρ) c
  | ⟨3, _⟩ => fun c => dat3 (V10 m ρ) c
  | ⟨4, _⟩ => fun c => dat4 (V13 m ρ) c
  | ⟨5, _⟩ => fun c => dat5 (V15 m ρ) c
  | ⟨6, _⟩ => fun c => dat6 (V17 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ T, owes (c : Thread nD τ) (0 : CellTallies nD τ sig Unit) T)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
-- A kernel region as a segment of the program, from the valuations `Win` at its entry and `Wout` at its exit.
set_option backward.isDefEq.respectTransparency.types false in
def regionSeg (p : Fin 7) (lf : Pipeline.LaunchFacts (nD := nD) (τ := τ) cfgs p)
    (Win Wout : Dev nD → Valuation τ sig (Elt F))
    (hbody : ∀ c, BodyObligation (pdats m ρ p c) (defs₀ (F := F)) Variants.none () Set.univ)
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = Win c (Pipeline.arrRef (cfgs p).spec w))
    (hΦin : ∀ c, Pipeline.ΦA (cfgs p).spec c ⊢ (pdats m ρ p c).Φ 0)
    (hΦout : ∀ c, (pdats m ρ p c).Φ (Fin.last (cfgs p).N) ⊢ Pipeline.ΦA (cfgs p).spec c)
    (hF : ∀ c w, Wout c (Pipeline.arrRef (cfgs p).spec w) = (pdats m ρ p c).arrAt w (cfgs p).N)
    (hrest : ∀ c (b : Ref sig .tc), (∀ w, Pipeline.arrRef (cfgs p).spec w ≠ b) → Wout c b = Win c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Win c b) (hA c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      rw [howed c 0]
      icases Howes with ⟨%T, Howes⟩; iexists T; isplitr
      · ipureintro; exact fun x _ => Or.inl (by rw [hrec c 0]; trivial)
      iexact Howes
    isplitl [Hprng]; · iexact Hprng
    iexact Hrest
  hin c := by
    refine .trans ?_ (hΦin c)
    unfold Pipeline.ΦA
    iintro ⟨Hprng, -, Hscoped⟩
    isplitl [Hscoped]; · iexact Hscoped
    iexact Hprng
  hout c := by
    rw [Pipeline.ownSems0_none]
    refine (hΦout c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Win c b) (fun b => Wout c b) ((pdats m ρ p c).arrAt · (cfgs p).N) (fun w => (hF c w).symm)
      fun b hb => hrest c b fun w e => hb (Finset.mem_image.mpr ⟨w, Finset.mem_univ _, e⟩)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    rw [howed c (Fin.last _)]
    icases Howes with ⟨%T, -, Howes⟩; iexists T; iexact Howes
def reg0 := regionSeg m ρ 0 launch0 (W3 m ρ) (W4 m ρ) (body_obligation0 (V3 m ρ)) (fun _ _ => rfl) (fun _ _ => rfl)
  (fun _ _ => rfl) (fun _ _ => rfl) (hin0 (V3 m ρ)) (hout0 (V3 m ρ)) (W4_arr m ρ) (W4_of_ne m ρ)
def reg1 := regionSeg m ρ 1 launch1 (W5 m ρ) (W6 m ρ) (body_obligation1 (V5 m ρ)) (fun _ _ => rfl) (fun _ _ => rfl)
  (fun _ _ => rfl) (fun _ _ => rfl) (hin1 (V5 m ρ)) (hout1 (V5 m ρ)) (W6_arr m ρ) (W6_of_ne m ρ)
def reg2 := regionSeg m ρ 2 launch2 (W8 m ρ) (W9 m ρ) (body_obligation2 (V8 m ρ)) (fun _ _ => rfl) (fun _ _ => rfl)
  (fun _ _ => rfl) (fun _ _ => rfl) (hin2 (V8 m ρ)) (hout2 (V8 m ρ)) (W9_arr m ρ) (W9_of_ne m ρ)
def reg3 := regionSeg m ρ 3 launch3 (W10 m ρ) (W11 m ρ) (body_obligation3 (V10 m ρ)) (fun _ _ => rfl) (fun _ _ => rfl)
  (fun _ _ => rfl) (fun _ _ => rfl) (hin3 (V10 m ρ)) (hout3 (V10 m ρ)) (W11_arr m ρ) (W11_of_ne m ρ)
def reg4 := regionSeg m ρ 4 launch4 (W13 m ρ) (W14 m ρ) (body_obligation4 (V13 m ρ)) (fun _ _ => rfl) (fun _ _ => rfl)
  (fun _ _ => rfl) (fun _ _ => rfl) (hin4 (V13 m ρ)) (hout4 (V13 m ρ)) (W14_arr m ρ) (W14_of_ne m ρ)
def reg5 := regionSeg m ρ 5 launch5 (W15 m ρ) (W16 m ρ) (body_obligation5 (V15 m ρ)) (fun _ _ => rfl) (fun _ _ => rfl)
  (fun _ _ => rfl) (fun _ _ => rfl) (hin5 (V15 m ρ)) (hout5 (V15 m ρ)) (W16_arr m ρ) (W16_of_ne m ρ)
def reg6 := regionSeg m ρ 6 launch6 (W17 m ρ) (W18 m ρ) (body_obligation6 (V17 m ρ)) (fun _ _ => rfl) (fun _ _ => rfl)
  (fun _ _ => rfl) (fun _ _ => rfl) (hin6 (V17 m ρ)) (hout6 (V17 m ρ)) (W18_arr m ρ) (W18_of_ne m ρ)
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .region (reg2 m ρ),
    .host (hseg hostOps3 hostOps3_sub hostOps3_fresh (W9 m ρ)),
    .region (reg3 m ρ),
    .host (hseg hostOps4 hostOps4_sub hostOps4_fresh (W11 m ρ)),
    .host (hseg hostOps4_1 hostOps4_1_sub hostOps4_1_fresh (W12 m ρ)),
    .region (reg4 m ρ),
    .host (hseg hostOps5 hostOps5_sub hostOps5_fresh (W14 m ρ)),
    .region (reg5 m ρ),
    .host (hseg hostOps6 hostOps6_sub hostOps6_fresh (W16 m ρ)),
    .region (reg6 m ρ) ]
abbrev Tₙ (c : Dev nD) : sProp 𝕄 :=
  iprop(StableHlo.held (c : Thread nD τ) (Pipeline.ucRefs τ sig) (W18 m ρ c) ∗ ∃ r, prngReg c r)
theorem rebracket (c : Dev nD) :
    iprop(StableHlo.held (c : Thread nD τ) (Pipeline.ucRefs τ sig) (W18 m ρ c) ∗ R c)
      ⊢ (iprop(Tₙ m ρ c ∗ ∃ T, owes (c : Thread nD τ) (0 : CellTallies nD τ sig Unit) T) : sProp 𝕄) := by
  iintro ⟨Hbufs, Hprng, Howes⟩
  isplitl [Hbufs Hprng]
  · isplitl [Hbufs]; · iexact Hbufs
    iexact Hprng
  iexact Howes
-- The program runs to its end, and there every unscoped buffer of `c` holds `W18 m ρ c`.
set_option backward.isDefEq.respectTransparency.types false in
theorem run_all :
    θ_run defs (onTc (τ := τ) (main (F := F))) ⟨m, fun _ => 0, ρ⟩
      (fun r => ∀ c : Dev nD, ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, rebracket m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W18 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W18 m ρ c) s')
      isplitl [Hbufs] <;> iassumption)
    (hQ := fun s h c => h c)
end Cert.Kernel.Hand
end
-- ==== Proof.K.Frame.lean ====
import proofs.«407439_j85349590106293_1_alg».proof.Proof.K.Run
noncomputable section
namespace Cert.Kernel.Hand
open Cert.Kernel.Gen
open Idealize.ShloMosaic Idealize.ShloMosaic.TcCoe Idealize.SL.Sem
variable {F : FTy → Type} [FloatOps F] (m : (ℓ : Loc nD τ sig) → Buf (Elt F) ℓ) (ρ : Dev nD → PrngReg)
abbrev written : List (Ref sig .tc) :=
  hostOps0_W ++ (hostOps0_1_W ++ (hostOps0_2_W ++ ([main_v18_0, main_v18_1, main_v18_2] ++ (hostOps1_W ++ ([main_v37] ++ (hostOps2_W ++ (hostOps2_1_W ++ ([main_v52_0, main_v52_1, main_v52_2] ++ (hostOps3_W ++ ([main_v71] ++ (hostOps4_W ++ (hostOps4_1_W ++ ([main_v86_0, main_v86_1, main_v86_2] ++ (hostOps5_W ++ ([main_v105] ++ (hostOps6_W ++ ([main_v112])))))))))))))))))
-- A chain of equalities, one link per block of a list the reference avoids.
theorem keep {α : Type} {A B : List α} {r : α} {β : Type} {x y z : β} (h : r ∉ A ++ B) (f : r ∉ A → y = z) (g : r ∉ B → x = y) : x = z :=
  (g fun k => h (List.mem_append.2 (.inr k))).trans (f fun k => h (List.mem_append.2 (.inl k)))
theorem W18_unwritten (c : Dev nD) (r : Ref sig .tc) (h : r ∉ written) : W18 m ρ c r = m ((c : Thread nD τ).loc r) :=
  keep h (W1_of m ρ c r) fun h =>
  keep h (W2_of m ρ c r) fun h =>
  keep h (W3_of m ρ c r) fun h =>
  keep h (W4_stay m ρ c r) fun h =>
  keep h (W5_of m ρ c r) fun h =>
  keep h (W6_stay m ρ c r) fun h =>
  keep h (W7_of m ρ c r) fun h =>
  keep h (W8_of m ρ c r) fun h =>
  keep h (W9_stay m ρ c r) fun h =>
  keep h (W10_of m ρ c r) fun h =>
  keep h (W11_stay m ρ c r) fun h =>
  keep h (W12_of m ρ c r) fun h =>
  keep h (W13_of m ρ c r) fun h =>
  keep h (W14_stay m ρ c r) fun h =>
  keep h (W15_of m ρ c r) fun h =>
  keep h (W16_stay m ρ c r) fun h =>
  keep h (W17_of m ρ c r) fun h =>
  W18_stay m ρ c r h
theorem run_result :
    θ_run defs (onTc (τ := τ) (main (F := F))) ⟨m, fun _ => 0, ρ⟩ (fun r => ∀ c : Dev nD,
      r.2.mem ((c.tc : Thread nD τ).loc main_v112) = W18 m ρ c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono (fun r h c => by
    refine ⟨h c _ (mem_uc main_v112 (by decide)), ?_⟩
    and_intros <;> exact (h c _ (mem_uc _ (by decide))).trans (W18_unwritten m ρ c _ (by decide))) (run_all m ρ)
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono (fun _ h c => (h c).2) (run_result m ρ)
end Cert.Kernel.Hand
end
-- ==== Proof.KI.C0Runs.lean ====
import proofs.«407439_j85349590106293_1_alg».proof.Proof.Gen.KernelIdeal.Launch
import proofs.«407439_j85349590106293_1_alg».proof.Proof.Gen.KernelIdeal.Skeleton
import proofs.«407439_j85349590106293_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_1 (i : grid0.Coords) : Prop :=
  (Scalar.cmpi .ne (Scalar.extui (Scalar.cmpi .eq (BitVec.ofNat 32 (i 0).val) 0#32)) 0#32) = 1#1
-- The two conditions split the grid into its first point, its last point and the rest.
theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond2 i = 1#1
theorem hcond0_2 : ∀ t : Fin cfg0.N, cond0_2 (grid0.coords t) ↔ t.val = 24 :=
  (by decide +kernel : ∀ t : Fin grid0.N, cond0_2 (grid0.coords t) ↔ t.val = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7 : ∀ t : Fin cfg0.N, t.val ≠ 24 → cfg0.idle 7 (grid0.coords t) = true := by decide +kernel
theorem idleAt0_8 : ∀ t : Fin cfg0.N, t.val ≠ 24 → cfg0.idle 8 (grid0.coords t) = true := by decide +kernel
theorem noFlush0_7 : ∀ t : Fin cfg0.N, t.val ≠ 24 → (cfg0.win 7).flush t = false := by decide +kernel
theorem noFlush0_8 : ∀ t : Fin cfg0.N, t.val ≠ 24 → (cfg0.win 8).flush t = false := by decide +kernel
theorem liveAt0_7 : ∀ t : Fin cfg0.N, t.val = 24 → cfg0.idle 7 (grid0.coords t) = false := by decide +kernel
theorem liveAt0_8 : ∀ t : Fin cfg0.N, t.val = 24 → cfg0.idle 8 (grid0.coords t) = false := by decide +kernel

abbrev r0_a : Rect S2000x128 := Rect.unit (s := S2000x128) ![0, 0] ![2000, 128] inb_S2000x128_S2000x128_0_0
abbrev r0_b : Rect S128x128 := Rect.unit (s := S128x128) ![0, 0] ![128, 128] inb_S128x128_S128x128_0_0
abbrev r0_c : Rect S1x128 := Rect.unit (s := S1x128) ![0, 0] ![1, 128] inb_S1x128_S1x128_0_0

theorem zeros0 : (![0, 0] : Fin 2 → Nat) = fun _ => 0 := funext fun a => by fin_cases a <;> rfl

section
variable (x0 x1 : Vec F S2000x128 .f32) (x2 : Vec F S128x128 .f32) (x3 : Vec F S1x128 .f32) (x4 : Vec F S128x128 .f32) (x5 : Vec F S1x128 .f32) (prev : Vec F S1x128 .f32)
def out0_6 : Vec F S2000x128 .f32 := k0_pay5 x0 x1 x2 x3 x4 x5
def sum0 : Vec F S1x128 .f32 := k0_pay1 (k0_pay6 x0 x1 x2 x3 x4 x5 prev)
def sq0 : Vec F S1x128 .f32 := k0_pay2 (k0_pay5 x0 x1 x2 x3 x4 x5) prev
end

section
variable {κ : Kind} {sp : Space} {S : Shape} {e : EltTy} (v : View sig κ sp S e) (f : v.ty.Contents (Elt F))
  {off : Fin S.rank → Nat} (h : off = fun _ => 0) (inb : ∀ a, off a + S.size a ≤ S.size a)
include h

-- At zero offsets and the buffer's own sizes the rectangle is every index, so the load is the identity.
theorem readAt_whole0 : v.readAt (Elt F) (Rect.unit off S.size inb).toLoadRect f = v.read (Elt F) f :=
  View.ld_unit_zero h inb _

-- The last piece covers every index, so neither earlier pieces nor the prior contents are read.
theorem read_store_whole0 (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)
end

section
variable {κ : Kind} {sp : Space}
theorem r0_a_rd (v : View sig κ sp S2000x128 .f32) (f : v.ty.Contents (Elt F)) : v.readAt (Elt F) r0_a.toLoadRect f = v.read (Elt F) f := readAt_whole0 v f zeros0 _
theorem r0_b_rd (v : View sig κ sp S128x128 .f32) (f : v.ty.Contents (Elt F)) : v.readAt (Elt F) r0_b.toLoadRect f = v.read (Elt F) f := readAt_whole0 v f zeros0 _
theorem r0_c_rd (v : View sig κ sp S1x128 .f32) (f : v.ty.Contents (Elt F)) : v.readAt (Elt F) r0_c.toLoadRect f = v.read (Elt F) f := readAt_whole0 v f zeros0 _
theorem r0_a_st (v : View sig κ sp S2000x128 .f32) (f : v.ty.Contents (Elt F)) (w : S2000x128.Idx → Elt F .f32) (L : List (View.Piece (Elt F) S2000x128 .f32)) :
    v.read (Elt F) (v.writes (Elt F) f ((⟨r0_a, w⟩ : View.Piece (Elt F) S2000x128 .f32) :: L)) = w := read_store_whole0 v f zeros0 _ w L
theorem r0_c_st (v : View sig κ sp S1x128 .f32) (f : v.ty.Contents (Elt F)) (w : S1x128.Idx → Elt F .f32) (L : List (View.Piece (Elt F) S1x128 .f32)) :
    v.read (Elt F) (v.writes (Elt F) f ((⟨r0_c, w⟩ : View.Piece (Elt F) S1x128 .f32) :: L)) = w := read_store_whole0 v f zeros0 _ w L
end

variable (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)

-- The first point: both accumulators are reset, whatever they held.
theorem sound_kernel0_A (hc1 : cond0_1 i) (hc2 : ¬cond0_2 i) (x0 x1 : Vec F S2000x128 .f32) (x2 : Vec F S128x128 .f32) (x3 : Vec F S1x128 .f32) (x4 : Vec F S128x128 .f32) (x5 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ (∃ d, owns c arg10 fullShare d) ∗ (∃ d, owns c arg11 fullShare d)
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out0_6 x0 x1 x2 x3 x4 x5) ∗ owns c arg10 fullShare (sum0 x0 x1 x2 x3 x4 x5 k0_pay3) ∗ owns c arg11 fullShare (sq0 x0 x1 x2 x3 x4 x5 k0_pay4)) -∗ K ⟨⟩))
      ⊢ wp frame (wpE (defs₀ (F := F)) Variants.none c none) E (cc0__compute_kernel i arg1 harg1 arg2 harg2 arg3 harg3 arg4 harg4 arg5 harg5 arg6 harg6 arg7 harg7 arg8 harg8 arg9 harg9 arg10 harg10 arg11 harg11) K := by
  simp only [cc0__compute_kernel_eq_skeleton]; unfold cc0__compute_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0 hf1 hf2 hf3 hf4 hf5
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [HS0]
  all_goals (iexists _; isplitr; swap; iassumption; ipureintro; sl_unfold_run_names; simp only [r0_a_rd, r0_b_rd, r0_c_rd, r0_a_st, r0_c_st, View.readCov_cons_toLoadRect, out0_6, sum0, sq0])

-- A middle point: both accumulators are updated over what the point before left.
theorem sound_kernel0_B (hc1 : ¬cond0_1 i) (hc2 : ¬cond0_2 i) (x0 x1 : Vec F S2000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ owns c arg10 fullShare xs0 ∗ owns c arg11 fullShare xs1
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out0_6 x0 x1 x2 x3 x4 x5) ∗ owns c arg10 fullShare (sum0 x0 x1 x2 x3 x4 x5 xs0) ∗ owns c arg11 fullShare (sq0 x0 x1 x2 x3 x4 x5 xs1)) -∗ K ⟨⟩))
      ⊢ wp frame (wpE (defs₀ (F := F)) Variants.none c none) E (cc0__compute_kernel i arg1 harg1 arg2 harg2 arg3 harg3 arg4 harg4 arg5 harg5 arg6 harg6 arg7 harg7 arg8 harg8 arg9 harg9 arg10 harg10 arg11 harg11) K := by
  simp only [cc0__compute_kernel_eq_skeleton]; unfold cc0__compute_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, Hk⟩
  subst hf0 hf1 hf2 hf3 hf4 hf5 hs0 hs1
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [HS0]
  all_goals (iexists _; isplitr; swap; iassumption; ipureintro; sl_unfold_run_names; simp only [r0_a_rd, r0_b_rd, r0_c_rd, r0_a_st, r0_c_st, View.readCov_cons_toLoadRect, out0_6, sum0, sq0])

-- The last point: as a middle point, and the updated accumulators are also copied out.
theorem sound_kernel0_C (hc1 : ¬cond0_1 i) (hc2 : cond0_2 i) (x0 x1 : Vec F S2000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ (∃ d, owns c arg8 fullShare d) ∗ (∃ d, owns c arg9 fullShare d) ∗ owns c arg10 fullShare xs0 ∗ owns c arg11 fullShare xs1
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out0_6 x0 x1 x2 x3 x4 x5) ∗ owns c arg8 fullShare (sum0 x0 x1 x2 x3 x4 x5 xs0) ∗ owns c arg9 fullShare (sq0 x0 x1 x2 x3 x4 x5 xs1) ∗ owns c arg10 fullShare (sum0 x0 x1 x2 x3 x4 x5 xs0) ∗ owns c arg11 fullShare (sq0 x0 x1 x2 x3 x4 x5 xs1)) -∗ K ⟨⟩))
      ⊢ wp frame (wpE (defs₀ (F := F)) Variants.none c none) E (cc0__compute_kernel i arg1 harg1 arg2 harg2 arg3 harg3 arg4 harg4 arg5 harg5 arg6 harg6 arg7 harg7 arg8 harg8 arg9 harg9 arg10 harg10 arg11 harg11) K := by
  simp only [cc0__compute_kernel_eq_skeleton]; unfold cc0__compute_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hs0, HS0⟩, ⟨%fs1, %hs1, HS1⟩, Hk⟩
  subst hf0 hf1 hf2 hf3 hf4 hf5 hs0 hs1
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro; sl_unfold_run_names; simp only [r0_a_rd, r0_b_rd, r0_c_rd, r0_a_st, r0_c_st, View.readCov_cons_toLoadRect, out0_6, sum0, sq0])

end Cert.KernelIdeal.Hand

end
-- ==== Proof.KI.C0.lean ====
import proofs.«407439_j85349590106293_1_alg».proof.Proof.KI.C0Runs

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b)) (c : Dev nD)

/-- The part of `V`'s array for window `w` that grid point `t` addresses. -/
def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0_0 : Memref sig .tc .vmem S1x128 .f32 := Memref.whole cc0_scratch0
abbrev scM0_1 : Memref sig .tc .vmem S1x128 .f32 := Memref.whole cc0_scratch1

/-- The class invariant with the two accumulators split off, each at some contents. -/
theorem PhiA0_eq :
    (Pipeline.ΦA spec0 c : sProp 𝕄)
      = iprop(iprop(iprop((∃ d, owns (c : Thread nD τ) scM0_0 fullShare d) ∗ (∃ d, owns (c : Thread nD τ) scM0_1 fullShare d))
        ∗ Pipeline.scopedRestBut (Ix := Unit) (Name := ℕ) (U := UR sig nD τ) (Lvl := ℕ) (Val := Elt F) spec0 c [cc0_scratch0, cc0_scratch1])
      ∗ (∃ r, prngReg c r)) := by
  unfold Pipeline.ΦA; rw [scopedRest0_split]; simp only [scM0_0, scM0_1, owns_whole]; try rfl

/-- Column sum and column sum of squares accumulated over points `0..n`, starting from zeros. -/
def scrAt0 : (n : ℕ) → n < cfg0.N → Vec F S1x128 .f32 × Vec F S1x128 .f32
  | 0, hn => (sum0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) k0_pay3, sq0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) k0_pay4)
  | n + 1, hn => (sum0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (scrAt0 n (Nat.lt_of_succ_lt hn)).1,
      sq0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (scrAt0 n (Nat.lt_of_succ_lt hn)).2)

/-- The three outputs and the two accumulators after point `n`; outputs 7 and 8 equal the accumulators. -/
def outsAt0 (n : ℕ) (hn : n < cfg0.N) :
    (Vec F S2000x128 .f32 × Vec F S1x128 .f32 × Vec F S1x128 .f32) × (Vec F S1x128 .f32 × Vec F S1x128 .f32) :=
  ((out0_6 (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩), (scrAt0 V c n hn).1, (scrAt0 V c n hn).2), scrAt0 V c n hn)

theorem outsAt0_7 (n : ℕ) (hn : n < cfg0.N) : (outsAt0 V c n hn).1.2.1 = (outsAt0 V c n hn).2.1 := rfl
theorem outsAt0_8 (n : ℕ) (hn : n < cfg0.N) : (outsAt0 V c n hn).1.2.2 = (outsAt0 V c n hn).2.2 := rfl

/-- The loop invariant before point `n`: from the second point on the accumulators are `scrAt0` of the point before. -/
def PhiS0 : (n : ℕ) → n ≤ cfg0.N → sProp 𝕄
  | 0, _ => Pipeline.ΦA spec0 c
  | n + 1, hn => iprop(iprop(iprop(owns (c : Thread nD τ) scM0_0 fullShare (scrAt0 V c n hn).1 ∗ owns (c : Thread nD τ) scM0_1 fullShare (scrAt0 V c n hn).2)
        ∗ Pipeline.scopedRestBut (Ix := Unit) (Name := ℕ) (U := UR sig nD τ) (Lvl := ℕ) (Val := Elt F) spec0 c [cc0_scratch0, cc0_scratch1])
      ∗ (∃ r, prngReg c r))

/-- Proof data: arrays as in `V`, inputs unchanged by a point, outputs as `outsAt0` says. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1.1
    | ⟨7, _⟩ => (outsAt0 V c t.val t.isLt).1.2.1
    | ⟨8, _⟩ => (outsAt0 V c t.val t.isLt).1.2.2
  Φ t := PhiS0 V c t.val (Nat.le_of_lt_succ t.isLt)
  q _ := fullShare
  owed _ := 0

theorem A_eq0 (w : Fin cfg0.W) : (dat0 V c).A w = V c (Pipeline.arrRef spec0 w) := rfl
theorem after0_6 (t : Fin cfg0.N) : (dat0 V c).after 6 t = (outsAt0 V c t.val t.isLt).1.1 := rfl
theorem after0_7 (t : Fin cfg0.N) : (dat0 V c).after 7 t = (outsAt0 V c t.val t.isLt).1.2.1 := rfl
theorem after0_8 (t : Fin cfg0.N) : (dat0 V c).after 8 t = (outsAt0 V c t.val t.isLt).1.2.2 := rfl

/-- The six inputs are read-only: at every point each is its block of `V`'s array. -/
theorem before0 (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ (∀ d, (dat0 V c).before 4 t d = iblk0 V c 4 t) ∧ (∀ d, (dat0 V c).before 5 t d = iblk0 V c 5 t) := by
  refine ⟨?_, ?_, ?_, ?_, ?_, ?_⟩ <;>
    exact fun d => (Dat.before_in_eq_fetched _ _ rfl (fun _ => rfl) (fun _ _ _ => rfl) (fun _ => rfl) t d).trans rfl

theorem live0 (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

/-- One point of the loop, by the kernel's triple for its case (first, middle or last point). -/
theorem sound_body0 (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d)))
      ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t)) := by
  obtain ⟨b0, b1, b2, b3, b4, b5⟩ := before0 V c t
  unfold bodyAt0
  simp only [b0, b1, b2, b3, b4, b5]
  rw [live0 V c 0 t (liveAt0_0 t), live0 V c 1 t (liveAt0_1 t), live0 V c 2 t (liveAt0_2 t), live0 V c 3 t (liveAt0_3 t),
    live0 V c 4 t (liveAt0_4 t), live0 V c 5 t (liveAt0_5 t), live0 V c 6 t (liveAt0_6 t),
    show (dat0 V c).Φ t.succ = PhiS0 V c (t.val + 1) t.isLt from rfl, PhiS0]
  by_cases h24 : t.val = 24
  on_goal 1 => rw [live0 V c 7 t (liveAt0_7 t h24), live0 V c 8 t (liveAt0_8 t h24)]
  on_goal 2 => rw [Dat.leavesExact_idle (dat0 V c) 7 t (idleAt0_7 t h24) (noFlush0_7 t h24),
    Dat.leavesExact_idle (dat0 V c) 8 t (idleAt0_8 t h24) (noFlush0_8 t h24)]
  all_goals obtain ⟨_ | n, hn⟩ := t
  · exact absurd h24 (show (0 : ℕ) ≠ 24 by decide)
  all_goals first
    | rw [show (dat0 V c).Φ (Fin.castSucc ⟨0, hn⟩) = _ from PhiA0_eq c]
    | rw [show (dat0 V c).Φ (Fin.castSucc ⟨n + 1, hn⟩) = PhiS0 V c (n + 1) (Nat.le_of_lt hn) from rfl, PhiS0]
  all_goals iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
  on_goal 1 => iapply (sound_kernel0_C c Set.univ _ _ _ _ _ _ _ _ _ _ _ _ _ _ _ _ _ _ _ _ _ _ _ (fun h => absurd ((hcond0_1 ⟨n + 1, hn⟩).mp h) n.succ_ne_zero) ((hcond0_2 ⟨n + 1, hn⟩).mpr h24)
    (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (scrAt0 V c n (Nat.lt_of_succ_lt hn)).1 (scrAt0 V c n (Nat.lt_of_succ_lt hn)).2 _)
  on_goal 2 => iapply (sound_kernel0_A c Set.univ _ _ _ _ _ _ _ _ _ _ _ _ _ _ _ _ _ _ _ _ _ _ _ ((hcond0_1 ⟨0, hn⟩).mpr rfl) (fun h => h24 ((hcond0_2 ⟨0, hn⟩).mp h))
    (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) _)
  on_goal 3 => iapply (sound_kernel0_B c Set.univ _ _ _ _ _ _ _ _ _ _ _ _ _ _ _ _ _ _ _ _ _ _ _ (fun h => absurd ((hcond0_1 ⟨n + 1, hn⟩).mp h) n.succ_ne_zero) (fun h => h24 ((hcond0_2 ⟨n + 1, hn⟩).mp h))
    (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (scrAt0 V c n (Nat.lt_of_succ_lt hn)).1 (scrAt0 V c n (Nat.lt_of_succ_lt hn)).2 _)
  all_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
  on_goal 1 =>
    isplitl [H7]; · icases H7 with ⟨%d, H7⟩; iexists _; iexact H7
    isplitl [H8]; · icases H8 with ⟨%d, H8⟩; iexists _; iexact H8
  all_goals
    isplitl [HS0]; · iexact HS0
    isplitl [HS1]; · iexact HS1
    first
      | iintro ⟨H0, H1, H2, H3, H4, H5, H6, H7, H8, HS0, HS1⟩
      | iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := by
  rw [show (dat0 V c).Φ 0 = Pipeline.ΦA spec0 c from rfl]

/-- After the last point the invariant implies the class invariant: the accumulators' contents are forgotten. -/
theorem hout0 : (dat0 V c).Φ (Fin.last cfg0.N) ⊢ Pipeline.ΦA spec0 c := by
  rw [show (dat0 V c).Φ (Fin.last cfg0.N) = PhiS0 V c (24 + 1) (by decide) from rfl, PhiS0, PhiA0_eq]
  iintro ⟨⟨⟨HS0, HS1⟩, Hrest⟩, Hg⟩
  isplitl [HS0 HS1 Hrest]
  · isplitl [HS0 HS1]
    · isplitl [HS0] <;> iexists _ <;> iassumption
    iexact Hrest
  iexact Hg

end Regions

end Cert.KernelIdeal.Hand

end
-- ==== Proof.KI.NRuns.lean ====
import proofs.«407439_j85349590106293_1_alg».proof.Proof.Gen.KernelIdeal.Launch
import proofs.«407439_j85349590106293_1_alg».proof.Proof.Gen.KernelIdeal.Skeleton
import proofs.«407439_j85349590106293_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

-- One kernel function serves the three regions that run it.
def normK {F : FTy → Type} [FloatOps F] := cc1__normalize_kernel (F := F)

theorem hz1 : (![0, 0] : Fin 2 → Nat) = fun _ => 0 := funext fun a => by fin_cases a <;> rfl

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

-- The one store's payload, laid over the whole output block.
def out1_3 (x0 : Vec F S2000x128 .f32) (x1 x2 : Vec F S1x128 .f32) : Vec F S2000x128 .f32 :=
  View.canon [⟨r1_0, k1_pay1 (View.ld x0 r1_0) (View.ld x1 r1_1) (View.ld x2 r1_1)⟩]

-- The kernel keeps its three inputs and leaves `out1_3` of them in the output: the one store's rectangle is the whole block.
theorem sound_kernel1 (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (normK i arg1 harg1 arg2 harg2 arg3 harg3 arg4 harg4) K := by
  unfold normK
  simp only [cc1__normalize_kernel_eq_skeleton]; unfold cc1__normalize_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x128.size (by rfl))

end Cert.KernelIdeal.Hand

end
-- ==== Proof.KI.N1.lean ====
import proofs.«407439_j85349590106293_1_alg».proof.Proof.Gen.KernelIdeal.Launch
import proofs.«407439_j85349590106293_1_alg».proof.Proof.Gen.KernelIdeal.Skeleton
import proofs.«407439_j85349590106293_1_alg».proof.Proof.Gen.KernelIdeal.Points
import proofs.«407439_j85349590106293_1_alg».proof.Proof.KI.NRuns
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_3 (t : Fin cfg1.N) :
    (dat1 V c).after 3 t = out1_3 (iblk1 V c 0 t) (iblk1 V c 1 t) (iblk1 V c 2 t) := by dsimp only [dat1]

-- Proof data over `V`'s arrays whose body returns every input block unchanged finds, in each input window, that window's block.
theorem before1_of (dat : Dat τ (Elt F) Unit ℕ (UR sig nD τ) ℕ cfg1 c) (hA : ∀ w, dat.A w = V c (Pipeline.arrRef spec1 w))
    (h : (∀ t, dat.after 0 t = iblk1 V c 0 t) ∧ (∀ t, dat.after 1 t = iblk1 V c 1 t)
      ∧ ∀ t, dat.after 2 t = iblk1 V c 2 t) (t : Fin cfg1.N) :
    (∀ d, dat.before 0 t d = iblk1 V c 0 t) ∧ (∀ d, dat.before 1 t d = iblk1 V c 1 t)
      ∧ ∀ d, dat.before 2 t d = iblk1 V c 2 t := by
  obtain ⟨h0, h1, h2⟩ := h
  refine ⟨?_, ?_, ?_⟩ <;>
    exact fun d => (dat.before_in_eq_fetched _ rfl (fun _ => rfl) (fun _ _ _ => rfl)
      (fun t => by (first | rw [h0] | rw [h1] | rw [h2]); unfold Dat.blockOf iblk1; rw [hA]; try rfl) t d).trans
      (by unfold Dat.fetched Dat.blockOf iblk1; rw [hA]; try rfl)

theorem cc_eq1 : cc1__normalize_kernel (F := F) = normK := rfl

-- At every point the kernel's triple applies to the input blocks; everything else is framed.
theorem body_obligation1 : BodyObligation (dat1 (F := F) V c) (defs₀ (F := F)) Variants.none () Set.univ := fun t => by
  rw [bigSep_W1, bigSep_W1]
  show _ ⊢ wp frame _ _ (bodyAt1 t) _
  unfold bodyAt1
  dsimp only
  rw [cc_eq1]
  obtain ⟨b0, b1, b2⟩ := before1_of V c (dat1 V c) (fun _ => rfl) ⟨fun _ => rfl, fun _ => rfl, fun _ => rfl⟩ t
  simp only [b0, b1, b2]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro H
  iframe HΦ Ho
  iexact H

theorem hin1 : Pipeline.ΦA spec1 c ⊢ (dat1 V c).Φ 0 := .rfl

theorem hout1 : (dat1 V c).Φ (Fin.last cfg1.N) ⊢ Pipeline.ΦA spec1 c := .rfl

end Cert.KernelIdeal.Hand

end
-- ==== Proof.KI.CRuns.lean ====
import proofs.«407439_j85349590106293_1_alg».proof.Proof.Gen.KernelIdeal.Launch
import proofs.«407439_j85349590106293_1_alg».proof.Proof.Gen.KernelIdeal.Skeleton
import proofs.«407439_j85349590106293_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- One kernel function serves both regions that run it.
def computeK {F : FTy → Type} [FloatOps F] := @cc2__compute_kernel F _

abbrev cond2_1 (i : grid2.Coords) : Prop :=
  (Scalar.cmpi .ne (Scalar.extui (Scalar.cmpi .eq (BitVec.ofNat 32 (i 0).val) 0#32)) 0#32) = 1#1
abbrev cond2_2 (i : grid2.Coords) : Prop := k2_cond2 i = 1#1
abbrev r2_a : Rect S2000x128 := Rect.unit (s := S2000x128) ![0, 0] ![2000, 128] inb_S2000x128_S2000x128_0_0
abbrev r2_b : Rect S128x128 := Rect.unit (s := S128x128) ![0, 0] ![128, 128] inb_S128x128_S128x128_0_0
abbrev r2_c : Rect S1x128 := Rect.unit (s := S1x128) ![0, 0] ![1, 128] inb_S1x128_S1x128_0_0

theorem zeros2 : (![0, 0] : Fin 2 → Nat) = fun _ => 0 := funext fun a => by fin_cases a <;> rfl

section
variable (x0 x1 : Vec F S2000x128 .f32) (x2 : Vec F S128x128 .f32) (x3 : Vec F S1x128 .f32) (x4 : Vec F S128x128 .f32) (x5 : Vec F S1x128 .f32) (prev : Vec F S1x128 .f32)
def out2_6 : Vec F S2000x128 .f32 := k2_pay5 x0 x1 x2 x3 x4 x5
def sum2 : Vec F S1x128 .f32 := k2_pay1 prev (k2_pay6 x0 x1 x2 x3 x4 x5)
def sq2 : Vec F S1x128 .f32 := k2_pay2 (k2_pay5 x0 x1 x2 x3 x4 x5) prev
end

section
variable {κ : Kind} {sp : Space} {S : Shape} {e : EltTy} (v : View sig κ sp S e) (f : v.ty.Contents (Elt F))
  {off : Fin S.rank → Nat} (h : off = fun _ => 0) (inb : ∀ a, off a + S.size a ≤ S.size a)
include h

-- At zero offsets and the buffer's own sizes the rectangle is every index, so the load is the identity.
theorem readAt_whole2 : v.readAt (Elt F) (Rect.unit off S.size inb).toLoadRect f = v.read (Elt F) f :=
  View.ld_unit_zero h inb _

-- The last piece covers every index, so neither earlier pieces nor the prior contents are read.
theorem read_store_whole2 (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)
end

section
variable {κ : Kind} {sp : Space}
theorem r2_a_rd (v : View sig κ sp S2000x128 .f32) (f : v.ty.Contents (Elt F)) : v.readAt (Elt F) r2_a.toLoadRect f = v.read (Elt F) f := readAt_whole2 v f zeros2 _
theorem r2_b_rd (v : View sig κ sp S128x128 .f32) (f : v.ty.Contents (Elt F)) : v.readAt (Elt F) r2_b.toLoadRect f = v.read (Elt F) f := readAt_whole2 v f zeros2 _
theorem r2_c_rd (v : View sig κ sp S1x128 .f32) (f : v.ty.Contents (Elt F)) : v.readAt (Elt F) r2_c.toLoadRect f = v.read (Elt F) f := readAt_whole2 v f zeros2 _
theorem r2_a_st (v : View sig κ sp S2000x128 .f32) (f : v.ty.Contents (Elt F)) (w : S2000x128.Idx → Elt F .f32) (L : List (View.Piece (Elt F) S2000x128 .f32)) :
    v.read (Elt F) (v.writes (Elt F) f ((⟨r2_a, w⟩ : View.Piece (Elt F) S2000x128 .f32) :: L)) = w := read_store_whole2 v f zeros2 _ w L
theorem r2_c_st (v : View sig κ sp S1x128 .f32) (f : v.ty.Contents (Elt F)) (w : S1x128.Idx → Elt F .f32) (L : List (View.Piece (Elt F) S1x128 .f32)) :
    v.read (Elt F) (v.writes (Elt F) f ((⟨r2_c, w⟩ : View.Piece (Elt F) S1x128 .f32) :: L)) = w := read_store_whole2 v f zeros2 _ w L
end

variable (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)

theorem sound_kernel2_A (hc1 : cond2_1 i) (hc2 : ¬cond2_2 i) (x0 x1 : Vec F S2000x128 .f32) (x2 : Vec F S128x128 .f32) (x3 : Vec F S1x128 .f32) (x4 : Vec F S128x128 .f32) (x5 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ (∃ d, owns c arg10 fullShare d) ∗ (∃ d, owns c arg11 fullShare d)
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out2_6 x0 x1 x2 x3 x4 x5) ∗ owns c arg10 fullShare (sum2 x0 x1 x2 x3 x4 x5 k2_pay3) ∗ owns c arg11 fullShare (sq2 x0 x1 x2 x3 x4 x5 k2_pay4)) -∗ K ⟨⟩))
      ⊢ wp frame (wpE (defs₀ (F := F)) Variants.none c none) E (computeK i arg1 harg1 arg2 harg2 arg3 harg3 arg4 harg4 arg5 harg5 arg6 harg6 arg7 harg7 arg8 harg8 arg9 harg9 arg10 harg10 arg11 harg11) K := by
  unfold computeK
  simp only [cc2__compute_kernel_eq_skeleton]; unfold cc2__compute_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0 hf1 hf2 hf3 hf4 hf5
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [HS0]
  all_goals (iexists _; isplitr; swap; iassumption; ipureintro; sl_unfold_run_names; simp only [r2_a_rd, r2_b_rd, r2_c_rd, r2_a_st, r2_c_st, View.readCov_cons_toLoadRect, out2_6, sum2, sq2])

theorem sound_kernel2_B (hc1 : ¬cond2_1 i) (hc2 : ¬cond2_2 i) (x0 x1 : Vec F S2000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ owns c arg10 fullShare xs0 ∗ owns c arg11 fullShare xs1
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out2_6 x0 x1 x2 x3 x4 x5) ∗ owns c arg10 fullShare (sum2 x0 x1 x2 x3 x4 x5 xs0) ∗ owns c arg11 fullShare (sq2 x0 x1 x2 x3 x4 x5 xs1)) -∗ K ⟨⟩))
      ⊢ wp frame (wpE (defs₀ (F := F)) Variants.none c none) E (computeK i arg1 harg1 arg2 harg2 arg3 harg3 arg4 harg4 arg5 harg5 arg6 harg6 arg7 harg7 arg8 harg8 arg9 harg9 arg10 harg10 arg11 harg11) K := by
  unfold computeK
  simp only [cc2__compute_kernel_eq_skeleton]; unfold cc2__compute_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, Hk⟩
  subst hf0 hf1 hf2 hf3 hf4 hf5 hs0 hs1
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [HS0]
  all_goals (iexists _; isplitr; swap; iassumption; ipureintro; sl_unfold_run_names; simp only [r2_a_rd, r2_b_rd, r2_c_rd, r2_a_st, r2_c_st, View.readCov_cons_toLoadRect, out2_6, sum2, sq2])

theorem sound_kernel2_C (hc1 : ¬cond2_1 i) (hc2 : cond2_2 i) (x0 x1 : Vec F S2000x128 .f32) (x2 : Vec F S128x128 .f32) (x3 : Vec F S1x128 .f32) (x4 : Vec F S128x128 .f32) (x5 : Vec F S1x128 .f32) (xs0 xs1 : Vec F S1x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ (∃ d, owns c arg8 fullShare d) ∗ (∃ d, owns c arg9 fullShare d) ∗ owns c arg10 fullShare xs0 ∗ owns c arg11 fullShare xs1
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (out2_6 x0 x1 x2 x3 x4 x5) ∗ owns c arg8 fullShare (sum2 x0 x1 x2 x3 x4 x5 xs0) ∗ owns c arg9 fullShare (sq2 x0 x1 x2 x3 x4 x5 xs1) ∗ owns c arg10 fullShare (sum2 x0 x1 x2 x3 x4 x5 xs0) ∗ owns c arg11 fullShare (sq2 x0 x1 x2 x3 x4 x5 xs1)) -∗ K ⟨⟩))
      ⊢ wp frame (wpE (defs₀ (F := F)) Variants.none c none) E (computeK i arg1 harg1 arg2 harg2 arg3 harg3 arg4 harg4 arg5 harg5 arg6 harg6 arg7 harg7 arg8 harg8 arg9 harg9 arg10 harg10 arg11 harg11) K := by
  unfold computeK
  simp only [cc2__compute_kernel_eq_skeleton]; unfold cc2__compute_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hs0, HS0⟩, ⟨%fs1, %hs1, HS1⟩, Hk⟩
  subst hf0 hf1 hf2 hf3 hf4 hf5 hs0 hs1
  sl_exec (disch := first | exact hc1 | exact hc2)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro; sl_unfold_run_names; simp only [r2_a_rd, r2_b_rd, r2_c_rd, r2_a_st, r2_c_st, View.readCov_cons_toLoadRect, out2_6, sum2, sq2])

end Cert.KernelIdeal.Hand

end
-- ==== Proof.KI.C2Runs.lean ====
import proofs.«407439_j85349590106293_1_alg».proof.Proof.KI.CRuns

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The two conditions split the grid into its first point, its last point and the rest.
theorem hcond2_1 : ∀ t : Fin cfg2.N, cond2_1 (grid2.coords t) ↔ t.val = 0 :=
  (by decide +kernel : ∀ t : Fin grid2.N, cond2_1 (grid2.coords t) ↔ t.val = 0)

theorem hcond2_2 : ∀ t : Fin cfg2.N, cond2_2 (grid2.coords t) ↔ t.val = 24 :=
  (by decide +kernel : ∀ t : Fin grid2.N, cond2_2 (grid2.coords t) ↔ t.val = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem idleAt2_7 : ∀ t : Fin cfg2.N, t.val ≠ 24 → cfg2.idle 7 (grid2.coords t) = true := by decide +kernel
theorem idleAt2_8 : ∀ t : Fin cfg2.N, t.val ≠ 24 → cfg2.idle 8 (grid2.coords t) = true := by decide +kernel
theorem noFlush2_7 : ∀ t : Fin cfg2.N, t.val ≠ 24 → (cfg2.win 7).flush t = false := by decide +kernel
theorem noFlush2_8 : ∀ t : Fin cfg2.N, t.val ≠ 24 → (cfg2.win 8).flush t = false := by decide +kernel
theorem liveAt2_7 : ∀ t : Fin cfg2.N, t.val = 24 → cfg2.idle 7 (grid2.coords t) = false := by decide +kernel
theorem liveAt2_8 : ∀ t : Fin cfg2.N, t.val = 24 → cfg2.idle 8 (grid2.coords t) = false := by decide +kernel

theorem cc_eq2 : @cc2__compute_kernel F _ _ = computeK := rfl

end Cert.KernelIdeal.Hand

end
-- ==== Proof.KI.C2.lean ====
import proofs.«407439_j85349590106293_1_alg».proof.Proof.KI.C2Runs

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b)) (c : Dev nD)

/-- The part of `V`'s array for window `w` that grid point `t` addresses. -/
def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2_0 : Memref sig .tc .vmem S1x128 .f32 := Memref.whole cc2_scratch0
abbrev scM2_1 : Memref sig .tc .vmem S1x128 .f32 := Memref.whole cc2_scratch1

/-- The class invariant with the two accumulators split off, each at some contents. -/
theorem PhiA2_eq :
    (Pipeline.ΦA spec2 c : sProp 𝕄)
      = iprop(iprop(iprop((∃ d, owns (c : Thread nD τ) scM2_0 fullShare d) ∗ (∃ d, owns (c : Thread nD τ) scM2_1 fullShare d))
        ∗ Pipeline.scopedRestBut (Ix := Unit) (Name := ℕ) (U := UR sig nD τ) (Lvl := ℕ) (Val := Elt F) spec2 c [cc2_scratch0, cc2_scratch1])
      ∗ (∃ r, prngReg c r)) := by
  unfold Pipeline.ΦA; rw [scopedRest2_split]; simp only [scM2_0, scM2_1, owns_whole]; try rfl

/-- Column sum and column sum of squares accumulated over points `0..n`, starting from zeros. -/
def scrAt2 : (n : ℕ) → n < cfg2.N → Vec F S1x128 .f32 × Vec F S1x128 .f32
  | 0, hn => (sum2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) k2_pay3, sq2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) k2_pay4)
  | n + 1, hn => (sum2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (scrAt2 n (Nat.lt_of_succ_lt hn)).1,
      sq2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (scrAt2 n (Nat.lt_of_succ_lt hn)).2)

/-- The three outputs and the two accumulators after point `n`; outputs 7 and 8 equal the accumulators. -/
def outsAt2 (n : ℕ) (hn : n < cfg2.N) :
    (Vec F S2000x128 .f32 × Vec F S1x128 .f32 × Vec F S1x128 .f32) × (Vec F S1x128 .f32 × Vec F S1x128 .f32) :=
  ((out2_6 (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩), (scrAt2 V c n hn).1, (scrAt2 V c n hn).2), scrAt2 V c n hn)

theorem outsAt2_7 (n : ℕ) (hn : n < cfg2.N) : (outsAt2 V c n hn).1.2.1 = (outsAt2 V c n hn).2.1 := rfl
theorem outsAt2_8 (n : ℕ) (hn : n < cfg2.N) : (outsAt2 V c n hn).1.2.2 = (outsAt2 V c n hn).2.2 := rfl

/-- The loop invariant before point `n`: from the second point on the accumulators are `scrAt2` of the point before. -/
def PhiS2 : (n : ℕ) → n ≤ cfg2.N → sProp 𝕄
  | 0, _ => Pipeline.ΦA spec2 c
  | n + 1, hn => iprop(iprop(iprop(owns (c : Thread nD τ) scM2_0 fullShare (scrAt2 V c n hn).1 ∗ owns (c : Thread nD τ) scM2_1 fullShare (scrAt2 V c n hn).2)
        ∗ Pipeline.scopedRestBut (Ix := Unit) (Name := ℕ) (U := UR sig nD τ) (Lvl := ℕ) (Val := Elt F) spec2 c [cc2_scratch0, cc2_scratch1])
      ∗ (∃ r, prngReg c r))

/-- Proof data: arrays as in `V`, inputs unchanged by a point, outputs as `outsAt2` says. -/
def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1.1
    | ⟨7, _⟩ => (outsAt2 V c t.val t.isLt).1.2.1
    | ⟨8, _⟩ => (outsAt2 V c t.val t.isLt).1.2.2
  Φ t := PhiS2 V c t.val (Nat.le_of_lt_succ t.isLt)
  q _ := fullShare
  owed _ := 0

theorem A_eq2 (w : Fin cfg2.W) : (dat2 V c).A w = V c (Pipeline.arrRef spec2 w) := rfl
theorem after2_6 (t : Fin cfg2.N) : (dat2 V c).after 6 t = (outsAt2 V c t.val t.isLt).1.1 := rfl
theorem after2_7 (t : Fin cfg2.N) : (dat2 V c).after 7 t = (outsAt2 V c t.val t.isLt).1.2.1 := rfl
theorem after2_8 (t : Fin cfg2.N) : (dat2 V c).after 8 t = (outsAt2 V c t.val t.isLt).1.2.2 := rfl

/-- The six inputs are read-only: at every point each is its block of `V`'s array. -/
theorem before2 (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) ∧ (∀ d, (dat2 V c).before 5 t d = iblk2 V c 5 t) := by
  refine ⟨?_, ?_, ?_, ?_, ?_, ?_⟩ <;>
    exact fun d => (Dat.before_in_eq_fetched _ _ rfl (fun _ => rfl) (fun _ _ _ => rfl) (fun _ => rfl) t d).trans rfl

theorem live2 (w : Fin cfg2.W) (t : Fin cfg2.N) (h : cfg2.idle w (cfg2.grid.coords t) = false) :
    (dat2 V c).leavesExact w t = owns (c : Thread nD τ) ((cfg2.win w).stage (cfg2.slots t w)) fullShare ((dat2 V c).after w t) := by
  unfold Dat.leavesExact; rw [h]

/-- One point of the loop, by the kernel's triple for its case (first, middle or last point). -/
theorem sound_body2 (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))
      ∗ (∃ d, owns (c : Thread nD τ) (st2_8 t) fullShare ((dat2 V c).before 8 t d)))
      ⊢ wp frame (wpE (defs₀ (F := F)) Variants.none c none) Set.univ (bodyAt2 t) (fun _ =>
        iprop((dat2 V c).Φ t.succ ∗ (dat2 V c).owesAt () t.succ
          ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t)) := by
  obtain ⟨b0, b1, b2, b3, b4, b5⟩ := before2 V c t
  unfold bodyAt2
  rw [cc_eq2]
  simp only [b0, b1, b2, b3, b4, b5]
  rw [live2 V c 0 t (liveAt2_0 t), live2 V c 1 t (liveAt2_1 t), live2 V c 2 t (liveAt2_2 t), live2 V c 3 t (liveAt2_3 t),
    live2 V c 4 t (liveAt2_4 t), live2 V c 5 t (liveAt2_5 t), live2 V c 6 t (liveAt2_6 t),
    show (dat2 V c).Φ t.succ = PhiS2 V c (t.val + 1) t.isLt from rfl, PhiS2]
  by_cases h24 : t.val = 24
  on_goal 1 => rw [live2 V c 7 t (liveAt2_7 t h24), live2 V c 8 t (liveAt2_8 t h24)]
  on_goal 2 => rw [Dat.leavesExact_idle (dat2 V c) 7 t (idleAt2_7 t h24) (noFlush2_7 t h24),
    Dat.leavesExact_idle (dat2 V c) 8 t (idleAt2_8 t h24) (noFlush2_8 t h24)]
  all_goals obtain ⟨_ | n, hn⟩ := t
  · exact absurd h24 (show (0 : ℕ) ≠ 24 by decide)
  all_goals first
    | rw [show (dat2 V c).Φ (Fin.castSucc ⟨0, hn⟩) = _ from PhiA2_eq c]
    | rw [show (dat2 V c).Φ (Fin.castSucc ⟨n + 1, hn⟩) = PhiS2 V c (n + 1) (Nat.le_of_lt hn) from rfl, PhiS2]
  all_goals iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
  on_goal 1 => iapply (sound_kernel2_C c Set.univ _ _ _ _ _ _ _ _ _ _ _ _ _ _ _ _ _ _ _ _ _ _ _ (fun h => absurd ((hcond2_1 ⟨n + 1, hn⟩).mp h) n.succ_ne_zero) ((hcond2_2 ⟨n + 1, hn⟩).mpr h24)
    (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (scrAt2 V c n (Nat.lt_of_succ_lt hn)).1 (scrAt2 V c n (Nat.lt_of_succ_lt hn)).2 _)
  on_goal 2 => iapply (sound_kernel2_A c Set.univ _ _ _ _ _ _ _ _ _ _ _ _ _ _ _ _ _ _ _ _ _ _ _ ((hcond2_1 ⟨0, hn⟩).mpr rfl) (fun h => h24 ((hcond2_2 ⟨0, hn⟩).mp h))
    (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) _)
  on_goal 3 => iapply (sound_kernel2_B c Set.univ _ _ _ _ _ _ _ _ _ _ _ _ _ _ _ _ _ _ _ _ _ _ _ (fun h => absurd ((hcond2_1 ⟨n + 1, hn⟩).mp h) n.succ_ne_zero) (fun h => h24 ((hcond2_2 ⟨n + 1, hn⟩).mp h))
    (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (scrAt2 V c n (Nat.lt_of_succ_lt hn)).1 (scrAt2 V c n (Nat.lt_of_succ_lt hn)).2 _)
  all_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
  on_goal 1 =>
    isplitl [H7]; · icases H7 with ⟨%d, H7⟩; iexists _; iexact H7
    isplitl [H8]; · icases H8 with ⟨%d, H8⟩; iexists _; iexact H8
  all_goals
    isplitl [HS0]; · iexact HS0
    isplitl [HS1]; · iexact HS1
    first
      | iintro ⟨H0, H1, H2, H3, H4, H5, H6, H7, H8, HS0, HS1⟩
      | iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation2 : BodyObligation (dat2 (F := F) V c) (defs₀ (F := F)) Variants.none () Set.univ := fun t => by
  rw [bigSep_W2, bigSep_W2]
  exact sound_body2 V c t

theorem hin2 : Pipeline.ΦA spec2 c ⊢ (dat2 V c).Φ 0 := by
  rw [show (dat2 V c).Φ 0 = Pipeline.ΦA spec2 c from rfl]

/-- After the last point the invariant implies the class invariant: the accumulators' contents are forgotten. -/
theorem hout2 : (dat2 V c).Φ (Fin.last cfg2.N) ⊢ Pipeline.ΦA spec2 c := by
  rw [show (dat2 V c).Φ (Fin.last cfg2.N) = PhiS2 V c (24 + 1) (by decide) from rfl, PhiS2, PhiA2_eq]
  iintro ⟨⟨⟨HS0, HS1⟩, Hrest⟩, Hg⟩
  isplitl [HS0 HS1 Hrest]
  · isplitl [HS0 HS1]
    · isplitl [HS0] <;> iexists _ <;> iassumption
    iexact Hrest
  iexact Hg

end Regions

end Cert.KernelIdeal.Hand

end
-- ==== Proof.KI.N3.lean ====
import proofs.«407439_j85349590106293_1_alg».proof.Proof.Gen.KernelIdeal.Launch
import proofs.«407439_j85349590106293_1_alg».proof.Proof.Gen.KernelIdeal.Skeleton
import proofs.«407439_j85349590106293_1_alg».proof.Proof.Gen.KernelIdeal.Points
import proofs.«407439_j85349590106293_1_alg».proof.Proof.KI.NRuns
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out1_3 (iblk3 V c 0 t) (iblk3 V c 1 t) (iblk3 V c 2 t)
  Φ _ := Pipeline.ΦA spec3 c
  q _ := fullShare
  owed _ := 0

theorem A_eq3 (w : Fin cfg3.W) : (dat3 V c).A w = V c (Pipeline.arrRef spec3 w) := rfl

theorem after3_3 (t : Fin cfg3.N) :
    (dat3 V c).after 3 t = out1_3 (iblk3 V c 0 t) (iblk3 V c 1 t) (iblk3 V c 2 t) := by dsimp only [dat3]

-- Proof data over `V`'s arrays whose body returns every input block unchanged finds, in each input window, that window's block.
theorem before3_of (dat : Dat τ (Elt F) Unit ℕ (UR sig nD τ) ℕ cfg3 c) (hA : ∀ w, dat.A w = V c (Pipeline.arrRef spec3 w))
    (h : (∀ t, dat.after 0 t = iblk3 V c 0 t) ∧ (∀ t, dat.after 1 t = iblk3 V c 1 t)
      ∧ ∀ t, dat.after 2 t = iblk3 V c 2 t) (t : Fin cfg3.N) :
    (∀ d, dat.before 0 t d = iblk3 V c 0 t) ∧ (∀ d, dat.before 1 t d = iblk3 V c 1 t)
      ∧ ∀ d, dat.before 2 t d = iblk3 V c 2 t := by
  obtain ⟨h0, h1, h2⟩ := h
  refine ⟨?_, ?_, ?_⟩ <;>
    exact fun d => (dat.before_in_eq_fetched _ rfl (fun _ => rfl) (fun _ _ _ => rfl)
      (fun t => by (first | rw [h0] | rw [h1] | rw [h2]); unfold Dat.blockOf iblk3; rw [hA]; try rfl) t d).trans
      (by unfold Dat.fetched Dat.blockOf iblk3; rw [hA]; try rfl)

theorem cc_eq3 : cc3__normalize_kernel (F := F) = normK := rfl

-- At every point the kernel's triple applies to the input blocks; everything else is framed.
theorem body_obligation3 : BodyObligation (dat3 (F := F) V c) (defs₀ (F := F)) Variants.none () Set.univ := fun t => by
  rw [bigSep_W3, bigSep_W3]
  show _ ⊢ wp frame _ _ (bodyAt3 t) _
  unfold bodyAt3
  dsimp only
  rw [cc_eq3]
  obtain ⟨b0, b1, b2⟩ := before3_of V c (dat3 V c) (fun _ => rfl) ⟨fun _ => rfl, fun _ => rfl, fun _ => rfl⟩ t
  simp only [b0, b1, b2]
  rw [show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩⟩
  iapply (sound_kernel1 c Set.univ _ _ _ _ _ _ _ _ _ (iblk3 V c 0 t) (iblk3 V c 1 t) (iblk3 V c 2 t) _)
  iframe H0 H1 H2
  isplitl [H3]; · iexists _; iexact H3
  iintro H
  iframe HΦ Ho
  iexact H

theorem hin3 : Pipeline.ΦA spec3 c ⊢ (dat3 V c).Φ 0 := .rfl

theorem hout3 : (dat3 V c).Φ (Fin.last cfg3.N) ⊢ Pipeline.ΦA spec3 c := .rfl

end Cert.KernelIdeal.Hand

end
-- ==== Proof.KI.C4Runs.lean ====
import proofs.«407439_j85349590106293_1_alg».proof.Proof.KI.CRuns

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The two conditions split the grid into its first point, its last point and the rest.
theorem hcond4_1 : ∀ t : Fin cfg4.N, cond2_1 (grid4.coords t) ↔ t.val = 0 :=
  (by decide +kernel : ∀ t : Fin grid4.N, cond2_1 (grid4.coords t) ↔ t.val = 0)

theorem hcond4_2 : ∀ t : Fin cfg4.N, cond2_2 (grid4.coords t) ↔ t.val = 24 :=
  (by decide +kernel : ∀ t : Fin grid4.N, cond2_2 (grid4.coords t) ↔ t.val = 24)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
theorem idleAt4_7 : ∀ t : Fin cfg4.N, t.val ≠ 24 → cfg4.idle 7 (grid4.coords t) = true := by decide +kernel
theorem idleAt4_8 : ∀ t : Fin cfg4.N, t.val ≠ 24 → cfg4.idle 8 (grid4.coords t) = true := by decide +kernel
theorem noFlush4_7 : ∀ t : Fin cfg4.N, t.val ≠ 24 → (cfg4.win 7).flush t = false := by decide +kernel
theorem noFlush4_8 : ∀ t : Fin cfg4.N, t.val ≠ 24 → (cfg4.win 8).flush t = false := by decide +kernel
theorem liveAt4_7 : ∀ t : Fin cfg4.N, t.val = 24 → cfg4.idle 7 (grid4.coords t) = false := by decide +kernel
theorem liveAt4_8 : ∀ t : Fin cfg4.N, t.val = 24 → cfg4.idle 8 (grid4.coords t) = false := by decide +kernel

theorem cc_eq4 : @cc4__compute_kernel F _ _ = computeK := rfl

end Cert.KernelIdeal.Hand

end
-- ==== Proof.KI.C4.lean ====
import proofs.«407439_j85349590106293_1_alg».proof.Proof.KI.C4Runs

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b)) (c : Dev nD)

/-- The part of `V`'s array for window `w` that grid point `t` addresses. -/
def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4_0 : Memref sig .tc .vmem S1x128 .f32 := Memref.whole cc4_scratch0
abbrev scM4_1 : Memref sig .tc .vmem S1x128 .f32 := Memref.whole cc4_scratch1

/-- The class invariant with the two accumulators split off, each at some contents. -/
theorem PhiA4_eq :
    (Pipeline.ΦA spec4 c : sProp 𝕄)
      = iprop(iprop(iprop((∃ d, owns (c : Thread nD τ) scM4_0 fullShare d) ∗ (∃ d, owns (c : Thread nD τ) scM4_1 fullShare d))
        ∗ Pipeline.scopedRestBut (Ix := Unit) (Name := ℕ) (U := UR sig nD τ) (Lvl := ℕ) (Val := Elt F) spec4 c [cc4_scratch0, cc4_scratch1])
      ∗ (∃ r, prngReg c r)) := by
  unfold Pipeline.ΦA; rw [scopedRest4_split]; simp only [scM4_0, scM4_1, owns_whole]; try rfl

/-- Column sum and column sum of squares accumulated over points `0..n`, starting from zeros. -/
def scrAt4 : (n : ℕ) → n < cfg4.N → Vec F S1x128 .f32 × Vec F S1x128 .f32
  | 0, hn => (sum2 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) k2_pay3, sq2 (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) k2_pay4)
  | n + 1, hn => (sum2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (scrAt4 n (Nat.lt_of_succ_lt hn)).1,
      sq2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (scrAt4 n (Nat.lt_of_succ_lt hn)).2)

/-- The three outputs and the two accumulators after point `n`; outputs 7 and 8 equal the accumulators. -/
def outsAt4 (n : ℕ) (hn : n < cfg4.N) :
    (Vec F S2000x128 .f32 × Vec F S1x128 .f32 × Vec F S1x128 .f32) × (Vec F S1x128 .f32 × Vec F S1x128 .f32) :=
  ((out2_6 (iblk4 V c 0 ⟨n, hn⟩) (iblk4 V c 1 ⟨n, hn⟩) (iblk4 V c 2 ⟨n, hn⟩) (iblk4 V c 3 ⟨n, hn⟩) (iblk4 V c 4 ⟨n, hn⟩) (iblk4 V c 5 ⟨n, hn⟩), (scrAt4 V c n hn).1, (scrAt4 V c n hn).2), scrAt4 V c n hn)

theorem outsAt4_7 (n : ℕ) (hn : n < cfg4.N) : (outsAt4 V c n hn).1.2.1 = (outsAt4 V c n hn).2.1 := rfl
theorem outsAt4_8 (n : ℕ) (hn : n < cfg4.N) : (outsAt4 V c n hn).1.2.2 = (outsAt4 V c n hn).2.2 := rfl

/-- The loop invariant before point `n`: from the second point on the accumulators are `scrAt4` of the point before. -/
def PhiS4 : (n : ℕ) → n ≤ cfg4.N → sProp 𝕄
  | 0, _ => Pipeline.ΦA spec4 c
  | n + 1, hn => iprop(iprop(iprop(owns (c : Thread nD τ) scM4_0 fullShare (scrAt4 V c n hn).1 ∗ owns (c : Thread nD τ) scM4_1 fullShare (scrAt4 V c n hn).2)
        ∗ Pipeline.scopedRestBut (Ix := Unit) (Name := ℕ) (U := UR sig nD τ) (Lvl := ℕ) (Val := Elt F) spec4 c [cc4_scratch0, cc4_scratch1])
      ∗ (∃ r, prngReg c r))

/-- Proof data: arrays as in `V`, inputs unchanged by a point, outputs as `outsAt4` says. -/
def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1.1
    | ⟨7, _⟩ => (outsAt4 V c t.val t.isLt).1.2.1
    | ⟨8, _⟩ => (outsAt4 V c t.val t.isLt).1.2.2
  Φ t := PhiS4 V c t.val (Nat.le_of_lt_succ t.isLt)
  q _ := fullShare
  owed _ := 0

theorem A_eq4 (w : Fin cfg4.W) : (dat4 V c).A w = V c (Pipeline.arrRef spec4 w) := rfl
theorem after4_6 (t : Fin cfg4.N) : (dat4 V c).after 6 t = (outsAt4 V c t.val t.isLt).1.1 := rfl
theorem after4_7 (t : Fin cfg4.N) : (dat4 V c).after 7 t = (outsAt4 V c t.val t.isLt).1.2.1 := rfl
theorem after4_8 (t : Fin cfg4.N) : (dat4 V c).after 8 t = (outsAt4 V c t.val t.isLt).1.2.2 := rfl

/-- The six inputs are read-only: at every point each is its block of `V`'s array. -/
theorem before4 (t : Fin cfg4.N) :
    (∀ d, (dat4 V c).before 0 t d = iblk4 V c 0 t) ∧ (∀ d, (dat4 V c).before 1 t d = iblk4 V c 1 t) ∧ (∀ d, (dat4 V c).before 2 t d = iblk4 V c 2 t)
      ∧ (∀ d, (dat4 V c).before 3 t d = iblk4 V c 3 t) ∧ (∀ d, (dat4 V c).before 4 t d = iblk4 V c 4 t) ∧ (∀ d, (dat4 V c).before 5 t d = iblk4 V c 5 t) := by
  refine ⟨?_, ?_, ?_, ?_, ?_, ?_⟩ <;>
    exact fun d => (Dat.before_in_eq_fetched _ _ rfl (fun _ => rfl) (fun _ _ _ => rfl) (fun _ => rfl) t d).trans rfl

theorem live4 (w : Fin cfg4.W) (t : Fin cfg4.N) (h : cfg4.idle w (cfg4.grid.coords t) = false) :
    (dat4 V c).leavesExact w t = owns (c : Thread nD τ) ((cfg4.win w).stage (cfg4.slots t w)) fullShare ((dat4 V c).after w t) := by
  unfold Dat.leavesExact; rw [h]

/-- One point of the loop, by the kernel's triple for its case (first, middle or last point). -/
theorem sound_body4 (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d))
      ∗ (∃ d, owns (c : Thread nD τ) (st4_4 t) fullShare ((dat4 V c).before 4 t d))
      ∗ (∃ d, owns (c : Thread nD τ) (st4_5 t) fullShare ((dat4 V c).before 5 t d))
      ∗ (∃ d, owns (c : Thread nD τ) (st4_6 t) fullShare ((dat4 V c).before 6 t d))
      ∗ (∃ d, owns (c : Thread nD τ) (st4_7 t) fullShare ((dat4 V c).before 7 t d))
      ∗ (∃ d, owns (c : Thread nD τ) (st4_8 t) fullShare ((dat4 V c).before 8 t d)))
      ⊢ wp frame (wpE (defs₀ (F := F)) Variants.none c none) Set.univ (bodyAt4 t) (fun _ =>
        iprop((dat4 V c).Φ t.succ ∗ (dat4 V c).owesAt () t.succ
          ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t ∗ (dat4 V c).leavesExact 6 t ∗ (dat4 V c).leavesExact 7 t ∗ (dat4 V c).leavesExact 8 t)) := by
  obtain ⟨b0, b1, b2, b3, b4, b5⟩ := before4 V c t
  unfold bodyAt4
  rw [cc_eq4]
  simp only [b0, b1, b2, b3, b4, b5]
  rw [live4 V c 0 t (liveAt4_0 t), live4 V c 1 t (liveAt4_1 t), live4 V c 2 t (liveAt4_2 t), live4 V c 3 t (liveAt4_3 t),
    live4 V c 4 t (liveAt4_4 t), live4 V c 5 t (liveAt4_5 t), live4 V c 6 t (liveAt4_6 t),
    show (dat4 V c).Φ t.succ = PhiS4 V c (t.val + 1) t.isLt from rfl, PhiS4]
  by_cases h24 : t.val = 24
  on_goal 1 => rw [live4 V c 7 t (liveAt4_7 t h24), live4 V c 8 t (liveAt4_8 t h24)]
  on_goal 2 => rw [Dat.leavesExact_idle (dat4 V c) 7 t (idleAt4_7 t h24) (noFlush4_7 t h24),
    Dat.leavesExact_idle (dat4 V c) 8 t (idleAt4_8 t h24) (noFlush4_8 t h24)]
  all_goals obtain ⟨_ | n, hn⟩ := t
  · exact absurd h24 (show (0 : ℕ) ≠ 24 by decide)
  all_goals first
    | rw [show (dat4 V c).Φ (Fin.castSucc ⟨0, hn⟩) = _ from PhiA4_eq c]
    | rw [show (dat4 V c).Φ (Fin.castSucc ⟨n + 1, hn⟩) = PhiS4 V c (n + 1) (Nat.le_of_lt hn) from rfl, PhiS4]
  all_goals iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, H7, H8⟩
  on_goal 1 => iapply (sound_kernel2_C c Set.univ _ _ _ _ _ _ _ _ _ _ _ _ _ _ _ _ _ _ _ _ _ _ _ (fun h => absurd ((hcond4_1 ⟨n + 1, hn⟩).mp h) n.succ_ne_zero) ((hcond4_2 ⟨n + 1, hn⟩).mpr h24)
    (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (scrAt4 V c n (Nat.lt_of_succ_lt hn)).1 (scrAt4 V c n (Nat.lt_of_succ_lt hn)).2 _)
  on_goal 2 => iapply (sound_kernel2_A c Set.univ _ _ _ _ _ _ _ _ _ _ _ _ _ _ _ _ _ _ _ _ _ _ _ ((hcond4_1 ⟨0, hn⟩).mpr rfl) (fun h => h24 ((hcond4_2 ⟨0, hn⟩).mp h))
    (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) _)
  on_goal 3 => iapply (sound_kernel2_B c Set.univ _ _ _ _ _ _ _ _ _ _ _ _ _ _ _ _ _ _ _ _ _ _ _ (fun h => absurd ((hcond4_1 ⟨n + 1, hn⟩).mp h) n.succ_ne_zero) (fun h => h24 ((hcond4_2 ⟨n + 1, hn⟩).mp h))
    (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (scrAt4 V c n (Nat.lt_of_succ_lt hn)).1 (scrAt4 V c n (Nat.lt_of_succ_lt hn)).2 _)
  all_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
  on_goal 1 =>
    isplitl [H7]; · icases H7 with ⟨%d, H7⟩; iexists _; iexact H7
    isplitl [H8]; · icases H8 with ⟨%d, H8⟩; iexists _; iexact H8
  all_goals
    isplitl [HS0]; · iexact HS0
    isplitl [HS1]; · iexact HS1
    first
      | iintro ⟨H0, H1, H2, H3, H4, H5, H6, H7, H8, HS0, HS1⟩
      | iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := by
  rw [show (dat4 V c).Φ 0 = Pipeline.ΦA spec4 c from rfl]

/-- After the last point the invariant implies the class invariant: the accumulators' contents are forgotten. -/
theorem hout4 : (dat4 V c).Φ (Fin.last cfg4.N) ⊢ Pipeline.ΦA spec4 c := by
  rw [show (dat4 V c).Φ (Fin.last cfg4.N) = PhiS4 V c (24 + 1) (by decide) from rfl, PhiS4, PhiA4_eq]
  iintro ⟨⟨⟨HS0, HS1⟩, Hrest⟩, Hg⟩
  isplitl [HS0 HS1 Hrest]
  · isplitl [HS0 HS1]
    · isplitl [HS0] <;> iexists _ <;> iassumption
    iexact Hrest
  iexact Hg

end Regions

end Cert.KernelIdeal.Hand

end
-- ==== Proof.KI.N5.lean ====
import proofs.«407439_j85349590106293_1_alg».proof.Proof.Gen.KernelIdeal.Launch
import proofs.«407439_j85349590106293_1_alg».proof.Proof.Gen.KernelIdeal.Skeleton
import proofs.«407439_j85349590106293_1_alg».proof.Proof.Gen.KernelIdeal.Points
import proofs.«407439_j85349590106293_1_alg».proof.Proof.KI.NRuns
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out1_3 (iblk5 V c 0 t) (iblk5 V c 1 t) (iblk5 V c 2 t)
  Φ _ := Pipeline.ΦA spec5 c
  q _ := fullShare
  owed _ := 0

theorem A_eq5 (w : Fin cfg5.W) : (dat5 V c).A w = V c (Pipeline.arrRef spec5 w) := rfl

theorem after5_3 (t : Fin cfg5.N) :
    (dat5 V c).after 3 t = out1_3 (iblk5 V c 0 t) (iblk5 V c 1 t) (iblk5 V c 2 t) := by dsimp only [dat5]

-- Proof data over `V`'s arrays whose body returns every input block unchanged finds, in each input window, that window's block.
theorem before5_of (dat : Dat τ (Elt F) Unit ℕ (UR sig nD τ) ℕ cfg5 c) (hA : ∀ w, dat.A w = V c (Pipeline.arrRef spec5 w))
    (h : (∀ t, dat.after 0 t = iblk5 V c 0 t) ∧ (∀ t, dat.after 1 t = iblk5 V c 1 t)
      ∧ ∀ t, dat.after 2 t = iblk5 V c 2 t) (t : Fin cfg5.N) :
    (∀ d, dat.before 0 t d = iblk5 V c 0 t) ∧ (∀ d, dat.before 1 t d = iblk5 V c 1 t)
      ∧ ∀ d, dat.before 2 t d = iblk5 V c 2 t := by
  obtain ⟨h0, h1, h2⟩ := h
  refine ⟨?_, ?_, ?_⟩ <;>
    exact fun d => (dat.before_in_eq_fetched _ rfl (fun _ => rfl) (fun _ _ _ => rfl)
      (fun t => by (first | rw [h0] | rw [h1] | rw [h2]); unfold Dat.blockOf iblk5; rw [hA]; try rfl) t d).trans
      (by unfold Dat.fetched Dat.blockOf iblk5; rw [hA]; try rfl)

theorem cc_eq5 : cc5__normalize_kernel (F := F) = normK := rfl

-- At every point the kernel's triple applies to the input blocks; everything else is framed.
theorem body_obligation5 : BodyObligation (dat5 (F := F) V c) (defs₀ (F := F)) Variants.none () Set.univ := fun t => by
  rw [bigSep_W5, bigSep_W5]
  show _ ⊢ wp frame _ _ (bodyAt5 t) _
  unfold bodyAt5
  dsimp only
  rw [cc_eq5]
  obtain ⟨b0, b1, b2⟩ := before5_of V c (dat5 V c) (fun _ => rfl) ⟨fun _ => rfl, fun _ => rfl, fun _ => rfl⟩ t
  simp only [b0, b1, b2]
  rw [show (dat5 V c).owesAt () t.succ = (dat5 V c).owesAt () t.castSucc from rfl]
  dsimp only [dat5]
  iintro ⟨HΦ, Ho, ⟨%d0, H0⟩, ⟨%d1, H1⟩, ⟨%d2, H2⟩, ⟨%d3, H3⟩⟩
  iapply (sound_kernel1 c Set.univ _ _ _ _ _ _ _ _ _ (iblk5 V c 0 t) (iblk5 V c 1 t) (iblk5 V c 2 t) _)
  iframe H0 H1 H2
  isplitl [H3]; · iexists _; iexact H3
  iintro H
  iframe HΦ Ho
  iexact H

theorem hin5 : Pipeline.ΦA spec5 c ⊢ (dat5 V c).Φ 0 := .rfl

theorem hout5 : (dat5 V c).Φ (Fin.last cfg5.N) ⊢ Pipeline.ΦA spec5 c := .rfl

end Cert.KernelIdeal.Hand

end
-- ==== Proof.KI.P6.lean ====
import proofs.«407439_j85349590106293_1_alg».proof.Proof.Gen.KernelIdeal.Launch
import proofs.«407439_j85349590106293_1_alg».proof.Proof.Gen.KernelIdeal.Skeleton
import proofs.«407439_j85349590106293_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S512x384 := Rect.unit (s := S512x384) ![0, 0] S512x384.size inb_S512x384_S512x384_0_0
abbrev r6_1 : Rect S384x384 := Rect.unit (s := S384x384) ![0, 0] S384x384.size inb_S384x384_S384x384_0_0
abbrev r6_2 : Rect S1x384 := Rect.unit (s := S1x384) ![0, 0] S1x384.size inb_S1x384_S1x384_0_0

-- The one store's payload, laid over the whole output block.
def out6_5 (x0 : Vec F S512x384 .f32) (x1 : Vec F S384x384 .f32) (x2 : Vec F S1x384 .f32) (x3 : Vec F S384x384 .f32)
    (x4 : Vec F S1x384 .f32) : Vec F S512x384 .f32 :=
  View.canon [⟨r6_0, k6_pay1 (View.ld x0 r6_0) (View.ld x1 r6_1) (View.ld x2 r6_2) (View.ld x3 r6_1) (View.ld x4 r6_2)⟩]

-- The kernel keeps its five inputs and leaves `out6_5` of them in the output: the one store's rectangle is the whole block.
theorem sound_kernel6 (E : Set ℕ) (i : grid6.Coords)
    (arg1 : Memref sig .tc .vmem S512x384 .f32) (harg1 : arg1.IsWhole) (arg2 : Memref sig .tc .vmem S384x384 .f32) (harg2 : arg2.IsWhole)
    (arg3 : Memref sig .tc .vmem S1x384 .f32) (harg3 : arg3.IsWhole) (arg4 : Memref sig .tc .vmem S384x384 .f32) (harg4 : arg4.IsWhole)
    (arg5 : Memref sig .tc .vmem S1x384 .f32) (harg5 : arg5.IsWhole) (arg6 : Memref sig .tc .vmem S512x384 .f32) (harg6 : arg6.IsWhole)
    (x0 : Vec F S512x384 .f32) (x1 : Vec F S384x384 .f32) (x2 : Vec F S1x384 .f32) (x3 : Vec F S384x384 .f32) (x4 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__proj_kernel i arg1 harg1 arg2 harg2 arg3 harg3 arg4 harg4 arg5 harg5 arg6 harg6) K := by
  simp only [cc6__proj_kernel_eq_skeleton]; unfold cc6__proj_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S512x384.size (by rfl))

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (w : Fin cfg6.W) : (dat6 V c).A w = V c (Pipeline.arrRef spec6 w) := rfl

theorem after6_5 (t : Fin cfg6.N) :
    (dat6 V c).after 5 t = out6_5 (iblk6 V c 0 t) (iblk6 V c 1 t) (iblk6 V c 2 t) (iblk6 V c 3 t) (iblk6 V c 4 t) := by dsimp only [dat6]

-- Proof data over `V`'s arrays whose body returns every input block unchanged finds, in each input window, that window's block.
theorem before6_of (dat : Dat τ (Elt F) Unit ℕ (UR sig nD τ) ℕ cfg6 c) (hA : ∀ w, dat.A w = V c (Pipeline.arrRef spec6 w))
    (h : (∀ t, dat.after 0 t = iblk6 V c 0 t) ∧ (∀ t, dat.after 1 t = iblk6 V c 1 t)
      ∧ (∀ t, dat.after 2 t = iblk6 V c 2 t) ∧ (∀ t, dat.after 3 t = iblk6 V c 3 t)
      ∧ ∀ t, dat.after 4 t = iblk6 V c 4 t) (t : Fin cfg6.N) :
    (∀ d, dat.before 0 t d = iblk6 V c 0 t) ∧ (∀ d, dat.before 1 t d = iblk6 V c 1 t)
      ∧ (∀ d, dat.before 2 t d = iblk6 V c 2 t) ∧ (∀ d, dat.before 3 t d = iblk6 V c 3 t)
      ∧ ∀ d, dat.before 4 t d = iblk6 V c 4 t := by
  obtain ⟨h0, h1, h2, h3, h4⟩ := h
  refine ⟨?_, ?_, ?_, ?_, ?_⟩ <;>
    exact fun d => (dat.before_in_eq_fetched _ rfl (fun _ => rfl) (fun _ _ _ => rfl)
      (fun t => by (first | rw [h0] | rw [h1] | rw [h2] | rw [h3] | rw [h4]); unfold Dat.blockOf iblk6; rw [hA]; try rfl) t d).trans
      (by unfold Dat.fetched Dat.blockOf iblk6; rw [hA]; try rfl)

-- At every point the kernel's triple applies to the input blocks; everything else is framed.
theorem body_obligation6 : BodyObligation (dat6 (F := F) V c) (defs₀ (F := F)) Variants.none () Set.univ := fun t => by
  rw [bigSep_W6, bigSep_W6]
  show _ ⊢ wp frame _ _ (bodyAt6 t) _
  unfold bodyAt6
  dsimp only
  obtain ⟨b0, b1, b2, b3, b4⟩ := before6_of V c (dat6 V c) (fun _ => rfl) ⟨fun _ => rfl, fun _ => rfl, fun _ => rfl, fun _ => rfl, fun _ => rfl⟩ t
  simp only [b0, b1, b2, b3, b4]
  rw [show (dat6 V c).owesAt () t.succ = (dat6 V c).owesAt () t.castSucc from rfl]
  dsimp only [dat6]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  iframe H0 H1 H2 H3 H4
  isplitl [H5]; · iexists _; iexact H5
  iintro H
  iframe HΦ Ho
  iexact H

theorem hin6 : Pipeline.ΦA spec6 c ⊢ (dat6 V c).Φ 0 := .rfl

theorem hout6 : (dat6 V c).Φ (Fin.last cfg6.N) ⊢ Pipeline.ΦA spec6 c := .rfl

end Cert.KernelIdeal.Hand

end
-- ==== Proof.KI.Chain.lean ====
import proofs.«407439_j85349590106293_1_alg».proof.Proof.Gen.KernelIdeal.Launch
import proofs.«407439_j85349590106293_1_alg».proof.Proof.Gen.KernelIdeal.Regions
import proofs.«407439_j85349590106293_1_alg».proof.Proof.KI.C0
import proofs.«407439_j85349590106293_1_alg».proof.Proof.KI.N1
import proofs.«407439_j85349590106293_1_alg».proof.Proof.KI.C2
import proofs.«407439_j85349590106293_1_alg».proof.Proof.KI.N3
import proofs.«407439_j85349590106293_1_alg».proof.Proof.KI.C4
import proofs.«407439_j85349590106293_1_alg».proof.Proof.KI.N5
import proofs.«407439_j85349590106293_1_alg».proof.Proof.KI.P6
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal.Gen
open Idealize.ShloMosaic Idealize.ShloMosaic.TcCoe

variable {F : FTy → Type}

-- A family of valuations read at the references of kind `.tc`.
abbrev tcOf (W : Dev nD → Valuation τ sig (Elt F)) : (c : Dev nD) → (b : Ref sig .tc) → Buf (Elt F) ((c : Thread nD τ).loc b) :=
  fun c b => W c b

-- Two valuations that agree off a family of arrays, and on those arrays whose flag is off, agree at every reference outside a list holding the flagged arrays.
theorem stay_of {W : ℕ} {arr : Fin W → Ref sig .tc} {out : Fin W → Bool} {outs : List (Ref sig .tc)} {X Y : Valuation τ sig (Elt F)}
    (hout : ∀ w, out w = true → arr w ∈ outs) (hin : ∀ w, out w = false → X (arr w) = Y (arr w))
    (hne : ∀ b : Ref sig .tc, (∀ w, arr w ≠ b) → X b = Y b) {r : Ref sig .tc} (h : r ∉ outs) : X r = Y r := by
  by_cases hr : ∃ w, arr w = r
  · obtain ⟨w, rfl⟩ := hr
    refine hin w ?_
    cases hw : out w
    · rfl
    · exact absurd (hout w hw) h
  · exact hne r fun w e => hr ⟨w, e⟩

variable [FloatOps F] (m : (ℓ : Loc nD τ sig) → Buf (Elt F) ℓ)

abbrev W0 (_ρ : Dev nD → PrngReg) : Dev nD → Valuation τ sig (Elt F) := fun c b => m (c, b)

variable (ρ : Dev nD → PrngReg) (c : Dev nD)

abbrev W1 : Dev nD → Valuation τ sig (Elt F) := fun c => StableHlo.after hostOps0 (W0 m ρ c)
theorem W1_of (r : Ref sig .tc) (h : r ∉ hostOps0_W) : W1 m ρ c r = W0 m ρ c r :=
  StableHlo.after_of_writes_sub hostOps0 _ hostOps0_writes h

abbrev W2 : Dev nD → Valuation τ sig (Elt F) := fun c => StableHlo.after hostOps0_1 (W1 m ρ c)
theorem W2_of (r : Ref sig .tc) (h : r ∉ hostOps0_1_W) : W2 m ρ c r = W1 m ρ c r :=
  StableHlo.after_of_writes_sub hostOps0_1 _ hostOps0_1_writes h

abbrev W3 : Dev nD → Valuation τ sig (Elt F) := fun c => StableHlo.after hostOps0_2 (W2 m ρ c)
abbrev V3 := tcOf (W3 m ρ)
theorem W3_of (r : Ref sig .tc) (h : r ∉ hostOps0_2_W) : W3 m ρ c r = W2 m ρ c r :=
  StableHlo.after_of_writes_sub hostOps0_2 _ hostOps0_2_writes h

def W4 : Valuation τ sig (Elt F) :=
  Pipeline.withArrays spec0 c (W3 m ρ c) fun w => (dat0 (V3 m ρ) c).arrAt w cfg0.N
theorem W4_arr (w : Fin cfg0.W) : W4 m ρ c (Pipeline.arrRef spec0 w) = (dat0 (V3 m ρ) c).arrAt w cfg0.N :=
  Pipeline.withArrays_arr spec0 launch0.win.arr_inj c _ _ w
theorem W4_of_ne (b : Ref sig .tc) (hb : ∀ w, Pipeline.arrRef spec0 w ≠ b) : W4 m ρ c b = W3 m ρ c b :=
  Pipeline.withArrays_of_ne spec0 c _ _ b hb
theorem W4_in (w : Fin cfg0.W) (hw : (cfg0.win w).isOut = false) :
    W4 m ρ c (Pipeline.arrRef spec0 w) = W3 m ρ c (Pipeline.arrRef spec0 w) :=
  (W4_arr m ρ c w).trans (((dat0 (V3 m ρ) c).arrAt_in w hw _).trans (A_eq0 (V3 m ρ) c w))
theorem outs0_mem : ∀ w : Fin cfg0.W, (cfg0.win w).isOut = true → Pipeline.arrRef spec0 w ∈ ([main_v18_0, main_v18_1, main_v18_2] : List (Ref sig .tc)) := by decide
theorem W4_stay (r : Ref sig .tc) (h : r ∉ ([main_v18_0, main_v18_1, main_v18_2] : List (Ref sig .tc))) : W4 m ρ c r = W3 m ρ c r :=
  stay_of outs0_mem (W4_in m ρ c) (W4_of_ne m ρ c) h

abbrev W5 : Dev nD → Valuation τ sig (Elt F) := fun c => StableHlo.after hostOps1 (W4 m ρ c)
abbrev V5 := tcOf (W5 m ρ)
theorem W5_of (r : Ref sig .tc) (h : r ∉ hostOps1_W) : W5 m ρ c r = W4 m ρ c r :=
  StableHlo.after_of_writes_sub hostOps1 _ hostOps1_writes h

def W6 : Valuation τ sig (Elt F) :=
  Pipeline.withArrays spec1 c (W5 m ρ c) fun w => (dat1 (V5 m ρ) c).arrAt w cfg1.N
theorem W6_arr (w : Fin cfg1.W) : W6 m ρ c (Pipeline.arrRef spec1 w) = (dat1 (V5 m ρ) c).arrAt w cfg1.N :=
  Pipeline.withArrays_arr spec1 launch1.win.arr_inj c _ _ w
theorem W6_of_ne (b : Ref sig .tc) (hb : ∀ w, Pipeline.arrRef spec1 w ≠ b) : W6 m ρ c b = W5 m ρ c b :=
  Pipeline.withArrays_of_ne spec1 c _ _ b hb
theorem W6_in (w : Fin cfg1.W) (hw : (cfg1.win w).isOut = false) :
    W6 m ρ c (Pipeline.arrRef spec1 w) = W5 m ρ c (Pipeline.arrRef spec1 w) :=
  (W6_arr m ρ c w).trans (((dat1 (V5 m ρ) c).arrAt_in w hw _).trans (A_eq1 (V5 m ρ) c w))
theorem outs1_mem : ∀ w : Fin cfg1.W, (cfg1.win w).isOut = true → Pipeline.arrRef spec1 w ∈ ([main_v37] : List (Ref sig .tc)) := by decide
theorem W6_stay (r : Ref sig .tc) (h : r ∉ ([main_v37] : List (Ref sig .tc))) : W6 m ρ c r = W5 m ρ c r :=
  stay_of outs1_mem (W6_in m ρ c) (W6_of_ne m ρ c) h

abbrev W7 : Dev nD → Valuation τ sig (Elt F) := fun c => StableHlo.after hostOps2 (W6 m ρ c)
theorem W7_of (r : Ref sig .tc) (h : r ∉ hostOps2_W) : W7 m ρ c r = W6 m ρ c r :=
  StableHlo.after_of_writes_sub hostOps2 _ hostOps2_writes h

abbrev W8 : Dev nD → Valuation τ sig (Elt F) := fun c => StableHlo.after hostOps2_1 (W7 m ρ c)
abbrev V8 := tcOf (W8 m ρ)
theorem W8_of (r : Ref sig .tc) (h : r ∉ hostOps2_1_W) : W8 m ρ c r = W7 m ρ c r :=
  StableHlo.after_of_writes_sub hostOps2_1 _ hostOps2_1_writes h

def W9 : Valuation τ sig (Elt F) :=
  Pipeline.withArrays spec2 c (W8 m ρ c) fun w => (dat2 (V8 m ρ) c).arrAt w cfg2.N
theorem W9_arr (w : Fin cfg2.W) : W9 m ρ c (Pipeline.arrRef spec2 w) = (dat2 (V8 m ρ) c).arrAt w cfg2.N :=
  Pipeline.withArrays_arr spec2 launch2.win.arr_inj c _ _ w
theorem W9_of_ne (b : Ref sig .tc) (hb : ∀ w, Pipeline.arrRef spec2 w ≠ b) : W9 m ρ c b = W8 m ρ c b :=
  Pipeline.withArrays_of_ne spec2 c _ _ b hb
theorem W9_in (w : Fin cfg2.W) (hw : (cfg2.win w).isOut = false) :
    W9 m ρ c (Pipeline.arrRef spec2 w) = W8 m ρ c (Pipeline.arrRef spec2 w) :=
  (W9_arr m ρ c w).trans (((dat2 (V8 m ρ) c).arrAt_in w hw _).trans (A_eq2 (V8 m ρ) c w))
theorem outs2_mem : ∀ w : Fin cfg2.W, (cfg2.win w).isOut = true → Pipeline.arrRef spec2 w ∈ ([main_v52_0, main_v52_1, main_v52_2] : List (Ref sig .tc)) := by decide
theorem W9_stay (r : Ref sig .tc) (h : r ∉ ([main_v52_0, main_v52_1, main_v52_2] : List (Ref sig .tc))) : W9 m ρ c r = W8 m ρ c r :=
  stay_of outs2_mem (W9_in m ρ c) (W9_of_ne m ρ c) h

abbrev W10 : Dev nD → Valuation τ sig (Elt F) := fun c => StableHlo.after hostOps3 (W9 m ρ c)
abbrev V10 := tcOf (W10 m ρ)
theorem W10_of (r : Ref sig .tc) (h : r ∉ hostOps3_W) : W10 m ρ c r = W9 m ρ c r :=
  StableHlo.after_of_writes_sub hostOps3 _ hostOps3_writes h

def W11 : Valuation τ sig (Elt F) :=
  Pipeline.withArrays spec3 c (W10 m ρ c) fun w => (dat3 (V10 m ρ) c).arrAt w cfg3.N
theorem W11_arr (w : Fin cfg3.W) : W11 m ρ c (Pipeline.arrRef spec3 w) = (dat3 (V10 m ρ) c).arrAt w cfg3.N :=
  Pipeline.withArrays_arr spec3 launch3.win.arr_inj c _ _ w
theorem W11_of_ne (b : Ref sig .tc) (hb : ∀ w, Pipeline.arrRef spec3 w ≠ b) : W11 m ρ c b = W10 m ρ c b :=
  Pipeline.withArrays_of_ne spec3 c _ _ b hb
theorem W11_in (w : Fin cfg3.W) (hw : (cfg3.win w).isOut = false) :
    W11 m ρ c (Pipeline.arrRef spec3 w) = W10 m ρ c (Pipeline.arrRef spec3 w) :=
  (W11_arr m ρ c w).trans (((dat3 (V10 m ρ) c).arrAt_in w hw _).trans (A_eq3 (V10 m ρ) c w))
theorem outs3_mem : ∀ w : Fin cfg3.W, (cfg3.win w).isOut = true → Pipeline.arrRef spec3 w ∈ ([main_v71] : List (Ref sig .tc)) := by decide
theorem W11_stay (r : Ref sig .tc) (h : r ∉ ([main_v71] : List (Ref sig .tc))) : W11 m ρ c r = W10 m ρ c r :=
  stay_of outs3_mem (W11_in m ρ c) (W11_of_ne m ρ c) h

abbrev W12 : Dev nD → Valuation τ sig (Elt F) := fun c => StableHlo.after hostOps4 (W11 m ρ c)
theorem W12_of (r : Ref sig .tc) (h : r ∉ hostOps4_W) : W12 m ρ c r = W11 m ρ c r :=
  StableHlo.after_of_writes_sub hostOps4 _ hostOps4_writes h

abbrev W13 : Dev nD → Valuation τ sig (Elt F) := fun c => StableHlo.after hostOps4_1 (W12 m ρ c)
abbrev V13 := tcOf (W13 m ρ)
theorem W13_of (r : Ref sig .tc) (h : r ∉ hostOps4_1_W) : W13 m ρ c r = W12 m ρ c r :=
  StableHlo.after_of_writes_sub hostOps4_1 _ hostOps4_1_writes h

def W14 : Valuation τ sig (Elt F) :=
  Pipeline.withArrays spec4 c (W13 m ρ c) fun w => (dat4 (V13 m ρ) c).arrAt w cfg4.N
theorem W14_arr (w : Fin cfg4.W) : W14 m ρ c (Pipeline.arrRef spec4 w) = (dat4 (V13 m ρ) c).arrAt w cfg4.N :=
  Pipeline.withArrays_arr spec4 launch4.win.arr_inj c _ _ w
theorem W14_of_ne (b : Ref sig .tc) (hb : ∀ w, Pipeline.arrRef spec4 w ≠ b) : W14 m ρ c b = W13 m ρ c b :=
  Pipeline.withArrays_of_ne spec4 c _ _ b hb
theorem W14_in (w : Fin cfg4.W) (hw : (cfg4.win w).isOut = false) :
    W14 m ρ c (Pipeline.arrRef spec4 w) = W13 m ρ c (Pipeline.arrRef spec4 w) :=
  (W14_arr m ρ c w).trans (((dat4 (V13 m ρ) c).arrAt_in w hw _).trans (A_eq4 (V13 m ρ) c w))
theorem outs4_mem : ∀ w : Fin cfg4.W, (cfg4.win w).isOut = true → Pipeline.arrRef spec4 w ∈ ([main_v86_0, main_v86_1, main_v86_2] : List (Ref sig .tc)) := by decide
theorem W14_stay (r : Ref sig .tc) (h : r ∉ ([main_v86_0, main_v86_1, main_v86_2] : List (Ref sig .tc))) : W14 m ρ c r = W13 m ρ c r :=
  stay_of outs4_mem (W14_in m ρ c) (W14_of_ne m ρ c) h

abbrev W15 : Dev nD → Valuation τ sig (Elt F) := fun c => StableHlo.after hostOps5 (W14 m ρ c)
abbrev V15 := tcOf (W15 m ρ)
theorem W15_of (r : Ref sig .tc) (h : r ∉ hostOps5_W) : W15 m ρ c r = W14 m ρ c r :=
  StableHlo.after_of_writes_sub hostOps5 _ hostOps5_writes h

def W16 : Valuation τ sig (Elt F) :=
  Pipeline.withArrays spec5 c (W15 m ρ c) fun w => (dat5 (V15 m ρ) c).arrAt w cfg5.N
theorem W16_arr (w : Fin cfg5.W) : W16 m ρ c (Pipeline.arrRef spec5 w) = (dat5 (V15 m ρ) c).arrAt w cfg5.N :=
  Pipeline.withArrays_arr spec5 launch5.win.arr_inj c _ _ w
theorem W16_of_ne (b : Ref sig .tc) (hb : ∀ w, Pipeline.arrRef spec5 w ≠ b) : W16 m ρ c b = W15 m ρ c b :=
  Pipeline.withArrays_of_ne spec5 c _ _ b hb
theorem W16_in (w : Fin cfg5.W) (hw : (cfg5.win w).isOut = false) :
    W16 m ρ c (Pipeline.arrRef spec5 w) = W15 m ρ c (Pipeline.arrRef spec5 w) :=
  (W16_arr m ρ c w).trans (((dat5 (V15 m ρ) c).arrAt_in w hw _).trans (A_eq5 (V15 m ρ) c w))
theorem outs5_mem : ∀ w : Fin cfg5.W, (cfg5.win w).isOut = true → Pipeline.arrRef spec5 w ∈ ([main_v105] : List (Ref sig .tc)) := by decide
theorem W16_stay (r : Ref sig .tc) (h : r ∉ ([main_v105] : List (Ref sig .tc))) : W16 m ρ c r = W15 m ρ c r :=
  stay_of outs5_mem (W16_in m ρ c) (W16_of_ne m ρ c) h

abbrev W17 : Dev nD → Valuation τ sig (Elt F) := fun c => StableHlo.after hostOps6 (W16 m ρ c)
abbrev V17 := tcOf (W17 m ρ)
theorem W17_of (r : Ref sig .tc) (h : r ∉ hostOps6_W) : W17 m ρ c r = W16 m ρ c r :=
  StableHlo.after_of_writes_sub hostOps6 _ hostOps6_writes h

def W18 : Valuation τ sig (Elt F) :=
  Pipeline.withArrays spec6 c (W17 m ρ c) fun w => (dat6 (V17 m ρ) c).arrAt w cfg6.N
theorem W18_arr (w : Fin cfg6.W) : W18 m ρ c (Pipeline.arrRef spec6 w) = (dat6 (V17 m ρ) c).arrAt w cfg6.N :=
  Pipeline.withArrays_arr spec6 launch6.win.arr_inj c _ _ w
theorem W18_of_ne (b : Ref sig .tc) (hb : ∀ w, Pipeline.arrRef spec6 w ≠ b) : W18 m ρ c b = W17 m ρ c b :=
  Pipeline.withArrays_of_ne spec6 c _ _ b hb
theorem W18_in (w : Fin cfg6.W) (hw : (cfg6.win w).isOut = false) :
    W18 m ρ c (Pipeline.arrRef spec6 w) = W17 m ρ c (Pipeline.arrRef spec6 w) :=
  (W18_arr m ρ c w).trans (((dat6 (V17 m ρ) c).arrAt_in w hw _).trans (A_eq6 (V17 m ρ) c w))
theorem outs6_mem : ∀ w : Fin cfg6.W, (cfg6.win w).isOut = true → Pipeline.arrRef spec6 w ∈ ([main_v112] : List (Ref sig .tc)) := by decide
theorem W18_stay (r : Ref sig .tc) (h : r ∉ ([main_v112] : List (Ref sig .tc))) : W18 m ρ c r = W17 m ρ c r :=
  stay_of outs6_mem (W18_in m ρ c) (W18_of_ne m ρ c) h

end Cert.KernelIdeal.Hand

end
-- ==== Proof.KI.Run.lean ====
import proofs.«407439_j85349590106293_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Hand
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] (m : (ℓ : Loc nD τ sig) → Buf (Elt F) ℓ) (ρ : Dev nD → PrngReg)
local notation "𝕄" => MT nD τ sig Unit (Elt F) ℕ (UR sig nD τ) ℕ
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V8 m ρ) c
  | ⟨3, _⟩ => fun c => dat3 (V10 m ρ) c
  | ⟨4, _⟩ => fun c => dat4 (V13 m ρ) c
  | ⟨5, _⟩ => fun c => dat5 (V15 m ρ) c
  | ⟨6, _⟩ => fun c => dat6 (V17 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ T, owes (c : Thread nD τ) (0 : CellTallies nD τ sig Unit) T)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
-- A kernel region as a segment of the program, from the valuations `Win` at its entry and `Wout` at its exit.
set_option backward.isDefEq.respectTransparency.types false in
def regionSeg (p : Fin 7) (lf : Pipeline.LaunchFacts (nD := nD) (τ := τ) cfgs p)
    (Win Wout : Dev nD → Valuation τ sig (Elt F))
    (hbody : ∀ c, BodyObligation (pdats m ρ p c) (defs₀ (F := F)) Variants.none () Set.univ)
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = Win c (Pipeline.arrRef (cfgs p).spec w))
    (hΦin : ∀ c, Pipeline.ΦA (cfgs p).spec c ⊢ (pdats m ρ p c).Φ 0)
    (hΦout : ∀ c, (pdats m ρ p c).Φ (Fin.last (cfgs p).N) ⊢ Pipeline.ΦA (cfgs p).spec c)
    (hF : ∀ c w, Wout c (Pipeline.arrRef (cfgs p).spec w) = (pdats m ρ p c).arrAt w (cfgs p).N)
    (hrest : ∀ c (b : Ref sig .tc), (∀ w, Pipeline.arrRef (cfgs p).spec w ≠ b) → Wout c b = Win c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Win c b) (hA c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      rw [howed c 0]
      icases Howes with ⟨%T, Howes⟩; iexists T; isplitr
      · ipureintro; exact fun x _ => Or.inl (by rw [hrec c 0]; trivial)
      iexact Howes
    isplitl [Hprng]; · iexact Hprng
    iexact Hrest
  hin c := by
    refine .trans ?_ (hΦin c)
    unfold Pipeline.ΦA
    iintro ⟨Hprng, -, Hscoped⟩
    isplitl [Hscoped]; · iexact Hscoped
    iexact Hprng
  hout c := by
    rw [Pipeline.ownSems0_none]
    refine (hΦout c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Win c b) (fun b => Wout c b) ((pdats m ρ p c).arrAt · (cfgs p).N) (fun w => (hF c w).symm)
      fun b hb => hrest c b fun w e => hb (Finset.mem_image.mpr ⟨w, Finset.mem_univ _, e⟩)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    rw [howed c (Fin.last _)]
    icases Howes with ⟨%T, -, Howes⟩; iexists T; iexact Howes
def reg0 := regionSeg m ρ 0 launch0 (W3 m ρ) (W4 m ρ) (body_obligation0 (V3 m ρ)) (fun _ _ => rfl) (fun _ _ => rfl)
  (fun _ _ => rfl) (fun _ _ => rfl) (hin0 (V3 m ρ)) (hout0 (V3 m ρ)) (W4_arr m ρ) (W4_of_ne m ρ)
def reg1 := regionSeg m ρ 1 launch1 (W5 m ρ) (W6 m ρ) (body_obligation1 (V5 m ρ)) (fun _ _ => rfl) (fun _ _ => rfl)
  (fun _ _ => rfl) (fun _ _ => rfl) (hin1 (V5 m ρ)) (hout1 (V5 m ρ)) (W6_arr m ρ) (W6_of_ne m ρ)
def reg2 := regionSeg m ρ 2 launch2 (W8 m ρ) (W9 m ρ) (body_obligation2 (V8 m ρ)) (fun _ _ => rfl) (fun _ _ => rfl)
  (fun _ _ => rfl) (fun _ _ => rfl) (hin2 (V8 m ρ)) (hout2 (V8 m ρ)) (W9_arr m ρ) (W9_of_ne m ρ)
def reg3 := regionSeg m ρ 3 launch3 (W10 m ρ) (W11 m ρ) (body_obligation3 (V10 m ρ)) (fun _ _ => rfl) (fun _ _ => rfl)
  (fun _ _ => rfl) (fun _ _ => rfl) (hin3 (V10 m ρ)) (hout3 (V10 m ρ)) (W11_arr m ρ) (W11_of_ne m ρ)
def reg4 := regionSeg m ρ 4 launch4 (W13 m ρ) (W14 m ρ) (body_obligation4 (V13 m ρ)) (fun _ _ => rfl) (fun _ _ => rfl)
  (fun _ _ => rfl) (fun _ _ => rfl) (hin4 (V13 m ρ)) (hout4 (V13 m ρ)) (W14_arr m ρ) (W14_of_ne m ρ)
def reg5 := regionSeg m ρ 5 launch5 (W15 m ρ) (W16 m ρ) (body_obligation5 (V15 m ρ)) (fun _ _ => rfl) (fun _ _ => rfl)
  (fun _ _ => rfl) (fun _ _ => rfl) (hin5 (V15 m ρ)) (hout5 (V15 m ρ)) (W16_arr m ρ) (W16_of_ne m ρ)
def reg6 := regionSeg m ρ 6 launch6 (W17 m ρ) (W18 m ρ) (body_obligation6 (V17 m ρ)) (fun _ _ => rfl) (fun _ _ => rfl)
  (fun _ _ => rfl) (fun _ _ => rfl) (hin6 (V17 m ρ)) (hout6 (V17 m ρ)) (W18_arr m ρ) (W18_of_ne m ρ)
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .region (reg2 m ρ),
    .host (hseg hostOps3 hostOps3_sub hostOps3_fresh (W9 m ρ)),
    .region (reg3 m ρ),
    .host (hseg hostOps4 hostOps4_sub hostOps4_fresh (W11 m ρ)),
    .host (hseg hostOps4_1 hostOps4_1_sub hostOps4_1_fresh (W12 m ρ)),
    .region (reg4 m ρ),
    .host (hseg hostOps5 hostOps5_sub hostOps5_fresh (W14 m ρ)),
    .region (reg5 m ρ),
    .host (hseg hostOps6 hostOps6_sub hostOps6_fresh (W16 m ρ)),
    .region (reg6 m ρ) ]
abbrev Tₙ (c : Dev nD) : sProp 𝕄 :=
  iprop(StableHlo.held (c : Thread nD τ) (Pipeline.ucRefs τ sig) (W18 m ρ c) ∗ ∃ r, prngReg c r)
theorem rebracket (c : Dev nD) :
    iprop(StableHlo.held (c : Thread nD τ) (Pipeline.ucRefs τ sig) (W18 m ρ c) ∗ R c)
      ⊢ (iprop(Tₙ m ρ c ∗ ∃ T, owes (c : Thread nD τ) (0 : CellTallies nD τ sig Unit) T) : sProp 𝕄) := by
  iintro ⟨Hbufs, Hprng, Howes⟩
  isplitl [Hbufs Hprng]
  · isplitl [Hbufs]; · iexact Hbufs
    iexact Hprng
  iexact Howes
-- The program runs to its end, and there every unscoped buffer of `c` holds `W18 m ρ c`.
set_option backward.isDefEq.respectTransparency.types false in
theorem run_all :
    θ_run defs (onTc (τ := τ) (main (F := F))) ⟨m, fun _ => 0, ρ⟩
      (fun r => ∀ c : Dev nD, ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, rebracket m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W18 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W18 m ρ c) s')
      isplitl [Hbufs] <;> iassumption)
    (hQ := fun s h c => h c)
end Cert.KernelIdeal.Hand
end
-- ==== Proof.KI.Frame.lean ====
import proofs.«407439_j85349590106293_1_alg».proof.Proof.KI.Run
noncomputable section
namespace Cert.KernelIdeal.Hand
open Cert.KernelIdeal.Gen
open Idealize.ShloMosaic Idealize.ShloMosaic.TcCoe Idealize.SL.Sem
variable {F : FTy → Type} [FloatOps F] (m : (ℓ : Loc nD τ sig) → Buf (Elt F) ℓ) (ρ : Dev nD → PrngReg)
abbrev written : List (Ref sig .tc) :=
  hostOps0_W ++ (hostOps0_1_W ++ (hostOps0_2_W ++ ([main_v18_0, main_v18_1, main_v18_2] ++ (hostOps1_W ++ ([main_v37] ++ (hostOps2_W ++ (hostOps2_1_W ++ ([main_v52_0, main_v52_1, main_v52_2] ++ (hostOps3_W ++ ([main_v71] ++ (hostOps4_W ++ (hostOps4_1_W ++ ([main_v86_0, main_v86_1, main_v86_2] ++ (hostOps5_W ++ ([main_v105] ++ (hostOps6_W ++ ([main_v112])))))))))))))))))
-- A chain of equalities, one link per block of a list the reference avoids.
theorem keep {α : Type} {A B : List α} {r : α} {β : Type} {x y z : β} (h : r ∉ A ++ B) (f : r ∉ A → y = z) (g : r ∉ B → x = y) : x = z :=
  (g fun k => h (List.mem_append.2 (.inr k))).trans (f fun k => h (List.mem_append.2 (.inl k)))
theorem W18_unwritten (c : Dev nD) (r : Ref sig .tc) (h : r ∉ written) : W18 m ρ c r = m ((c : Thread nD τ).loc r) :=
  keep h (W1_of m ρ c r) fun h =>
  keep h (W2_of m ρ c r) fun h =>
  keep h (W3_of m ρ c r) fun h =>
  keep h (W4_stay m ρ c r) fun h =>
  keep h (W5_of m ρ c r) fun h =>
  keep h (W6_stay m ρ c r) fun h =>
  keep h (W7_of m ρ c r) fun h =>
  keep h (W8_of m ρ c r) fun h =>
  keep h (W9_stay m ρ c r) fun h =>
  keep h (W10_of m ρ c r) fun h =>
  keep h (W11_stay m ρ c r) fun h =>
  keep h (W12_of m ρ c r) fun h =>
  keep h (W13_of m ρ c r) fun h =>
  keep h (W14_stay m ρ c r) fun h =>
  keep h (W15_of m ρ c r) fun h =>
  keep h (W16_stay m ρ c r) fun h =>
  keep h (W17_of m ρ c r) fun h =>
  W18_stay m ρ c r h
theorem run_result :
    θ_run defs (onTc (τ := τ) (main (F := F))) ⟨m, fun _ => 0, ρ⟩ (fun r => ∀ c : Dev nD,
      r.2.mem ((c.tc : Thread nD τ).loc main_v112) = W18 m ρ c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono (fun r h c => by
    refine ⟨h c _ (mem_uc main_v112 (by decide)), ?_⟩
    and_intros <;> exact (h c _ (mem_uc _ (by decide))).trans (W18_unwritten m ρ c _ (by decide))) (run_all m ρ)
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono (fun _ h c => (h c).2) (run_result m ρ)
end Cert.KernelIdeal.Hand
end
-- ==== Proof.RI.Ops.lean ====
import proofs.«407439_j85349590106293_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F)) (r : Ref sig .tc)

-- An operation whose one written buffer is listed in `W` writes only inside `W`.
theorem writes_sub {op : HloOp τ sig (Elt F)} {W : List (Ref sig .tc)} {y : Ref sig .tc}
    (h : op.writes = {Proc.devRef .tc y}) (hy : y ∈ W) :
    op.writes ⊆ (W.map (Proc.devRef (τ := τ) .tc)).toFinset :=
  h ▸ Finset.singleton_subset_iff.2 (List.mem_toFinset.2 (List.mem_map_of_mem hy))

abbrev opsP : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

abbrev opsP_W : List (Ref sig .tc) := [main_v0, main_v1, main_v2, main_v3]

theorem opsP_keep (h : r ∉ opsP_W) :
    after opsP V (Proc.devRef .tc r) = V (Proc.devRef .tc r) :=
  after_of_writes_sub opsP V (by and_intros <;> exact writes_sub rfl (by decide)) h

abbrev opsA0 : List (HloOp τ sig (Elt F)) :=
  [
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]

abbrev opsA0_W : List (Ref sig .tc) := [main_c, main_v4, main_v5, main_c_0, main_v6, main_v7, main_v8, main_v9, main_v10, main_cst, main_v11, main_v12, main_v13]

theorem opsA0_keep (h : r ∉ opsA0_W) :
    after opsA0 V (Proc.devRef .tc r) = V (Proc.devRef .tc r) :=
  after_of_writes_sub opsA0 V (by and_intros <;> exact writes_sub rfl (by decide)) h

abbrev opsB0 : List (HloOp τ sig (Elt F)) :=
  [
    StableHlo.binary main_v13 main_arg0 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v22) main_call0.v0 main_call0.v1 maximumf,
    StableHlo.unary main_arg5 main_v24 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v24 main_v25 rfl shapeCasts_S1x128x128_S128x128,
    StableHlo.binary main_v23 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v27 ((extractStridedSlice S1x128 ![0, 0] · slices_S3x128_S1x128_0_0) : (⟨S3x128, .f32⟩ : BufTy).Contents (Elt F) → (⟨S1x128, .f32⟩ : BufTy).Contents (Elt F)),
    StableHlo.reshape main_v27 main_v28 rfl shapeCasts_S1x128_S128,
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v30 main_v31 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v31) main_call1.v0 main_call1.v1 maximumf ]

abbrev opsB0_W : List (Ref sig .tc) := [main_v14, main_v15, main_v16, main_v17, main_v18, main_v19, main_v20, main_v21, main_v22, main_call0_cst, main_call0_v0, main_v23, main_v24, main_v25, main_v26, main_v27, main_v28, main_v29, main_v30, main_v31, main_call1_cst, main_call1_v0, main_v32]

theorem opsB0_keep (h : r ∉ opsB0_W) :
    after opsB0 V (Proc.devRef .tc r) = V (Proc.devRef .tc r) :=
  after_of_writes_sub opsB0 V (by and_intros <;> exact writes_sub rfl (by decide)) h

abbrev opsC0 : List (HloOp τ sig (Elt F)) :=
  [
    StableHlo.nullary main_cst_1 (constant S_ .f32 0x00000000#32),
    StableHlo.binary main_v32 main_cst_1 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v32) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v32) main_call2.v4 main_call2.v5 subf,
    StableHlo.TRef.binary main_call2.v5 main_call2.v5 main_call2.v6 mulf,
    StableHlo.TRef.unary (.of main_c_3) main_call2.v7 (sitofp (F := F) .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf (F := F) .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v38 main_v39 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_arg7 main_v46 ((extractStridedSlice S1x128 ![0, 0] · slices_S3x128_S1x128_0_0) : (⟨S3x128, .f32⟩ : BufTy).Contents (Elt F) → (⟨S1x128, .f32⟩ : BufTy).Contents (Elt F)),
    StableHlo.reshape main_v46 main_v47 rfl shapeCasts_S1x128_S128,
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg8 main_v51 ((extractStridedSlice S1x128 ![0, 0] · slices_S3x128_S1x128_0_0) : (⟨S3x128, .f32⟩ : BufTy).Contents (Elt F) → (⟨S1x128, .f32⟩ : BufTy).Contents (Elt F)),
    StableHlo.reshape main_v51 main_v52 rfl shapeCasts_S1x128_S128 ]

abbrev opsC0_W : List (Ref sig .tc) := [main_cst_1, main_v33, main_cst_2, main_v34, main_v35, main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v36, main_v37, main_v38, main_v39, main_cst_4, main_v40, main_v41, main_v42, main_v43, main_v44, main_v45, main_v46, main_v47, main_v48, main_v49, main_v50, main_v51, main_v52]

theorem opsC0_keep (h : r ∉ opsC0_W) :
    after opsC0 V (Proc.devRef .tc r) = V (Proc.devRef .tc r) :=
  after_of_writes_sub opsC0 V (by and_intros <;> exact writes_sub rfl (by decide)) h

abbrev opsD0 : List (HloOp τ sig (Elt F)) :=
  [
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v54 main_v55 (addf : (⟨S50000x128, .f32⟩ : BufTy).Contents (Elt F) → (⟨S50000x128, .f32⟩ : BufTy).Contents (Elt F) → (⟨S50000x128, .f32⟩ : BufTy).Contents (Elt F)) ]

abbrev opsD0_W : List (Ref sig .tc) := [main_v53, main_v54, main_v55]

theorem opsD0_keep (h : r ∉ opsD0_W) :
    after opsD0 V (Proc.devRef .tc r) = V (Proc.devRef .tc r) :=
  after_of_writes_sub opsD0 V (by and_intros <;> exact writes_sub rfl (by decide)) h

abbrev opsA1 : List (HloOp τ sig (Elt F)) :=
  [
    StableHlo.nullary main_c_5 (constantI S_ 32 0#32),
    StableHlo.unary main_c_5 main_v56 (broadcastInDim S1600000 ![] bcast_S_S1600000 : (⟨S_, .i32⟩ : BufTy).Contents (Elt F) → (⟨S1600000, .i32⟩ : BufTy).Contents (Elt F)),
    StableHlo.binary main_v1 main_v56 main_v57 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 50000#32),
    StableHlo.unary main_c_6 main_v58 (broadcastInDim S1600000 ![] bcast_S_S1600000 : (⟨S_, .i32⟩ : BufTy).Contents (Elt F) → (⟨S1600000, .i32⟩ : BufTy).Contents (Elt F)),
    StableHlo.binary main_v1 main_v58 main_v59 (addi : (⟨S1600000, .i32⟩ : BufTy).Contents (Elt F) → (⟨S1600000, .i32⟩ : BufTy).Contents (Elt F) → (⟨S1600000, .i32⟩ : BufTy).Contents (Elt F)),
    StableHlo.ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v60 main_v61 (broadcastInDim S1600000x1 ![0] bcast_S1600000_S1600000x1_0 : (⟨S1600000, .i32⟩ : BufTy).Contents (Elt F) → (⟨S1600000x1, .i32⟩ : BufTy).Contents (Elt F)),
    StableHlo.binary main_v55 main_v61 main_v62 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v63 (broadcastInDim S50000x128 ![] bcast_S_S50000x128 : (⟨S_, .f32⟩ : BufTy).Contents (Elt F) → (⟨S50000x128, .f32⟩ : BufTy).Contents (Elt F)),
    StableHlo.unary main_v3 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]

abbrev opsA1_W : List (Ref sig .tc) := [main_c_5, main_v56, main_v57, main_c_6, main_v58, main_v59, main_v60, main_v61, main_v62, main_cst_7, main_v63, main_v64, main_v65]

theorem opsA1_keep (h : r ∉ opsA1_W) :
    after opsA1 V (Proc.devRef .tc r) = V (Proc.devRef .tc r) :=
  after_of_writes_sub opsA1 V (by and_intros <;> exact writes_sub rfl (by decide)) h

abbrev opsB1 : List (HloOp τ sig (Elt F)) :=
  [
    StableHlo.binary main_v65 main_v55 main_v66 (addf : (⟨S50000x128, .f32⟩ : BufTy).Contents (Elt F) → (⟨S50000x128, .f32⟩ : BufTy).Contents (Elt F) → (⟨S50000x128, .f32⟩ : BufTy).Contents (Elt F)),
    StableHlo.unary main_arg3 main_v67 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v67 main_v68 rfl shapeCasts_S1x128x128_S128x128,
    StableHlo.binary main_v66 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v70 ((extractStridedSlice S1x128 ![1, 0] · slices_S3x128_S1x128_1_0) : (⟨S3x128, .f32⟩ : BufTy).Contents (Elt F) → (⟨S1x128, .f32⟩ : BufTy).Contents (Elt F)),
    StableHlo.reshape main_v70 main_v71 rfl shapeCasts_S1x128_S128,
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v73 main_v74 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v74) main_call3.v0 main_call3.v1 maximumf,
    StableHlo.unary main_arg5 main_v76 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v76 main_v77 rfl shapeCasts_S1x128x128_S128x128,
    StableHlo.binary main_v75 main_v77 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v79 ((extractStridedSlice S1x128 ![1, 0] · slices_S3x128_S1x128_1_0) : (⟨S3x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v82 main_v83 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v83) main_call4.v0 main_call4.v1 maximumf ]

abbrev opsB1_W : List (Ref sig .tc) := [main_v66, main_v67, main_v68, main_v69, main_v70, main_v71, main_v72, main_v73, main_v74, main_call3_cst, main_call3_v0, main_v75, main_v76, main_v77, main_v78, main_v79, main_v80, main_v81, main_v82, main_v83, main_call4_cst, main_call4_v0, main_v84]

theorem opsB1_keep (h : r ∉ opsB1_W) :
    after opsB1 V (Proc.devRef .tc r) = V (Proc.devRef .tc r) :=
  after_of_writes_sub opsB1 V (by and_intros <;> exact writes_sub rfl (by decide)) h

abbrev opsC1 : List (HloOp τ sig (Elt F)) :=
  [
    StableHlo.nullary main_cst_8 (constant S_ .f32 0x00000000#32),
    StableHlo.binary main_v84 main_cst_8 main_v85 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call5.cst (constant S_ .f32 0x00000000#32),
    StableHlo.TRef.binary (.of main_v84) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (.of main_v84) main_call5.v4 main_call5.v5 subf,
    StableHlo.TRef.binary main_call5.v5 main_call5.v5 main_call5.v6 mulf,
    StableHlo.TRef.unary (.of main_c_10) main_call5.v7 (sitofp (F := F) .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf (F := F) .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v90 main_v91 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v92 (broadcastInDim S128 ![] bcast_S_S128 : (⟨S_, .f32⟩ : BufTy).Contents (Elt F) → (⟨S128, .f32⟩ : BufTy).Contents (Elt F)),
    StableHlo.binary main_v88 main_v92 main_v93 (addf : (⟨S128, .f32⟩ : BufTy).Contents (Elt F) → (⟨S128, .f32⟩ : BufTy).Contents (Elt F) → (⟨S128, .f32⟩ : BufTy).Contents (Elt F)),
    StableHlo.unary main_v93 main_v94 (Host.rsqrt : (⟨S128, .f32⟩ : BufTy).Contents (Elt F) → (⟨S128, .f32⟩ : BufTy).Contents (Elt F)),
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v96 main_v97 (mulf : (⟨S50000x128, .f32⟩ : BufTy).Contents (Elt F) → (⟨S50000x128, .f32⟩ : BufTy).Contents (Elt F) → (⟨S50000x128, .f32⟩ : BufTy).Contents (Elt F)),
    StableHlo.unary main_arg7 main_v98 ((extractStridedSlice S1x128 ![1, 0] · slices_S3x128_S1x128_1_0) : (⟨S3x128, .f32⟩ : BufTy).Contents (Elt F) → (⟨S1x128, .f32⟩ : BufTy).Contents (Elt F)),
    StableHlo.reshape main_v98 main_v99 rfl shapeCasts_S1x128_S128,
    StableHlo.unary main_v99 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v101 main_v102 (mulf : (⟨S50000x128, .f32⟩ : BufTy).Contents (Elt F) → (⟨S50000x128, .f32⟩ : BufTy).Contents (Elt F) → (⟨S50000x128, .f32⟩ : BufTy).Contents (Elt F)),
    StableHlo.unary main_arg8 main_v103 ((extractStridedSlice S1x128 ![1, 0] · slices_S3x128_S1x128_1_0) : (⟨S3x128, .f32⟩ : BufTy).Contents (Elt F) → (⟨S1x128, .f32⟩ : BufTy).Contents (Elt F)),
    StableHlo.reshape main_v103 main_v104 rfl shapeCasts_S1x128_S128,
    StableHlo.unary main_v104 main_v105 (broadcastInDim S1x128 ![1] bcast_S128_S1x128_1 : (⟨S128, .f32⟩ : BufTy).Contents (Elt F) → (⟨S1x128, .f32⟩ : BufTy).Contents (Elt F)) ]

abbrev opsC1_W : List (Ref sig .tc) := [main_cst_8, main_v85, main_cst_9, main_v86, main_v87, main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v88, main_v89, main_v90, main_v91, main_cst_11, main_v92, main_v93, main_v94, main_v95, main_v96, main_v97, main_v98, main_v99, main_v100, main_v101, main_v102, main_v103, main_v104, main_v105]

theorem opsC1_keep (h : r ∉ opsC1_W) :
    after opsC1 V (Proc.devRef .tc r) = V (Proc.devRef .tc r) :=
  after_of_writes_sub opsC1 V (by and_intros <;> exact writes_sub rfl (by decide)) h

abbrev opsD1 : List (HloOp τ sig (Elt F)) :=
  [
    StableHlo.unary main_v105 main_v106 (broadcastInDim S50000x128 ![0, 1] bcast_S1x128_S50000x128_0_1 : (⟨S1x128, .f32⟩ : BufTy).Contents (Elt F) → (⟨S50000x128, .f32⟩ : BufTy).Contents (Elt F)),
    StableHlo.binary main_v102 main_v106 main_v107 (addf : (⟨S50000x128, .f32⟩ : BufTy).Contents (Elt F) → (⟨S50000x128, .f32⟩ : BufTy).Contents (Elt F) → (⟨S50000x128, .f32⟩ : BufTy).Contents (Elt F)) ]

abbrev opsD1_W : List (Ref sig .tc) := [main_v106, main_v107]

theorem opsD1_keep (h : r ∉ opsD1_W) :
    after opsD1 V (Proc.devRef .tc r) = V (Proc.devRef .tc r) :=
  after_of_writes_sub opsD1 V (by and_intros <;> exact writes_sub rfl (by decide)) h

abbrev opsA2 : List (HloOp τ sig (Elt F)) :=
  [
    StableHlo.nullary main_c_12 (constantI S_ 32 0#32),
    StableHlo.unary main_c_12 main_v108 (broadcastInDim S1600000 ![] bcast_S_S1600000 : (⟨S_, .i32⟩ : BufTy).Contents (Elt F) → (⟨S1600000, .i32⟩ : BufTy).Contents (Elt F)),
    StableHlo.binary main_v1 main_v108 main_v109 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 50000#32),
    StableHlo.unary main_c_13 main_v110 (broadcastInDim S1600000 ![] bcast_S_S1600000 : (⟨S_, .i32⟩ : BufTy).Contents (Elt F) → (⟨S1600000, .i32⟩ : BufTy).Contents (Elt F)),
    StableHlo.binary main_v1 main_v110 main_v111 (addi : (⟨S1600000, .i32⟩ : BufTy).Contents (Elt F) → (⟨S1600000, .i32⟩ : BufTy).Contents (Elt F) → (⟨S1600000, .i32⟩ : BufTy).Contents (Elt F)),
    StableHlo.ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v112 main_v113 (broadcastInDim S1600000x1 ![0] bcast_S1600000_S1600000x1_0 : (⟨S1600000, .i32⟩ : BufTy).Contents (Elt F) → (⟨S1600000x1, .i32⟩ : BufTy).Contents (Elt F)),
    StableHlo.binary main_v107 main_v113 main_v114 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v115 (broadcastInDim S50000x128 ![] bcast_S_S50000x128 : (⟨S_, .f32⟩ : BufTy).Contents (Elt F) → (⟨S50000x128, .f32⟩ : BufTy).Contents (Elt F)),
    StableHlo.unary main_v3 main_v116 (broadcastInDim S1600000x1 ![0] bcast_S1600000_S1600000x1_0 : (⟨S1600000, .i32⟩ : BufTy).Contents (Elt F) → (⟨S1600000x1, .i32⟩ : BufTy).Contents (Elt F)),
    StableHlo.ternary main_v115 main_v116 main_v114 main_v117 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]

abbrev opsA2_W : List (Ref sig .tc) := [main_c_12, main_v108, main_v109, main_c_13, main_v110, main_v111, main_v112, main_v113, main_v114, main_cst_14, main_v115, main_v116, main_v117]

theorem opsA2_keep (h : r ∉ opsA2_W) :
    after opsA2 V (Proc.devRef .tc r) = V (Proc.devRef .tc r) :=
  after_of_writes_sub opsA2 V (by and_intros <;> exact writes_sub rfl (by decide)) h

abbrev opsB2 : List (HloOp τ sig (Elt F)) :=
  [
    StableHlo.binary main_v117 main_v107 main_v118 (addf : (⟨S50000x128, .f32⟩ : BufTy).Contents (Elt F) → (⟨S50000x128, .f32⟩ : BufTy).Contents (Elt F) → (⟨S50000x128, .f32⟩ : BufTy).Contents (Elt F)),
    StableHlo.unary main_arg3 main_v119 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v119 main_v120 rfl shapeCasts_S1x128x128_S128x128,
    StableHlo.binary main_v118 main_v120 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v122 ((extractStridedSlice S1x128 ![2, 0] · slices_S3x128_S1x128_2_0) : (⟨S3x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v125 main_v126 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v126) main_call6.v0 main_call6.v1 maximumf,
    StableHlo.unary main_arg5 main_v128 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v128 main_v129 rfl shapeCasts_S1x128x128_S128x128,
    StableHlo.binary main_v127 main_v129 main_v130 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v131 ((extractStridedSlice S1x128 ![2, 0] · slices_S3x128_S1x128_2_0) : (⟨S3x128, .f32⟩ : BufTy).Contents (Elt F) → (⟨S1x128, .f32⟩ : BufTy).Contents (Elt F)),
    StableHlo.reshape main_v131 main_v132 rfl shapeCasts_S1x128_S128,
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v134 main_v135 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v135) main_call7.v0 main_call7.v1 maximumf ]

abbrev opsB2_W : List (Ref sig .tc) := [main_v118, main_v119, main_v120, main_v121, main_v122, main_v123, main_v124, main_v125, main_v126, main_call6_cst, main_call6_v0, main_v127, main_v128, main_v129, main_v130, main_v131, main_v132, main_v133, main_v134, main_v135, main_call7_cst, main_call7_v0, main_v136]

theorem opsB2_keep (h : r ∉ opsB2_W) :
    after opsB2 V (Proc.devRef .tc r) = V (Proc.devRef .tc r) :=
  after_of_writes_sub opsB2 V (by and_intros <;> exact writes_sub rfl (by decide)) h

abbrev opsC2 : List (HloOp τ sig (Elt F)) :=
  [
    StableHlo.nullary main_cst_15 (constant S_ .f32 0x00000000#32),
    StableHlo.binary main_v136 main_cst_15 main_v137 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v138 (broadcastInDim S128 ![] bcast_S_S128 : (⟨S_, .f32⟩ : BufTy).Contents (Elt F) → (⟨S128, .f32⟩ : BufTy).Contents (Elt F)),
    StableHlo.binary main_v137 main_v138 main_v139 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call8.cst (constant S_ .f32 0x00000000#32),
    StableHlo.TRef.binary (.of main_v136) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v136) main_call8.v4 main_call8.v5 subf,
    StableHlo.TRef.binary main_call8.v5 main_call8.v5 main_call8.v6 mulf,
    StableHlo.TRef.unary (.of main_c_17) main_call8.v7 (sitofp (F := F) .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf (F := F) .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v139 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v142 main_v143 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v144 (broadcastInDim S128 ![] bcast_S_S128 : (⟨S_, .f32⟩ : BufTy).Contents (Elt F) → (⟨S128, .f32⟩ : BufTy).Contents (Elt F)),
    StableHlo.binary main_v140 main_v144 main_v145 (addf : (⟨S128, .f32⟩ : BufTy).Contents (Elt F) → (⟨S128, .f32⟩ : BufTy).Contents (Elt F) → (⟨S128, .f32⟩ : BufTy).Contents (Elt F)),
    StableHlo.unary main_v145 main_v146 (Host.rsqrt : (⟨S128, .f32⟩ : BufTy).Contents (Elt F) → (⟨S128, .f32⟩ : BufTy).Contents (Elt F)),
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v148 main_v149 (mulf : (⟨S50000x128, .f32⟩ : BufTy).Contents (Elt F) → (⟨S50000x128, .f32⟩ : BufTy).Contents (Elt F) → (⟨S50000x128, .f32⟩ : BufTy).Contents (Elt F)),
    StableHlo.unary main_arg7 main_v150 ((extractStridedSlice S1x128 ![2, 0] · slices_S3x128_S1x128_2_0) : (⟨S3x128, .f32⟩ : BufTy).Contents (Elt F) → (⟨S1x128, .f32⟩ : BufTy).Contents (Elt F)),
    StableHlo.reshape main_v150 main_v151 rfl shapeCasts_S1x128_S128,
    StableHlo.unary main_v151 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v153 main_v154 (mulf : (⟨S50000x128, .f32⟩ : BufTy).Contents (Elt F) → (⟨S50000x128, .f32⟩ : BufTy).Contents (Elt F) → (⟨S50000x128, .f32⟩ : BufTy).Contents (Elt F)),
    StableHlo.unary main_arg8 main_v155 ((extractStridedSlice S1x128 ![2, 0] · slices_S3x128_S1x128_2_0) : (⟨S3x128, .f32⟩ : BufTy).Contents (Elt F) → (⟨S1x128, .f32⟩ : BufTy).Contents (Elt F)),
    StableHlo.reshape main_v155 main_v156 rfl shapeCasts_S1x128_S128,
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)) ]

abbrev opsC2_W : List (Ref sig .tc) := [main_cst_15, main_v137, main_cst_16, main_v138, main_v139, main_c_17, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v140, main_v141, main_v142, main_v143, main_cst_18, main_v144, main_v145, main_v146, main_v147, main_v148, main_v149, main_v150, main_v151, main_v152, main_v153, main_v154, main_v155, main_v156, main_v157, main_v158]

theorem opsC2_keep (h : r ∉ opsC2_W) :
    after opsC2 V (Proc.devRef .tc r) = V (Proc.devRef .tc r) :=
  after_of_writes_sub opsC2 V (by and_intros <;> exact writes_sub rfl (by decide)) h

abbrev opsD2 : List (HloOp τ sig (Elt F)) :=
  [
    StableHlo.binary main_v154 main_v158 main_v159 (addf : (⟨S50000x128, .f32⟩ : BufTy).Contents (Elt F) → (⟨S50000x128, .f32⟩ : BufTy).Contents (Elt F) → (⟨S50000x128, .f32⟩ : BufTy).Contents (Elt F)) ]

abbrev opsD2_W : List (Ref sig .tc) := [main_v159]

theorem opsD2_keep (h : r ∉ opsD2_W) :
    after opsD2 V (Proc.devRef .tc r) = V (Proc.devRef .tc r) :=
  after_of_writes_sub opsD2 V (by and_intros <;> exact writes_sub rfl (by decide)) h

abbrev opsH : List (HloOp τ sig (Elt F)) :=
  [
    StableHlo.nary ![main_v55, main_v107, main_v159] main_v160 (fun u => concatenate S50000x384 1 [⟨S50000x128, u 0⟩, ⟨S50000x128, u 1⟩, ⟨S50000x128, u 2⟩] concatenates_S50000x128_S50000x128_S50000x128_S50000x384_d1),
    StableHlo.nullary main_cst_19 (constant S_ .f32 0x00000000#32),
    StableHlo.unary main_cst_19 main_v161 (broadcastInDim S512x384 ![] bcast_S_S512x384 : (⟨S_, .f32⟩ : BufTy).Contents (Elt F) → (⟨S512x384, .f32⟩ : BufTy).Contents (Elt F)),
    StableHlo.unary main_arg2 main_v162 (broadcastInDim S50000x1 ![0] bcast_S50000_S50000x1_0 : (⟨S50000, .i32⟩ : BufTy).Contents (Elt F) → (⟨S50000x1, .i32⟩ : BufTy).Contents (Elt F)),
    StableHlo.ternary main_v161 main_v162 main_v160 main_v163 ((fun x i u => Host.scatterAdd scatter_S512x384_S50000x1_S50000x384_1_0_0_1 x i u) : (⟨S512x384, .f32⟩ : BufTy).Contents (Elt F) → (⟨S50000x1, .i32⟩ : BufTy).Contents (Elt F) → (⟨S50000x384, .f32⟩ : BufTy).Contents (Elt F) → (⟨S512x384, .f32⟩ : BufTy).Contents (Elt F)),
    StableHlo.binary main_v163 main_arg9 main_v164 ((fun l r => Host.dotGeneral dot_S512x384_S384x384_S512x384_1_0_0_1_n_n none l r) : (⟨S512x384, .f32⟩ : BufTy).Contents (Elt F) → (⟨S384x384, .f32⟩ : BufTy).Contents (Elt F) → (⟨S512x384, .f32⟩ : BufTy).Contents (Elt F)),
    StableHlo.unary main_arg10 main_v165 (broadcastInDim S1x384 ![1] bcast_S384_S1x384_1 : (⟨S384, .f32⟩ : BufTy).Contents (Elt F) → (⟨S1x384, .f32⟩ : BufTy).Contents (Elt F)),
    StableHlo.unary main_v165 main_v166 (broadcastInDim S512x384 ![0, 1] bcast_S1x384_S512x384_0_1 : (⟨S1x384, .f32⟩ : BufTy).Contents (Elt F) → (⟨S512x384, .f32⟩ : BufTy).Contents (Elt F)),
    StableHlo.binary main_v164 main_v166 main_v167 (addf : (⟨S512x384, .f32⟩ : BufTy).Contents (Elt F) → (⟨S512x384, .f32⟩ : BufTy).Contents (Elt F) → (⟨S512x384, .f32⟩ : BufTy).Contents (Elt F)),
    StableHlo.TRef.nullary main_call9.cst (constant S_ .f32 0x00000000#32),
    StableHlo.TRef.unary main_call9.cst main_call9.v0 (broadcastInDim S512x384 ![] bcast_S_S512x384),
    StableHlo.TRef.binary (.of main_v167) main_call9.v0 main_call9.v1 maximumf,
    StableHlo.binary main_v168 main_arg11 main_v169 ((fun l r => Host.dotGeneral dot_S512x384_S384x384_S512x384_1_0_0_1_n_n none l r) : (⟨S512x384, .f32⟩ : BufTy).Contents (Elt F) → (⟨S384x384, .f32⟩ : BufTy).Contents (Elt F) → (⟨S512x384, .f32⟩ : BufTy).Contents (Elt F)),
    StableHlo.unary main_arg12 main_v170 (broadcastInDim S1x384 ![1] bcast_S384_S1x384_1 : (⟨S384, .f32⟩ : BufTy).Contents (Elt F) → (⟨S1x384, .f32⟩ : BufTy).Contents (Elt F)),
    StableHlo.unary main_v170 main_v171 (broadcastInDim S512x384 ![0, 1] bcast_S1x384_S512x384_0_1 : (⟨S1x384, .f32⟩ : BufTy).Contents (Elt F) → (⟨S512x384, .f32⟩ : BufTy).Contents (Elt F)),
    StableHlo.binary main_v169 main_v171 main_v172 (addf : (⟨S512x384, .f32⟩ : BufTy).Contents (Elt F) → (⟨S512x384, .f32⟩ : BufTy).Contents (Elt F) → (⟨S512x384, .f32⟩ : BufTy).Contents (Elt F)) ]

abbrev opsH_W : List (Ref sig .tc) := [main_v160, main_cst_19, main_v161, main_v162, main_v163, main_v164, main_v165, main_v166, main_v167, main_call9_cst, main_call9_v0, main_v168, main_v169, main_v170, main_v171, main_v172]

theorem opsH_keep (h : r ∉ opsH_W) :
    after opsH V (Proc.devRef .tc r) = V (Proc.devRef .tc r) :=
  after_of_writes_sub opsH V (by and_intros <;> exact writes_sub rfl (by decide)) h

end Cert.ReferenceIdeal.Hand

end
-- ==== Proof.RI.MainEq.lean ====
import proofs.«407439_j85349590106293_1_alg».proof.Proof.RI.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  opsP ++ (opsA0 ++ (opsB0 ++ (opsC0 ++ (opsD0 ++ (opsA1 ++ (opsB1 ++ (opsC1 ++ (opsD1 ++ (opsA2 ++ (opsB2 ++ (opsC2 ++ (opsD2 ++ (opsH)))))))))))))

theorem main_part0_eq (c : Dev nD) : main_part0 (F := F) c = (seq opsP >>= fun _ => seq opsA0 >>= fun _ => seq opsB0 >>= fun _ => seq opsC0) := by
  simp only [main_part0, fn_relu.body, fn_relu_0.body, fn_var.body, fn_where.body, seq, bind_assoc, pure_bind]
  rfl

theorem main_part1_eq (c : Dev nD) : main_part1 (F := F) c = (seq opsD0 >>= fun _ => seq opsA1 >>= fun _ => seq opsB1 >>= fun _ => seq opsC1) := by
  simp only [main_part1, fn_relu.body, fn_relu_0.body, fn_var.body, fn_where.body, seq, bind_assoc, pure_bind]
  rfl

theorem main_part2_eq (c : Dev nD) : main_part2 (F := F) c = (seq opsD1 >>= fun _ => seq opsA2 >>= fun _ => seq opsB2 >>= fun _ => seq opsC2) := by
  simp only [main_part2, fn_relu.body, fn_relu_0.body, fn_var.body, fn_where.body, seq, bind_assoc, pure_bind]
  rfl

theorem main_part3_eq (c : Dev nD) : main_part3 (F := F) c = (seq opsD2 >>= fun _ => seq opsH) := by
  simp only [main_part3, fn_relu.body, fn_relu_0.body, fn_var.body, fn_where.body, seq, bind_assoc, pure_bind]

theorem main_eq (c : Dev nD) : main (F := F) c = seq ops := by
  rw [show main (F := F) c = (main_part0 (F := F) c >>= fun _ => main_part1 (F := F) c >>= fun _ => main_part2 (F := F) c >>= fun _ => main_part3 (F := F) c) from rfl,
    main_part0_eq, main_part1_eq, main_part2_eq, main_part3_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  and_intros <;> simp only [List.Forall, nullary_bufs_sub, unary_bufs_sub, binary_bufs_sub, ternary_bufs_sub, reshape_bufs_sub, nary_bufs_sub]

theorem ops_fresh : ∀ op ∈ (ops : List (HloOp τ sig (Elt F))), op.fresh = ∅ :=
  List.forall_iff_forall_mem.mp (by simp only [ops, List.forall_append]; and_intros <;> rfl)

end Cert.ReferenceIdeal.Hand

end
-- ==== Proof.RI.Defs.lean ====
import proofs.«407439_j85349590106293_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def refSrc (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

def refDst (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

def refZeros : (⟨S50000x128, .f32⟩ : BufTy).Contents (Elt F) :=
  broadcastInDim S50000x128 ![] bcast_S_S50000x128 (constant (F := F) S_ .f32 0x00000000#32)

def refRows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

def refAgg (h : (⟨S50000x128, .f32⟩ : BufTy).Contents (Elt F)) (src dst : (⟨S1600000, .i32⟩ : BufTy).Contents (Elt F)) : (⟨S50000x128, .f32⟩ : BufTy).Contents (Elt F) :=
  Host.scatterAdd scatter_S50000x128_S1600000x1_S1600000x128_1_0_0_1 refZeros
    (broadcastInDim S1600000x1 ![0] bcast_S1600000_S1600000x1_0 dst)
    (Host.gather gather_S50000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

def refMean (p : (⟨S50000x128, .f32⟩ : BufTy).Contents (Elt F)) : (⟨S128, .f32⟩ : BufTy).Contents (Elt F) :=
  Host.divf (Host.reduceAdd p (constant (F := F) S_ .f32 0x00000000#32) reducesTo_S50000x128_S128_d0 h_S_)
    (broadcastInDim S128 ![] bcast_S_S128 (constant (F := F) S_ .f32 0x47435000#32))

def refVar (p : (⟨S50000x128, .f32⟩ : BufTy).Contents (Elt F)) : (⟨S128, .f32⟩ : BufTy).Contents (Elt F) :=
  select
    (broadcastInDim S128 ![] bcast_S_S128
      (cmpf (F := F) .ogt (subf (constant (F := F) S_ .f32 0x47435000#32) (sitofp (F := F) .f32 (constantI S_ 32 0#32))) (constant (F := F) S_ .f32 0x00000000#32)))
    (Host.divf
      (Host.reduceAdd
        (mulf
          (subf p (broadcastInDim S50000x128 ![0, 1] bcast_S1x128_S50000x128_0_1
            (Host.divf (broadcastInDim S1x128 ![1] bcast_S128_S1x128_1 (Host.reduceAdd p (constant (F := F) S_ .f32 0x00000000#32) reducesTo_S50000x128_S128_d0 h_S_))
              (broadcastInDim S1x128 ![] bcast_S_S1x128 (constant (F := F) S_ .f32 0x47435000#32)))))
          (subf p (broadcastInDim S50000x128 ![0, 1] bcast_S1x128_S50000x128_0_1
            (Host.divf (broadcastInDim S1x128 ![1] bcast_S128_S1x128_1 (Host.reduceAdd p (constant (F := F) S_ .f32 0x00000000#32) reducesTo_S50000x128_S128_d0 h_S_))
              (broadcastInDim S1x128 ![] bcast_S_S1x128 (constant (F := F) S_ .f32 0x47435000#32))))))
        (constant (F := F) S_ .f32 0x00000000#32) reducesTo_S50000x128_S128_d0 h_S_)
      (broadcastInDim S128 ![] bcast_S_S128 (subf (constant (F := F) S_ .f32 0x47435000#32) (sitofp (F := F) .f32 (constantI S_ 32 0#32)))))
    (broadcastInDim S128 ![] bcast_S_S128 (id (constant (F := F) S_ .f32 0x7FC00000#32)))

def refMat0 (W : (⟨S3x128x128, .f32⟩ : BufTy).Contents (Elt F)) : (⟨S128x128, .f32⟩ : BufTy).Contents (Elt F) :=
  shapeCast S128x128 (extractStridedSlice S1x128x128 ![0, 0, 0] W slices_S3x128x128_S1x128x128_0_0_0) shapeCasts_S1x128x128_S128x128

def refVec0 (b : (⟨S3x128, .f32⟩ : BufTy).Contents (Elt F)) : (⟨S128, .f32⟩ : BufTy).Contents (Elt F) :=
  shapeCast S128 (extractStridedSlice S1x128 ![0, 0] b slices_S3x128_S1x128_0_0) shapeCasts_S1x128_S128

def refMlp0 (a h : (⟨S50000x128, .f32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) : (⟨S50000x128, .f32⟩ : BufTy).Contents (Elt F) :=
  maximumf
    (addf
      (Host.dotGeneral dot_S50000x128_S128x128_S50000x128_1_0_0_1_n_n none
        (maximumf
          (addf (Host.dotGeneral dot_S50000x128_S128x128_S50000x128_1_0_0_1_n_n none (addf a h) (refMat0 W1)) (refRows (refVec0 b1)))
          refZeros)
        (refMat0 W2))
      (refRows (refVec0 b2)))
    refZeros

def refPre0 (h : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) : (⟨S50000x128, .f32⟩ : BufTy).Contents (Elt F) :=
  refMlp0 (refAgg h src dst) h W1 b1 W2 b2

def refNorm0 (p : (⟨S50000x128, .f32⟩ : BufTy).Contents (Elt F)) (g be : (⟨S3x128, .f32⟩ : BufTy).Contents (Elt F)) : (⟨S50000x128, .f32⟩ : BufTy).Contents (Elt F) :=
  addf
    (mulf
      (mulf (subf p (refRows (refMean p)))
        (refRows (Host.rsqrt (addf (refVar p) (broadcastInDim S128 ![] bcast_S_S128 (constant (F := F) S_ .f32 0x3727C5AC#32))))))
      (refRows (refVec0 g)))
    (refRows (refVec0 be))

def refLayer0 (h : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) (g be : (⟨S3x128, .f32⟩ : BufTy).Contents (Elt F)) : (⟨S50000x128, .f32⟩ : BufTy).Contents (Elt F) :=
  refNorm0 (refPre0 h src dst W1 b1 W2 b2) g be

def refMat1 (W : (⟨S3x128x128, .f32⟩ : BufTy).Contents (Elt F)) : (⟨S128x128, .f32⟩ : BufTy).Contents (Elt F) :=
  shapeCast S128x128 (extractStridedSlice S1x128x128 ![1, 0, 0] W slices_S3x128x128_S1x128x128_1_0_0) shapeCasts_S1x128x128_S128x128

def refVec1 (b : (⟨S3x128, .f32⟩ : BufTy).Contents (Elt F)) : (⟨S128, .f32⟩ : BufTy).Contents (Elt F) :=
  shapeCast S128 (extractStridedSlice S1x128 ![1, 0] b slices_S3x128_S1x128_1_0) shapeCasts_S1x128_S128

def refMlp1 (a h : (⟨S50000x128, .f32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) : (⟨S50000x128, .f32⟩ : BufTy).Contents (Elt F) :=
  maximumf
    (addf
      (Host.dotGeneral dot_S50000x128_S128x128_S50000x128_1_0_0_1_n_n none
        (maximumf
          (addf (Host.dotGeneral dot_S50000x128_S128x128_S50000x128_1_0_0_1_n_n none (addf a h) (refMat1 W1)) (refRows (refVec1 b1)))
          refZeros)
        (refMat1 W2))
      (refRows (refVec1 b2)))
    refZeros

def refPre1 (h : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) : (⟨S50000x128, .f32⟩ : BufTy).Contents (Elt F) :=
  refMlp1 (refAgg h src dst) h W1 b1 W2 b2

def refNorm1 (p : (⟨S50000x128, .f32⟩ : BufTy).Contents (Elt F)) (g be : (⟨S3x128, .f32⟩ : BufTy).Contents (Elt F)) : (⟨S50000x128, .f32⟩ : BufTy).Contents (Elt F) :=
  addf
    (mulf
      (mulf (subf p (refRows (refMean p)))
        (refRows (Host.rsqrt (addf (refVar p) (broadcastInDim S128 ![] bcast_S_S128 (constant (F := F) S_ .f32 0x3727C5AC#32))))))
      (refRows (refVec1 g)))
    (refRows (refVec1 be))

def refLayer1 (h : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) (g be : (⟨S3x128, .f32⟩ : BufTy).Contents (Elt F)) : (⟨S50000x128, .f32⟩ : BufTy).Contents (Elt F) :=
  refNorm1 (refPre1 h src dst W1 b1 W2 b2) g be

def refMat2 (W : (⟨S3x128x128, .f32⟩ : BufTy).Contents (Elt F)) : (⟨S128x128, .f32⟩ : BufTy).Contents (Elt F) :=
  shapeCast S128x128 (extractStridedSlice S1x128x128 ![2, 0, 0] W slices_S3x128x128_S1x128x128_2_0_0) shapeCasts_S1x128x128_S128x128

def refVec2 (b : (⟨S3x128, .f32⟩ : BufTy).Contents (Elt F)) : (⟨S128, .f32⟩ : BufTy).Contents (Elt F) :=
  shapeCast S128 (extractStridedSlice S1x128 ![2, 0] b slices_S3x128_S1x128_2_0) shapeCasts_S1x128_S128

def refMlp2 (a h : (⟨S50000x128, .f32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) : (⟨S50000x128, .f32⟩ : BufTy).Contents (Elt F) :=
  maximumf
    (addf
      (Host.dotGeneral dot_S50000x128_S128x128_S50000x128_1_0_0_1_n_n none
        (maximumf
          (addf (Host.dotGeneral dot_S50000x128_S128x128_S50000x128_1_0_0_1_n_n none (addf a h) (refMat2 W1)) (refRows (refVec2 b1)))
          refZeros)
        (refMat2 W2))
      (refRows (refVec2 b2)))
    refZeros

def refPre2 (h : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) : (⟨S50000x128, .f32⟩ : BufTy).Contents (Elt F) :=
  refMlp2 (refAgg h src dst) h W1 b1 W2 b2

def refNorm2 (p : (⟨S50000x128, .f32⟩ : BufTy).Contents (Elt F)) (g be : (⟨S3x128, .f32⟩ : BufTy).Contents (Elt F)) : (⟨S50000x128, .f32⟩ : BufTy).Contents (Elt F) :=
  addf
    (mulf
      (mulf (subf p (refRows (refMean p)))
        (refRows (Host.rsqrt (addf (refVar p) (broadcastInDim S128 ![] bcast_S_S128 (constant (F := F) S_ .f32 0x3727C5AC#32))))))
      (refRows (refVec2 g)))
    (refRows (refVec2 be))

def refLayer2 (h : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 : (⟨S3x128, .f32⟩ : BufTy).Contents (Elt F)) (g be : (⟨S3x128, .f32⟩ : BufTy).Contents (Elt F)) : (⟨S50000x128, .f32⟩ : BufTy).Contents (Elt F) :=
  refNorm2 (refPre2 h src dst W1 b1 W2 b2) g be

def refHead (h1 h2 h3 : (⟨S50000x128, .f32⟩ : BufTy).Contents (Elt F)) (batch : (⟨S50000, .i32⟩ : BufTy).Contents (Elt F)) (Wp1 : (⟨S384x384, .f32⟩ : BufTy).Contents (Elt F)) (bp1 : (⟨S384, .f32⟩ : BufTy).Contents (Elt F)) (Wp2 : (⟨S384x384, .f32⟩ : BufTy).Contents (Elt F)) (bp2 : (⟨S384, .f32⟩ : BufTy).Contents (Elt F)) : (⟨S512x384, .f32⟩ : BufTy).Contents (Elt F) :=
  addf
    (Host.dotGeneral dot_S512x384_S384x384_S512x384_1_0_0_1_n_n none
      (maximumf
        (addf
          (Host.dotGeneral dot_S512x384_S384x384_S512x384_1_0_0_1_n_n none
            (Host.scatterAdd scatter_S512x384_S50000x1_S50000x384_1_0_0_1
              (broadcastInDim S512x384 ![] bcast_S_S512x384 (constant (F := F) S_ .f32 0x00000000#32))
              (broadcastInDim S50000x1 ![0] bcast_S50000_S50000x1_0 batch)
              (concatenate S50000x384 1 [⟨S50000x128, h1⟩, ⟨S50000x128, h2⟩, ⟨S50000x128, h3⟩] concatenates_S50000x128_S50000x128_S50000x128_S50000x384_d1))
            Wp1)
          (broadcastInDim S512x384 ![0, 1] bcast_S1x384_S512x384_0_1 (broadcastInDim S1x384 ![1] bcast_S384_S1x384_1 bp1)))
        (broadcastInDim S512x384 ![] bcast_S_S512x384 (constant (F := F) S_ .f32 0x00000000#32)))
      Wp2)
    (broadcastInDim S512x384 ![0, 1] bcast_S1x384_S512x384_0_1 (broadcastInDim S1x384 ![1] bcast_S384_S1x384_1 bp2))

def resH1 (m : (ℓ : Loc nD τ sig) → Buf (Elt F) ℓ) (c : Dev nD) : (⟨S50000x128, .f32⟩ : BufTy).Contents (Elt F) :=
  refLayer0 (m ((c.tc : Thread nD τ).loc main_arg0)) (refSrc (m ((c.tc : Thread nD τ).loc main_arg1))) (refDst (m ((c.tc : Thread nD τ).loc main_arg1)))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

def resH2 (m : (ℓ : Loc nD τ sig) → Buf (Elt F) ℓ) (c : Dev nD) : (⟨S50000x128, .f32⟩ : BufTy).Contents (Elt F) :=
  refLayer1 (resH1 m c) (refSrc (m ((c.tc : Thread nD τ).loc main_arg1))) (refDst (m ((c.tc : Thread nD τ).loc main_arg1)))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

def resH3 (m : (ℓ : Loc nD τ sig) → Buf (Elt F) ℓ) (c : Dev nD) : (⟨S50000x128, .f32⟩ : BufTy).Contents (Elt F) :=
  refLayer2 (resH2 m c) (refSrc (m ((c.tc : Thread nD τ).loc main_arg1))) (refDst (m ((c.tc : Thread nD τ).loc main_arg1)))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

def res (m : (ℓ : Loc nD τ sig) → Buf (Elt F) ℓ) (c : Dev nD) : (⟨S512x384, .f32⟩ : BufTy).Contents (Elt F) :=
  refHead (resH1 m c) (resH2 m c) (resH3 m c) (m ((c.tc : Thread nD τ).loc main_arg2))
    (m ((c.tc : Thread nD τ).loc main_arg9)) (m ((c.tc : Thread nD τ).loc main_arg10)) (m ((c.tc : Thread nD τ).loc main_arg11)) (m ((c.tc : Thread nD τ).loc main_arg12))

end Cert.ReferenceIdeal.Hand

end
-- ==== Proof.LibNary3.lean ====
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- A three-operand `nary` leaves its function's value at the operands' contents, each read at its own reference: the two families agree at each of the three indices. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.RI.Results.lean ====
import proofs.«407439_j85349590106293_1_alg».proof.Proof.RI.Defs
import proofs.«407439_j85349590106293_1_alg».proof.Proof.RI.Ops
import proofs.«407439_j85349590106293_1_alg».proof.Proof.LibNary3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

theorem opsP_src :
    after opsP V (Proc.devRef .tc main_v1) = refSrc (V (Proc.devRef .tc main_arg1)) := by
  simp only [opsP]
  after_results_simp
  rfl

theorem opsP_dst :
    after opsP V (Proc.devRef .tc main_v3) = refDst (V (Proc.devRef .tc main_arg1)) := by
  simp only [opsP]
  after_results_simp
  rfl

theorem opsA0_res :
    after opsA0 V (Proc.devRef .tc main_v13) = refAgg (V (Proc.devRef .tc main_arg0)) (V (Proc.devRef .tc main_v1)) (V (Proc.devRef .tc main_v3)) := by
  simp only [opsA0]
  after_results_simp
  rfl

theorem opsB0_res :
    after opsB0 V (Proc.devRef .tc main_v32) = refMlp0 (V (Proc.devRef .tc main_v13)) (V (Proc.devRef .tc main_arg0)) (V (Proc.devRef .tc main_arg3)) (V (Proc.devRef .tc main_arg4)) (V (Proc.devRef .tc main_arg5)) (V (Proc.devRef .tc main_arg6)) := by
  simp only [opsB0]
  after_results_simp
  (try simp only [TRef.ofBuf, TRef.toBuf, cast_eq])
  rfl

theorem opsCD0_res :
    after opsD0 (after opsC0 V) (Proc.devRef .tc main_v55) = refNorm0 (V (Proc.devRef .tc main_v32)) (V (Proc.devRef .tc main_arg7)) (V (Proc.devRef .tc main_arg8)) := by
  simp only [opsC0, opsD0]
  after_results_simp
  (try simp only [TRef.ofBuf, TRef.toBuf, cast_eq])
  rfl

theorem opsA1_res :
    after opsA1 V (Proc.devRef .tc main_v65) = refAgg (V (Proc.devRef .tc main_v55)) (V (Proc.devRef .tc main_v1)) (V (Proc.devRef .tc main_v3)) := by
  simp only [opsA1]
  after_results_simp
  rfl

theorem opsB1_res :
    after opsB1 V (Proc.devRef .tc main_v84) = refMlp1 (V (Proc.devRef .tc main_v65)) (V (Proc.devRef .tc main_v55)) (V (Proc.devRef .tc main_arg3)) (V (Proc.devRef .tc main_arg4)) (V (Proc.devRef .tc main_arg5)) (V (Proc.devRef .tc main_arg6)) := by
  simp only [opsB1]
  after_results_simp
  (try simp only [TRef.ofBuf, TRef.toBuf, cast_eq])
  rfl

theorem opsCD1_res :
    after opsD1 (after opsC1 V) (Proc.devRef .tc main_v107) = refNorm1 (V (Proc.devRef .tc main_v84)) (V (Proc.devRef .tc main_arg7)) (V (Proc.devRef .tc main_arg8)) := by
  simp only [opsC1, opsD1]
  after_results_simp
  (try simp only [TRef.ofBuf, TRef.toBuf, cast_eq])
  rfl

theorem opsA2_res :
    after opsA2 V (Proc.devRef .tc main_v117) = refAgg (V (Proc.devRef .tc main_v107)) (V (Proc.devRef .tc main_v1)) (V (Proc.devRef .tc main_v3)) := by
  simp only [opsA2]
  after_results_simp
  rfl

theorem opsB2_res :
    after opsB2 V (Proc.devRef .tc main_v136) = refMlp2 (V (Proc.devRef .tc main_v117)) (V (Proc.devRef .tc main_v107)) (V (Proc.devRef .tc main_arg3)) (V (Proc.devRef .tc main_arg4)) (V (Proc.devRef .tc main_arg5)) (V (Proc.devRef .tc main_arg6)) := by
  simp only [opsB2]
  after_results_simp
  (try simp only [TRef.ofBuf, TRef.toBuf, cast_eq])
  rfl

theorem opsCD2_res :
    after opsD2 (after opsC2 V) (Proc.devRef .tc main_v159) = refNorm2 (V (Proc.devRef .tc main_v136)) (V (Proc.devRef .tc main_arg7)) (V (Proc.devRef .tc main_arg8)) := by
  simp only [opsC2, opsD2]
  after_results_simp
  (try simp only [TRef.ofBuf, TRef.toBuf, cast_eq])
  rfl

theorem opsH_res :
    after opsH V (Proc.devRef .tc main_v172) = refHead (V (Proc.devRef .tc main_v55)) (V (Proc.devRef .tc main_v107)) (V (Proc.devRef .tc main_v159)) (V (Proc.devRef .tc main_arg2)) (V (Proc.devRef .tc main_arg9)) (V (Proc.devRef .tc main_arg10)) (V (Proc.devRef .tc main_arg11)) (V (Proc.devRef .tc main_arg12)) := by
  simp only [opsH]
  simp (disch := decide) only [after_cons, after_nil, nullary_result', unary_result', binary_result', ternary_result', quaternary_result', reshape_result', Cert.LibNary3.nary3_result', nullary_result_ne', unary_result_ne', binary_result_ne', ternary_result_ne', quaternary_result_ne', reshape_result_ne', nary_result_ne']
  (try simp only [TRef.ofBuf, TRef.toBuf, cast_eq])
  rfl

theorem layer0_res :
    after opsD0 (after opsC0 (after opsB0 (after opsA0 V))) (Proc.devRef .tc main_v55)
      = refLayer0 (V (Proc.devRef .tc main_arg0)) (V (Proc.devRef .tc main_v1)) (V (Proc.devRef .tc main_v3)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [opsCD0_res, opsB0_res, opsA0_res, opsB0_keep _ main_arg7 (by decide),
    opsB0_keep _ main_arg8 (by decide),
    opsA0_keep _ main_arg0 (by decide),
    opsA0_keep _ main_arg3 (by decide),
    opsA0_keep _ main_arg4 (by decide),
    opsA0_keep _ main_arg5 (by decide),
    opsA0_keep _ main_arg6 (by decide),
    opsA0_keep _ main_arg7 (by decide),
    opsA0_keep _ main_arg8 (by decide)]
  rfl

abbrev W0 : List (Ref sig .tc) := opsA0_W ++ (opsB0_W ++ (opsC0_W ++ opsD0_W))

theorem layer0_keep (r : Ref sig .tc) (h : r ∉ W0 := by decide) :
    after opsD0 (after opsC0 (after opsB0 (after opsA0 V))) (Proc.devRef .tc r) = V (Proc.devRef .tc r) := by
  simp only [W0, List.mem_append, not_or] at h
  rw [opsD0_keep _ r h.2.2.2, opsC0_keep _ r h.2.2.1, opsB0_keep _ r h.2.1, opsA0_keep _ r h.1]

theorem layer1_res :
    after opsD1 (after opsC1 (after opsB1 (after opsA1 V))) (Proc.devRef .tc main_v107)
      = refLayer1 (V (Proc.devRef .tc main_v55)) (V (Proc.devRef .tc main_v1)) (V (Proc.devRef .tc main_v3)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [opsCD1_res, opsB1_res, opsA1_res, opsB1_keep _ main_arg7 (by decide),
    opsB1_keep _ main_arg8 (by decide),
    opsA1_keep _ main_v55 (by decide),
    opsA1_keep _ main_arg3 (by decide),
    opsA1_keep _ main_arg4 (by decide),
    opsA1_keep _ main_arg5 (by decide),
    opsA1_keep _ main_arg6 (by decide),
    opsA1_keep _ main_arg7 (by decide),
    opsA1_keep _ main_arg8 (by decide)]
  rfl

abbrev W1 : List (Ref sig .tc) := opsA1_W ++ (opsB1_W ++ (opsC1_W ++ opsD1_W))

theorem layer1_keep (r : Ref sig .tc) (h : r ∉ W1 := by decide) :
    after opsD1 (after opsC1 (after opsB1 (after opsA1 V))) (Proc.devRef .tc r) = V (Proc.devRef .tc r) := by
  simp only [W1, List.mem_append, not_or] at h
  rw [opsD1_keep _ r h.2.2.2, opsC1_keep _ r h.2.2.1, opsB1_keep _ r h.2.1, opsA1_keep _ r h.1]

theorem layer2_res :
    after opsD2 (after opsC2 (after opsB2 (after opsA2 V))) (Proc.devRef .tc main_v159)
      = refLayer2 (V (Proc.devRef .tc main_v107)) (V (Proc.devRef .tc main_v1)) (V (Proc.devRef .tc main_v3)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [opsCD2_res, opsB2_res, opsA2_res, opsB2_keep _ main_arg7 (by decide),
    opsB2_keep _ main_arg8 (by decide),
    opsA2_keep _ main_v107 (by decide),
    opsA2_keep _ main_arg3 (by decide),
    opsA2_keep _ main_arg4 (by decide),
    opsA2_keep _ main_arg5 (by decide),
    opsA2_keep _ main_arg6 (by decide),
    opsA2_keep _ main_arg7 (by decide),
    opsA2_keep _ main_arg8 (by decide)]
  rfl

abbrev W2 : List (Ref sig .tc) := opsA2_W ++ (opsB2_W ++ (opsC2_W ++ opsD2_W))

theorem layer2_keep (r : Ref sig .tc) (h : r ∉ W2 := by decide) :
    after opsD2 (after opsC2 (after opsB2 (after opsA2 V))) (Proc.devRef .tc r) = V (Proc.devRef .tc r) := by
  simp only [W2, List.mem_append, not_or] at h
  rw [opsD2_keep _ r h.2.2.2, opsC2_keep _ r h.2.2.1, opsB2_keep _ r h.2.1, opsA2_keep _ r h.1]

def valH1 : (⟨S50000x128, .f32⟩ : BufTy).Contents (Elt F) :=
  refLayer0 (V (Proc.devRef .tc main_arg0)) (refSrc (V (Proc.devRef .tc main_arg1))) (refDst (V (Proc.devRef .tc main_arg1))) (V (Proc.devRef .tc main_arg3)) (V (Proc.devRef .tc main_arg4)) (V (Proc.devRef .tc main_arg5)) (V (Proc.devRef .tc main_arg6)) (V (Proc.devRef .tc main_arg7)) (V (Proc.devRef .tc main_arg8))
def valH2 : (⟨S50000x128, .f32⟩ : BufTy).Contents (Elt F) :=
  refLayer1 (valH1 V) (refSrc (V (Proc.devRef .tc main_arg1))) (refDst (V (Proc.devRef .tc main_arg1))) (V (Proc.devRef .tc main_arg3)) (V (Proc.devRef .tc main_arg4)) (V (Proc.devRef .tc main_arg5)) (V (Proc.devRef .tc main_arg6)) (V (Proc.devRef .tc main_arg7)) (V (Proc.devRef .tc main_arg8))
def valH3 : (⟨S50000x128, .f32⟩ : BufTy).Contents (Elt F) :=
  refLayer2 (valH2 V) (refSrc (V (Proc.devRef .tc main_arg1))) (refDst (V (Proc.devRef .tc main_arg1))) (V (Proc.devRef .tc main_arg3)) (V (Proc.devRef .tc main_arg4)) (V (Proc.devRef .tc main_arg5)) (V (Proc.devRef .tc main_arg6)) (V (Proc.devRef .tc main_arg7)) (V (Proc.devRef .tc main_arg8))
def valRes : (⟨S512x384, .f32⟩ : BufTy).Contents (Elt F) :=
  refHead (valH1 V) (valH2 V) (valH3 V) (V (Proc.devRef .tc main_arg2)) (V (Proc.devRef .tc main_arg9)) (V (Proc.devRef .tc main_arg10)) (V (Proc.devRef .tc main_arg11)) (V (Proc.devRef .tc main_arg12))

def S0 : Valuation τ sig (Elt F) := after opsP V
def S1 : Valuation τ sig (Elt F) := after opsD0 (after opsC0 (after opsB0 (after opsA0 (S0 V))))
def S2 : Valuation τ sig (Elt F) := after opsD1 (after opsC1 (after opsB1 (after opsA1 (S1 V))))
def S3 : Valuation τ sig (Elt F) := after opsD2 (after opsC2 (after opsB2 (after opsA2 (S2 V))))

theorem S0_keep (r : Ref sig .tc) (h : r ∉ opsP_W := by decide) : S0 V (Proc.devRef .tc r) = V (Proc.devRef .tc r) := opsP_keep V r h

theorem S1_keep (r : Ref sig .tc) (hP : r ∉ opsP_W := by decide) (h0 : r ∉ W0 := by decide) : S1 V (Proc.devRef .tc r) = V (Proc.devRef .tc r) := by
  unfold S1; rw [layer0_keep _ r h0, S0_keep _ r hP]

theorem S2_keep (r : Ref sig .tc) (hP : r ∉ opsP_W := by decide) (h0 : r ∉ W0 := by decide) (h1 : r ∉ W1 := by decide) : S2 V (Proc.devRef .tc r) = V (Proc.devRef .tc r) := by
  unfold S2; rw [layer1_keep _ r h1, S1_keep _ r hP h0]

theorem S3_keep (r : Ref sig .tc) (hP : r ∉ opsP_W := by decide) (h0 : r ∉ W0 := by decide) (h1 : r ∉ W1 := by decide) (h2 : r ∉ W2 := by decide) : S3 V (Proc.devRef .tc r) = V (Proc.devRef .tc r) := by
  unfold S3; rw [layer2_keep _ r h2, S2_keep _ r hP h0 h1]

theorem S0_main_v1 : S0 V (Proc.devRef .tc main_v1) = refSrc (V (Proc.devRef .tc main_arg1)) := opsP_src V
theorem S0_main_v3 : S0 V (Proc.devRef .tc main_v3) = refDst (V (Proc.devRef .tc main_arg1)) := opsP_dst V
theorem S1_main_v1 : S1 V (Proc.devRef .tc main_v1) = refSrc (V (Proc.devRef .tc main_arg1)) := by unfold S1; rw [layer0_keep _ main_v1, S0_main_v1]
theorem S1_main_v3 : S1 V (Proc.devRef .tc main_v3) = refDst (V (Proc.devRef .tc main_arg1)) := by unfold S1; rw [layer0_keep _ main_v3, S0_main_v3]
theorem S2_main_v1 : S2 V (Proc.devRef .tc main_v1) = refSrc (V (Proc.devRef .tc main_arg1)) := by unfold S2; rw [layer1_keep _ main_v1, S1_main_v1]
theorem S2_main_v3 : S2 V (Proc.devRef .tc main_v3) = refDst (V (Proc.devRef .tc main_arg1)) := by unfold S2; rw [layer1_keep _ main_v3, S1_main_v3]

theorem S1_main_v55 : S1 V (Proc.devRef .tc main_v55) = valH1 V := by
  unfold S1; rw [layer0_res, S0_main_v1, S0_main_v3, S0_keep _ main_arg0, S0_keep _ main_arg3, S0_keep _ main_arg4, S0_keep _ main_arg5, S0_keep _ main_arg6, S0_keep _ main_arg7, S0_keep _ main_arg8]; rfl
theorem S2_main_v55 : S2 V (Proc.devRef .tc main_v55) = valH1 V := by unfold S2; rw [layer1_keep _ main_v55, S1_main_v55]
theorem S2_main_v107 : S2 V (Proc.devRef .tc main_v107) = valH2 V := by
  unfold S2; rw [layer1_res, S1_main_v55, S1_main_v1, S1_main_v3, S1_keep _ main_arg3, S1_keep _ main_arg4, S1_keep _ main_arg5, S1_keep _ main_arg6, S1_keep _ main_arg7, S1_keep _ main_arg8]; rfl
theorem S3_main_v55 : S3 V (Proc.devRef .tc main_v55) = valH1 V := by unfold S3; rw [layer2_keep _ main_v55, S2_main_v55]
theorem S3_main_v107 : S3 V (Proc.devRef .tc main_v107) = valH2 V := by unfold S3; rw [layer2_keep _ main_v107, S2_main_v107]
theorem S3_main_v159 : S3 V (Proc.devRef .tc main_v159) = valH3 V := by
  unfold S3; rw [layer2_res, S2_main_v107, S2_main_v1, S2_main_v3, S2_keep _ main_arg3, S2_keep _ main_arg4, S2_keep _ main_arg5, S2_keep _ main_arg6, S2_keep _ main_arg7, S2_keep _ main_arg8]; rfl

theorem final_res : after opsH (S3 V) (Proc.devRef .tc main_v172) = valRes V := by
  rw [opsH_res, S3_main_v55, S3_main_v107, S3_main_v159, S3_keep _ main_arg2, S3_keep _ main_arg9, S3_keep _ main_arg10, S3_keep _ main_arg11, S3_keep _ main_arg12]; rfl

end Cert.ReferenceIdeal.Hand

end
-- ==== Proof.RI.Run.lean ====
import proofs.«407439_j85349590106293_1_alg».proof.Proof.RI.MainEq
import proofs.«407439_j85349590106293_1_alg».proof.Proof.RI.Results

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

theorem after_ops : after ops V = after opsH (S3 V) := by
  simp only [ops, after_append]
  rfl

theorem ops_keep (r : Ref sig .tc) (hP : r ∉ opsP_W := by decide) (h0 : r ∉ W0 := by decide) (h1 : r ∉ W1 := by decide) (h2 : r ∉ W2 := by decide) (hH : r ∉ opsH_W := by decide) :
    after ops V (Proc.devRef .tc r) = V (Proc.devRef .tc r) := by
  rw [after_ops, opsH_keep _ r hH, S3_keep _ r hP h0 h1 h2]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v172) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => by
      refine ⟨(h c _).trans (by rw [after_ops]; exact final_res _), ?_⟩
      and_intros <;> exact (h c _).trans (ops_keep _ _))
    (run_seq scopedRefs_eq scopedSems_eq defs main (fun _ => ops) main_eq (fun _ => ops_sub) m ρ (fun _ => ops_fresh))

end Cert.ReferenceIdeal.Hand

end
-- ==== Proof.Val.KHost.lean ====
import proofs.«407439_j85349590106293_1_alg».proof.Proof.Gen.KernelIdeal.Launch
import Idealize.ShloMosaic.Lib.StableHlo.Run

noncomputable section

namespace Cert.KernelIdeal.HostVal

open Idealize.ShloMosaic Idealize.ShloMosaic.TcCoe
open Cert.KernelIdeal Cert.KernelIdeal.Gen

variable {F : FTy → Type} [FloatOps F]

-- Rows 0 and 1 of the edge list: the source and the destination node of every edge.
def kerSrc (e : Vec F S2x1600000 .i32) : Vec F S1600000 .i32 :=
  fun i => shapeCast S1600000 (extractStridedSlice S1x1600000 ![0, 0] e slices_S2x1600000_S1x1600000_0_0) shapeCasts_S1x1600000_S1600000 i

def kerDst (e : Vec F S2x1600000 .i32) : Vec F S1600000 .i32 :=
  fun i => shapeCast S1600000 (extractStridedSlice S1x1600000 ![1, 0] e slices_S2x1600000_S1x1600000_1_0) shapeCasts_S1x1600000_S1600000 i

-- A negative index counts from the end: i < 0 ↦ i + 50000.
def kerNorm (src : Vec F S1600000 .i32) : Vec F S1600000 .i32 :=
  select (cmpi .slt src (broadcastInDim (s := S_) S1600000 ![] bcast_S_S1600000 (constantI S_ 32 0#32)))
    (addi src (broadcastInDim (s := S_) S1600000 ![] bcast_S_S1600000 (constantI S_ 32 50000#32))) src

def kerCol (src : Vec F S1600000 .i32) : Vec F S1600000x1 .i32 :=
  broadcastInDim (s := S1600000) S1600000x1 ![0] bcast_S1600000_S1600000x1_0 (kerNorm src)

-- The mask 0 ≤ i ≤ 49999 of the normalised index, per edge.
def kerInb (src : Vec F S1600000 .i32) : Vec F S1600000 .i1 :=
  Host.reduce IntOp.andi
    (andi (cmpi .sge (kerCol src) (broadcastInDim (s := S_) S1600000x1 ![] bcast_S_S1600000x1 (constantI S_ 32 0#32)))
      (cmpi .sle (kerCol src)
        (broadcastInDim (s := S1x1) S1600000x1 ![0, 1] bcast_S1x1_S1600000x1_0_1
          (broadcastInDim (s := S1) S1x1 ![1] bcast_S1_S1x1_1 (constantI S1 32 49999#32)))))
    (constantI S_ 1 1#1) reducesTo_S1600000x1_S1600000_d1 h_S_

-- Row e is row (src e) of x where the normalised index is in range, the fill constant elsewhere.
def kerTake (x : Vec F S50000x128 .f32) (src : Vec F S1600000 .i32) : Vec F S1600000x128 .f32 :=
  select (broadcastInDim (s := S1600000) S1600000x128 ![0] bcast_S1600000_S1600000x128_0 (kerInb src))
    (Host.gather gather_S50000x128_S1600000x1_S1600000x128_1_0_n_n_0_1_1128 x (kerCol src))
    (broadcastInDim (s := S_) S1600000x128 ![] bcast_S_S1600000x128 (constant (F := F) S_ .f32 0x7FC00000#32))

-- Row n is the sum of the rows u e over the edges e with dst e = n.
def kerScat (dst : Vec F S1600000 .i32) (u : Vec F S1600000x128 .f32) : Vec F S50000x128 .f32 :=
  Host.scatterAdd scatter_S50000x128_S1600000x1_S1600000x128_1_0_0_1
    (broadcastInDim (s := S_) S50000x128 ![] bcast_S_S50000x128 (constant (F := F) S_ .f32 0x00000000#32))
    (broadcastInDim (s := S1600000) S1600000x1 ![0] bcast_S1600000_S1600000x1_0 dst) u

def kerAgg (x : Vec F S50000x128 .f32) (src dst : Vec F S1600000 .i32) : Vec F S50000x128 .f32 :=
  kerScat dst (kerTake x src)

-- The matrix at offset off of a stack of three.
def kerMatAt (off : Fin S3x128x128.rank → Nat) (sl : S3x128x128.Slices off S1x128x128) (w : Vec F S3x128x128 .f32) :
    Vec F S128x128 .f32 :=
  fun j => shapeCast S128x128 (extractStridedSlice S1x128x128 off w sl) shapeCasts_S1x128x128_S128x128 j

-- The row at offset off of a stack of three, as a 1 × 128 array.
def kerRowAt (off : Fin S3x128.rank → Nat) (sl : S3x128.Slices off S1x128) (b : Vec F S3x128 .f32) : Vec F S1x128 .f32 :=
  fun j => shapeCast S1x128
    (fun k => shapeCast S128 (extractStridedSlice S1x128 off b sl) shapeCasts_S1x128_S128 k) shapeCasts_S128_S1x128 j

def kerMat0 (w : Vec F S3x128x128 .f32) : Vec F S128x128 .f32 := kerMatAt ![0, 0, 0] slices_S3x128x128_S1x128x128_0_0_0 w
def kerRow0 (b : Vec F S3x128 .f32) : Vec F S1x128 .f32 := kerRowAt ![0, 0] slices_S3x128_S1x128_0_0 b
def kerMat1 (w : Vec F S3x128x128 .f32) : Vec F S128x128 .f32 := kerMatAt ![1, 0, 0] slices_S3x128x128_S1x128x128_1_0_0 w
def kerRow1 (b : Vec F S3x128 .f32) : Vec F S1x128 .f32 := kerRowAt ![1, 0] slices_S3x128_S1x128_1_0 b
def kerMat2 (w : Vec F S3x128x128 .f32) : Vec F S128x128 .f32 := kerMatAt ![2, 0, 0] slices_S3x128x128_S1x128x128_2_0_0 w
def kerRow2 (b : Vec F S3x128 .f32) : Vec F S1x128 .f32 := kerRowAt ![2, 0] slices_S3x128_S1x128_2_0 b

-- The three layer outputs side by side, scatter-added into a zero 512 × 384 array along the graph index of every node.
def kerPooled (h1 h2 h3 : Vec F S50000x128 .f32) (batch : Vec F S50000 .i32) : Vec F S512x384 .f32 :=
  Host.scatterAdd scatter_S512x384_S50000x1_S50000x384_1_0_0_1
    (broadcastInDim (s := S_) S512x384 ![] bcast_S_S512x384 (constant (F := F) S_ .f32 0x00000000#32))
    (broadcastInDim (s := S50000) S50000x1 ![0] bcast_S50000_S50000x1_0 batch)
    (concatenate S50000x384 1 [⟨S50000x128, h1⟩, ⟨S50000x128, h2⟩, ⟨S50000x128, h3⟩]
      concatenates_S50000x128_S50000x128_S50000x128_S50000x384_d1)

def kerBp (b : Vec F S384 .f32) : Vec F S1x384 .f32 :=
  fun j => shapeCast S1x384 b shapeCasts_S384_S1x384 j

-- A transport along an equation of types and its inverse cancel.
theorem tref_ofBuf_toBuf {sig : RefSig} {Val : EltTy → Type} {T : BufTy} (x : StableHlo.TRef sig T) (v : T.Contents Val) :
    x.ofBuf (x.toBuf v) = v := by
  obtain ⟨r, h, a, b⟩ := x
  subst h
  rfl

variable (W : Valuation τ sig (Elt F))

-- A transport along an equation between equal types is the identity.
theorem ofBuf_main_v1 : (StableHlo.TRef.of main_v1 : StableHlo.TRef sig ⟨S1600000, .i32⟩).ofBuf (W (Proc.devRef .tc main_v1)) = W (Proc.devRef .tc main_v1) := rfl

theorem hostOps0_main_v1 : StableHlo.after hostOps0 W (Proc.devRef .tc main_v1) = kerSrc (W (Proc.devRef .tc main_arg1)) := by
  dsimp only [hostOps0]; after_results; rfl

theorem hostOps0_main_v3 : StableHlo.after hostOps0 W (Proc.devRef .tc main_v3) = kerDst (W (Proc.devRef .tc main_arg1)) := by
  dsimp only [hostOps0]; after_results; rfl

theorem hostOps0_1_main_v4 : StableHlo.after hostOps0_1 W (Proc.devRef .tc main_v4) = kerTake (W (Proc.devRef .tc main_arg0)) (W (Proc.devRef .tc main_v1)) := by
  dsimp only [hostOps0_1]
  after_results_simp
  simp only [tref_ofBuf_toBuf]
  have e0 : (StableHlo.TRef.of main_arg0 : StableHlo.TRef sig ⟨S50000x128, .f32⟩).ofBuf (W (Proc.devRef .tc main_arg0)) = W (Proc.devRef .tc main_arg0) := rfl
  have eT : ∀ v : Vec F S1600000x128 .f32, (StableHlo.TRef.of main_v4 : StableHlo.TRef sig ⟨S1600000x128, .f32⟩).toBuf v = v := fun _ => rfl
  rw [ofBuf_main_v1, e0, eT]
  unfold kerTake kerInb kerCol kerNorm
  rfl

theorem hostOps0_2_main_v7 : StableHlo.after hostOps0_2 W (Proc.devRef .tc main_v7) = kerScat (W (Proc.devRef .tc main_v3)) (W (Proc.devRef .tc main_v4)) := by
  dsimp only [hostOps0_2]; after_results; rfl

theorem hostOps0_2_main_v9 : StableHlo.after hostOps0_2 W (Proc.devRef .tc main_v9) = kerMat0 (W (Proc.devRef .tc main_arg3)) := by
  dsimp only [hostOps0_2]; after_results; rfl

theorem hostOps0_2_main_v12 : StableHlo.after hostOps0_2 W (Proc.devRef .tc main_v12) = kerRow0 (W (Proc.devRef .tc main_arg4)) := by
  dsimp only [hostOps0_2]; after_results; rfl

theorem hostOps0_2_main_v14 : StableHlo.after hostOps0_2 W (Proc.devRef .tc main_v14) = kerMat0 (W (Proc.devRef .tc main_arg5)) := by
  dsimp only [hostOps0_2]; after_results; rfl

theorem hostOps0_2_main_v17 : StableHlo.after hostOps0_2 W (Proc.devRef .tc main_v17) = kerRow0 (W (Proc.devRef .tc main_arg6)) := by
  dsimp only [hostOps0_2]; after_results; rfl

theorem hostOps2_main_v38 : StableHlo.after hostOps2 W (Proc.devRef .tc main_v38) = kerTake (W (Proc.devRef .tc main_v37)) (W (Proc.devRef .tc main_v1)) := by
  dsimp only [hostOps2]
  after_results_simp
  simp only [tref_ofBuf_toBuf]
  have e0 : (StableHlo.TRef.of main_v37 : StableHlo.TRef sig ⟨S50000x128, .f32⟩).ofBuf (W (Proc.devRef .tc main_v37)) = W (Proc.devRef .tc main_v37) := rfl
  have eT : ∀ v : Vec F S1600000x128 .f32, (StableHlo.TRef.of main_v38 : StableHlo.TRef sig ⟨S1600000x128, .f32⟩).toBuf v = v := fun _ => rfl
  rw [ofBuf_main_v1, e0, eT]
  unfold kerTake kerInb kerCol kerNorm
  rfl

theorem hostOps2_1_main_v41 : StableHlo.after hostOps2_1 W (Proc.devRef .tc main_v41) = kerScat (W (Proc.devRef .tc main_v3)) (W (Proc.devRef .tc main_v38)) := by
  dsimp only [hostOps2_1]; after_results; rfl

theorem hostOps2_1_main_v43 : StableHlo.after hostOps2_1 W (Proc.devRef .tc main_v43) = kerMat1 (W (Proc.devRef .tc main_arg3)) := by
  dsimp only [hostOps2_1]; after_results; rfl

theorem hostOps2_1_main_v46 : StableHlo.after hostOps2_1 W (Proc.devRef .tc main_v46) = kerRow1 (W (Proc.devRef .tc main_arg4)) := by
  dsimp only [hostOps2_1]; after_results; rfl

theorem hostOps2_1_main_v48 : StableHlo.after hostOps2_1 W (Proc.devRef .tc main_v48) = kerMat1 (W (Proc.devRef .tc main_arg5)) := by
  dsimp only [hostOps2_1]; after_results; rfl

theorem hostOps2_1_main_v51 : StableHlo.after hostOps2_1 W (Proc.devRef .tc main_v51) = kerRow1 (W (Proc.devRef .tc main_arg6)) := by
  dsimp only [hostOps2_1]; after_results; rfl

theorem hostOps4_main_v72 : StableHlo.after hostOps4 W (Proc.devRef .tc main_v72) = kerTake (W (Proc.devRef .tc main_v71)) (W (Proc.devRef .tc main_v1)) := by
  dsimp only [hostOps4]
  after_results_simp
  simp only [tref_ofBuf_toBuf]
  have e0 : (StableHlo.TRef.of main_v71 : StableHlo.TRef sig ⟨S50000x128, .f32⟩).ofBuf (W (Proc.devRef .tc main_v71)) = W (Proc.devRef .tc main_v71) := rfl
  have eT : ∀ v : Vec F S1600000x128 .f32, (StableHlo.TRef.of main_v72 : StableHlo.TRef sig ⟨S1600000x128, .f32⟩).toBuf v = v := fun _ => rfl
  rw [ofBuf_main_v1, e0, eT]
  unfold kerTake kerInb kerCol kerNorm
  rfl

theorem hostOps4_1_main_v75 : StableHlo.after hostOps4_1 W (Proc.devRef .tc main_v75) = kerScat (W (Proc.devRef .tc main_v3)) (W (Proc.devRef .tc main_v72)) := by
  dsimp only [hostOps4_1]; after_results; rfl

theorem hostOps4_1_main_v77 : StableHlo.after hostOps4_1 W (Proc.devRef .tc main_v77) = kerMat2 (W (Proc.devRef .tc main_arg3)) := by
  dsimp only [hostOps4_1]; after_results; rfl

theorem hostOps4_1_main_v80 : StableHlo.after hostOps4_1 W (Proc.devRef .tc main_v80) = kerRow2 (W (Proc.devRef .tc main_arg4)) := by
  dsimp only [hostOps4_1]; after_results; rfl

theorem hostOps4_1_main_v82 : StableHlo.after hostOps4_1 W (Proc.devRef .tc main_v82) = kerMat2 (W (Proc.devRef .tc main_arg5)) := by
  dsimp only [hostOps4_1]; after_results; rfl

theorem hostOps4_1_main_v85 : StableHlo.after hostOps4_1 W (Proc.devRef .tc main_v85) = kerRow2 (W (Proc.devRef .tc main_arg6)) := by
  dsimp only [hostOps4_1]; after_results; rfl

theorem hostOps6_main_v109 : StableHlo.after hostOps6 W (Proc.devRef .tc main_v109) = kerPooled (W (Proc.devRef .tc main_v37)) (W (Proc.devRef .tc main_v71)) (W (Proc.devRef .tc main_v105)) (W (Proc.devRef .tc main_arg2)) := by
  dsimp only [hostOps6]; after_results; rfl

theorem hostOps6_main_v110 : StableHlo.after hostOps6 W (Proc.devRef .tc main_v110) = kerBp (W (Proc.devRef .tc main_arg10)) := by
  dsimp only [hostOps6]; after_results; rfl

theorem hostOps6_main_v111 : StableHlo.after hostOps6 W (Proc.devRef .tc main_v111) = kerBp (W (Proc.devRef .tc main_arg12)) := by
  dsimp only [hostOps6]; after_results; rfl

end Cert.KernelIdeal.HostVal
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

open scoped BigOperators

namespace Cert.LibReal

open Idealize.ShloMosaic

-- An extended real that is a real number; on these every operation of `EReal` is the real one.
def IsReal (x : EReal) : Prop := ∃ r : ℝ, x = (r : EReal)

theorem IsReal.zero : IsReal (0 : EReal) := ⟨0, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) (f : ι → EReal) :
    (∀ i ∈ s, IsReal (f i)) → IsReal (∑ i ∈ s, f i) :=
  Finset.sum_induction f IsReal (fun _ _ => IsReal.add) IsReal.zero

-- The coercion `ℝ → EReal` commutes with finite sums.
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

end Cert.LibReal
-- ==== Proof.Math.Spec.lean ====
import proofs.«407439_j85349590106293_1_alg».proof.Proof.LibReal
import Idealize.ShloMosaic.PureOps.Ideal
import Mathlib.Algebra.BigOperators.Group.Finset.Basic

noncomputable section

namespace Cert.Spec

open Idealize.ShloMosaic
open scoped BigOperators

abbrev NN : ℕ := 50000
abbrev DD : ℕ := 128
abbrev GG : ℕ := 512
abbrev EE : ℕ := 384

abbrev Feat := Fin 50000 → Fin 128 → EReal
abbrev Mat := Fin 128 → Fin 128 → EReal
abbrev Row := Fin 128 → EReal

/-- One layer entry by entry: two affine maps each followed by `max · 0`, then each column normalised over the nodes; the `K` forms take the variance as `E[y²] − E[y]²` and fold scale and shift into one multiply-add, the `R` forms centre first. -/
def hid (m : Feat) (W : Mat) (b : Row) : Feat :=
  fun n k => max ((∑ k' : Fin 128, m n k' * W k' k) + b k) 0

def mlp (m : Feat) (W1 : Mat) (b1 : Row) (W2 : Mat) (b2 : Row) : Feat :=
  hid (hid m W1 b1) W2 b2

def colSum (y : Feat) : Row := fun j => ∑ n : Fin 50000, y n j
def colSumSq (y : Feat) : Row := fun j => ∑ n : Fin 50000, y n j * y n j

def mean (Nc : EReal) (y : Feat) : Row := fun j => Ideal.div (colSum y j) Nc

def varK (Nc : EReal) (y : Feat) : Row :=
  fun j => Ideal.div (colSumSq y j) Nc - mean Nc y j * mean Nc y j

def varR (Nc : EReal) (y : Feat) : Row :=
  fun j => Ideal.div (∑ n : Fin 50000, (y n j - mean Nc y j) * (y n j - mean Nc y j)) Nc

def scaleK (Nc eps : EReal) (y : Feat) (γ : Row) : Row :=
  fun j => γ j * Ideal.rsqrt (varK Nc y j + eps)
def biasK (Nc eps : EReal) (y : Feat) (γ β : Row) : Row :=
  fun j => β j - mean Nc y j * scaleK Nc eps y γ j

def normK (Nc eps : EReal) (y : Feat) (γ β : Row) : Feat :=
  fun n j => y n j * scaleK Nc eps y γ j + biasK Nc eps y γ β j

def normR (Nc eps : EReal) (y : Feat) (γ β : Row) : Feat :=
  fun n j => (y n j - mean Nc y j) * Ideal.rsqrt (varR Nc y j + eps) * γ j + β j

def layerK (Nc eps : EReal) (agg h : Feat) (W1 : Mat) (b1 : Row) (W2 : Mat) (b2 : Row) (γ β : Row) : Feat :=
  normK Nc eps (mlp (fun n k => agg n k + h n k) W1 b1 W2 b2) γ β
def layerR (Nc eps : EReal) (agg h : Feat) (W1 : Mat) (b1 : Row) (W2 : Mat) (b2 : Row) (γ β : Row) : Feat :=
  normR Nc eps (mlp (fun n k => agg n k + h n k) W1 b1 W2 b2) γ β

def head (p : Fin 512 → Fin 384 → EReal) (A : Fin 384 → Fin 384 → EReal) (a : Fin 384 → EReal)
    (B : Fin 384 → Fin 384 → EReal) (b : Fin 384 → EReal) : Fin 512 → Fin 384 → EReal :=
  fun g j => (∑ k : Fin 384, max ((∑ k' : Fin 384, p g k' * A k' k) + a k) 0 * B k j) + b j

end Cert.Spec

end
-- ==== Proof.Val.RefSpecHead.lean ====
import proofs.«407439_j85349590106293_1_alg».proof.Proof.Math.Spec
import proofs.«407439_j85349590106293_1_alg».proof.Proof.Gen.ReferenceIdeal
import proofs.«407439_j85349590106293_1_alg».proof.Proof.RI.Defs
import Idealize.ShloMosaic.Lib.IdealHost
import Idealize.ShloMosaic.Lib.ValueLayout
import Idealize.ShloMosaic.Lib.ValueIdxCoords
import Idealize.ShloMosaic.Lib.StackMember
import Idealize.ShloMosaic.Lib.Pipeline.Value

noncomputable section

namespace Cert.Val

open Idealize.ShloMosaic Idealize.ShloMosaic.ValueIdx
open Cert.ReferenceIdeal
open Cert.ReferenceIdeal.Facts₀
open scoped BigOperators

-- The pooled features: the three layers' results side by side, every node's row added into its graph's row.
def refPooled (h1 h2 h3 : FVec Ideal S50000x128 .f32) (batch : IVec S50000 32) : FVec Ideal S512x384 .f32 :=
  Host.scatterAdd scatter_S512x384_S50000x1_S50000x384_1_0_0_1
    (broadcastInDim S512x384 ![] bcast_S_S512x384 (constant S_ .f32 0x00000000#32))
    (broadcastInDim S50000x1 ![0] bcast_S50000_S50000x1_0 batch)
    (concatenate S50000x384 1 [⟨S50000x128, h1⟩, ⟨S50000x128, h2⟩, ⟨S50000x128, h3⟩]
      concatenates_S50000x128_S50000x128_S50000x128_S50000x384_d1)

def rowB512 (v : FVec Ideal S384 .f32) : FVec Ideal S512x384 .f32 :=
  broadcastInDim S512x384 ![0, 1] bcast_S1x384_S512x384_0_1 (broadcastInDim S1x384 ![1] bcast_S384_S1x384_1 v)

def headOps (p : FVec Ideal S512x384 .f32) (Wp1 : FVec Ideal S384x384 .f32) (bp1 : FVec Ideal S384 .f32)
    (Wp2 : FVec Ideal S384x384 .f32) (bp2 : FVec Ideal S384 .f32) : FVec Ideal S512x384 .f32 :=
  addf
    (Host.dotGeneral dot_S512x384_S384x384_S512x384_1_0_0_1_n_n none
      (maximumf (addf (Host.dotGeneral dot_S512x384_S384x384_S512x384_1_0_0_1_n_n none p Wp1) (rowB512 bp1))
        (broadcastInDim S512x384 ![] bcast_S_S512x384 (constant S_ .f32 0x00000000#32)))
      Wp2)
    (rowB512 bp2)

theorem rowB512_apply (v : FVec Ideal S384 .f32) (g : Fin 512) (c : Fin 384) : rowB512 v (ix2 g c) = v (ix1 c) := by
  unfold rowB512
  rw [broadcastInDim_apply _ _ _ _ (ix2 (0 : Fin 1) c) (fun a => by
    match a with
    | ⟨0, _⟩ => rfl
    | ⟨1, _⟩ => rfl)]
  exact broadcastInDim_apply _ _ _ _ (ix1 c) (fun a => by
    match a with
    | ⟨0, _⟩ => rfl)

theorem dot512_apply (p : FVec Ideal S512x384 .f32) (W : FVec Ideal S384x384 .f32) (g : Fin 512) (c : Fin 384) :
    Host.dotGeneral dot_S512x384_S384x384_S512x384_1_0_0_1_n_n none p W (ix2 g c)
      = ∑ a : Fin 384, p (ix2 g a) * W (ix2 a c) :=
  StackMember.dotGeneral_plain_apply none p W g c

theorem headOps_spec (p : FVec Ideal S512x384 .f32) (Wp1 : FVec Ideal S384x384 .f32) (bp1 : FVec Ideal S384 .f32)
    (Wp2 : FVec Ideal S384x384 .f32) (bp2 : FVec Ideal S384 .f32) (g : Fin 512) (j : Fin 384) :
    headOps p Wp1 bp1 Wp2 bp2 (ix2 g j)
      = Cert.Spec.head (fun g c => p (ix2 g c)) (fun a c => Wp1 (ix2 a c)) (fun c => bp1 (ix1 c))
          (fun c j => Wp2 (ix2 c j)) (fun j => bp2 (ix1 j)) g j := by
  unfold headOps
  rw [addf_apply, dot512_apply, rowB512_apply]
  unfold Cert.Spec.head
  congr 1
  refine Finset.sum_congr rfl fun k _ => ?_
  rw [maximumf_apply, addf_apply, dot512_apply, rowB512_apply, broadcastInDim_scalar_apply, constant_apply,
    Ideal.ofBits_zero_f32]

-- The reference's head is `headOps` of the pooled array, operation for operation.
theorem refHead_hand (h1 h2 h3 : FVec Ideal S50000x128 .f32) (batch : IVec S50000 32) (Wp1 : FVec Ideal S384x384 .f32)
    (bp1 : FVec Ideal S384 .f32) (Wp2 : FVec Ideal S384x384 .f32) (bp2 : FVec Ideal S384 .f32) (g : Fin 512) (j : Fin 384) :
    Cert.ReferenceIdeal.Hand.refHead (F := Ideal) h1 h2 h3 batch Wp1 bp1 Wp2 bp2 (ix2 g j)
      = Cert.Spec.head (fun g c => refPooled h1 h2 h3 batch (ix2 g c)) (fun a c => Wp1 (ix2 a c)) (fun c => bp1 (ix1 c))
          (fun c j => Wp2 (ix2 c j)) (fun j => bp2 (ix1 j)) g j :=
  headOps_spec (refPooled h1 h2 h3 batch) Wp1 bp1 Wp2 bp2 g j

end Cert.Val

end
-- ==== Proof.Val.Pre.lean ====
import proofs.«407439_j85349590106293_1_alg».proof.Proof.Gen.Pre_finite_inputs
import proofs.«407439_j85349590106293_1_alg».proof.Proof.LibReal
import Idealize.ShloMosaic.Lib.ReduceAll
import Idealize.ShloMosaic.Lib.ValueIdx
import Idealize.ShloMosaic.Lib.ValueLayout
import Idealize.ShloMosaic.Lib.StableHlo
import Idealize.ShloMosaic.Lib.StableHlo.Predicate
import Idealize.ShloMosaic.PureOps.Ideal

namespace Cert.PreDecode

open Idealize.ShloMosaic Idealize.ShloMosaic.ValueIdx Cert.Pre_finite_inputs Cert.Pre_finite_inputs.Facts Cert.LibReal

instance subsingleton_idx0 : Subsingleton (⟨0, ![]⟩ : Shape).Idx := ⟨fun a b => funext fun d => d.elim0⟩

-- An extended real whose absolute value is below `+∞` is a real number.
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

-- A word that is `≥ 0` and `< 50000` in the signed order has its signed value in `[0, 50000)`.
theorem word_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (50000#32 : BitVec 32).toInt = 50000 := by decide
  rw [e0] at h0
  rw [e1] at h1
  exact ⟨h0, h1⟩

section All

variable {s : Shape} {axes : List (Fin s.rank)} {u : Shape}
  (hb : (⟨0, ![]⟩ : Shape).BroadcastsInDim s (![] : Fin 0 → Fin s.rank))
  (hr : s.ReducesTo axes ⟨0, ![]⟩) (hu : 0 < u.numel) (init : IVec u 1)

-- `all (|x| < +∞)` over an array of any shape being 1 says every entry is real.
theorem all_isReal (x : FVec Ideal s .f32)
    (h : Host.reduce IntOp.andi
        (cmpf .olt (Host.absf x) (broadcastInDim s ![] hb (constant (F := Ideal) ⟨0, ![]⟩ .f32 0x7F800000#32)))
        init hr hu ix0 = 1#1) (i : s.Idx) : IsReal (x i) :=
  isReal_of_abs_lt_inf (x i) (Host.reduce_andi_all _ init hr hu ix0 h i)

-- `all ((v ≥ 0) & (v < 50000))` over a word array being 1 says every entry's signed value is in `[0, 50000)`.
theorem all_in_range (v : IVec s 32)
    (h : Host.reduce IntOp.andi
        (andi (cmpi .sge v (broadcastInDim s ![] hb (constantI ⟨0, ![]⟩ 32 0#32)))
          (cmpi .slt v (broadcastInDim s ![] hb (constantI ⟨0, ![]⟩ 32 50000#32))))
        init hr hu ix0 = 1#1) (i : s.Idx) : 0 ≤ (v i).toInt ∧ (v i).toInt < 50000 := by
  obtain ⟨h0, h1⟩ := IntOp.andi_eq_one.1 (Host.reduce_andi_all _ init hr hu ix0 h i)
  exact word_range (v i) h0 h1

end All

-- The first row of the edge table as a vector.
def srcOf (a1 : IVec S2x1600000 32) : IVec S1600000 32 :=
  shapeCast S1600000 ((extractStridedSlice S1x1600000 ![0, 0] · slices_S2x1600000_S1x1600000_0_0) a1)
    shapeCasts_S1x1600000_S1600000

-- The precondition is a conjunction of twelve `all`s: eleven of finiteness, one of the source indices' range.
theorem split_pre
    (a0 : FVec Ideal S50000x128 .f32) (a1 : IVec S2x1600000 32) (a2 : IVec S50000 32)
    (a3 : FVec Ideal S3x128x128 .f32) (a4 : FVec Ideal S3x128 .f32) (a5 : FVec Ideal S3x128x128 .f32)
    (a6 : FVec Ideal S3x128 .f32) (a7 : FVec Ideal S3x128 .f32) (a8 : FVec Ideal S3x128 .f32)
    (a9 : FVec Ideal S384x384 .f32) (a10 : FVec Ideal S384 .f32) (a11 : FVec Ideal S384x384 .f32)
    (a12 : FVec Ideal S384 .f32)
    (h : Cert.Pre_finite_inputs.fn (F := Ideal) a0 a1 a2 a3 a4 a5 a6 a7 a8 a9 a10 a11 a12 = (fun _ => 1#1)) :
    (∀ i, IsReal (a0 i)) ∧ (∀ i, IsReal (a3 i)) ∧ (∀ i, IsReal (a4 i)) ∧ (∀ i, IsReal (a5 i)) ∧
    (∀ i, IsReal (a6 i)) ∧ (∀ i, IsReal (a7 i)) ∧ (∀ i, IsReal (a8 i)) ∧ (∀ i, IsReal (a9 i)) ∧
    (∀ i, IsReal (a10 i)) ∧ (∀ i, IsReal (a11 i)) ∧ (∀ i, IsReal (a12 i)) ∧
    (∀ i, 0 ≤ (srcOf a1 i).toInt ∧ (srcOf a1 i).toInt < 50000) := by
  have e := congrFun h ix0
  unfold Cert.Pre_finite_inputs.fn Cert.Pre_finite_inputs.fn_part1 Cert.Pre_finite_inputs.fn_part2
    Cert.Pre_finite_inputs.fn_part3 at e
  dsimp only at e
  obtain ⟨e, h1⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  exact ⟨all_isReal _ _ _ _ a0 h0, all_isReal _ _ _ _ a3 h3, all_isReal _ _ _ _ a4 h4,
    all_isReal _ _ _ _ a5 h5, all_isReal _ _ _ _ a6 h6, all_isReal _ _ _ _ a7 h7,
    all_isReal _ _ _ _ a8 h8, all_isReal _ _ _ _ a9 h9, all_isReal _ _ _ _ a10 h10,
    all_isReal _ _ _ _ a11 h11, all_isReal _ _ _ _ a12 h12,
    all_in_range _ _ _ _ (srcOf a1) h1⟩

end Cert.PreDecode
-- ==== Proof.Val.Gather.lean ====
import proofs.«407439_j85349590106293_1_alg».proof.Proof.Val.KHost
import proofs.«407439_j85349590106293_1_alg».proof.Proof.LibReal
import Idealize.ShloMosaic.PureOps.Ideal
import Idealize.ShloMosaic.PureOps.Ideal.Laws
import Idealize.ShloMosaic.PureOps.Reduce
import Idealize.ShloMosaic.Lib.Affine
import Idealize.ShloMosaic.Lib.ValueIdx
import Idealize.ShloMosaic.Lib.StableHlo.Predicate

noncomputable section

namespace Cert.Val

open Idealize.ShloMosaic Idealize.ShloMosaic.ValueIdx
open Cert.KernelIdeal (S1600000 S1600000x1 S50000x128 gather_S50000x128_S1600000x1_S1600000x128_1_0_n_n_0_1_1128)
open Cert.KernelIdeal.HostVal
open Cert.LibReal (IsReal)
open scoped BigOperators

section Take
variable {F : FTy → Type} [FloatOps F] (s : Vec F S1600000 .i32)

-- A left fold by "and" from 1 over words that are all 1 is 1.
theorem foldl_andi_one {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl => by
    rw [List.foldl_cons]
    exact foldl_andi_one f l _ (IntOp.andi_eq_one.2 ⟨h, hl a List.mem_cons_self⟩)
      (fun n hn => hl n (List.mem_cons_of_mem _ hn))

-- An index in [0, 50000) is not negative, so the normalisation leaves it alone, and both range compares of it hold.
theorem norm_scalar (v : BitVec 32) (h0 : 0 ≤ v.toInt) (h1 : v.toInt < 50000) :
    Scalar.select (IntOp.cmpi .slt v 0#32) (IntOp.addi v 50000#32) v = v ∧
    IntOp.andi (IntOp.cmpi .sge v 0#32) (IntOp.cmpi .sle v 49999#32) = 1#1 := by
  have z0 : (0#32 : BitVec 32).toInt = 0 := by decide
  have z1 : (49999#32 : BitVec 32).toInt = 49999 := by decide
  have hlt : IntOp.cmpi .slt v 0#32 = 0#1 := by
    apply eq_zero_of_ne_one
    intro h
    have := IntOp.cmpi_slt.1 h
    omega
  refine ⟨by rw [hlt, select_zero], IntOp.andi_eq_one.2 ⟨IntOp.cmpi_sge.2 (by omega), IntOp.cmpi_sle.2 (by omega)⟩⟩

theorem kerCol_apply (i : S1600000x1.Idx) :
    ∃ k : S1600000.Idx, kerCol s i = Scalar.select (IntOp.cmpi .slt (s k) 0#32) (IntOp.addi (s k) 50000#32) (s k) :=
  ⟨_, rfl⟩

variable (hs : ∀ e : Fin 1600000, 0 ≤ (s (ix1 e)).toInt ∧ (s (ix1 e)).toInt < 50000)
include hs

-- On indices in [0, 50000) every bit of the mask is 1.
theorem kerInb_eq_one (e : S1600000.Idx) : kerInb s e = 1#1 := by
  unfold kerInb
  rw [Host.reduce_eq_foldl]
  refine foldl_andi_one _ _ _ rfl ?_
  intro i _
  show IntOp.andi (IntOp.cmpi .sge (kerCol s i) 0#32) (IntOp.cmpi .sle (kerCol s i) 49999#32) = 1#1
  obtain ⟨k, hk⟩ := kerCol_apply s i
  have e1 : s k = s (ix1 (k 0)) := congrArg s (eq_ix1 k)
  have hk' : 0 ≤ (s k).toInt ∧ (s k).toInt < 50000 := by rw [e1]; exact hs (k 0)
  rw [hk, (norm_scalar (s k) hk'.1 hk'.2).1]
  exact (norm_scalar (s k) hk'.1 hk'.2).2

-- Hence the filled take is the plain gather at the normalised column.
theorem kerTake_eq (x : Vec F S50000x128 .f32) :
    kerTake x s = Host.gather gather_S50000x128_S1600000x1_S1600000x128_1_0_n_n_0_1_1128 x (kerCol s) := by
  funext j
  unfold kerTake
  show Scalar.select (kerInb s _) (Host.gather _ x (kerCol s) j) _ = _
  rw [kerInb_eq_one s hs, select_one]

end Take

section Real
variable {s si t su : Shape} {w : Nat} {φ : FTy}

-- A gather re-reads entries of its operand.
theorem gather_isReal (G : GatherDims s si t) (x : s.Idx → EReal) (idx : IVec si w) :
    (∀ i, IsReal (x i)) → ∀ i, IsReal (Host.gather G x idx i) :=
  fun hx i => hx (G.operandIdx i idx)

-- A scatter-add adds to each operand entry the finite sum of the updates landing on it.
theorem scatterAdd_isReal (S : ScatterDims s si su) (z : FVec Ideal s φ) (idx : IVec si w) (u : FVec Ideal su φ) :
    (∀ i, IsReal (z i)) → (∀ i, IsReal (u i)) → ∀ i, IsReal (Host.scatterAdd S z idx u i) := by
  intro hz hu i
  show IsReal (z i + ∑ j ∈ Finset.univ.filter (fun j => S.resultIdx? j idx = some i), u j)
  exact IsReal.add (hz i) (IsReal.sum _ _ fun j _ => hu j)

end Real

end Cert.Val
-- ==== Proof.Val.HostBridge.lean ====
import proofs.«407439_j85349590106293_1_alg».proof.Proof.Val.KHost
import proofs.«407439_j85349590106293_1_alg».proof.Proof.RI.Defs
import proofs.«407439_j85349590106293_1_alg».proof.Proof.Val.RefSpecHead
import proofs.«407439_j85349590106293_1_alg».proof.Proof.Val.Pre
import proofs.«407439_j85349590106293_1_alg».proof.Proof.Val.Gather
import Idealize.ShloMosaic.Lib.ValueLayout
import Idealize.ShloMosaic.Lib.Pipeline.Value

noncomputable section

namespace Cert.Val

open Idealize.ShloMosaic Idealize.ShloMosaic.ValueIdx
open Cert.KernelIdeal.HostVal Cert.ReferenceIdeal.Hand
open Cert.PreDecode (srcOf)
open Cert.LibReal (IsReal)

section Generic
variable {F : FTy → Type} [FloatOps F]

-- On in-range sources the filled take is the plain gather, and then both neighbour sums are the same scatter-add of the same gather.
theorem kerAgg_eq_refAgg (x : Vec F Cert.KernelIdeal.S50000x128 .f32) (a1 : IVec Cert.KernelIdeal.S2x1600000 32)
    (hs : ∀ e : Fin 1600000, 0 ≤ (srcOf a1 (ix1 e)).toInt ∧ (srcOf a1 (ix1 e)).toInt < 50000) :
    kerAgg (F := F) x (kerSrc a1) (kerDst a1) = refAgg (F := F) x (refSrc a1) (refDst a1) := by
  show kerScat (kerDst a1) (kerTake x (kerSrc a1)) = _
  rw [kerTake_eq (kerSrc (F := F) a1) hs x]
  rfl

theorem kerBp_apply (bp : Vec F Cert.KernelIdeal.S384 .f32) (c : Fin 384) :
    kerBp (F := F) bp (ix2 (0 : Fin 1) c) = bp (ix1 c) := by
  show shapeCast Cert.KernelIdeal.S1x384 _ _ (ix2 (0 : Fin 1) c) = _
  rw [shapeCast_a_1a_apply]

end Generic

theorem refZeros_isReal (i : Cert.ReferenceIdeal.S50000x128.Idx) : IsReal (refZeros (F := Ideal) i) := by
  show IsReal (Ideal.ofBits .f32 0x00000000#32)
  rw [Ideal.ofBits_zero_f32]
  exact IsReal.zero

-- Zeros are real, a gather re-reads real entries, and the scatter-add adds finitely many of them.
theorem refAgg_isReal (x : Vec Ideal Cert.ReferenceIdeal.S50000x128 .f32)
    (src dst : Vec Ideal Cert.ReferenceIdeal.S1600000 .i32) :
    (∀ i, IsReal (x i)) → ∀ i, IsReal (refAgg (F := Ideal) x src dst i) := by
  intro hx i
  unfold refAgg
  exact scatterAdd_isReal _ _ _ _ refZeros_isReal (fun j => gather_isReal _ x _ hx j) i

theorem kerPooled_eq (h1 h2 h3 : FVec Ideal Cert.ReferenceIdeal.S50000x128 .f32) (batch : IVec Cert.ReferenceIdeal.S50000 32) :
    kerPooled (F := Ideal) h1 h2 h3 batch = refPooled h1 h2 h3 batch := rfl

end Cert.Val

end
-- ==== Proof.Val.Consts.lean ====
import Idealize.ShloMosaic.PureOps.Ideal
import Mathlib.Data.EReal.Basic
import Mathlib.Tactic.NormNum
import Mathlib.Tactic.Positivity

noncomputable section

namespace Cert.Val

open Idealize.ShloMosaic

/-- The single-precision pattern of `50000 = 1.52587890625 · 2¹⁵`. -/
def Nc : EReal := Ideal.ofBits .f32 0x47435000#32

theorem Nc_eq : Nc = ((50000 : ℝ) : EReal) := by
  unfold Nc
  simp [Ideal.ofBits, Ideal.ieee, -EReal.coe_mul]
  norm_num

/-- The single-precision number nearest `10⁻⁵`, `10995116 · 2⁻⁴⁰`. -/
def epsc : EReal := Ideal.ofBits .f32 0x3727C5AC#32

theorem epsc_eq : epsc = (((10995116 : ℝ) * (2 : ℝ) ^ (-40 : ℤ) : ℝ) : EReal) := by
  unfold epsc
  simp [Ideal.ofBits, Ideal.ieee, -EReal.coe_mul]

theorem epsc_pos : ∃ e : ℝ, 0 < e ∧ epsc = (e : EReal) :=
  ⟨(10995116 : ℝ) * (2 : ℝ) ^ (-40 : ℤ), by positivity, epsc_eq⟩

end Cert.Val

end
-- ==== Proof.Math.Algebra.lean ====
import proofs.«407439_j85349590106293_1_alg».proof.Proof.Math.Spec
import proofs.«407439_j85349590106293_1_alg».proof.Proof.LibReal
import Idealize.ShloMosaic.PureOps.Ideal
import Mathlib.Data.EReal.Basic
import Mathlib.Data.EReal.Operations
import Mathlib.Algebra.BigOperators.Group.Finset.Basic
import Mathlib.Algebra.BigOperators.Ring.Finset
import Mathlib.Algebra.BigOperators.Fin
import Mathlib.Algebra.Order.BigOperators.Group.Finset
import Mathlib.Data.Fintype.BigOperators
import Mathlib.Logic.Equiv.Fin.Basic
import Mathlib.Tactic.Ring
import Mathlib.Tactic.LinearCombination
import Mathlib.Tactic.NormNum

noncomputable section

namespace Cert.Spec

open Idealize.ShloMosaic
open Cert.LibReal
open scoped BigOperators

-- On a positive real the inverse square root is the real `(√r)⁻¹`.
theorem rsqrt_isReal {x : EReal} : (∃ r : ℝ, 0 < r ∧ x = (r : EReal)) → IsReal (Ideal.rsqrt x) := by
  rintro ⟨r, hr, rfl⟩
  exact ⟨(Real.sqrt r)⁻¹, by rw [Ideal.rsqrt_coe, if_neg (not_lt.mpr hr.le), if_neg hr.ne']⟩

theorem hid_isReal (m : Feat) (W : Mat) (b : Row) (hm : ∀ n k, IsReal (m n k))
    (hW : ∀ k k', IsReal (W k k')) (hb : ∀ k, IsReal (b k)) (n : Fin 50000) (k : Fin 128) : IsReal (hid m W b n k) :=
  IsReal.max (IsReal.add (IsReal.sum _ _ fun k' _ => IsReal.mul (hm n k') (hW k' k)) (hb k)) IsReal.zero

theorem div_coe_coe (a : ℝ) {b : ℝ} (hb : b ≠ 0) :
    Ideal.div (a : EReal) (b : EReal) = ((a * (1 / b) : ℝ) : EReal) := by
  rw [Ideal.div_coe hb, ← EReal.coe_mul]

-- With `c · card = 1` and `μ = (Σ a) · c`: `(Σ (a − μ)²) · c = (Σ a²) · c − μ²`, by expanding the square.
theorem real_var_identity {ι : Type} (s : Finset ι) (a : ι → ℝ) (c : ℝ)
    (hc : c * (s.card : ℝ) = 1) :
    (∑ i ∈ s, (a i - (∑ i ∈ s, a i) * c) * (a i - (∑ i ∈ s, a i) * c)) * c
      = (∑ i ∈ s, a i * a i) * c - ((∑ i ∈ s, a i) * c) * ((∑ i ∈ s, a i) * c) := by
  generalize hS : ∑ i ∈ s, a i = S
  have h1 : ∑ i ∈ s, (a i - S * c) * (a i - S * c)
      = (∑ i ∈ s, a i * a i) - 2 * (S * c) * S + (s.card : ℝ) * ((S * c) * (S * c)) := by
    have h2 : ∀ i ∈ s, (a i - S * c) * (a i - S * c)
        = a i * a i - 2 * (S * c) * a i + (S * c) * (S * c) := fun i _ => by ring
    rw [Finset.sum_congr rfl h2, Finset.sum_add_distrib, Finset.sum_sub_distrib, ← Finset.mul_sum,
      Finset.sum_const, nsmul_eq_mul, hS]
  rw [h1]
  linear_combination (S ^ 2 * c ^ 2) * hc

section Coe

variable (Nc : EReal) (hN : Nc = ((50000 : ℝ) : EReal)) (y : Feat)
  (a : Fin 50000 → Fin 128 → ℝ) (ha : ∀ n j, y n j = (a n j : EReal)) (j : Fin 128)

include ha

theorem colSum_of_coe : colSum y j = ((∑ n, a n j : ℝ) : EReal) := by
  show (∑ n : Fin 50000, y n j) = _
  rw [coe_sum]
  exact Finset.sum_congr rfl fun n _ => ha n j

theorem colSumSq_of_coe : colSumSq y j = ((∑ n, a n j * a n j : ℝ) : EReal) := by
  show (∑ n : Fin 50000, y n j * y n j) = _
  rw [coe_sum]
  exact Finset.sum_congr rfl fun n _ => by rw [ha n j, EReal.coe_mul]

include hN

theorem mean_of_coe : mean Nc y j = (((∑ n, a n j) * (1 / 50000) : ℝ) : EReal) := by
  show Ideal.div (colSum y j) Nc = _
  rw [colSum_of_coe y a ha j, hN, div_coe_coe _ (by norm_num)]

theorem varK_of_coe : varK Nc y j
    = (((∑ n, a n j * a n j) * (1 / 50000)
        - ((∑ n, a n j) * (1 / 50000)) * ((∑ n, a n j) * (1 / 50000)) : ℝ) : EReal) := by
  show Ideal.div (colSumSq y j) Nc - mean Nc y j * mean Nc y j = _
  rw [colSumSq_of_coe y a ha j, mean_of_coe Nc hN y a ha j, hN, div_coe_coe _ (by norm_num),
    ← EReal.coe_mul, ← EReal.coe_sub]

theorem varR_of_coe : varR Nc y j
    = (((∑ n, (a n j - (∑ n, a n j) * (1 / 50000)) * (a n j - (∑ n, a n j) * (1 / 50000)))
        * (1 / 50000) : ℝ) : EReal) := by
  show Ideal.div (∑ n : Fin 50000, (y n j - mean Nc y j) * (y n j - mean Nc y j)) Nc = _
  rw [mean_of_coe Nc hN y a ha j]
  have h : ∀ n ∈ (Finset.univ : Finset (Fin 50000)),
      (y n j - (((∑ n, a n j) * (1 / 50000) : ℝ) : EReal))
        * (y n j - (((∑ n, a n j) * (1 / 50000) : ℝ) : EReal))
      = (((a n j - (∑ n, a n j) * (1 / 50000)) * (a n j - (∑ n, a n j) * (1 / 50000)) : ℝ) : EReal) :=
    fun n _ => by rw [ha n j, ← EReal.coe_sub, ← EReal.coe_mul]
  rw [Finset.sum_congr rfl h, ← coe_sum, hN, div_coe_coe _ (by norm_num)]

end Coe

section Norm

variable (Nc eps : EReal) (hN : Nc = ((50000 : ℝ) : EReal)) (heps : ∃ e : ℝ, 0 < e ∧ eps = (e : EReal))
  (y : Feat) (hy : ∀ n j, IsReal (y n j))

include hN hy

theorem mean_isReal (j : Fin 128) : IsReal (mean Nc y j) := by
  choose a ha using hy
  exact ⟨_, mean_of_coe Nc hN y a ha j⟩

-- `E[y²] − E[y]² = E[(y − μ)²]` over 50000 real entries.
theorem varK_eq_varR : varK Nc y = varR Nc y := by
  funext j
  choose a ha using hy
  rw [varK_of_coe Nc hN y a ha j, varR_of_coe Nc hN y a ha j]
  congr 1
  refine (real_var_identity Finset.univ (fun n => a n j) (1 / 50000) ?_).symm
  rw [Finset.card_univ, Fintype.card_fin]
  norm_num

-- The variance of real entries is a nonnegative real.
theorem varR_nonneg_real (j : Fin 128) : ∃ v : ℝ, 0 ≤ v ∧ varR Nc y j = (v : EReal) := by
  choose a ha using hy
  exact ⟨_, mul_nonneg (Finset.sum_nonneg fun n _ => mul_self_nonneg _) (by norm_num),
    varR_of_coe Nc hN y a ha j⟩

include heps

-- The shifted variance is a positive real, so its inverse square root is real.
theorem rsqrt_var_isReal (j : Fin 128) : IsReal (Ideal.rsqrt (varR Nc y j + eps)) := by
  obtain ⟨v, hv0, hv⟩ := varR_nonneg_real Nc hN y hy j
  obtain ⟨e, he0, he⟩ := heps
  refine rsqrt_isReal ⟨v + e, add_pos_of_nonneg_of_pos hv0 he0, ?_⟩
  rw [hv, he, EReal.coe_add]

-- With every quantity real, `y·(γ r) + (β − μ·(γ r)) = ((y − μ)·r)·γ + β` holds in the real field, and the value is real.
theorem norm_real (γ β : Row) (hγ : ∀ j, IsReal (γ j)) (hβ : ∀ j, IsReal (β j)) (n : Fin 50000) (j : Fin 128) :
    normK Nc eps y γ β n j = normR Nc eps y γ β n j ∧ IsReal (normR Nc eps y γ β n j) := by
  obtain ⟨a, ha⟩ := hy n j
  obtain ⟨μ, hμ⟩ := mean_isReal Nc hN y hy j
  obtain ⟨ρ, hρ⟩ := rsqrt_var_isReal Nc eps hN heps y hy j
  obtain ⟨g, hg⟩ := hγ j
  obtain ⟨b, hb⟩ := hβ j
  show y n j * (γ j * Ideal.rsqrt (varK Nc y j + eps))
        + (β j - mean Nc y j * (γ j * Ideal.rsqrt (varK Nc y j + eps)))
      = (y n j - mean Nc y j) * Ideal.rsqrt (varR Nc y j + eps) * γ j + β j
      ∧ IsReal ((y n j - mean Nc y j) * Ideal.rsqrt (varR Nc y j + eps) * γ j + β j)
  rw [varK_eq_varR Nc hN y hy, hρ, ha, hμ, hg, hb]
  simp only [← EReal.coe_mul, ← EReal.coe_sub, ← EReal.coe_add]
  exact ⟨by congr 1; ring, _, rfl⟩

end Norm

section Layer

variable (Nc eps : EReal) (hN : Nc = ((50000 : ℝ) : EReal)) (heps : ∃ e : ℝ, 0 < e ∧ eps = (e : EReal))
  (agg h : Feat) (W1 : Mat) (b1 : Row) (W2 : Mat) (b2 γ β : Row)
  (hagg : ∀ n k, IsReal (agg n k)) (hh : ∀ n k, IsReal (h n k)) (hW1 : ∀ k k', IsReal (W1 k k'))
  (hb1 : ∀ k, IsReal (b1 k)) (hW2 : ∀ k k', IsReal (W2 k k')) (hb2 : ∀ k, IsReal (b2 k))
  (hγ : ∀ j, IsReal (γ j)) (hβ : ∀ j, IsReal (β j))

include hN heps hagg hh hW1 hb1 hW2 hb2 hγ hβ

-- A layer on real inputs: the folded and the centred arrangement agree, and the value is real.
theorem layer_real (n : Fin 50000) (j : Fin 128) :
    layerK Nc eps agg h W1 b1 W2 b2 γ β n j = layerR Nc eps agg h W1 b1 W2 b2 γ β n j
      ∧ IsReal (layerR Nc eps agg h W1 b1 W2 b2 γ β n j) :=
  norm_real Nc eps hN heps _
    (hid_isReal _ W2 b2 (hid_isReal _ W1 b1 (fun n k => IsReal.add (hagg n k) (hh n k)) hW1 hb1) hW2 hb2)
    γ β hγ hβ n j

theorem layerK_eq_layerR : layerK Nc eps agg h W1 b1 W2 b2 γ β = layerR Nc eps agg h W1 b1 W2 b2 γ β :=
  funext₂ fun n j => (layer_real Nc eps hN heps agg h W1 b1 W2 b2 γ β hagg hh hW1 hb1 hW2 hb2 hγ hβ n j).1

theorem layerR_isReal (n : Fin 50000) (j : Fin 128) : IsReal (layerR Nc eps agg h W1 b1 W2 b2 γ β n j) :=
  (layer_real Nc eps hN heps agg h W1 b1 W2 b2 γ β hagg hh hW1 hb1 hW2 hb2 hγ hβ n j).2

end Layer

-- `(t, r) ↦ 2000 t + r` is a bijection of `Fin 25 × Fin 2000` with `Fin 50000`.
theorem sum_blocks (f : Fin 50000 → EReal) :
    (∑ t : Fin 25, ∑ r : Fin 2000, f ⟨2000 * t.val + r.val, by omega⟩) = ∑ n : Fin 50000, f n := by
  rw [← Fintype.sum_prod_type'
    (fun (t : Fin 25) (r : Fin 2000) => f ⟨2000 * t.val + r.val, by omega⟩)]
  refine Fintype.sum_equiv (finProdFinEquiv : Fin 25 × Fin 2000 ≃ Fin 50000) _ _ fun p => ?_
  congr 1
  ext
  show 2000 * p.1.val + p.2.val = p.2.val + 2000 * p.1.val
  omega

end Cert.Spec

end
-- ==== Proof.Val.PayLib.lean ====
import proofs.«407439_j85349590106293_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Idealize.ShloMosaic Idealize.ShloMosaic.ValueIdx
open Cert.KernelIdeal Cert.KernelIdeal.Gen
open scoped BigOperators

-- the sum over the rows, laid out as a one-row matrix, read at column `j`
theorem colSum_S2000x128_apply (v : FVec Ideal S2000x128 .f32) (h : S2000x128.Reduces [0] S128)
    (hc : S128.ShapeCasts S1x128) (hφ : FKind.Formats .f32) (hacc : (0x00000000#32 : BitVec 32) = 0x00000000#32)
    (j : Fin 128) :
    shapeCast S1x128 (multiReduction (F := Ideal) .add [0] S128 v 0x00000000#32 h hφ hacc) hc (ix2 (0 : Fin 1) j)
      = ∑ r : Fin 2000, v (ix2 r j) := by
  refine (shapeCast_a_1a_apply _ hc (0 : Fin 1) j).trans ?_
  refine (Ideal.multiReduction_add_single v 0x00000000#32 h hφ hacc (ix1 j)).trans ?_
  show ∑ r : Fin 2000, v (h.lift (ix1 j) r) = _
  exact Finset.sum_congr rfl fun r _ => congrArg v (Shape.idx_ext₂ rfl rfl)

-- a matrix product into a zero accumulator at `(r, j)` is the sum over the one contracted coordinate, whatever the extents
theorem matmul2_apply {m n p : ℕ} {φ₁ φ₂ : FTy} (D : DotDims ⟨2, ![m, n]⟩ ⟨2, ![n, p]⟩ ⟨2, ![m, p]⟩)
    (hr : D.contr.rank = 1) (hs : D.contr.size ⟨0, by omega⟩ = n) (hcl : D.lhsContracting = [1]) (hcr : D.rhsContracting = [0])
    (hl : ∀ j k, (D.lhsIdx j k 0).val = (j 0).val) (hrj : ∀ j k, (D.rhsIdx j k 1).val = (j 1).val)
    (lhs : FVec Ideal ⟨2, ![m, n]⟩ φ₁) (rhs : FVec Ideal ⟨2, ![n, p]⟩ φ₂) (r : Fin m) (j : Fin p) :
    matmul D none lhs rhs (constant (F := Ideal) ⟨2, ![m, p]⟩ .f32 0x00000000#32) (ix2 r j) = ∑ k : Fin n, lhs (ix2 r k) * rhs (ix2 k j) := by
  show FloatOps.matmul D none lhs rhs _ (ix2 r j) = _
  rw [Ideal.matmul_constant_zero_apply, ← Equiv.sum_comp (contrEquiv1 D n hr hs).symm]
  refine Finset.sum_congr rfl fun c _ => ?_
  have c2 := contrEquiv1_symm_val D n hr hs c
  rw [show D.lhsIdx (ix2 r j) ((contrEquiv1 D n hr hs).symm c) = ix2 r c from
      Shape.idx_ext₂ (hl _ _) ((D.lhsIdx_val_of_single hcl _ _).trans c2),
    show D.rhsIdx (ix2 r j) ((contrEquiv1 D n hr hs).symm c) = ix2 c j from
      Shape.idx_ext₂ ((D.rhsIdx_val_of_single hcr _ _).trans c2) (hrj _ _)]

theorem matmul_S2000x128_S128x128_apply {φ₁ φ₂ : FTy} (lhs : FVec Ideal S2000x128 φ₁) (rhs : FVec Ideal S128x128 φ₂)
    (r : Fin 2000) (j : Fin 128) :
    matmul dot_S2000x128_S128x128_S2000x128_1_0_0_1_n_n none lhs rhs (constant (F := Ideal) S2000x128 .f32 0x00000000#32) (ix2 r j)
      = ∑ k : Fin 128, lhs (ix2 r k) * rhs (ix2 k j) :=
  matmul2_apply dot_S2000x128_S128x128_S2000x128_1_0_0_1_n_n rfl rfl rfl rfl
    (fun j k => by unfold DotDims.lhsIdx; rw [dif_neg, dif_pos] <;> first | rfl | decide)
    (fun j k => by unfold DotDims.rhsIdx; rw [dif_neg, dif_pos] <;> first | rfl | decide) lhs rhs r j

theorem matmul_S512x384_S384x384_apply {φ₁ φ₂ : FTy} (lhs : FVec Ideal S512x384 φ₁) (rhs : FVec Ideal S384x384 φ₂)
    (r : Fin 512) (j : Fin 384) :
    matmul dot_S512x384_S384x384_S512x384_1_0_0_1_n_n none lhs rhs (constant (F := Ideal) S512x384 .f32 0x00000000#32) (ix2 r j)
      = ∑ k : Fin 384, lhs (ix2 r k) * rhs (ix2 k j) :=
  matmul2_apply dot_S512x384_S384x384_S512x384_1_0_0_1_n_n rfl rfl rfl rfl
    (fun j k => by unfold DotDims.lhsIdx; rw [dif_neg, dif_pos] <;> first | rfl | decide)
    (fun j k => by unfold DotDims.rhsIdx; rw [dif_neg, dif_pos] <;> first | rfl | decide) lhs rhs r j

-- one dense layer with its rectifier at `(r, j)`: the matrix product plus the bias row, cut below at zero
theorem dense_apply (x : FVec Ideal S2000x128 .f32) (w : FVec Ideal S128x128 .f32) (b : FVec Ideal S1x128 .f32)
    (hx : FTy.bf16.bits < FTy.f32.bits) (hb : S1x128.Broadcasts S2000x128) (r : Fin 2000) (j : Fin 128) :
    maximumf (addf (matmul dot_S2000x128_S128x128_S2000x128_1_0_0_1_n_n none (truncf .bf16 x hx) (truncf .bf16 w hx)
        (constant S2000x128 .f32 0x00000000#32)) (broadcastTo S2000x128 b hb)) (broadcast S2000x128 (Scalar.ofBits .f32 0x00000000#32)) (ix2 r j)
      = max ((∑ k : Fin 128, x (ix2 r k) * w (ix2 k j)) + b (ix2 (0 : Fin 1) j)) 0 := by
  rw [maximumf_apply, broadcast_apply, addf_apply, broadcastTo_1b_ab_apply, matmul_S2000x128_S128x128_apply]
  exact congrArg (max _) Ideal.ofBits_zero_f32

end Cert.Val

end
-- ==== Proof.Val.PayP.lean ====
import proofs.«407439_j85349590106293_1_alg».proof.Proof.Gen.KernelIdeal.Skeleton
import proofs.«407439_j85349590106293_1_alg».proof.Proof.Math.Spec
import proofs.«407439_j85349590106293_1_alg».proof.Proof.Val.PayLib
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Idealize.ShloMosaic Idealize.ShloMosaic.ValueIdx
open Cert.KernelIdeal Cert.KernelIdeal.Gen

-- An affine map, `max · 0`, and a second affine map: each matrix product is a sum over the contracted index.
theorem k6_pay1_apply (p : FVec Ideal S512x384 .f32) (A : FVec Ideal S384x384 .f32) (a : FVec Ideal S1x384 .f32)
    (B : FVec Ideal S384x384 .f32) (b : FVec Ideal S1x384 .f32) (g : Fin 512) (j : Fin 384) :
    k6_pay1 (F := Ideal) p A a B b (ix2 g j)
      = Cert.Spec.head (fun g k => p (ix2 g k)) (fun k' k => A (ix2 k' k)) (fun k => a (ix2 (0 : Fin 1) k))
          (fun k j => B (ix2 k j)) (fun j => b (ix2 (0 : Fin 1) j)) g j := by
  have hz : (FloatOps.ofBits (F := Ideal) .f32 0x00000000#32) = 0 := Ideal.ofBits_zero_f32
  unfold k6_pay1 Cert.Spec.head
  simp only [shapeCast_self]
  rw [addf_apply, broadcastTo_1b_ab_apply]
  refine congrArg (fun x => x + b (ix2 (0 : Fin 1) j)) ?_
  refine (matmul_S512x384_S384x384_apply _ _ g j).trans ?_
  refine Finset.sum_congr rfl fun k _ => ?_
  rw [truncf_apply, truncf_apply, maximumf_apply, broadcast_apply, hz, addf_apply, broadcastTo_1b_ab_apply]
  refine congrArg (fun x => max (x + a (ix2 (0 : Fin 1) k)) 0 * B (ix2 k j)) ?_
  refine (matmul_S512x384_S384x384_apply _ _ g k).trans ?_
  refine Finset.sum_congr rfl fun k' _ => ?_
  rw [truncf_apply, truncf_apply]

end Cert.Val

end
-- ==== Proof.Val.BridgeCore.lean ====
import proofs.«407439_j85349590106293_1_alg».proof.Proof.Val.HostBridge
import proofs.«407439_j85349590106293_1_alg».proof.Proof.Val.Consts
import proofs.«407439_j85349590106293_1_alg».proof.Proof.Math.Algebra
import proofs.«407439_j85349590106293_1_alg».proof.Proof.Val.PayP
import proofs.«407439_j85349590106293_1_alg».proof.Proof.RI.Run
import proofs.«407439_j85349590106293_1_alg».proof.Defs

noncomputable section

namespace Cert.Val.Bridge

open Idealize.ShloMosaic Idealize.ShloMosaic.ValueIdx Idealize.SL.Sem
open Cert.KernelIdeal (S50000x128 S1600000 S2x1600000 S3x128x128 S3x128 S50000 S384x384 S384 S512x384 nD τ sig main_v112
  main_arg0 main_arg1 main_arg2 main_arg3 main_arg4 main_arg5 main_arg6 main_arg7 main_arg8 main_arg9 main_arg10
  main_arg11 main_arg12)
open Cert.KernelIdeal.Gen (k6_pay1)
open Cert.KernelIdeal.HostVal Cert.ReferenceIdeal.Hand
open Cert.PreDecode (srcOf)
open Cert.LibReal (IsReal)

abbrev LayerFn : Type :=
  Vec Ideal S50000x128 .f32 → Vec Ideal S1600000 .i32 → Vec Ideal S1600000 .i32 → Vec Ideal S3x128x128 .f32 →
    Vec Ideal S3x128 .f32 → Vec Ideal S3x128x128 .f32 → Vec Ideal S3x128 .f32 → Vec Ideal S3x128 .f32 →
    Vec Ideal S3x128 .f32 → Vec Ideal S50000x128 .f32

-- `L` is, entry by entry, the specification's layer `S` of the neighbour sums `A` and slice `k` of the stacked parameters.
def LayerSpec
    (S : EReal → EReal → Cert.Spec.Feat → Cert.Spec.Feat → Cert.Spec.Mat → Cert.Spec.Row → Cert.Spec.Mat →
      Cert.Spec.Row → Cert.Spec.Row → Cert.Spec.Row → Cert.Spec.Feat)
    (A : Vec Ideal S50000x128 .f32 → Vec Ideal S1600000 .i32 → Vec Ideal S1600000 .i32 → Vec Ideal S50000x128 .f32)
    (k : Fin 3) (L : LayerFn) : Prop :=
  ∀ (h : Vec Ideal S50000x128 .f32) (src dst : Vec Ideal S1600000 .i32) (W1 : Vec Ideal S3x128x128 .f32)
    (b1 : Vec Ideal S3x128 .f32) (W2 : Vec Ideal S3x128x128 .f32) (b2 g be : Vec Ideal S3x128 .f32)
    (n : Fin 50000) (j : Fin 128),
    L h src dst W1 b1 W2 b2 g be (ix2 n j)
      = S Nc epsc (fun n c => A h src dst (ix2 n c)) (fun n c => h (ix2 n c))
          (fun a c => W1 (ix3 k a c)) (fun c => b1 (ix2 k c)) (fun a c => W2 (ix3 k a c)) (fun c => b2 (ix2 k c))
          (fun c => g (ix2 k c)) (fun c => be (ix2 k c)) n j

-- The kernel program's layers are the folded arrangement, the reference's the centred one.
abbrev KerLayerSpec := LayerSpec Cert.Spec.layerK (kerAgg (F := Ideal))
abbrev RefLayerSpec := LayerSpec Cert.Spec.layerR (refAgg (F := Ideal))

-- On a real input, real parameters and in-range sources, layer `k` of the two programs is the same real array.
theorem layer_step {k : Fin 3} {L R : LayerFn} (hL : KerLayerSpec k L) (hR : RefLayerSpec k R)
    {h : Vec Ideal S50000x128 .f32} {a1 : Vec Ideal S2x1600000 .i32} {W1 : Vec Ideal S3x128x128 .f32}
    {b1 : Vec Ideal S3x128 .f32} {W2 : Vec Ideal S3x128x128 .f32} {b2 g be : Vec Ideal S3x128 .f32}
    (hs : ∀ i, 0 ≤ (srcOf a1 i).toInt ∧ (srcOf a1 i).toInt < 50000)
    (hh : ∀ i, IsReal (h i)) (hW1 : ∀ i, IsReal (W1 i)) (hb1 : ∀ i, IsReal (b1 i)) (hW2 : ∀ i, IsReal (W2 i))
    (hb2 : ∀ i, IsReal (b2 i)) (hg : ∀ i, IsReal (g i)) (hbe : ∀ i, IsReal (be i)) :
    L h (kerSrc a1) (kerDst a1) W1 b1 W2 b2 g be = R h (refSrc a1) (refDst a1) W1 b1 W2 b2 g be
      ∧ ∀ i, IsReal (L h (kerSrc a1) (kerDst a1) W1 b1 W2 b2 g be i) := by
  have haggR := refAgg_isReal h (refSrc a1) (refDst a1) hh
  have key : ∀ i, L h (kerSrc a1) (kerDst a1) W1 b1 W2 b2 g be i = R h (refSrc a1) (refDst a1) W1 b1 W2 b2 g be i
      ∧ IsReal (R h (refSrc a1) (refDst a1) W1 b1 W2 b2 g be i) := fun i => by
    obtain ⟨n, j, rfl⟩ : ∃ n j, i = ix2 n j := ⟨i 0, i 1, eq_ix2 i⟩
    rw [hL, kerAgg_eq_refAgg h a1 fun e => hs (ix1 e), hR]
    exact ⟨congrFun (congrFun (Cert.Spec.layerK_eq_layerR Nc epsc Nc_eq epsc_pos _ _ _ _ _ _ _ _
        (fun n c => haggR _) (fun n c => hh _) (fun a c => hW1 _) (fun c => hb1 _) (fun a c => hW2 _)
        (fun c => hb2 _) (fun c => hg _) (fun c => hbe _)) n) j,
      Cert.Spec.layerR_isReal Nc epsc Nc_eq epsc_pos _ _ _ _ _ _ _ _
        (fun n c => haggR _) (fun n c => hh _) (fun a c => hW1 _) (fun c => hb1 _) (fun a c => hW2 _)
        (fun c => hb2 _) (fun c => hg _) (fun c => hbe _) n j⟩
  have e := funext fun i => (key i).1
  exact ⟨e, fun i => by rw [e]; exact (key i).2⟩

-- Where device `c` keeps the kernel program's variable `v`.
abbrev kloc (c : Dev nD) (v : Ref sig .tc) : Loc nD τ sig := (c.tc : Thread nD τ).loc v

-- The kernel program's result: the head of the pooled outputs of three layer functions run in sequence.
def kerRes (L0 L1 L2 : LayerFn) (x : Vec Ideal S50000x128 .f32) (a1 : Vec Ideal S2x1600000 .i32)
    (batch : Vec Ideal S50000 .i32) (W1 : Vec Ideal S3x128x128 .f32) (b1 : Vec Ideal S3x128 .f32)
    (W2 : Vec Ideal S3x128x128 .f32) (b2 g be : Vec Ideal S3x128 .f32) (Wp1 : Vec Ideal S384x384 .f32)
    (bp1 : Vec Ideal S384 .f32) (Wp2 : Vec Ideal S384x384 .f32) (bp2 : Vec Ideal S384 .f32) : Vec Ideal S512x384 .f32 :=
  k6_pay1 (F := Ideal)
    (kerPooled (L0 x (kerSrc a1) (kerDst a1) W1 b1 W2 b2 g be)
      (L1 (L0 x (kerSrc a1) (kerDst a1) W1 b1 W2 b2 g be) (kerSrc a1) (kerDst a1) W1 b1 W2 b2 g be)
      (L2 (L1 (L0 x (kerSrc a1) (kerDst a1) W1 b1 W2 b2 g be) (kerSrc a1) (kerDst a1) W1 b1 W2 b2 g be)
        (kerSrc a1) (kerDst a1) W1 b1 W2 b2 g be)
      batch)
    Wp1 (kerBp bp1) Wp2 (kerBp bp2)

-- The claim, from the specification of each program's three layers and the kernel program's run ending in `kerRes`.
theorem algebraic_of (L0 L1 L2 : LayerFn)
    (hL0 : KerLayerSpec 0 L0) (hL1 : KerLayerSpec 1 L1) (hL2 : KerLayerSpec 2 L2)
    (hR0 : RefLayerSpec 0 (refLayer0 (F := Ideal))) (hR1 : RefLayerSpec 1 (refLayer1 (F := Ideal)))
    (hR2 : RefLayerSpec 2 (refLayer2 (F := Ideal)))
    (hrun : ∀ (m : (ℓ : Loc nD τ sig) → Buf (Elt Ideal) ℓ) (ρ : Dev nD → PrngReg),
      θ_run (Cert.KernelIdeal.defs (F := Ideal)) (onTc (τ := τ) (Cert.KernelIdeal.main (F := Ideal))) ⟨m, fun _ => 0, ρ⟩
        (fun r => ∀ c : Dev nD,
          r.2.mem (kloc c main_v112)
            = kerRes L0 L1 L2 (m (kloc c main_arg0)) (m (kloc c main_arg1)) (m (kloc c main_arg2)) (m (kloc c main_arg3))
                (m (kloc c main_arg4)) (m (kloc c main_arg5)) (m (kloc c main_arg6)) (m (kloc c main_arg7))
                (m (kloc c main_arg8)) (m (kloc c main_arg9)) (m (kloc c main_arg10)) (m (kloc c main_arg11))
                (m (kloc c main_arg12))
          ∧ r.2.mem (kloc c main_arg0) = m (kloc c main_arg0) ∧ r.2.mem (kloc c main_arg1) = m (kloc c main_arg1)
          ∧ r.2.mem (kloc c main_arg2) = m (kloc c main_arg2) ∧ r.2.mem (kloc c main_arg3) = m (kloc c main_arg3)
          ∧ r.2.mem (kloc c main_arg4) = m (kloc c main_arg4) ∧ r.2.mem (kloc c main_arg5) = m (kloc c main_arg5)
          ∧ r.2.mem (kloc c main_arg6) = m (kloc c main_arg6) ∧ r.2.mem (kloc c main_arg7) = m (kloc c main_arg7)
          ∧ r.2.mem (kloc c main_arg8) = m (kloc c main_arg8) ∧ r.2.mem (kloc c main_arg9) = m (kloc c main_arg9)
          ∧ r.2.mem (kloc c main_arg10) = m (kloc c main_arg10) ∧ r.2.mem (kloc c main_arg11) = m (kloc c main_arg11)
          ∧ r.2.mem (kloc c main_arg12) = m (kloc c main_arg12))) :
    Cert.algebraic_KernelIdeal_ReferenceIdeal := by
  intro m ρ m' ρ' hpre hagree
  refine ⟨_, hrun m ρ, ?_⟩
  refine (θ_run (Cert.ReferenceIdeal.defs (F := Ideal)) _ _).mono (fun _ h c => ⟨(h c).1.trans (Eq.symm ?_), (h c).2⟩)
    (Cert.ReferenceIdeal.Hand.run (F := Ideal) m' ρ')
  obtain ⟨a0, a1, a2, a3, a4, a5, a6, a7, a8, a9, a10, a11, a12⟩ := hagree c
  obtain ⟨r0, r3, r4, r5, r6, r7, r8, -, -, -, -, hs⟩ := Cert.PreDecode.split_pre _ _ _ _ _ _ _ _ _ _ _ _ _ (hpre c)
  obtain ⟨e0, q0⟩ := layer_step hL0 hR0 hs r0 r3 r4 r5 r6 r7 r8
  obtain ⟨e1, q1⟩ := layer_step hL1 hR1 hs q0 r3 r4 r5 r6 r7 r8
  obtain ⟨e2, -⟩ := layer_step hL2 hR2 hs q1 r3 r4 r5 r6 r7 r8
  unfold Cert.ReferenceIdeal.Hand.res Cert.ReferenceIdeal.Hand.resH3 Cert.ReferenceIdeal.Hand.resH2
    Cert.ReferenceIdeal.Hand.resH1 kerRes
  rw [a0, a1, a2, a3, a4, a5, a6, a7, a8, a9, a10, a11, a12, e2, e1, e0]
  funext i
  obtain ⟨q, j, rfl⟩ : ∃ q j, i = ix2 q j := ⟨i 0, i 1, eq_ix2 i⟩
  rw [Cert.Val.k6_pay1_apply, Cert.Val.refHead_hand, kerPooled_eq]
  simp only [kerBp_apply]

end Cert.Val.Bridge

end
-- ==== Proof.Val.PayC.lean ====
import proofs.«407439_j85349590106293_1_alg».proof.Proof.Gen.KernelIdeal.Skeleton
import proofs.«407439_j85349590106293_1_alg».proof.Proof.Math.Spec
import proofs.«407439_j85349590106293_1_alg».proof.Proof.Val.PayLib
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Idealize.ShloMosaic Idealize.ShloMosaic.ValueIdx
open Cert.KernelIdeal Cert.KernelIdeal.Gen
open scoped BigOperators

variable (agg h : FVec Ideal S2000x128 .f32) (w1 : FVec Ideal S128x128 .f32) (b1 : FVec Ideal S1x128 .f32)
  (w2 : FVec Ideal S128x128 .f32) (b2 : FVec Ideal S1x128 .f32)

theorem k0_pay5_apply (r : Fin 2000) (j : Fin 128) :
    k0_pay5 agg h w1 b1 w2 b2 (ix2 r j)
      = max ((∑ k : Fin 128, max ((∑ k' : Fin 128, (agg (ix2 r k') + h (ix2 r k')) * w1 (ix2 k' k)) + b1 (ix2 (0 : Fin 1) k)) 0
          * w2 (ix2 k j)) + b2 (ix2 (0 : Fin 1) j)) 0 := by
  unfold k0_pay5
  simp only [shapeCast_self]
  rw [dense_apply]
  refine congrArg (fun x => max (x + b2 (ix2 (0 : Fin 1) j)) 0) (Finset.sum_congr rfl fun k _ => ?_)
  exact congrArg (· * w2 (ix2 k j)) (dense_apply _ w1 b1 _ _ r k)

theorem k0_pay6_apply (acc : FVec Ideal S1x128 .f32) (j : Fin 128) :
    k0_pay6 agg h w1 b1 w2 b2 acc (ix2 (0 : Fin 1) j)
      = acc (ix2 (0 : Fin 1) j) + ∑ r : Fin 2000, k0_pay5 agg h w1 b1 w2 b2 (ix2 r j) := by
  unfold k0_pay6
  refine (addf_apply _ _ _).trans ?_
  exact congrArg (acc (ix2 (0 : Fin 1) j) + ·) (colSum_S2000x128_apply _ _ _ _ _ j)

theorem k0_pay2_apply (y : FVec Ideal S2000x128 .f32) (acc : FVec Ideal S1x128 .f32) (j : Fin 128) :
    k0_pay2 y acc (ix2 (0 : Fin 1) j) = acc (ix2 (0 : Fin 1) j) + ∑ r : Fin 2000, y (ix2 r j) * y (ix2 r j) := by
  unfold k0_pay2
  simp only [shapeCast_self]
  rw [addf_apply]
  refine congrArg (acc (ix2 (0 : Fin 1) j) + ·) ?_
  refine (colSum_S2000x128_apply _ _ _ _ _ j).trans ?_
  refine Finset.sum_congr rfl fun r _ => ?_
  rw [mulf_apply]

theorem k0_pay1_eq (v : FVec Ideal S1x128 .f32) : k0_pay1 v = v := by
  unfold k0_pay1
  simp only [shapeCast_self]

theorem k0_pay3_apply (i : S1x128.Idx) : k0_pay3 (F := Ideal) i = 0 := by
  unfold k0_pay3
  simp only [shapeCast_self]
  rw [broadcast_apply]
  exact Ideal.ofBits_zero_f32
theorem k0_pay4_apply (i : S1x128.Idx) : k0_pay4 (F := Ideal) i = 0 := by
  unfold k0_pay4
  simp only [shapeCast_self]
  rw [broadcast_apply]
  exact Ideal.ofBits_zero_f32

end Cert.Val

end
-- ==== Proof.Val.C0Val.lean ====
import proofs.«407439_j85349590106293_1_alg».proof.Proof.KI.C0
import proofs.«407439_j85349590106293_1_alg».proof.Proof.Val.PayC
import proofs.«407439_j85349590106293_1_alg».proof.Proof.Math.Algebra
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def rowBlk0 (y : Vec F S50000x128 .f32) (q : Fin 25) : Vec F S2000x128 .f32 :=
  fun r => y (ix2 (n0 := 50000) (n1 := 128) ⟨q.val * 2000 + (r 0).val, by have := idx2_lt0 r; have := q.isLt; omega⟩ (r 1))

section Arrays

variable (agg h : Vec F S50000x128 .f32) (w1 : Vec F S128x128 .f32) (b1 : Vec F S1x128 .f32) (w2 : Vec F S128x128 .f32) (b2 : Vec F S1x128 .f32)

def blk0 (q : Fin 25) : Vec F S2000x128 .f32 := k0_pay5 (rowBlk0 agg q) (rowBlk0 h q) w1 b1 w2 b2

def G0_6 : Vec F S50000x128 .f32 :=
  fun i => blk0 agg h w1 b1 w2 b2 ⟨(i 0).val / 2000, by have := idx2_lt0 i; omega⟩
    (ix2 (n0 := 2000) (n1 := 128) ⟨(i 0).val % 2000, by omega⟩ (i 1))

-- an index at local row `r` of row block `q` has quotient `q` and remainder `r` by 2000
theorem G0_6_blk (q : Fin 25) (r : S2000x128.Idx) (i : S50000x128.Idx)
    (h0 : (i 0).val = q.val * 2000 + (r 0).val) (h1 : (i 1).val = (r 1).val) :
    G0_6 agg h w1 b1 w2 b2 i = blk0 agg h w1 b1 w2 b2 q r := by
  have hr := idx2_lt0 r
  have hq := q.isLt
  have eq : (⟨(i 0).val / 2000, by omega⟩ : Fin 25) = q := Fin.ext (by show (i 0).val / 2000 = q.val; omega)
  have er : ix2 (n0 := 2000) (n1 := 128) ⟨(i 0).val % 2000, by omega⟩ (i 1) = r :=
    Shape.idx_ext₂ (by show (i 0).val % 2000 = (r 0).val; omega) h1
  show blk0 agg h w1 b1 w2 b2 ⟨(i 0).val / 2000, _⟩ (ix2 ⟨(i 0).val % 2000, _⟩ (i 1)) = _
  rw [eq, er]

def acc0 : (n : ℕ) → n < 25 → Vec F S1x128 .f32 × Vec F S1x128 .f32
  | 0, hn => (sum0 (rowBlk0 agg ⟨0, hn⟩) (rowBlk0 h ⟨0, hn⟩) w1 b1 w2 b2 k0_pay3,
      sq0 (rowBlk0 agg ⟨0, hn⟩) (rowBlk0 h ⟨0, hn⟩) w1 b1 w2 b2 k0_pay4)
  | n + 1, hn => (sum0 (rowBlk0 agg ⟨n + 1, hn⟩) (rowBlk0 h ⟨n + 1, hn⟩) w1 b1 w2 b2 (acc0 n (Nat.lt_of_succ_lt hn)).1,
      sq0 (rowBlk0 agg ⟨n + 1, hn⟩) (rowBlk0 h ⟨n + 1, hn⟩) w1 b1 w2 b2 (acc0 n (Nat.lt_of_succ_lt hn)).2)

end Arrays

variable (V : (c : Dev nD) → (b : Ref sig .tc) → Buf (Elt F) ((c : Thread nD τ).loc b))

theorem idx_facts0 : ∀ t : Fin cfg0.N,
    (win0_0.index t (0 : Fin 2) = t.val ∧ win0_1.index t (0 : Fin 2) = t.val ∧ win0_6.index t (0 : Fin 2) = t.val)
    ∧ (win0_0.index t (1 : Fin 2) = 0 ∧ win0_1.index t (1 : Fin 2) = 0 ∧ win0_6.index t (1 : Fin 2) = 0)
    ∧ ∀ a : Fin 2, win0_2.index t a = 0 ∧ win0_3.index t a = 0 ∧ win0_4.index t a = 0 ∧ win0_5.index t a = 0
      ∧ win0_7.index t a = 0 ∧ win0_8.index t a = 0 :=
  (by decide +kernel : ∀ t : Fin grid0.N, _)

theorem iblk0_0_eq (c : Dev nD) (n : ℕ) (hn : n < cfg0.N) (hn' : n < 25) :
    iblk0 V c 0 ⟨n, hn⟩ = rowBlk0 (V c main_v7) ⟨n, hn'⟩ := by
  obtain ⟨⟨e0, -⟩, ⟨e1, -⟩, -⟩ := idx_facts0 ⟨n, hn⟩
  funext r
  show V c main_v7 (((cfg0.win 0).blk ⟨n, hn⟩).view.emb r) = V c main_v7 (ix2 ⟨n * 2000 + (r 0).val, _⟩ (r 1))
  refine congrArg _ (Shape.idx_ext₂ ?_ ?_)
  · show win0_0.index ⟨n, hn⟩ (0 : Fin 2) * 2000 + 1 * (r 0).val = n * 2000 + (r 0).val
    rw [show win0_0.index ⟨n, hn⟩ (0 : Fin 2) = n from e0]; omega
  · show win0_0.index ⟨n, hn⟩ (1 : Fin 2) * 128 + 1 * (r 1).val = (r 1).val; omega

theorem iblk0_1_eq (c : Dev nD) (n : ℕ) (hn : n < cfg0.N) (hn' : n < 25) :
    iblk0 V c 1 ⟨n, hn⟩ = rowBlk0 (V c main_arg0) ⟨n, hn'⟩ := by
  obtain ⟨⟨-, e0, -⟩, ⟨-, e1, -⟩, -⟩ := idx_facts0 ⟨n, hn⟩
  funext r
  show V c main_arg0 (((cfg0.win 1).blk ⟨n, hn⟩).view.emb r) = V c main_arg0 (ix2 ⟨n * 2000 + (r 0).val, _⟩ (r 1))
  refine congrArg _ (Shape.idx_ext₂ ?_ ?_)
  · show win0_1.index ⟨n, hn⟩ (0 : Fin 2) * 2000 + 1 * (r 0).val = n * 2000 + (r 0).val
    rw [show win0_1.index ⟨n, hn⟩ (0 : Fin 2) = n from e0]; omega
  · show win0_1.index ⟨n, hn⟩ (1 : Fin 2) * 128 + 1 * (r 1).val = (r 1).val; omega

-- with offset zero on both axes a block's index map is the identity
theorem iblk0_2_eq (c : Dev nD) (t : Fin cfg0.N) : iblk0 V c 2 t = V c main_v9 :=
  funext fun r => congrArg (V c main_v9) (funext fun a => Fin.ext (win0_2.rect_emb_val_of_index_zero t a ((idx_facts0 t).2.2 a).1 r))

theorem iblk0_3_eq (c : Dev nD) (t : Fin cfg0.N) : iblk0 V c 3 t = V c main_v12 :=
  funext fun r => congrArg (V c main_v12) (funext fun a => Fin.ext (win0_3.rect_emb_val_of_index_zero t a ((idx_facts0 t).2.2 a).2.1 r))

theorem iblk0_4_eq (c : Dev nD) (t : Fin cfg0.N) : iblk0 V c 4 t = V c main_v14 :=
  funext fun r => congrArg (V c main_v14) (funext fun a => Fin.ext (win0_4.rect_emb_val_of_index_zero t a ((idx_facts0 t).2.2 a).2.2.1 r))

theorem iblk0_5_eq (c : Dev nD) (t : Fin cfg0.N) : iblk0 V c 5 t = V c main_v17 :=
  funext fun r => congrArg (V c main_v17) (funext fun a => Fin.ext (win0_5.rect_emb_val_of_index_zero t a ((idx_facts0 t).2.2 a).2.2.2.1 r))

theorem scrAt0_eq (c : Dev nD) : ∀ (n : ℕ) (hn : n < cfg0.N) (hn' : n < 25),
    scrAt0 V c n hn = acc0 (V c main_v7) (V c main_arg0) (V c main_v9) (V c main_v12) (V c main_v14) (V c main_v17) n hn'
  | 0, hn, hn' => by
    rw [scrAt0, acc0, iblk0_0_eq V c 0 hn hn', iblk0_1_eq V c 0 hn hn', iblk0_2_eq, iblk0_3_eq, iblk0_4_eq, iblk0_5_eq]
  | n + 1, hn, hn' => by
    rw [scrAt0, acc0, scrAt0_eq c n (Nat.lt_of_succ_lt hn) (Nat.lt_of_succ_lt hn'),
      iblk0_0_eq V c (n + 1) hn hn', iblk0_1_eq V c (n + 1) hn hn', iblk0_2_eq, iblk0_3_eq, iblk0_4_eq, iblk0_5_eq]

-- the 25 blocks of 2000 rows tile the 50000 rows
theorem final0_6 (c : Dev nD) : (dat0 V c).arrAt 6 cfg0.N = G0_6 (V c main_v7) (V c main_arg0) (V c main_v9) (V c main_v12) (V c main_v14) (V c main_v17) := by
  have hN : cfg0.N = 25 := N_0
  refine (dat0 V c).arrAt_eq_of_cover 6 _ (fun (t : Fin cfg0.N) _ => ?_) (fun i => ?_)
  · obtain ⟨n, hn⟩ := t
    have hn' : n < 25 := by omega
    obtain ⟨⟨-, -, e0⟩, ⟨-, -, e1⟩, -⟩ := idx_facts0 ⟨n, hn⟩
    show (cfg0.win 6).cut (grid0.coords ⟨n, hn⟩) ((dat0 V c).after 6 ⟨n, hn⟩) = _
    rw [after0_6]
    show out0_6 (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) = _
    rw [iblk0_0_eq V c n hn hn', iblk0_1_eq V c n hn hn', iblk0_2_eq, iblk0_3_eq, iblk0_4_eq, iblk0_5_eq]
    funext j
    refine (G0_6_blk _ _ _ _ _ _ ⟨n, hn'⟩ j (((cfg0.win 6).blk ⟨n, hn⟩).view.emb j) ?_ ?_).symm
    · show win0_6.index ⟨n, hn⟩ (0 : Fin 2) * 2000 + 1 * (j 0).val = n * 2000 + (j 0).val
      rw [show win0_6.index ⟨n, hn⟩ (0 : Fin 2) = n from e0]; omega
    · show win0_6.index ⟨n, hn⟩ (1 : Fin 2) * 128 + 1 * (j 1).val = (j 1).val; omega
  · have hi0 := idx2_lt0 i
    have hi1 := idx2_lt1 i
    obtain ⟨t, htv⟩ : ∃ t : Fin cfg0.N, t.val = (i 0).val / 2000 := ⟨⟨(i 0).val / 2000, by omega⟩, rfl⟩
    obtain ⟨⟨-, -, e0⟩, ⟨-, -, e1⟩, -⟩ := idx_facts0 t
    refine ⟨t, flush0_6 t, ?_⟩
    show i ∈ ((View.whole main_v18_0).slice (win0_6.rect t)).set
    rw [View.set_slice_whole, Rect.mem_set_unit]
    intro a
    match a with
    | ⟨0, _⟩ => show win0_6.index t (0 : Fin 2) * 2000 ≤ (i 0).val ∧ (i 0).val < win0_6.index t (0 : Fin 2) * 2000 + 2000; omega
    | ⟨1, _⟩ => show win0_6.index t (1 : Fin 2) * 128 ≤ (i 1).val ∧ (i 1).val < win0_6.index t (1 : Fin 2) * 128 + 128; omega

-- for the two carried rows only the last point's block counts, and it is the whole row
theorem final0_78 (c : Dev nD) :
    (dat0 V c).arrAt 7 cfg0.N = (acc0 (V c main_v7) (V c main_arg0) (V c main_v9) (V c main_v12) (V c main_v14) (V c main_v17) 24 (by decide)).1
    ∧ (dat0 V c).arrAt 8 cfg0.N = (acc0 (V c main_v7) (V c main_arg0) (V c main_v9) (V c main_v12) (V c main_v14) (V c main_v17) 24 (by decide)).2 := by
  have hN : cfg0.N = 25 := N_0
  obtain ⟨t24, h24⟩ : ∃ t : Fin cfg0.N, t.val = 24 := ⟨⟨24, by omega⟩, rfl⟩
  have emb7 (t : Fin cfg0.N) (j : S1x128.Idx) : ((cfg0.win 7).blk t).view.emb j = j :=
    funext fun a => Fin.ext (win0_7.rect_emb_val_of_index_zero t a ((idx_facts0 t).2.2 a).2.2.2.2.1 j)
  have emb8 (t : Fin cfg0.N) (j : S1x128.Idx) : ((cfg0.win 8).blk t).view.emb j = j :=
    funext fun a => Fin.ext (win0_8.rect_emb_val_of_index_zero t a ((idx_facts0 t).2.2 a).2.2.2.2.2 j)
  constructor
  · refine (dat0 V c).arrAt_eq_of_cover 7 _ (fun (t : Fin cfg0.N) hf => ?_) (fun i => ⟨t24, (flush0_7 _).mpr (by omega), by have := View.emb_mem_set ((cfg0.win 7).blk t24).view i; rwa [emb7] at this⟩)
    obtain ⟨n, hn⟩ := t
    obtain rfl : n = 24 := by have := (flush0_7 ⟨n, hn⟩).mp hf; have h : (⟨n, hn⟩ : Fin cfg0.N).val = n := rfl; omega
    show (cfg0.win 7).cut (grid0.coords ⟨24, hn⟩) ((dat0 V c).after 7 ⟨24, hn⟩) = _
    rw [after0_7, outsAt0_7]
    show (scrAt0 V c 24 hn).1 = _
    rw [scrAt0_eq V c 24 hn (by decide)]
    exact funext fun j => (congrArg _ (emb7 _ j)).symm
  · refine (dat0 V c).arrAt_eq_of_cover 8 _ (fun (t : Fin cfg0.N) hf => ?_) (fun i => ⟨t24, (flush0_8 _).mpr (by omega), by have := View.emb_mem_set ((cfg0.win 8).blk t24).view i; rwa [emb8] at this⟩)
    obtain ⟨n, hn⟩ := t
    obtain rfl : n = 24 := by have := (flush0_8 ⟨n, hn⟩).mp hf; have h : (⟨n, hn⟩ : Fin cfg0.N).val = n := rfl; omega
    show (cfg0.win 8).cut (grid0.coords ⟨24, hn⟩) ((dat0 V c).after 8 ⟨24, hn⟩) = _
    rw [after0_8, outsAt0_8]
    show (scrAt0 V c 24 hn).2 = _
    rw [scrAt0_eq V c 24 hn (by decide)]
    exact funext fun j => (congrArg _ (emb8 _ j)).symm

theorem final0_7 (c : Dev nD) : (dat0 V c).arrAt 7 cfg0.N = (acc0 (V c main_v7) (V c main_arg0) (V c main_v9) (V c main_v12) (V c main_v14) (V c main_v17) 24 (by decide)).1 := (final0_78 V c).1

theorem final0_8 (c : Dev nD) : (dat0 V c).arrAt 8 cfg0.N = (acc0 (V c main_v7) (V c main_arg0) (V c main_v9) (V c main_v12) (V c main_v14) (V c main_v17) 24 (by decide)).2 := (final0_78 V c).2

end Cert.KernelIdeal.Hand

namespace Cert.Val

open Cert.KernelIdeal Cert.KernelIdeal.Gen Cert.KernelIdeal.Hand
open Idealize.ShloMosaic Idealize.ShloMosaic.ValueIdx
open scoped BigOperators

variable (agg h : Vec Ideal S50000x128 .f32) (w1 : Vec Ideal S128x128 .f32) (b1 : Vec Ideal S1x128 .f32) (w2 : Vec Ideal S128x128 .f32) (b2 : Vec Ideal S1x128 .f32)

-- one step of either carried row at column `j`: the carried entry plus the block's column sum (of squares)
theorem step0_apply (q : Fin 25) (p s : Vec Ideal S1x128 .f32) (j : Fin 128) :
    sum0 (rowBlk0 agg q) (rowBlk0 h q) w1 b1 w2 b2 p (ix2 (0 : Fin 1) j) = p (ix2 (0 : Fin 1) j) + ∑ r : Fin 2000, blk0 agg h w1 b1 w2 b2 q (ix2 r j)
    ∧ sq0 (rowBlk0 agg q) (rowBlk0 h q) w1 b1 w2 b2 s (ix2 (0 : Fin 1) j)
      = s (ix2 (0 : Fin 1) j) + ∑ r : Fin 2000, blk0 agg h w1 b1 w2 b2 q (ix2 r j) * blk0 agg h w1 b1 w2 b2 q (ix2 r j) := by
  constructor
  · unfold sum0
    rw [k0_pay1_eq]
    exact k0_pay6_apply _ _ w1 b1 w2 b2 p j
  · unfold sq0
    exact k0_pay2_apply _ s j

-- after point `n` the carried rows hold, at column `j`, the column sums (of squares) of blocks `0 … n` added up
theorem acc0_fin (j : Fin 128) : ∀ (n : ℕ) (hn : n < 25),
    (acc0 agg h w1 b1 w2 b2 n hn).1 (ix2 (0 : Fin 1) j) = ∑ t : Fin (n + 1), ∑ r : Fin 2000, blk0 agg h w1 b1 w2 b2 ⟨t.val, by omega⟩ (ix2 r j)
    ∧ (acc0 agg h w1 b1 w2 b2 n hn).2 (ix2 (0 : Fin 1) j)
      = ∑ t : Fin (n + 1), ∑ r : Fin 2000, blk0 agg h w1 b1 w2 b2 ⟨t.val, by omega⟩ (ix2 r j) * blk0 agg h w1 b1 w2 b2 ⟨t.val, by omega⟩ (ix2 r j)
  | 0, hn => by
    have e := step0_apply agg h w1 b1 w2 b2 ⟨0, hn⟩ (k0_pay3 (F := Ideal)) (k0_pay4 (F := Ideal)) j
    rw [k0_pay3_apply, k0_pay4_apply, zero_add, zero_add] at e
    rw [acc0, Fin.sum_univ_one, Fin.sum_univ_one]
    exact e
  | n + 1, hn => by
    have ih := acc0_fin j n (Nat.lt_of_succ_lt hn)
    have e := step0_apply agg h w1 b1 w2 b2 ⟨n + 1, hn⟩ (acc0 agg h w1 b1 w2 b2 n (Nat.lt_of_succ_lt hn)).1 (acc0 agg h w1 b1 w2 b2 n (Nat.lt_of_succ_lt hn)).2 j
    rw [ih.1, ih.2] at e
    rw [acc0, Fin.sum_univ_castSucc, Fin.sum_univ_castSucc (n := n + 1)]
    exact e

theorem G0_6_block (t : Fin 25) (r : Fin 2000) (j : Fin 128) :
    G0_6 agg h w1 b1 w2 b2 (ix2 (n0 := 50000) (n1 := 128) ⟨2000 * t.val + r.val, by omega⟩ j) = blk0 agg h w1 b1 w2 b2 t (ix2 r j) :=
  G0_6_blk agg h w1 b1 w2 b2 t (ix2 r j) _ (by show 2000 * t.val + r.val = t.val * 2000 + r.val; omega) rfl

-- the sum row is the column sum of the first output over all 50000 rows
theorem acc0_sum_rows (j : Fin 128) :
    (acc0 agg h w1 b1 w2 b2 24 (by decide)).1 (ix2 (0 : Fin 1) j) = ∑ n : Fin 50000, G0_6 agg h w1 b1 w2 b2 (ix2 n j) := by
  rw [← Cert.Spec.sum_blocks (fun n => G0_6 agg h w1 b1 w2 b2 (ix2 n j))]
  refine (acc0_fin agg h w1 b1 w2 b2 j 24 (by decide)).1.trans ?_
  exact Finset.sum_congr rfl fun t _ => Finset.sum_congr rfl fun r _ => (G0_6_block agg h w1 b1 w2 b2 t r j).symm

-- and the sum-of-squares row its column sum of squares
theorem acc0_sq_rows (j : Fin 128) :
    (acc0 agg h w1 b1 w2 b2 24 (by decide)).2 (ix2 (0 : Fin 1) j)
      = ∑ n : Fin 50000, G0_6 agg h w1 b1 w2 b2 (ix2 n j) * G0_6 agg h w1 b1 w2 b2 (ix2 n j) := by
  rw [← Cert.Spec.sum_blocks (fun n => G0_6 agg h w1 b1 w2 b2 (ix2 n j) * G0_6 agg h w1 b1 w2 b2 (ix2 n j))]
  refine (acc0_fin agg h w1 b1 w2 b2 j 24 (by decide)).2.trans ?_
  exact Finset.sum_congr rfl fun t _ => Finset.sum_congr rfl fun r _ => by rw [G0_6_block]

theorem G0_6_apply (n : Fin 50000) (j : Fin 128) :
    G0_6 agg h w1 b1 w2 b2 (ix2 n j)
      = k0_pay5 (rowBlk0 agg ⟨n.val / 2000, by omega⟩) (rowBlk0 h ⟨n.val / 2000, by omega⟩) w1 b1 w2 b2 (ix2 (n0 := 2000) (n1 := 128) ⟨n.val % 2000, by omega⟩ j) := rfl

theorem rowBlk0_apply (y : Vec Ideal S50000x128 .f32) (n : Fin 50000) (k : Fin 128) :
    rowBlk0 y ⟨n.val / 2000, by omega⟩ (ix2 (n0 := 2000) (n1 := 128) ⟨n.val % 2000, by omega⟩ k) = y (ix2 n k) :=
  congrArg y (Shape.idx_ext₂ (by show n.val / 2000 * 2000 + n.val % 2000 = n.val; omega) rfl)

end Cert.Val

end
-- ==== Proof.Val.PayN.lean ====
import proofs.«407439_j85349590106293_1_alg».proof.Proof.Gen.KernelIdeal.Skeleton
import proofs.«407439_j85349590106293_1_alg».proof.Proof.Math.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Idealize.ShloMosaic Idealize.ShloMosaic.ValueIdx
open Cert.KernelIdeal Cert.KernelIdeal.Gen

-- One multiply-add per entry with the broadcast scale and shift rows.
theorem k1_pay1_apply (y : FVec Ideal S2000x128 .f32) (s b : FVec Ideal S1x128 .f32) (r : Fin 2000) (j : Fin 128) :
    k1_pay1 y s b (ix2 r j) = y (ix2 r j) * s (ix2 (0 : Fin 1) j) + b (ix2 (0 : Fin 1) j) := by
  unfold k1_pay1
  simp only [shapeCast_self]
  rw [addf_apply, mulf_apply, broadcastTo_1b_ab_apply, broadcastTo_1b_ab_apply]

end Cert.Val

end
-- ==== Proof.Val.N1Val.lean ====
import proofs.«407439_j85349590106293_1_alg».proof.Proof.KI.N1
import proofs.«407439_j85349590106293_1_alg».proof.Proof.Val.PayN
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def rowBlk1 (y : Vec F S50000x128 .f32) (q : Fin 25) : Vec F S2000x128 .f32 :=
  fun r => y (ix2 (n0 := 50000) (n1 := 128) ⟨q.val * 2000 + (r 0).val, by have := idx2_lt0 r; have := q.isLt; omega⟩ (r 1))

-- Row `n` of the output is row `n % 2000` of the payload on row block `n / 2000`.
def G1 (y : Vec F S50000x128 .f32) (s b : Vec F S1x128 .f32) : Vec F S50000x128 .f32 :=
  fun i => k1_pay1 (rowBlk1 y ⟨(i 0).val / 2000, by have := idx2_lt0 i; omega⟩) s b
    (ix2 (n0 := 2000) (n1 := 128) ⟨(i 0).val % 2000, by omega⟩ (i 1))

theorem G1_blk (y : Vec F S50000x128 .f32) (s b : Vec F S1x128 .f32) (q : Fin 25) (r : S2000x128.Idx) (i : S50000x128.Idx)
    (h0 : (i 0).val = q.val * 2000 + (r 0).val) (h1 : (i 1).val = (r 1).val) :
    G1 y s b i = k1_pay1 (rowBlk1 y q) s b r := by
  have hr := idx2_lt0 r
  have eq : (⟨(i 0).val / 2000, by have := idx2_lt0 i; omega⟩ : Fin 25) = q := Fin.ext (by show (i 0).val / 2000 = q.val; omega)
  have er : ix2 (n0 := 2000) (n1 := 128) ⟨(i 0).val % 2000, by omega⟩ (i 1) = r :=
    Shape.idx_ext₂ (by show (i 0).val % 2000 = (r 0).val; omega) h1
  unfold G1; rw [eq, er]

variable (V : (c : Dev nD) → (b : Ref sig .tc) → Buf (Elt F) ((c : Thread nD τ).loc b)) (c : Dev nD)

theorem idx_facts1 : ∀ t : Fin cfg1.N, (win1_0.index t (0 : Fin 2) = t.val ∧ win1_0.index t (1 : Fin 2) = 0)
    ∧ (∀ a, win1_1.index t a = 0) ∧ (∀ a, win1_2.index t a = 0)
    ∧ win1_3.index t (0 : Fin 2) = t.val ∧ win1_3.index t (1 : Fin 2) = 0 :=
  (by decide +kernel : ∀ t : Fin grid1.N, _)

theorem iblk1_0_eq (t : Fin cfg1.N) (ht : t.val < 25) : iblk1 V c 0 t = rowBlk1 (V c main_v18_0) ⟨t.val, ht⟩ := by
  obtain ⟨⟨e0, e1⟩, -⟩ := idx_facts1 t
  refine funext fun r => congrArg (V c main_v18_0) (Shape.idx_ext₂ ?_ ?_)
  · show win1_0.index t (0 : Fin 2) * 2000 + 1 * (r 0).val = t.val * 2000 + (r 0).val; omega
  · show win1_0.index t (1 : Fin 2) * 128 + 1 * (r 1).val = (r 1).val; omega

-- A window at block index zero on every axis reads its whole array.
theorem iblk1_1_eq (t : Fin cfg1.N) : iblk1 V c 1 t = V c main_v31 :=
  funext fun r => congrArg (V c main_v31) (funext fun a => Fin.ext (win1_1.rect_emb_val_of_index_zero t a ((idx_facts1 t).2.1 a) r))

theorem iblk1_2_eq (t : Fin cfg1.N) : iblk1 V c 2 t = V c main_v36 :=
  funext fun r => congrArg (V c main_v36) (funext fun a => Fin.ext (win1_2.rect_emb_val_of_index_zero t a ((idx_facts1 t).2.2.1 a) r))

-- The block flushed at point `t` is block `t` of `G1` of the arrays at entry: compare coordinates.
theorem flushed1_3_eq (t : Fin cfg1.N) :
    (dat1 V c).flushed 3 t = ((cfg1.win 3).blk t).view.read (Elt F) (G1 (V c main_v18_0) (V c main_v31) (V c main_v36)) := by
  have ht : t.val < 25 := lt_of_lt_of_eq t.isLt N_1
  obtain ⟨-, -, -, e6, e7⟩ := idx_facts1 t
  show (cfg1.win 3).cut (grid1.coords t) ((dat1 V c).after 3 t) = _
  rw [after1_3, out1_3, View.canon_unit_zero hz1]
  simp only [View.ld_unit_zero (S := S2000x128) hz1, View.ld_unit_zero (S := S1x128) hz1]
  rw [iblk1_0_eq V c t ht, iblk1_1_eq, iblk1_2_eq]
  funext j
  refine (G1_blk _ _ _ ⟨t.val, ht⟩ j (((cfg1.win 3).blk t).view.emb j) ?_ ?_).symm
  · show win1_3.index t (0 : Fin 2) * 2000 + 1 * (j 0).val = t.val * 2000 + (j 0).val; omega
  · show win1_3.index t (1 : Fin 2) * 128 + 1 * (j 1).val = (j 1).val; omega

-- Row `n` of the output array lies in the block of point `n / 2000`.
theorem cover1_3_arr (i : S50000x128.Idx) : ∃ t : Fin cfg1.N, (cfg1.win 3).flush t = true ∧ i ∈ ((cfg1.win 3).blk t).view.set := by
  have hi0 := idx2_lt0 i
  have hi1 := idx2_lt1 i
  have hN : cfg1.N = 25 := N_1
  obtain ⟨t, htv⟩ : ∃ t : Fin cfg1.N, t.val = (i 0).val / 2000 := ⟨⟨(i 0).val / 2000, by omega⟩, rfl⟩
  obtain ⟨-, -, -, e6, e7⟩ := idx_facts1 t
  refine ⟨t, flush1_3 t, ?_⟩
  show i ∈ ((View.whole main_v37).slice (win1_3.rect t)).set
  rw [View.set_slice_whole, Rect.mem_set_unit]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

theorem final1 : (dat1 V c).arrAt 3 cfg1.N = G1 (V c main_v18_0) (V c main_v31) (V c main_v36) :=
  (dat1 V c).arrAt_eq_of_cover 3 _ (fun t _ => flushed1_3_eq V c t) cover1_3_arr

end Cert.KernelIdeal.Hand

namespace Cert.Val

open Cert.KernelIdeal Cert.KernelIdeal.Gen Cert.KernelIdeal.Hand
open Idealize.ShloMosaic Idealize.ShloMosaic.ValueIdx

theorem G1_apply (y : Vec Ideal S50000x128 .f32) (s b : Vec Ideal S1x128 .f32) (n : Fin 50000) (j : Fin 128) :
    G1 (F := Ideal) y s b (ix2 n j) = y (ix2 n j) * s (ix2 (0 : Fin 1) j) + b (ix2 (0 : Fin 1) j) := by
  have hn := n.isLt
  show k1_pay1 (F := Ideal) (rowBlk1 y ⟨n.val / 2000, _⟩) s b (ix2 ⟨n.val % 2000, _⟩ j) = _
  rw [k1_pay1_apply]
  show y (ix2 ⟨n.val / 2000 * 2000 + n.val % 2000, _⟩ j) * _ + _ = _
  have e : (⟨n.val / 2000 * 2000 + n.val % 2000, by omega⟩ : Fin 50000) = n := Fin.ext (by show n.val / 2000 * 2000 + n.val % 2000 = n.val; omega)
  rw [e]

end Cert.Val

end
-- ==== Proof.Val.KStats.lean ====
import proofs.«407439_j85349590106293_1_alg».proof.Proof.Val.KHost
import proofs.«407439_j85349590106293_1_alg».proof.Proof.Val.Consts
import proofs.«407439_j85349590106293_1_alg».proof.Proof.Math.Spec
import Idealize.ShloMosaic.Lib.ValueIdx
import Idealize.ShloMosaic.Lib.ValueLayout

noncomputable section

namespace Cert.KernelIdeal.HostVal

open Idealize.ShloMosaic Idealize.ShloMosaic.TcCoe
open Cert.KernelIdeal Cert.KernelIdeal.Gen

variable {F : FTy → Type} [FloatOps F]

-- The node count N and the shift eps, each broadcast along the row.
def bcN : Vec F S1x128 .f32 := broadcastInDim S1x128 ![] bcast_S_S1x128 (constant (F := F) S_ .f32 0x47435000#32)
def bcE : Vec F S1x128 .f32 := broadcastInDim S1x128 ![] bcast_S_S1x128 (constant (F := F) S_ .f32 0x3727C5AC#32)

section
variable (off : Fin S3x128.rank → Nat) (sl : S3x128.Slices off S1x128) (s q : Vec F S1x128 .f32) (g be : Vec F S3x128 .f32)

-- The folded scale row(g) · rsqrt ((q / N − (s / N)²) + eps).
def statScale : Vec F S1x128 .f32 :=
  mulf (kerRowAt off sl g) (Host.rsqrt (addf (subf (Host.divf q bcN) (mulf (Host.divf s bcN) (Host.divf s bcN))) bcE))

-- The folded shift row(be) − (s / N) · scale.
def statBias : Vec F S1x128 .f32 :=
  subf (kerRowAt off sl be) (mulf (Host.divf s bcN) (statScale off sl s q g))
end

def kerScale_0 (s q : Vec F S1x128 .f32) (g be : Vec F S3x128 .f32) : Vec F S1x128 .f32 :=
  statScale ![0, 0] slices_S3x128_S1x128_0_0 s q g
def kerBias_0 (s q : Vec F S1x128 .f32) (g be : Vec F S3x128 .f32) : Vec F S1x128 .f32 :=
  statBias ![0, 0] slices_S3x128_S1x128_0_0 s q g be
def kerScale_1 (s q : Vec F S1x128 .f32) (g be : Vec F S3x128 .f32) : Vec F S1x128 .f32 :=
  statScale ![1, 0] slices_S3x128_S1x128_1_0 s q g
def kerBias_1 (s q : Vec F S1x128 .f32) (g be : Vec F S3x128 .f32) : Vec F S1x128 .f32 :=
  statBias ![1, 0] slices_S3x128_S1x128_1_0 s q g be
def kerScale_2 (s q : Vec F S1x128 .f32) (g be : Vec F S3x128 .f32) : Vec F S1x128 .f32 :=
  statScale ![2, 0] slices_S3x128_S1x128_2_0 s q g
def kerBias_2 (s q : Vec F S1x128 .f32) (g be : Vec F S3x128 .f32) : Vec F S1x128 .f32 :=
  statBias ![2, 0] slices_S3x128_S1x128_2_0 s q g be

variable (W : Valuation τ sig (Elt F))

theorem hostOps1_scale : StableHlo.after (hostOps1 (F := F)) W (Proc.devRef .tc main_v31)
    = kerScale_0 (W (Proc.devRef .tc main_v18_1)) (W (Proc.devRef .tc main_v18_2)) (W (Proc.devRef .tc main_arg7)) (W (Proc.devRef .tc main_arg8)) := by
  after_results_simp <;> rfl

theorem hostOps1_bias : StableHlo.after (hostOps1 (F := F)) W (Proc.devRef .tc main_v36)
    = kerBias_0 (W (Proc.devRef .tc main_v18_1)) (W (Proc.devRef .tc main_v18_2)) (W (Proc.devRef .tc main_arg7)) (W (Proc.devRef .tc main_arg8)) := by
  after_results_simp <;> rfl

theorem hostOps3_scale : StableHlo.after (hostOps3 (F := F)) W (Proc.devRef .tc main_v65)
    = kerScale_1 (W (Proc.devRef .tc main_v52_1)) (W (Proc.devRef .tc main_v52_2)) (W (Proc.devRef .tc main_arg7)) (W (Proc.devRef .tc main_arg8)) := by
  after_results_simp <;> rfl

theorem hostOps3_bias : StableHlo.after (hostOps3 (F := F)) W (Proc.devRef .tc main_v70)
    = kerBias_1 (W (Proc.devRef .tc main_v52_1)) (W (Proc.devRef .tc main_v52_2)) (W (Proc.devRef .tc main_arg7)) (W (Proc.devRef .tc main_arg8)) := by
  after_results_simp <;> rfl

theorem hostOps5_scale : StableHlo.after (hostOps5 (F := F)) W (Proc.devRef .tc main_v99)
    = kerScale_2 (W (Proc.devRef .tc main_v86_1)) (W (Proc.devRef .tc main_v86_2)) (W (Proc.devRef .tc main_arg7)) (W (Proc.devRef .tc main_arg8)) := by
  after_results_simp <;> rfl

theorem hostOps5_bias : StableHlo.after (hostOps5 (F := F)) W (Proc.devRef .tc main_v104)
    = kerBias_2 (W (Proc.devRef .tc main_v86_1)) (W (Proc.devRef .tc main_v86_2)) (W (Proc.devRef .tc main_arg7)) (W (Proc.devRef .tc main_arg8)) := by
  after_results_simp <;> rfl

end Cert.KernelIdeal.HostVal

namespace Cert.Val

open Idealize.ShloMosaic Idealize.ShloMosaic.TcCoe Idealize.ShloMosaic.ValueIdx
open Cert.KernelIdeal Cert.KernelIdeal.Gen Cert.KernelIdeal.HostVal
open scoped BigOperators

section
variable {F : FTy → Type} [FloatOps F] (i : Fin 3)

-- The cast keeps the row-major position and the slice shifts the leading coordinate by its offset.
theorem kerMatAt_apply (sl : S3x128x128.Slices ![i.val, 0, 0] S1x128x128) (W : Vec F S3x128x128 .f32) (a c : Fin 128) :
    kerMatAt ![i.val, 0, 0] sl W (ix2 a c) = W (ix3 i a c) := by
  show shapeCast S128x128 _ _ (ix2 a c) = _
  rw [shapeCast_1ab_ab_apply]
  refine extractStridedSlice_apply _ _ _ _ _ (fun d => ?_)
  match d with
  | ⟨0, _⟩ => rfl
  | ⟨1, _⟩ => exact (Nat.zero_add _).symm
  | ⟨2, _⟩ => exact (Nat.zero_add _).symm

theorem kerRowAt_apply (sl : S3x128.Slices ![i.val, 0] S1x128) (g : Vec F S3x128 .f32) (j : Fin 128) :
    kerRowAt ![i.val, 0] sl g (ix2 0 j) = g (ix2 i j) := by
  unfold kerRowAt
  rw [shapeCast_a_1a_apply]
  show shapeCast S128 (extractStridedSlice S1x128 ![i.val, 0] g sl) shapeCasts_S1x128_S128 (ix1 j) = _
  rw [shapeCast_1a_a_apply]
  exact slice2_axis0_apply i.val g sl (0 : Fin 1) j i rfl

variable (W : Vec F S3x128x128 .f32) (b : Vec F S3x128 .f32) (a c : Fin 128)

theorem kerMat0_apply : kerMat0 W (ix2 a c) = W (ix3 (0 : Fin 3) a c) := kerMatAt_apply (0 : Fin 3) _ W a c
theorem kerMat1_apply : kerMat1 W (ix2 a c) = W (ix3 (1 : Fin 3) a c) := kerMatAt_apply (1 : Fin 3) _ W a c
theorem kerMat2_apply : kerMat2 W (ix2 a c) = W (ix3 (2 : Fin 3) a c) := kerMatAt_apply (2 : Fin 3) _ W a c
theorem kerRow0_apply : kerRow0 b (ix2 0 c) = b (ix2 (0 : Fin 3) c) := kerRowAt_apply (0 : Fin 3) _ b c
theorem kerRow1_apply : kerRow1 b (ix2 0 c) = b (ix2 (1 : Fin 3) c) := kerRowAt_apply (1 : Fin 3) _ b c
theorem kerRow2_apply : kerRow2 b (ix2 0 c) = b (ix2 (2 : Fin 3) c) := kerRowAt_apply (2 : Fin 3) _ b c
end

-- The perceptron of agg + h read off the arrays.
abbrev mlpOf (agg h : Vec Ideal S50000x128 .f32) (w1 : Vec Ideal S128x128 .f32) (b1 : Vec Ideal S1x128 .f32)
    (w2 : Vec Ideal S128x128 .f32) (b2 : Vec Ideal S1x128 .f32) : Cert.Spec.Feat :=
  Cert.Spec.mlp (fun n c => agg (ix2 n c) + h (ix2 n c)) (fun a c => w1 (ix2 a c)) (fun c => b1 (ix2 (0 : Fin 1) c))
    (fun a c => w2 (ix2 a c)) (fun c => b2 (ix2 (0 : Fin 1) c))

variable (s q : Vec Ideal S1x128 .f32) (g be : Vec Ideal S3x128 .f32) (y : Cert.Spec.Feat)
  (hs : ∀ j, s (ix2 0 j) = Cert.Spec.colSum y j) (hq : ∀ j, q (ix2 0 j) = Cert.Spec.colSumSq y j) (j : Fin 128)
  (i : Fin 3) (sl : S3x128.Slices ![i.val, 0] S1x128)
include hs hq

-- Once the two sums are the column sums of y, the folded scale at column j is the specification's.
theorem statScale_apply :
    statScale (F := Ideal) ![i.val, 0] sl s q g (ix2 0 j) = Cert.Spec.scaleK Nc epsc y (fun j => g (ix2 i j)) j := by
  show kerRowAt (F := Ideal) ![i.val, 0] sl g (ix2 0 j)
        * Ideal.rsqrt ((Ideal.div (q (ix2 0 j)) Nc - Ideal.div (s (ix2 0 j)) Nc * Ideal.div (s (ix2 0 j)) Nc) + epsc)
      = g (ix2 i j) * Ideal.rsqrt ((Ideal.div (Cert.Spec.colSumSq y j) Nc
            - Ideal.div (Cert.Spec.colSum y j) Nc * Ideal.div (Cert.Spec.colSum y j) Nc) + epsc)
  rw [kerRowAt_apply i sl g j, hs j, hq j]

theorem statBias_apply :
    statBias (F := Ideal) ![i.val, 0] sl s q g be (ix2 0 j)
      = Cert.Spec.biasK Nc epsc y (fun j => g (ix2 i j)) (fun j => be (ix2 i j)) j := by
  show kerRowAt (F := Ideal) ![i.val, 0] sl be (ix2 0 j)
        - Ideal.div (s (ix2 0 j)) Nc * statScale (F := Ideal) ![i.val, 0] sl s q g (ix2 0 j)
      = be (ix2 i j) - Ideal.div (Cert.Spec.colSum y j) Nc * Cert.Spec.scaleK Nc epsc y (fun j => g (ix2 i j)) j
  rw [kerRowAt_apply i sl be j, hs j, statScale_apply s q g y hs hq j i sl]

omit hs hq in
-- A layer: the multiply-add of an array that is y entrywise with the folded scale and shift of its two column sums is y normalised.
theorem layer_of (M out : Vec Ideal S50000x128 .f32)
    (hout : ∀ n j, out (ix2 n j)
      = M (ix2 n j) * statScale ![i.val, 0] sl s q g (ix2 0 j) + statBias ![i.val, 0] sl s q g be (ix2 0 j))
    (hM : ∀ n j, M (ix2 n j) = y n j) (hS : ∀ j, s (ix2 0 j) = ∑ n : Fin 50000, M (ix2 n j))
    (hQ : ∀ j, q (ix2 0 j) = ∑ n : Fin 50000, M (ix2 n j) * M (ix2 n j)) (n : Fin 50000) :
    out (ix2 n j) = Cert.Spec.normK Nc epsc y (fun c => g (ix2 i c)) (fun c => be (ix2 i c)) n j := by
  have hs' : ∀ j, s (ix2 0 j) = Cert.Spec.colSum y j := fun j => (hS j).trans (Finset.sum_congr rfl fun n _ => hM n j)
  have hq' : ∀ j, q (ix2 0 j) = Cert.Spec.colSumSq y j := fun j =>
    (hQ j).trans (Finset.sum_congr rfl fun n _ => by rw [hM])
  rw [hout, hM, statScale_apply s q g y hs' hq' j i sl, statBias_apply s q g be y hs' hq' j i sl]
  rfl

end Cert.Val

end
-- ==== Proof.Val.KSpec0.lean ====
import proofs.«407439_j85349590106293_1_alg».proof.Proof.Val.C0Val
import proofs.«407439_j85349590106293_1_alg».proof.Proof.Val.N1Val
import proofs.«407439_j85349590106293_1_alg».proof.Proof.Val.KStats
import proofs.«407439_j85349590106293_1_alg».proof.Proof.Val.KHost
import proofs.«407439_j85349590106293_1_alg».proof.Proof.Val.PayC
import proofs.«407439_j85349590106293_1_alg».proof.Proof.Math.Spec
import Idealize.ShloMosaic.Lib.ValueIdx

noncomputable section

namespace Cert.Val

open Cert.KernelIdeal Cert.KernelIdeal.Gen Cert.KernelIdeal.Hand Cert.KernelIdeal.HostVal
open Idealize.ShloMosaic Idealize.ShloMosaic.ValueIdx
open scoped BigOperators

-- Row n lies in row block n / 2000 at local row n % 2000, and the block's entry there is the perceptron of the block's rows.
theorem G0_6_eq_mlp (agg h : Vec Ideal S50000x128 .f32) (w1 : Vec Ideal S128x128 .f32) (b1 : Vec Ideal S1x128 .f32)
    (w2 : Vec Ideal S128x128 .f32) (b2 : Vec Ideal S1x128 .f32) (n : Fin 50000) (j : Fin 128) :
    G0_6 agg h w1 b1 w2 b2 (ix2 n j) = mlpOf agg h w1 b1 w2 b2 n j := by
  rw [G0_6_apply, k0_pay5_apply]
  unfold mlpOf Cert.Spec.mlp Cert.Spec.hid
  simp only [rowBlk0_apply]

-- The second region applied to the first region's main output and to the scale and shift made of its two statistics rows.
theorem layer0_spec (agg h : Vec Ideal S50000x128 .f32) (W1 : Vec Ideal S3x128x128 .f32) (b1 : Vec Ideal S3x128 .f32)
    (W2 : Vec Ideal S3x128x128 .f32) (b2 : Vec Ideal S3x128 .f32) (g be : Vec Ideal S3x128 .f32) (n : Fin 50000) (j : Fin 128) :
    G1 (F := Ideal) (G0_6 agg h (kerMat0 W1) (kerRow0 b1) (kerMat0 W2) (kerRow0 b2))
        (kerScale_0 (F := Ideal) (acc0 agg h (kerMat0 W1) (kerRow0 b1) (kerMat0 W2) (kerRow0 b2) 24 (by decide)).1
          (acc0 agg h (kerMat0 W1) (kerRow0 b1) (kerMat0 W2) (kerRow0 b2) 24 (by decide)).2 g be)
        (kerBias_0 (F := Ideal) (acc0 agg h (kerMat0 W1) (kerRow0 b1) (kerMat0 W2) (kerRow0 b2) 24 (by decide)).1
          (acc0 agg h (kerMat0 W1) (kerRow0 b1) (kerMat0 W2) (kerRow0 b2) 24 (by decide)).2 g be) (ix2 n j)
      = Cert.Spec.layerK Nc epsc (fun n c => agg (ix2 n c)) (fun n c => h (ix2 n c)) (fun a c => W1 (ix3 (0 : Fin 3) a c))
          (fun c => b1 (ix2 (0 : Fin 3) c)) (fun a c => W2 (ix3 (0 : Fin 3) a c)) (fun c => b2 (ix2 (0 : Fin 3) c))
          (fun c => g (ix2 (0 : Fin 3) c)) (fun c => be (ix2 (0 : Fin 3) c)) n j := by
  refine (layer_of _ _ g be _ j (0 : Fin 3) _ _ _ (fun n j => G1_apply _ _ _ n j) (G0_6_eq_mlp agg h _ _ _ _)
    (acc0_sum_rows agg h _ _ _ _) (acc0_sq_rows agg h _ _ _ _) n).trans ?_
  unfold Cert.Spec.layerK mlpOf
  simp only [kerMat0_apply, kerRow0_apply]

end Cert.Val

end
-- ==== Proof.Val.PayC2.lean ====
import proofs.«407439_j85349590106293_1_alg».proof.Proof.Gen.KernelIdeal.Skeleton
import proofs.«407439_j85349590106293_1_alg».proof.Proof.Math.Spec
import proofs.«407439_j85349590106293_1_alg».proof.Proof.Val.PayLib
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Idealize.ShloMosaic Idealize.ShloMosaic.ValueIdx
open Cert.KernelIdeal Cert.KernelIdeal.Gen
open scoped BigOperators

variable (agg h : FVec Ideal S2000x128 .f32) (w1 : FVec Ideal S128x128 .f32) (b1 : FVec Ideal S1x128 .f32)
  (w2 : FVec Ideal S128x128 .f32) (b2 : FVec Ideal S1x128 .f32)

theorem k2_pay5_apply (r : Fin 2000) (j : Fin 128) :
    k2_pay5 agg h w1 b1 w2 b2 (ix2 r j)
      = max ((∑ k : Fin 128, max ((∑ k' : Fin 128, (agg (ix2 r k') + h (ix2 r k')) * w1 (ix2 k' k)) + b1 (ix2 (0 : Fin 1) k)) 0
          * w2 (ix2 k j)) + b2 (ix2 (0 : Fin 1) j)) 0 := by
  unfold k2_pay5
  simp only [shapeCast_self]
  rw [dense_apply]
  refine congrArg (fun x => max (x + b2 (ix2 (0 : Fin 1) j)) 0) (Finset.sum_congr rfl fun k _ => ?_)
  exact congrArg (· * w2 (ix2 k j)) (dense_apply _ w1 b1 _ _ r k)

theorem k2_pay6_apply (j : Fin 128) :
    k2_pay6 (F := Ideal) agg h w1 b1 w2 b2 (ix2 (0 : Fin 1) j) = ∑ r : Fin 2000, k2_pay5 (F := Ideal) agg h w1 b1 w2 b2 (ix2 r j) := by
  unfold k2_pay6
  exact colSum_S2000x128_apply _ _ _ _ _ j

theorem k2_pay1_apply (acc s : FVec Ideal S1x128 .f32) (i : S1x128.Idx) : k2_pay1 acc s i = acc i + s i := by
  unfold k2_pay1
  simp only [shapeCast_self]
  rw [addf_apply]

theorem k2_pay2_apply (y : FVec Ideal S2000x128 .f32) (acc : FVec Ideal S1x128 .f32) (j : Fin 128) :
    k2_pay2 y acc (ix2 (0 : Fin 1) j) = acc (ix2 (0 : Fin 1) j) + ∑ r : Fin 2000, y (ix2 r j) * y (ix2 r j) := by
  unfold k2_pay2
  simp only [shapeCast_self]
  rw [addf_apply]
  refine congrArg (acc (ix2 (0 : Fin 1) j) + ·) ?_
  refine (colSum_S2000x128_apply _ _ _ _ _ j).trans ?_
  refine Finset.sum_congr rfl fun r _ => ?_
  rw [mulf_apply]

theorem k2_pay3_apply (i : S1x128.Idx) : k2_pay3 (F := Ideal) i = 0 := by
  unfold k2_pay3
  simp only [shapeCast_self]
  rw [broadcast_apply]
  exact Ideal.ofBits_zero_f32
theorem k2_pay4_apply (i : S1x128.Idx) : k2_pay4 (F := Ideal) i = 0 := by
  unfold k2_pay4
  simp only [shapeCast_self]
  rw [broadcast_apply]
  exact Ideal.ofBits_zero_f32

end Cert.Val

end
-- ==== Proof.Val.C2Val.lean ====
import proofs.«407439_j85349590106293_1_alg».proof.Proof.KI.C2
import proofs.«407439_j85349590106293_1_alg».proof.Proof.Val.PayC2
import proofs.«407439_j85349590106293_1_alg».proof.Proof.Math.Algebra
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def rowBlk2 (y : Vec F S50000x128 .f32) (q : Fin 25) : Vec F S2000x128 .f32 :=
  fun r => y (ix2 (n0 := 50000) (n1 := 128) ⟨q.val * 2000 + (r 0).val, by have := idx2_lt0 r; have := q.isLt; omega⟩ (r 1))

section Arrays

variable (agg h : Vec F S50000x128 .f32) (w1 : Vec F S128x128 .f32) (b1 : Vec F S1x128 .f32) (w2 : Vec F S128x128 .f32) (b2 : Vec F S1x128 .f32)

def blk2 (q : Fin 25) : Vec F S2000x128 .f32 := k2_pay5 (rowBlk2 agg q) (rowBlk2 h q) w1 b1 w2 b2

def G2_6 : Vec F S50000x128 .f32 :=
  fun i => blk2 agg h w1 b1 w2 b2 ⟨(i 0).val / 2000, by have := idx2_lt0 i; omega⟩
    (ix2 (n0 := 2000) (n1 := 128) ⟨(i 0).val % 2000, by omega⟩ (i 1))

-- an index at local row `r` of row block `q` has quotient `q` and remainder `r` by 2000
theorem G2_6_blk (q : Fin 25) (r : S2000x128.Idx) (i : S50000x128.Idx)
    (h0 : (i 0).val = q.val * 2000 + (r 0).val) (h1 : (i 1).val = (r 1).val) :
    G2_6 agg h w1 b1 w2 b2 i = blk2 agg h w1 b1 w2 b2 q r := by
  have hr := idx2_lt0 r
  have hq := q.isLt
  have eq : (⟨(i 0).val / 2000, by omega⟩ : Fin 25) = q := Fin.ext (by show (i 0).val / 2000 = q.val; omega)
  have er : ix2 (n0 := 2000) (n1 := 128) ⟨(i 0).val % 2000, by omega⟩ (i 1) = r :=
    Shape.idx_ext₂ (by show (i 0).val % 2000 = (r 0).val; omega) h1
  show blk2 agg h w1 b1 w2 b2 ⟨(i 0).val / 2000, _⟩ (ix2 ⟨(i 0).val % 2000, _⟩ (i 1)) = _
  rw [eq, er]

def acc2 : (n : ℕ) → n < 25 → Vec F S1x128 .f32 × Vec F S1x128 .f32
  | 0, hn => (sum2 (rowBlk2 agg ⟨0, hn⟩) (rowBlk2 h ⟨0, hn⟩) w1 b1 w2 b2 k2_pay3,
      sq2 (rowBlk2 agg ⟨0, hn⟩) (rowBlk2 h ⟨0, hn⟩) w1 b1 w2 b2 k2_pay4)
  | n + 1, hn => (sum2 (rowBlk2 agg ⟨n + 1, hn⟩) (rowBlk2 h ⟨n + 1, hn⟩) w1 b1 w2 b2 (acc2 n (Nat.lt_of_succ_lt hn)).1,
      sq2 (rowBlk2 agg ⟨n + 1, hn⟩) (rowBlk2 h ⟨n + 1, hn⟩) w1 b1 w2 b2 (acc2 n (Nat.lt_of_succ_lt hn)).2)

end Arrays

variable (V : (c : Dev nD) → (b : Ref sig .tc) → Buf (Elt F) ((c : Thread nD τ).loc b))

theorem idx_facts2 : ∀ t : Fin cfg2.N,
    (win2_0.index t (0 : Fin 2) = t.val ∧ win2_1.index t (0 : Fin 2) = t.val ∧ win2_6.index t (0 : Fin 2) = t.val)
    ∧ (win2_0.index t (1 : Fin 2) = 0 ∧ win2_1.index t (1 : Fin 2) = 0 ∧ win2_6.index t (1 : Fin 2) = 0)
    ∧ ∀ a : Fin 2, win2_2.index t a = 0 ∧ win2_3.index t a = 0 ∧ win2_4.index t a = 0 ∧ win2_5.index t a = 0
      ∧ win2_7.index t a = 0 ∧ win2_8.index t a = 0 :=
  (by decide +kernel : ∀ t : Fin grid2.N, _)

theorem iblk2_0_eq (c : Dev nD) (n : ℕ) (hn : n < cfg2.N) (hn' : n < 25) :
    iblk2 V c 0 ⟨n, hn⟩ = rowBlk2 (V c main_v41) ⟨n, hn'⟩ := by
  obtain ⟨⟨e0, -⟩, ⟨e1, -⟩, -⟩ := idx_facts2 ⟨n, hn⟩
  funext r
  show V c main_v41 (((cfg2.win 0).blk ⟨n, hn⟩).view.emb r) = V c main_v41 (ix2 ⟨n * 2000 + (r 0).val, _⟩ (r 1))
  refine congrArg _ (Shape.idx_ext₂ ?_ ?_)
  · show win2_0.index ⟨n, hn⟩ (0 : Fin 2) * 2000 + 1 * (r 0).val = n * 2000 + (r 0).val
    rw [show win2_0.index ⟨n, hn⟩ (0 : Fin 2) = n from e0]; omega
  · show win2_0.index ⟨n, hn⟩ (1 : Fin 2) * 128 + 1 * (r 1).val = (r 1).val; omega

theorem iblk2_1_eq (c : Dev nD) (n : ℕ) (hn : n < cfg2.N) (hn' : n < 25) :
    iblk2 V c 1 ⟨n, hn⟩ = rowBlk2 (V c main_v37) ⟨n, hn'⟩ := by
  obtain ⟨⟨-, e0, -⟩, ⟨-, e1, -⟩, -⟩ := idx_facts2 ⟨n, hn⟩
  funext r
  show V c main_v37 (((cfg2.win 1).blk ⟨n, hn⟩).view.emb r) = V c main_v37 (ix2 ⟨n * 2000 + (r 0).val, _⟩ (r 1))
  refine congrArg _ (Shape.idx_ext₂ ?_ ?_)
  · show win2_1.index ⟨n, hn⟩ (0 : Fin 2) * 2000 + 1 * (r 0).val = n * 2000 + (r 0).val
    rw [show win2_1.index ⟨n, hn⟩ (0 : Fin 2) = n from e0]; omega
  · show win2_1.index ⟨n, hn⟩ (1 : Fin 2) * 128 + 1 * (r 1).val = (r 1).val; omega

-- with offset zero on both axes a block's index map is the identity
theorem iblk2_2_eq (c : Dev nD) (t : Fin cfg2.N) : iblk2 V c 2 t = V c main_v43 :=
  funext fun r => congrArg (V c main_v43) (funext fun a => Fin.ext (win2_2.rect_emb_val_of_index_zero t a ((idx_facts2 t).2.2 a).1 r))

theorem iblk2_3_eq (c : Dev nD) (t : Fin cfg2.N) : iblk2 V c 3 t = V c main_v46 :=
  funext fun r => congrArg (V c main_v46) (funext fun a => Fin.ext (win2_3.rect_emb_val_of_index_zero t a ((idx_facts2 t).2.2 a).2.1 r))

theorem iblk2_4_eq (c : Dev nD) (t : Fin cfg2.N) : iblk2 V c 4 t = V c main_v48 :=
  funext fun r => congrArg (V c main_v48) (funext fun a => Fin.ext (win2_4.rect_emb_val_of_index_zero t a ((idx_facts2 t).2.2 a).2.2.1 r))

theorem iblk2_5_eq (c : Dev nD) (t : Fin cfg2.N) : iblk2 V c 5 t = V c main_v51 :=
  funext fun r => congrArg (V c main_v51) (funext fun a => Fin.ext (win2_5.rect_emb_val_of_index_zero t a ((idx_facts2 t).2.2 a).2.2.2.1 r))

theorem scrAt2_eq (c : Dev nD) : ∀ (n : ℕ) (hn : n < cfg2.N) (hn' : n < 25),
    scrAt2 V c n hn = acc2 (V c main_v41) (V c main_v37) (V c main_v43) (V c main_v46) (V c main_v48) (V c main_v51) n hn'
  | 0, hn, hn' => by
    rw [scrAt2, acc2, iblk2_0_eq V c 0 hn hn', iblk2_1_eq V c 0 hn hn', iblk2_2_eq, iblk2_3_eq, iblk2_4_eq, iblk2_5_eq]
  | n + 1, hn, hn' => by
    rw [scrAt2, acc2, scrAt2_eq c n (Nat.lt_of_succ_lt hn) (Nat.lt_of_succ_lt hn'),
      iblk2_0_eq V c (n + 1) hn hn', iblk2_1_eq V c (n + 1) hn hn', iblk2_2_eq, iblk2_3_eq, iblk2_4_eq, iblk2_5_eq]

-- the 25 blocks of 2000 rows tile the 50000 rows
theorem final2_6 (c : Dev nD) : (dat2 V c).arrAt 6 cfg2.N = G2_6 (V c main_v41) (V c main_v37) (V c main_v43) (V c main_v46) (V c main_v48) (V c main_v51) := by
  have hN : cfg2.N = 25 := N_2
  refine (dat2 V c).arrAt_eq_of_cover 6 _ (fun (t : Fin cfg2.N) _ => ?_) (fun i => ?_)
  · obtain ⟨n, hn⟩ := t
    have hn' : n < 25 := by omega
    obtain ⟨⟨-, -, e0⟩, ⟨-, -, e1⟩, -⟩ := idx_facts2 ⟨n, hn⟩
    show (cfg2.win 6).cut (grid2.coords ⟨n, hn⟩) ((dat2 V c).after 6 ⟨n, hn⟩) = _
    rw [after2_6]
    show out2_6 (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩) = _
    rw [iblk2_0_eq V c n hn hn', iblk2_1_eq V c n hn hn', iblk2_2_eq, iblk2_3_eq, iblk2_4_eq, iblk2_5_eq]
    funext j
    refine (G2_6_blk _ _ _ _ _ _ ⟨n, hn'⟩ j (((cfg2.win 6).blk ⟨n, hn⟩).view.emb j) ?_ ?_).symm
    · show win2_6.index ⟨n, hn⟩ (0 : Fin 2) * 2000 + 1 * (j 0).val = n * 2000 + (j 0).val
      rw [show win2_6.index ⟨n, hn⟩ (0 : Fin 2) = n from e0]; omega
    · show win2_6.index ⟨n, hn⟩ (1 : Fin 2) * 128 + 1 * (j 1).val = (j 1).val; omega
  · have hi0 := idx2_lt0 i
    have hi1 := idx2_lt1 i
    obtain ⟨t, htv⟩ : ∃ t : Fin cfg2.N, t.val = (i 0).val / 2000 := ⟨⟨(i 0).val / 2000, by omega⟩, rfl⟩
    obtain ⟨⟨-, -, e0⟩, ⟨-, -, e1⟩, -⟩ := idx_facts2 t
    refine ⟨t, flush2_6 t, ?_⟩
    show i ∈ ((View.whole main_v52_0).slice (win2_6.rect t)).set
    rw [View.set_slice_whole, Rect.mem_set_unit]
    intro a
    match a with
    | ⟨0, _⟩ => show win2_6.index t (0 : Fin 2) * 2000 ≤ (i 0).val ∧ (i 0).val < win2_6.index t (0 : Fin 2) * 2000 + 2000; omega
    | ⟨1, _⟩ => show win2_6.index t (1 : Fin 2) * 128 ≤ (i 1).val ∧ (i 1).val < win2_6.index t (1 : Fin 2) * 128 + 128; omega

-- for the two carried rows only the last point's block counts, and it is the whole row
theorem final2_78 (c : Dev nD) :
    (dat2 V c).arrAt 7 cfg2.N = (acc2 (V c main_v41) (V c main_v37) (V c main_v43) (V c main_v46) (V c main_v48) (V c main_v51) 24 (by decide)).1
    ∧ (dat2 V c).arrAt 8 cfg2.N = (acc2 (V c main_v41) (V c main_v37) (V c main_v43) (V c main_v46) (V c main_v48) (V c main_v51) 24 (by decide)).2 := by
  have hN : cfg2.N = 25 := N_2
  obtain ⟨t24, h24⟩ : ∃ t : Fin cfg2.N, t.val = 24 := ⟨⟨24, by omega⟩, rfl⟩
  have emb7 (t : Fin cfg2.N) (j : S1x128.Idx) : ((cfg2.win 7).blk t).view.emb j = j :=
    funext fun a => Fin.ext (win2_7.rect_emb_val_of_index_zero t a ((idx_facts2 t).2.2 a).2.2.2.2.1 j)
  have emb8 (t : Fin cfg2.N) (j : S1x128.Idx) : ((cfg2.win 8).blk t).view.emb j = j :=
    funext fun a => Fin.ext (win2_8.rect_emb_val_of_index_zero t a ((idx_facts2 t).2.2 a).2.2.2.2.2 j)
  constructor
  · refine (dat2 V c).arrAt_eq_of_cover 7 _ (fun (t : Fin cfg2.N) hf => ?_) (fun i => ⟨t24, (flush2_7 _).mpr (by omega), by have := View.emb_mem_set ((cfg2.win 7).blk t24).view i; rwa [emb7] at this⟩)
    obtain ⟨n, hn⟩ := t
    obtain rfl : n = 24 := by have := (flush2_7 ⟨n, hn⟩).mp hf; have h : (⟨n, hn⟩ : Fin cfg2.N).val = n := rfl; omega
    show (cfg2.win 7).cut (grid2.coords ⟨24, hn⟩) ((dat2 V c).after 7 ⟨24, hn⟩) = _
    rw [after2_7, outsAt2_7]
    show (scrAt2 V c 24 hn).1 = _
    rw [scrAt2_eq V c 24 hn (by decide)]
    exact funext fun j => (congrArg _ (emb7 _ j)).symm
  · refine (dat2 V c).arrAt_eq_of_cover 8 _ (fun (t : Fin cfg2.N) hf => ?_) (fun i => ⟨t24, (flush2_8 _).mpr (by omega), by have := View.emb_mem_set ((cfg2.win 8).blk t24).view i; rwa [emb8] at this⟩)
    obtain ⟨n, hn⟩ := t
    obtain rfl : n = 24 := by have := (flush2_8 ⟨n, hn⟩).mp hf; have h : (⟨n, hn⟩ : Fin cfg2.N).val = n := rfl; omega
    show (cfg2.win 8).cut (grid2.coords ⟨24, hn⟩) ((dat2 V c).after 8 ⟨24, hn⟩) = _
    rw [after2_8, outsAt2_8]
    show (scrAt2 V c 24 hn).2 = _
    rw [scrAt2_eq V c 24 hn (by decide)]
    exact funext fun j => (congrArg _ (emb8 _ j)).symm

theorem final2_7 (c : Dev nD) : (dat2 V c).arrAt 7 cfg2.N = (acc2 (V c main_v41) (V c main_v37) (V c main_v43) (V c main_v46) (V c main_v48) (V c main_v51) 24 (by decide)).1 := (final2_78 V c).1

theorem final2_8 (c : Dev nD) : (dat2 V c).arrAt 8 cfg2.N = (acc2 (V c main_v41) (V c main_v37) (V c main_v43) (V c main_v46) (V c main_v48) (V c main_v51) 24 (by decide)).2 := (final2_78 V c).2

end Cert.KernelIdeal.Hand

namespace Cert.Val

open Cert.KernelIdeal Cert.KernelIdeal.Gen Cert.KernelIdeal.Hand
open Idealize.ShloMosaic Idealize.ShloMosaic.ValueIdx
open scoped BigOperators

variable (agg h : Vec Ideal S50000x128 .f32) (w1 : Vec Ideal S128x128 .f32) (b1 : Vec Ideal S1x128 .f32) (w2 : Vec Ideal S128x128 .f32) (b2 : Vec Ideal S1x128 .f32)

-- one step of either carried row at column `j`: the carried entry plus the block's column sum (of squares)
theorem step2_apply (q : Fin 25) (p s : Vec Ideal S1x128 .f32) (j : Fin 128) :
    sum2 (rowBlk2 agg q) (rowBlk2 h q) w1 b1 w2 b2 p (ix2 (0 : Fin 1) j) = p (ix2 (0 : Fin 1) j) + ∑ r : Fin 2000, blk2 agg h w1 b1 w2 b2 q (ix2 r j)
    ∧ sq2 (rowBlk2 agg q) (rowBlk2 h q) w1 b1 w2 b2 s (ix2 (0 : Fin 1) j)
      = s (ix2 (0 : Fin 1) j) + ∑ r : Fin 2000, blk2 agg h w1 b1 w2 b2 q (ix2 r j) * blk2 agg h w1 b1 w2 b2 q (ix2 r j) := by
  constructor
  · unfold sum2
    rw [k2_pay1_apply, k2_pay6_apply]; rfl
  · unfold sq2
    exact k2_pay2_apply _ s j

-- after point `n` the carried rows hold, at column `j`, the column sums (of squares) of blocks `0 … n` added up
theorem acc2_fin (j : Fin 128) : ∀ (n : ℕ) (hn : n < 25),
    (acc2 agg h w1 b1 w2 b2 n hn).1 (ix2 (0 : Fin 1) j) = ∑ t : Fin (n + 1), ∑ r : Fin 2000, blk2 agg h w1 b1 w2 b2 ⟨t.val, by omega⟩ (ix2 r j)
    ∧ (acc2 agg h w1 b1 w2 b2 n hn).2 (ix2 (0 : Fin 1) j)
      = ∑ t : Fin (n + 1), ∑ r : Fin 2000, blk2 agg h w1 b1 w2 b2 ⟨t.val, by omega⟩ (ix2 r j) * blk2 agg h w1 b1 w2 b2 ⟨t.val, by omega⟩ (ix2 r j)
  | 0, hn => by
    have e := step2_apply agg h w1 b1 w2 b2 ⟨0, hn⟩ (k2_pay3 (F := Ideal)) (k2_pay4 (F := Ideal)) j
    rw [k2_pay3_apply, k2_pay4_apply, zero_add, zero_add] at e
    rw [acc2, Fin.sum_univ_one, Fin.sum_univ_one]
    exact e
  | n + 1, hn => by
    have ih := acc2_fin j n (Nat.lt_of_succ_lt hn)
    have e := step2_apply agg h w1 b1 w2 b2 ⟨n + 1, hn⟩ (acc2 agg h w1 b1 w2 b2 n (Nat.lt_of_succ_lt hn)).1 (acc2 agg h w1 b1 w2 b2 n (Nat.lt_of_succ_lt hn)).2 j
    rw [ih.1, ih.2] at e
    rw [acc2, Fin.sum_univ_castSucc, Fin.sum_univ_castSucc (n := n + 1)]
    exact e

theorem G2_6_block (t : Fin 25) (r : Fin 2000) (j : Fin 128) :
    G2_6 agg h w1 b1 w2 b2 (ix2 (n0 := 50000) (n1 := 128) ⟨2000 * t.val + r.val, by omega⟩ j) = blk2 agg h w1 b1 w2 b2 t (ix2 r j) :=
  G2_6_blk agg h w1 b1 w2 b2 t (ix2 r j) _ (by show 2000 * t.val + r.val = t.val * 2000 + r.val; omega) rfl

-- the sum row is the column sum of the first output over all 50000 rows
theorem acc2_sum_rows (j : Fin 128) :
    (acc2 agg h w1 b1 w2 b2 24 (by decide)).1 (ix2 (0 : Fin 1) j) = ∑ n : Fin 50000, G2_6 agg h w1 b1 w2 b2 (ix2 n j) := by
  rw [← Cert.Spec.sum_blocks (fun n => G2_6 agg h w1 b1 w2 b2 (ix2 n j))]
  refine (acc2_fin agg h w1 b1 w2 b2 j 24 (by decide)).1.trans ?_
  exact Finset.sum_congr rfl fun t _ => Finset.sum_congr rfl fun r _ => (G2_6_block agg h w1 b1 w2 b2 t r j).symm

-- and the sum-of-squares row its column sum of squares
theorem acc2_sq_rows (j : Fin 128) :
    (acc2 agg h w1 b1 w2 b2 24 (by decide)).2 (ix2 (0 : Fin 1) j)
      = ∑ n : Fin 50000, G2_6 agg h w1 b1 w2 b2 (ix2 n j) * G2_6 agg h w1 b1 w2 b2 (ix2 n j) := by
  rw [← Cert.Spec.sum_blocks (fun n => G2_6 agg h w1 b1 w2 b2 (ix2 n j) * G2_6 agg h w1 b1 w2 b2 (ix2 n j))]
  refine (acc2_fin agg h w1 b1 w2 b2 j 24 (by decide)).2.trans ?_
  exact Finset.sum_congr rfl fun t _ => Finset.sum_congr rfl fun r _ => by rw [G2_6_block]

theorem G2_6_apply (n : Fin 50000) (j : Fin 128) :
    G2_6 agg h w1 b1 w2 b2 (ix2 n j)
      = k2_pay5 (rowBlk2 agg ⟨n.val / 2000, by omega⟩) (rowBlk2 h ⟨n.val / 2000, by omega⟩) w1 b1 w2 b2 (ix2 (n0 := 2000) (n1 := 128) ⟨n.val % 2000, by omega⟩ j) := rfl

theorem rowBlk2_apply (y : Vec Ideal S50000x128 .f32) (n : Fin 50000) (k : Fin 128) :
    rowBlk2 y ⟨n.val / 2000, by omega⟩ (ix2 (n0 := 2000) (n1 := 128) ⟨n.val % 2000, by omega⟩ k) = y (ix2 n k) :=
  congrArg y (Shape.idx_ext₂ (by show n.val / 2000 * 2000 + n.val % 2000 = n.val; omega) rfl)

end Cert.Val

end
-- ==== Proof.Val.N3Val.lean ====
import proofs.«407439_j85349590106293_1_alg».proof.Proof.KI.N3
import proofs.«407439_j85349590106293_1_alg».proof.Proof.Val.PayN
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def rowBlk3 (y : Vec F S50000x128 .f32) (q : Fin 25) : Vec F S2000x128 .f32 :=
  fun r => y (ix2 (n0 := 50000) (n1 := 128) ⟨q.val * 2000 + (r 0).val, by have := idx2_lt0 r; have := q.isLt; omega⟩ (r 1))

-- Row `n` of the output is row `n % 2000` of the payload on row block `n / 2000`.
def G3 (y : Vec F S50000x128 .f32) (s b : Vec F S1x128 .f32) : Vec F S50000x128 .f32 :=
  fun i => k1_pay1 (rowBlk3 y ⟨(i 0).val / 2000, by have := idx2_lt0 i; omega⟩) s b
    (ix2 (n0 := 2000) (n1 := 128) ⟨(i 0).val % 2000, by omega⟩ (i 1))

theorem G3_blk (y : Vec F S50000x128 .f32) (s b : Vec F S1x128 .f32) (q : Fin 25) (r : S2000x128.Idx) (i : S50000x128.Idx)
    (h0 : (i 0).val = q.val * 2000 + (r 0).val) (h1 : (i 1).val = (r 1).val) :
    G3 y s b i = k1_pay1 (rowBlk3 y q) s b r := by
  have hr := idx2_lt0 r
  have eq : (⟨(i 0).val / 2000, by have := idx2_lt0 i; omega⟩ : Fin 25) = q := Fin.ext (by show (i 0).val / 2000 = q.val; omega)
  have er : ix2 (n0 := 2000) (n1 := 128) ⟨(i 0).val % 2000, by omega⟩ (i 1) = r :=
    Shape.idx_ext₂ (by show (i 0).val % 2000 = (r 0).val; omega) h1
  unfold G3; rw [eq, er]

variable (V : (c : Dev nD) → (b : Ref sig .tc) → Buf (Elt F) ((c : Thread nD τ).loc b)) (c : Dev nD)

theorem idx_facts3 : ∀ t : Fin cfg3.N, (win3_0.index t (0 : Fin 2) = t.val ∧ win3_0.index t (1 : Fin 2) = 0)
    ∧ (∀ a, win3_1.index t a = 0) ∧ (∀ a, win3_2.index t a = 0)
    ∧ win3_3.index t (0 : Fin 2) = t.val ∧ win3_3.index t (1 : Fin 2) = 0 :=
  (by decide +kernel : ∀ t : Fin grid3.N, _)

theorem iblk3_0_eq (t : Fin cfg3.N) (ht : t.val < 25) : iblk3 V c 0 t = rowBlk3 (V c main_v52_0) ⟨t.val, ht⟩ := by
  obtain ⟨⟨e0, e1⟩, -⟩ := idx_facts3 t
  refine funext fun r => congrArg (V c main_v52_0) (Shape.idx_ext₂ ?_ ?_)
  · show win3_0.index t (0 : Fin 2) * 2000 + 1 * (r 0).val = t.val * 2000 + (r 0).val; omega
  · show win3_0.index t (1 : Fin 2) * 128 + 1 * (r 1).val = (r 1).val; omega

-- A window at block index zero on every axis reads its whole array.
theorem iblk3_1_eq (t : Fin cfg3.N) : iblk3 V c 1 t = V c main_v65 :=
  funext fun r => congrArg (V c main_v65) (funext fun a => Fin.ext (win3_1.rect_emb_val_of_index_zero t a ((idx_facts3 t).2.1 a) r))

theorem iblk3_2_eq (t : Fin cfg3.N) : iblk3 V c 2 t = V c main_v70 :=
  funext fun r => congrArg (V c main_v70) (funext fun a => Fin.ext (win3_2.rect_emb_val_of_index_zero t a ((idx_facts3 t).2.2.1 a) r))

-- The block flushed at point `t` is block `t` of `G3` of the arrays at entry: compare coordinates.
theorem flushed3_3_eq (t : Fin cfg3.N) :
    (dat3 V c).flushed 3 t = ((cfg3.win 3).blk t).view.read (Elt F) (G3 (V c main_v52_0) (V c main_v65) (V c main_v70)) := by
  have ht : t.val < 25 := lt_of_lt_of_eq t.isLt N_3
  obtain ⟨-, -, -, e6, e7⟩ := idx_facts3 t
  show (cfg3.win 3).cut (grid3.coords t) ((dat3 V c).after 3 t) = _
  rw [after3_3, out1_3, View.canon_unit_zero hz1]
  simp only [View.ld_unit_zero (S := S2000x128) hz1, View.ld_unit_zero (S := S1x128) hz1]
  rw [iblk3_0_eq V c t ht, iblk3_1_eq, iblk3_2_eq]
  funext j
  refine (G3_blk _ _ _ ⟨t.val, ht⟩ j (((cfg3.win 3).blk t).view.emb j) ?_ ?_).symm
  · show win3_3.index t (0 : Fin 2) * 2000 + 1 * (j 0).val = t.val * 2000 + (j 0).val; omega
  · show win3_3.index t (1 : Fin 2) * 128 + 1 * (j 1).val = (j 1).val; omega

-- Row `n` of the output array lies in the block of point `n / 2000`.
theorem cover3_3_arr (i : S50000x128.Idx) : ∃ t : Fin cfg3.N, (cfg3.win 3).flush t = true ∧ i ∈ ((cfg3.win 3).blk t).view.set := by
  have hi0 := idx2_lt0 i
  have hi1 := idx2_lt1 i
  have hN : cfg3.N = 25 := N_3
  obtain ⟨t, htv⟩ : ∃ t : Fin cfg3.N, t.val = (i 0).val / 2000 := ⟨⟨(i 0).val / 2000, by omega⟩, rfl⟩
  obtain ⟨-, -, -, e6, e7⟩ := idx_facts3 t
  refine ⟨t, flush3_3 t, ?_⟩
  show i ∈ ((View.whole main_v71).slice (win3_3.rect t)).set
  rw [View.set_slice_whole, Rect.mem_set_unit]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

theorem final3 : (dat3 V c).arrAt 3 cfg3.N = G3 (V c main_v52_0) (V c main_v65) (V c main_v70) :=
  (dat3 V c).arrAt_eq_of_cover 3 _ (fun t _ => flushed3_3_eq V c t) cover3_3_arr

end Cert.KernelIdeal.Hand

namespace Cert.Val

open Cert.KernelIdeal Cert.KernelIdeal.Gen Cert.KernelIdeal.Hand
open Idealize.ShloMosaic Idealize.ShloMosaic.ValueIdx

theorem G3_apply (y : Vec Ideal S50000x128 .f32) (s b : Vec Ideal S1x128 .f32) (n : Fin 50000) (j : Fin 128) :
    G3 (F := Ideal) y s b (ix2 n j) = y (ix2 n j) * s (ix2 (0 : Fin 1) j) + b (ix2 (0 : Fin 1) j) := by
  have hn := n.isLt
  show k1_pay1 (F := Ideal) (rowBlk3 y ⟨n.val / 2000, _⟩) s b (ix2 ⟨n.val % 2000, _⟩ j) = _
  rw [k1_pay1_apply]
  show y (ix2 ⟨n.val / 2000 * 2000 + n.val % 2000, _⟩ j) * _ + _ = _
  have e : (⟨n.val / 2000 * 2000 + n.val % 2000, by omega⟩ : Fin 50000) = n := Fin.ext (by show n.val / 2000 * 2000 + n.val % 2000 = n.val; omega)
  rw [e]

end Cert.Val

end
-- ==== Proof.Val.KSpec2.lean ====
import proofs.«407439_j85349590106293_1_alg».proof.Proof.Val.C2Val
import proofs.«407439_j85349590106293_1_alg».proof.Proof.Val.N3Val
import proofs.«407439_j85349590106293_1_alg».proof.Proof.Val.KStats
import proofs.«407439_j85349590106293_1_alg».proof.Proof.Val.KHost
import proofs.«407439_j85349590106293_1_alg».proof.Proof.Val.PayC2
import proofs.«407439_j85349590106293_1_alg».proof.Proof.Math.Spec
import Idealize.ShloMosaic.Lib.ValueIdx

noncomputable section

namespace Cert.Val

open Cert.KernelIdeal Cert.KernelIdeal.Gen Cert.KernelIdeal.Hand Cert.KernelIdeal.HostVal
open Idealize.ShloMosaic Idealize.ShloMosaic.ValueIdx
open scoped BigOperators

-- Row n lies in row block n / 2000 at local row n % 2000, and the block's entry there is the perceptron of the block's rows.
theorem G2_6_eq_mlp (agg h : Vec Ideal S50000x128 .f32) (w1 : Vec Ideal S128x128 .f32) (b1 : Vec Ideal S1x128 .f32)
    (w2 : Vec Ideal S128x128 .f32) (b2 : Vec Ideal S1x128 .f32) (n : Fin 50000) (j : Fin 128) :
    G2_6 agg h w1 b1 w2 b2 (ix2 n j) = mlpOf agg h w1 b1 w2 b2 n j := by
  rw [G2_6_apply, k2_pay5_apply]
  unfold mlpOf Cert.Spec.mlp Cert.Spec.hid
  simp only [rowBlk2_apply]

-- The second region applied to the first region's main output and to the scale and shift made of its two statistics rows.
theorem layer1_spec (agg h : Vec Ideal S50000x128 .f32) (W1 : Vec Ideal S3x128x128 .f32) (b1 : Vec Ideal S3x128 .f32)
    (W2 : Vec Ideal S3x128x128 .f32) (b2 : Vec Ideal S3x128 .f32) (g be : Vec Ideal S3x128 .f32) (n : Fin 50000) (j : Fin 128) :
    G3 (F := Ideal) (G2_6 agg h (kerMat1 W1) (kerRow1 b1) (kerMat1 W2) (kerRow1 b2))
        (kerScale_1 (F := Ideal) (acc2 agg h (kerMat1 W1) (kerRow1 b1) (kerMat1 W2) (kerRow1 b2) 24 (by decide)).1
          (acc2 agg h (kerMat1 W1) (kerRow1 b1) (kerMat1 W2) (kerRow1 b2) 24 (by decide)).2 g be)
        (kerBias_1 (F := Ideal) (acc2 agg h (kerMat1 W1) (kerRow1 b1) (kerMat1 W2) (kerRow1 b2) 24 (by decide)).1
          (acc2 agg h (kerMat1 W1) (kerRow1 b1) (kerMat1 W2) (kerRow1 b2) 24 (by decide)).2 g be) (ix2 n j)
      = Cert.Spec.layerK Nc epsc (fun n c => agg (ix2 n c)) (fun n c => h (ix2 n c)) (fun a c => W1 (ix3 (1 : Fin 3) a c))
          (fun c => b1 (ix2 (1 : Fin 3) c)) (fun a c => W2 (ix3 (1 : Fin 3) a c)) (fun c => b2 (ix2 (1 : Fin 3) c))
          (fun c => g (ix2 (1 : Fin 3) c)) (fun c => be (ix2 (1 : Fin 3) c)) n j := by
  refine (layer_of _ _ g be _ j (1 : Fin 3) _ _ _ (fun n j => G3_apply _ _ _ n j) (G2_6_eq_mlp agg h _ _ _ _)
    (acc2_sum_rows agg h _ _ _ _) (acc2_sq_rows agg h _ _ _ _) n).trans ?_
  unfold Cert.Spec.layerK mlpOf
  simp only [kerMat1_apply, kerRow1_apply]

end Cert.Val

end
-- ==== Proof.Val.C4Val.lean ====
import proofs.«407439_j85349590106293_1_alg».proof.Proof.KI.C4
import proofs.«407439_j85349590106293_1_alg».proof.Proof.Val.PayC2
import proofs.«407439_j85349590106293_1_alg».proof.Proof.Math.Algebra
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def rowBlk4 (y : Vec F S50000x128 .f32) (q : Fin 25) : Vec F S2000x128 .f32 :=
  fun r => y (ix2 (n0 := 50000) (n1 := 128) ⟨q.val * 2000 + (r 0).val, by have := idx2_lt0 r; have := q.isLt; omega⟩ (r 1))

section Arrays

variable (agg h : Vec F S50000x128 .f32) (w1 : Vec F S128x128 .f32) (b1 : Vec F S1x128 .f32) (w2 : Vec F S128x128 .f32) (b2 : Vec F S1x128 .f32)

def blk4 (q : Fin 25) : Vec F S2000x128 .f32 := k2_pay5 (rowBlk4 agg q) (rowBlk4 h q) w1 b1 w2 b2

def G4_6 : Vec F S50000x128 .f32 :=
  fun i => blk4 agg h w1 b1 w2 b2 ⟨(i 0).val / 2000, by have := idx2_lt0 i; omega⟩
    (ix2 (n0 := 2000) (n1 := 128) ⟨(i 0).val % 2000, by omega⟩ (i 1))

-- an index at local row `r` of row block `q` has quotient `q` and remainder `r` by 2000
theorem G4_6_blk (q : Fin 25) (r : S2000x128.Idx) (i : S50000x128.Idx)
    (h0 : (i 0).val = q.val * 2000 + (r 0).val) (h1 : (i 1).val = (r 1).val) :
    G4_6 agg h w1 b1 w2 b2 i = blk4 agg h w1 b1 w2 b2 q r := by
  have hr := idx2_lt0 r
  have hq := q.isLt
  have eq : (⟨(i 0).val / 2000, by omega⟩ : Fin 25) = q := Fin.ext (by show (i 0).val / 2000 = q.val; omega)
  have er : ix2 (n0 := 2000) (n1 := 128) ⟨(i 0).val % 2000, by omega⟩ (i 1) = r :=
    Shape.idx_ext₂ (by show (i 0).val % 2000 = (r 0).val; omega) h1
  show blk4 agg h w1 b1 w2 b2 ⟨(i 0).val / 2000, _⟩ (ix2 ⟨(i 0).val % 2000, _⟩ (i 1)) = _
  rw [eq, er]

def acc4 : (n : ℕ) → n < 25 → Vec F S1x128 .f32 × Vec F S1x128 .f32
  | 0, hn => (sum2 (rowBlk4 agg ⟨0, hn⟩) (rowBlk4 h ⟨0, hn⟩) w1 b1 w2 b2 k2_pay3,
      sq2 (rowBlk4 agg ⟨0, hn⟩) (rowBlk4 h ⟨0, hn⟩) w1 b1 w2 b2 k2_pay4)
  | n + 1, hn => (sum2 (rowBlk4 agg ⟨n + 1, hn⟩) (rowBlk4 h ⟨n + 1, hn⟩) w1 b1 w2 b2 (acc4 n (Nat.lt_of_succ_lt hn)).1,
      sq2 (rowBlk4 agg ⟨n + 1, hn⟩) (rowBlk4 h ⟨n + 1, hn⟩) w1 b1 w2 b2 (acc4 n (Nat.lt_of_succ_lt hn)).2)

end Arrays

variable (V : (c : Dev nD) → (b : Ref sig .tc) → Buf (Elt F) ((c : Thread nD τ).loc b))

theorem idx_facts4 : ∀ t : Fin cfg4.N,
    (win4_0.index t (0 : Fin 2) = t.val ∧ win4_1.index t (0 : Fin 2) = t.val ∧ win4_6.index t (0 : Fin 2) = t.val)
    ∧ (win4_0.index t (1 : Fin 2) = 0 ∧ win4_1.index t (1 : Fin 2) = 0 ∧ win4_6.index t (1 : Fin 2) = 0)
    ∧ ∀ a : Fin 2, win4_2.index t a = 0 ∧ win4_3.index t a = 0 ∧ win4_4.index t a = 0 ∧ win4_5.index t a = 0
      ∧ win4_7.index t a = 0 ∧ win4_8.index t a = 0 :=
  (by decide +kernel : ∀ t : Fin grid4.N, _)

theorem iblk4_0_eq (c : Dev nD) (n : ℕ) (hn : n < cfg4.N) (hn' : n < 25) :
    iblk4 V c 0 ⟨n, hn⟩ = rowBlk4 (V c main_v75) ⟨n, hn'⟩ := by
  obtain ⟨⟨e0, -⟩, ⟨e1, -⟩, -⟩ := idx_facts4 ⟨n, hn⟩
  funext r
  show V c main_v75 (((cfg4.win 0).blk ⟨n, hn⟩).view.emb r) = V c main_v75 (ix2 ⟨n * 2000 + (r 0).val, _⟩ (r 1))
  refine congrArg _ (Shape.idx_ext₂ ?_ ?_)
  · show win4_0.index ⟨n, hn⟩ (0 : Fin 2) * 2000 + 1 * (r 0).val = n * 2000 + (r 0).val
    rw [show win4_0.index ⟨n, hn⟩ (0 : Fin 2) = n from e0]; omega
  · show win4_0.index ⟨n, hn⟩ (1 : Fin 2) * 128 + 1 * (r 1).val = (r 1).val; omega

theorem iblk4_1_eq (c : Dev nD) (n : ℕ) (hn : n < cfg4.N) (hn' : n < 25) :
    iblk4 V c 1 ⟨n, hn⟩ = rowBlk4 (V c main_v71) ⟨n, hn'⟩ := by
  obtain ⟨⟨-, e0, -⟩, ⟨-, e1, -⟩, -⟩ := idx_facts4 ⟨n, hn⟩
  funext r
  show V c main_v71 (((cfg4.win 1).blk ⟨n, hn⟩).view.emb r) = V c main_v71 (ix2 ⟨n * 2000 + (r 0).val, _⟩ (r 1))
  refine congrArg _ (Shape.idx_ext₂ ?_ ?_)
  · show win4_1.index ⟨n, hn⟩ (0 : Fin 2) * 2000 + 1 * (r 0).val = n * 2000 + (r 0).val
    rw [show win4_1.index ⟨n, hn⟩ (0 : Fin 2) = n from e0]; omega
  · show win4_1.index ⟨n, hn⟩ (1 : Fin 2) * 128 + 1 * (r 1).val = (r 1).val; omega

-- with offset zero on both axes a block's index map is the identity
theorem iblk4_2_eq (c : Dev nD) (t : Fin cfg4.N) : iblk4 V c 2 t = V c main_v77 :=
  funext fun r => congrArg (V c main_v77) (funext fun a => Fin.ext (win4_2.rect_emb_val_of_index_zero t a ((idx_facts4 t).2.2 a).1 r))

theorem iblk4_3_eq (c : Dev nD) (t : Fin cfg4.N) : iblk4 V c 3 t = V c main_v80 :=
  funext fun r => congrArg (V c main_v80) (funext fun a => Fin.ext (win4_3.rect_emb_val_of_index_zero t a ((idx_facts4 t).2.2 a).2.1 r))

theorem iblk4_4_eq (c : Dev nD) (t : Fin cfg4.N) : iblk4 V c 4 t = V c main_v82 :=
  funext fun r => congrArg (V c main_v82) (funext fun a => Fin.ext (win4_4.rect_emb_val_of_index_zero t a ((idx_facts4 t).2.2 a).2.2.1 r))

theorem iblk4_5_eq (c : Dev nD) (t : Fin cfg4.N) : iblk4 V c 5 t = V c main_v85 :=
  funext fun r => congrArg (V c main_v85) (funext fun a => Fin.ext (win4_5.rect_emb_val_of_index_zero t a ((idx_facts4 t).2.2 a).2.2.2.1 r))

theorem scrAt4_eq (c : Dev nD) : ∀ (n : ℕ) (hn : n < cfg4.N) (hn' : n < 25),
    scrAt4 V c n hn = acc4 (V c main_v75) (V c main_v71) (V c main_v77) (V c main_v80) (V c main_v82) (V c main_v85) n hn'
  | 0, hn, hn' => by
    rw [scrAt4, acc4, iblk4_0_eq V c 0 hn hn', iblk4_1_eq V c 0 hn hn', iblk4_2_eq, iblk4_3_eq, iblk4_4_eq, iblk4_5_eq]
  | n + 1, hn, hn' => by
    rw [scrAt4, acc4, scrAt4_eq c n (Nat.lt_of_succ_lt hn) (Nat.lt_of_succ_lt hn'),
      iblk4_0_eq V c (n + 1) hn hn', iblk4_1_eq V c (n + 1) hn hn', iblk4_2_eq, iblk4_3_eq, iblk4_4_eq, iblk4_5_eq]

-- the 25 blocks of 2000 rows tile the 50000 rows
theorem final4_6 (c : Dev nD) : (dat4 V c).arrAt 6 cfg4.N = G4_6 (V c main_v75) (V c main_v71) (V c main_v77) (V c main_v80) (V c main_v82) (V c main_v85) := by
  have hN : cfg4.N = 25 := N_4
  refine (dat4 V c).arrAt_eq_of_cover 6 _ (fun (t : Fin cfg4.N) _ => ?_) (fun i => ?_)
  · obtain ⟨n, hn⟩ := t
    have hn' : n < 25 := by omega
    obtain ⟨⟨-, -, e0⟩, ⟨-, -, e1⟩, -⟩ := idx_facts4 ⟨n, hn⟩
    show (cfg4.win 6).cut (grid4.coords ⟨n, hn⟩) ((dat4 V c).after 6 ⟨n, hn⟩) = _
    rw [after4_6]
    show out2_6 (iblk4 V c 0 ⟨n, hn⟩) (iblk4 V c 1 ⟨n, hn⟩) (iblk4 V c 2 ⟨n, hn⟩) (iblk4 V c 3 ⟨n, hn⟩) (iblk4 V c 4 ⟨n, hn⟩) (iblk4 V c 5 ⟨n, hn⟩) = _
    rw [iblk4_0_eq V c n hn hn', iblk4_1_eq V c n hn hn', iblk4_2_eq, iblk4_3_eq, iblk4_4_eq, iblk4_5_eq]
    funext j
    refine (G4_6_blk _ _ _ _ _ _ ⟨n, hn'⟩ j (((cfg4.win 6).blk ⟨n, hn⟩).view.emb j) ?_ ?_).symm
    · show win4_6.index ⟨n, hn⟩ (0 : Fin 2) * 2000 + 1 * (j 0).val = n * 2000 + (j 0).val
      rw [show win4_6.index ⟨n, hn⟩ (0 : Fin 2) = n from e0]; omega
    · show win4_6.index ⟨n, hn⟩ (1 : Fin 2) * 128 + 1 * (j 1).val = (j 1).val; omega
  · have hi0 := idx2_lt0 i
    have hi1 := idx2_lt1 i
    obtain ⟨t, htv⟩ : ∃ t : Fin cfg4.N, t.val = (i 0).val / 2000 := ⟨⟨(i 0).val / 2000, by omega⟩, rfl⟩
    obtain ⟨⟨-, -, e0⟩, ⟨-, -, e1⟩, -⟩ := idx_facts4 t
    refine ⟨t, flush4_6 t, ?_⟩
    show i ∈ ((View.whole main_v86_0).slice (win4_6.rect t)).set
    rw [View.set_slice_whole, Rect.mem_set_unit]
    intro a
    match a with
    | ⟨0, _⟩ => show win4_6.index t (0 : Fin 2) * 2000 ≤ (i 0).val ∧ (i 0).val < win4_6.index t (0 : Fin 2) * 2000 + 2000; omega
    | ⟨1, _⟩ => show win4_6.index t (1 : Fin 2) * 128 ≤ (i 1).val ∧ (i 1).val < win4_6.index t (1 : Fin 2) * 128 + 128; omega

-- for the two carried rows only the last point's block counts, and it is the whole row
theorem final4_78 (c : Dev nD) :
    (dat4 V c).arrAt 7 cfg4.N = (acc4 (V c main_v75) (V c main_v71) (V c main_v77) (V c main_v80) (V c main_v82) (V c main_v85) 24 (by decide)).1
    ∧ (dat4 V c).arrAt 8 cfg4.N = (acc4 (V c main_v75) (V c main_v71) (V c main_v77) (V c main_v80) (V c main_v82) (V c main_v85) 24 (by decide)).2 := by
  have hN : cfg4.N = 25 := N_4
  obtain ⟨t24, h24⟩ : ∃ t : Fin cfg4.N, t.val = 24 := ⟨⟨24, by omega⟩, rfl⟩
  have emb7 (t : Fin cfg4.N) (j : S1x128.Idx) : ((cfg4.win 7).blk t).view.emb j = j :=
    funext fun a => Fin.ext (win4_7.rect_emb_val_of_index_zero t a ((idx_facts4 t).2.2 a).2.2.2.2.1 j)
  have emb8 (t : Fin cfg4.N) (j : S1x128.Idx) : ((cfg4.win 8).blk t).view.emb j = j :=
    funext fun a => Fin.ext (win4_8.rect_emb_val_of_index_zero t a ((idx_facts4 t).2.2 a).2.2.2.2.2 j)
  constructor
  · refine (dat4 V c).arrAt_eq_of_cover 7 _ (fun (t : Fin cfg4.N) hf => ?_) (fun i => ⟨t24, (flush4_7 _).mpr (by omega), by have := View.emb_mem_set ((cfg4.win 7).blk t24).view i; rwa [emb7] at this⟩)
    obtain ⟨n, hn⟩ := t
    obtain rfl : n = 24 := by have := (flush4_7 ⟨n, hn⟩).mp hf; have h : (⟨n, hn⟩ : Fin cfg4.N).val = n := rfl; omega
    show (cfg4.win 7).cut (grid4.coords ⟨24, hn⟩) ((dat4 V c).after 7 ⟨24, hn⟩) = _
    rw [after4_7, outsAt4_7]
    show (scrAt4 V c 24 hn).1 = _
    rw [scrAt4_eq V c 24 hn (by decide)]
    exact funext fun j => (congrArg _ (emb7 _ j)).symm
  · refine (dat4 V c).arrAt_eq_of_cover 8 _ (fun (t : Fin cfg4.N) hf => ?_) (fun i => ⟨t24, (flush4_8 _).mpr (by omega), by have := View.emb_mem_set ((cfg4.win 8).blk t24).view i; rwa [emb8] at this⟩)
    obtain ⟨n, hn⟩ := t
    obtain rfl : n = 24 := by have := (flush4_8 ⟨n, hn⟩).mp hf; have h : (⟨n, hn⟩ : Fin cfg4.N).val = n := rfl; omega
    show (cfg4.win 8).cut (grid4.coords ⟨24, hn⟩) ((dat4 V c).after 8 ⟨24, hn⟩) = _
    rw [after4_8, outsAt4_8]
    show (scrAt4 V c 24 hn).2 = _
    rw [scrAt4_eq V c 24 hn (by decide)]
    exact funext fun j => (congrArg _ (emb8 _ j)).symm

theorem final4_7 (c : Dev nD) : (dat4 V c).arrAt 7 cfg4.N = (acc4 (V c main_v75) (V c main_v71) (V c main_v77) (V c main_v80) (V c main_v82) (V c main_v85) 24 (by decide)).1 := (final4_78 V c).1

theorem final4_8 (c : Dev nD) : (dat4 V c).arrAt 8 cfg4.N = (acc4 (V c main_v75) (V c main_v71) (V c main_v77) (V c main_v80) (V c main_v82) (V c main_v85) 24 (by decide)).2 := (final4_78 V c).2

end Cert.KernelIdeal.Hand

namespace Cert.Val

open Cert.KernelIdeal Cert.KernelIdeal.Gen Cert.KernelIdeal.Hand
open Idealize.ShloMosaic Idealize.ShloMosaic.ValueIdx
open scoped BigOperators

variable (agg h : Vec Ideal S50000x128 .f32) (w1 : Vec Ideal S128x128 .f32) (b1 : Vec Ideal S1x128 .f32) (w2 : Vec Ideal S128x128 .f32) (b2 : Vec Ideal S1x128 .f32)

-- one step of either carried row at column `j`: the carried entry plus the block's column sum (of squares)
theorem step4_apply (q : Fin 25) (p s : Vec Ideal S1x128 .f32) (j : Fin 128) :
    sum2 (rowBlk4 agg q) (rowBlk4 h q) w1 b1 w2 b2 p (ix2 (0 : Fin 1) j) = p (ix2 (0 : Fin 1) j) + ∑ r : Fin 2000, blk4 agg h w1 b1 w2 b2 q (ix2 r j)
    ∧ sq2 (rowBlk4 agg q) (rowBlk4 h q) w1 b1 w2 b2 s (ix2 (0 : Fin 1) j)
      = s (ix2 (0 : Fin 1) j) + ∑ r : Fin 2000, blk4 agg h w1 b1 w2 b2 q (ix2 r j) * blk4 agg h w1 b1 w2 b2 q (ix2 r j) := by
  constructor
  · unfold sum2
    rw [k2_pay1_apply, k2_pay6_apply]; rfl
  · unfold sq2
    exact k2_pay2_apply _ s j

-- after point `n` the carried rows hold, at column `j`, the column sums (of squares) of blocks `0 … n` added up
theorem acc4_fin (j : Fin 128) : ∀ (n : ℕ) (hn : n < 25),
    (acc4 agg h w1 b1 w2 b2 n hn).1 (ix2 (0 : Fin 1) j) = ∑ t : Fin (n + 1), ∑ r : Fin 2000, blk4 agg h w1 b1 w2 b2 ⟨t.val, by omega⟩ (ix2 r j)
    ∧ (acc4 agg h w1 b1 w2 b2 n hn).2 (ix2 (0 : Fin 1) j)
      = ∑ t : Fin (n + 1), ∑ r : Fin 2000, blk4 agg h w1 b1 w2 b2 ⟨t.val, by omega⟩ (ix2 r j) * blk4 agg h w1 b1 w2 b2 ⟨t.val, by omega⟩ (ix2 r j)
  | 0, hn => by
    have e := step4_apply agg h w1 b1 w2 b2 ⟨0, hn⟩ (k2_pay3 (F := Ideal)) (k2_pay4 (F := Ideal)) j
    rw [k2_pay3_apply, k2_pay4_apply, zero_add, zero_add] at e
    rw [acc4, Fin.sum_univ_one, Fin.sum_univ_one]
    exact e
  | n + 1, hn => by
    have ih := acc4_fin j n (Nat.lt_of_succ_lt hn)
    have e := step4_apply agg h w1 b1 w2 b2 ⟨n + 1, hn⟩ (acc4 agg h w1 b1 w2 b2 n (Nat.lt_of_succ_lt hn)).1 (acc4 agg h w1 b1 w2 b2 n (Nat.lt_of_succ_lt hn)).2 j
    rw [ih.1, ih.2] at e
    rw [acc4, Fin.sum_univ_castSucc, Fin.sum_univ_castSucc (n := n + 1)]
    exact e

theorem G4_6_block (t : Fin 25) (r : Fin 2000) (j : Fin 128) :
    G4_6 agg h w1 b1 w2 b2 (ix2 (n0 := 50000) (n1 := 128) ⟨2000 * t.val + r.val, by omega⟩ j) = blk4 agg h w1 b1 w2 b2 t (ix2 r j) :=
  G4_6_blk agg h w1 b1 w2 b2 t (ix2 r j) _ (by show 2000 * t.val + r.val = t.val * 2000 + r.val; omega) rfl

-- the sum row is the column sum of the first output over all 50000 rows
theorem acc4_sum_rows (j : Fin 128) :
    (acc4 agg h w1 b1 w2 b2 24 (by decide)).1 (ix2 (0 : Fin 1) j) = ∑ n : Fin 50000, G4_6 agg h w1 b1 w2 b2 (ix2 n j) := by
  rw [← Cert.Spec.sum_blocks (fun n => G4_6 agg h w1 b1 w2 b2 (ix2 n j))]
  refine (acc4_fin agg h w1 b1 w2 b2 j 24 (by decide)).1.trans ?_
  exact Finset.sum_congr rfl fun t _ => Finset.sum_congr rfl fun r _ => (G4_6_block agg h w1 b1 w2 b2 t r j).symm

-- and the sum-of-squares row its column sum of squares
theorem acc4_sq_rows (j : Fin 128) :
    (acc4 agg h w1 b1 w2 b2 24 (by decide)).2 (ix2 (0 : Fin 1) j)
      = ∑ n : Fin 50000, G4_6 agg h w1 b1 w2 b2 (ix2 n j) * G4_6 agg h w1 b1 w2 b2 (ix2 n j) := by
  rw [← Cert.Spec.sum_blocks (fun n => G4_6 agg h w1 b1 w2 b2 (ix2 n j) * G4_6 agg h w1 b1 w2 b2 (ix2 n j))]
  refine (acc4_fin agg h w1 b1 w2 b2 j 24 (by decide)).2.trans ?_
  exact Finset.sum_congr rfl fun t _ => Finset.sum_congr rfl fun r _ => by rw [G4_6_block]

theorem G4_6_apply (n : Fin 50000) (j : Fin 128) :
    G4_6 agg h w1 b1 w2 b2 (ix2 n j)
      = k2_pay5 (rowBlk4 agg ⟨n.val / 2000, by omega⟩) (rowBlk4 h ⟨n.val / 2000, by omega⟩) w1 b1 w2 b2 (ix2 (n0 := 2000) (n1 := 128) ⟨n.val % 2000, by omega⟩ j) := rfl

theorem rowBlk4_apply (y : Vec Ideal S50000x128 .f32) (n : Fin 50000) (k : Fin 128) :
    rowBlk4 y ⟨n.val / 2000, by omega⟩ (ix2 (n0 := 2000) (n1 := 128) ⟨n.val % 2000, by omega⟩ k) = y (ix2 n k) :=
  congrArg y (Shape.idx_ext₂ (by show n.val / 2000 * 2000 + n.val % 2000 = n.val; omega) rfl)

end Cert.Val

end
-- ==== Proof.Val.N5Val.lean ====
import proofs.«407439_j85349590106293_1_alg».proof.Proof.KI.N5
import proofs.«407439_j85349590106293_1_alg».proof.Proof.Val.PayN
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def rowBlk5 (y : Vec F S50000x128 .f32) (q : Fin 25) : Vec F S2000x128 .f32 :=
  fun r => y (ix2 (n0 := 50000) (n1 := 128) ⟨q.val * 2000 + (r 0).val, by have := idx2_lt0 r; have := q.isLt; omega⟩ (r 1))

-- Row `n` of the output is row `n % 2000` of the payload on row block `n / 2000`.
def G5 (y : Vec F S50000x128 .f32) (s b : Vec F S1x128 .f32) : Vec F S50000x128 .f32 :=
  fun i => k1_pay1 (rowBlk5 y ⟨(i 0).val / 2000, by have := idx2_lt0 i; omega⟩) s b
    (ix2 (n0 := 2000) (n1 := 128) ⟨(i 0).val % 2000, by omega⟩ (i 1))

theorem G5_blk (y : Vec F S50000x128 .f32) (s b : Vec F S1x128 .f32) (q : Fin 25) (r : S2000x128.Idx) (i : S50000x128.Idx)
    (h0 : (i 0).val = q.val * 2000 + (r 0).val) (h1 : (i 1).val = (r 1).val) :
    G5 y s b i = k1_pay1 (rowBlk5 y q) s b r := by
  have hr := idx2_lt0 r
  have eq : (⟨(i 0).val / 2000, by have := idx2_lt0 i; omega⟩ : Fin 25) = q := Fin.ext (by show (i 0).val / 2000 = q.val; omega)
  have er : ix2 (n0 := 2000) (n1 := 128) ⟨(i 0).val % 2000, by omega⟩ (i 1) = r :=
    Shape.idx_ext₂ (by show (i 0).val % 2000 = (r 0).val; omega) h1
  unfold G5; rw [eq, er]

variable (V : (c : Dev nD) → (b : Ref sig .tc) → Buf (Elt F) ((c : Thread nD τ).loc b)) (c : Dev nD)

theorem idx_facts5 : ∀ t : Fin cfg5.N, (win5_0.index t (0 : Fin 2) = t.val ∧ win5_0.index t (1 : Fin 2) = 0)
    ∧ (∀ a, win5_1.index t a = 0) ∧ (∀ a, win5_2.index t a = 0)
    ∧ win5_3.index t (0 : Fin 2) = t.val ∧ win5_3.index t (1 : Fin 2) = 0 :=
  (by decide +kernel : ∀ t : Fin grid5.N, _)

theorem iblk5_0_eq (t : Fin cfg5.N) (ht : t.val < 25) : iblk5 V c 0 t = rowBlk5 (V c main_v86_0) ⟨t.val, ht⟩ := by
  obtain ⟨⟨e0, e1⟩, -⟩ := idx_facts5 t
  refine funext fun r => congrArg (V c main_v86_0) (Shape.idx_ext₂ ?_ ?_)
  · show win5_0.index t (0 : Fin 2) * 2000 + 1 * (r 0).val = t.val * 2000 + (r 0).val; omega
  · show win5_0.index t (1 : Fin 2) * 128 + 1 * (r 1).val = (r 1).val; omega

-- A window at block index zero on every axis reads its whole array.
theorem iblk5_1_eq (t : Fin cfg5.N) : iblk5 V c 1 t = V c main_v99 :=
  funext fun r => congrArg (V c main_v99) (funext fun a => Fin.ext (win5_1.rect_emb_val_of_index_zero t a ((idx_facts5 t).2.1 a) r))

theorem iblk5_2_eq (t : Fin cfg5.N) : iblk5 V c 2 t = V c main_v104 :=
  funext fun r => congrArg (V c main_v104) (funext fun a => Fin.ext (win5_2.rect_emb_val_of_index_zero t a ((idx_facts5 t).2.2.1 a) r))

-- The block flushed at point `t` is block `t` of `G5` of the arrays at entry: compare coordinates.
theorem flushed5_3_eq (t : Fin cfg5.N) :
    (dat5 V c).flushed 3 t = ((cfg5.win 3).blk t).view.read (Elt F) (G5 (V c main_v86_0) (V c main_v99) (V c main_v104)) := by
  have ht : t.val < 25 := lt_of_lt_of_eq t.isLt N_5
  obtain ⟨-, -, -, e6, e7⟩ := idx_facts5 t
  show (cfg5.win 3).cut (grid5.coords t) ((dat5 V c).after 3 t) = _
  rw [after5_3, out1_3, View.canon_unit_zero hz1]
  simp only [View.ld_unit_zero (S := S2000x128) hz1, View.ld_unit_zero (S := S1x128) hz1]
  rw [iblk5_0_eq V c t ht, iblk5_1_eq, iblk5_2_eq]
  funext j
  refine (G5_blk _ _ _ ⟨t.val, ht⟩ j (((cfg5.win 3).blk t).view.emb j) ?_ ?_).symm
  · show win5_3.index t (0 : Fin 2) * 2000 + 1 * (j 0).val = t.val * 2000 + (j 0).val; omega
  · show win5_3.index t (1 : Fin 2) * 128 + 1 * (j 1).val = (j 1).val; omega

-- Row `n` of the output array lies in the block of point `n / 2000`.
theorem cover5_3_arr (i : S50000x128.Idx) : ∃ t : Fin cfg5.N, (cfg5.win 3).flush t = true ∧ i ∈ ((cfg5.win 3).blk t).view.set := by
  have hi0 := idx2_lt0 i
  have hi1 := idx2_lt1 i
  have hN : cfg5.N = 25 := N_5
  obtain ⟨t, htv⟩ : ∃ t : Fin cfg5.N, t.val = (i 0).val / 2000 := ⟨⟨(i 0).val / 2000, by omega⟩, rfl⟩
  obtain ⟨-, -, -, e6, e7⟩ := idx_facts5 t
  refine ⟨t, flush5_3 t, ?_⟩
  show i ∈ ((View.whole main_v105).slice (win5_3.rect t)).set
  rw [View.set_slice_whole, Rect.mem_set_unit]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

theorem final5 : (dat5 V c).arrAt 3 cfg5.N = G5 (V c main_v86_0) (V c main_v99) (V c main_v104) :=
  (dat5 V c).arrAt_eq_of_cover 3 _ (fun t _ => flushed5_3_eq V c t) cover5_3_arr

end Cert.KernelIdeal.Hand

namespace Cert.Val

open Cert.KernelIdeal Cert.KernelIdeal.Gen Cert.KernelIdeal.Hand
open Idealize.ShloMosaic Idealize.ShloMosaic.ValueIdx

theorem G5_apply (y : Vec Ideal S50000x128 .f32) (s b : Vec Ideal S1x128 .f32) (n : Fin 50000) (j : Fin 128) :
    G5 (F := Ideal) y s b (ix2 n j) = y (ix2 n j) * s (ix2 (0 : Fin 1) j) + b (ix2 (0 : Fin 1) j) := by
  have hn := n.isLt
  show k1_pay1 (F := Ideal) (rowBlk5 y ⟨n.val / 2000, _⟩) s b (ix2 ⟨n.val % 2000, _⟩ j) = _
  rw [k1_pay1_apply]
  show y (ix2 ⟨n.val / 2000 * 2000 + n.val % 2000, _⟩ j) * _ + _ = _
  have e : (⟨n.val / 2000 * 2000 + n.val % 2000, by omega⟩ : Fin 50000) = n := Fin.ext (by show n.val / 2000 * 2000 + n.val % 2000 = n.val; omega)
  rw [e]

end Cert.Val

end
-- ==== Proof.Val.KSpec4.lean ====
import proofs.«407439_j85349590106293_1_alg».proof.Proof.Val.C4Val
import proofs.«407439_j85349590106293_1_alg».proof.Proof.Val.N5Val
import proofs.«407439_j85349590106293_1_alg».proof.Proof.Val.KStats
import proofs.«407439_j85349590106293_1_alg».proof.Proof.Val.KHost
import proofs.«407439_j85349590106293_1_alg».proof.Proof.Val.PayC2
import proofs.«407439_j85349590106293_1_alg».proof.Proof.Math.Spec
import Idealize.ShloMosaic.Lib.ValueIdx

noncomputable section

namespace Cert.Val

open Cert.KernelIdeal Cert.KernelIdeal.Gen Cert.KernelIdeal.Hand Cert.KernelIdeal.HostVal
open Idealize.ShloMosaic Idealize.ShloMosaic.ValueIdx
open scoped BigOperators

-- Row n lies in row block n / 2000 at local row n % 2000, and the block's entry there is the perceptron of the block's rows.
theorem G4_6_eq_mlp (agg h : Vec Ideal S50000x128 .f32) (w1 : Vec Ideal S128x128 .f32) (b1 : Vec Ideal S1x128 .f32)
    (w2 : Vec Ideal S128x128 .f32) (b2 : Vec Ideal S1x128 .f32) (n : Fin 50000) (j : Fin 128) :
    G4_6 agg h w1 b1 w2 b2 (ix2 n j) = mlpOf agg h w1 b1 w2 b2 n j := by
  rw [G4_6_apply, k2_pay5_apply]
  unfold mlpOf Cert.Spec.mlp Cert.Spec.hid
  simp only [rowBlk4_apply]

-- The second region applied to the first region's main output and to the scale and shift made of its two statistics rows.
theorem layer2_spec (agg h : Vec Ideal S50000x128 .f32) (W1 : Vec Ideal S3x128x128 .f32) (b1 : Vec Ideal S3x128 .f32)
    (W2 : Vec Ideal S3x128x128 .f32) (b2 : Vec Ideal S3x128 .f32) (g be : Vec Ideal S3x128 .f32) (n : Fin 50000) (j : Fin 128) :
    G5 (F := Ideal) (G4_6 agg h (kerMat2 W1) (kerRow2 b1) (kerMat2 W2) (kerRow2 b2))
        (kerScale_2 (F := Ideal) (acc4 agg h (kerMat2 W1) (kerRow2 b1) (kerMat2 W2) (kerRow2 b2) 24 (by decide)).1
          (acc4 agg h (kerMat2 W1) (kerRow2 b1) (kerMat2 W2) (kerRow2 b2) 24 (by decide)).2 g be)
        (kerBias_2 (F := Ideal) (acc4 agg h (kerMat2 W1) (kerRow2 b1) (kerMat2 W2) (kerRow2 b2) 24 (by decide)).1
          (acc4 agg h (kerMat2 W1) (kerRow2 b1) (kerMat2 W2) (kerRow2 b2) 24 (by decide)).2 g be) (ix2 n j)
      = Cert.Spec.layerK Nc epsc (fun n c => agg (ix2 n c)) (fun n c => h (ix2 n c)) (fun a c => W1 (ix3 (2 : Fin 3) a c))
          (fun c => b1 (ix2 (2 : Fin 3) c)) (fun a c => W2 (ix3 (2 : Fin 3) a c)) (fun c => b2 (ix2 (2 : Fin 3) c))
          (fun c => g (ix2 (2 : Fin 3) c)) (fun c => be (ix2 (2 : Fin 3) c)) n j := by
  refine (layer_of _ _ g be _ j (2 : Fin 3) _ _ _ (fun n j => G5_apply _ _ _ n j) (G4_6_eq_mlp agg h _ _ _ _)
    (acc4_sum_rows agg h _ _ _ _) (acc4_sq_rows agg h _ _ _ _) n).trans ?_
  unfold Cert.Spec.layerK mlpOf
  simp only [kerMat2_apply, kerRow2_apply]

end Cert.Val

end
-- ==== Proof.Val.KChain0.lean ====
import proofs.«407439_j85349590106293_1_alg».proof.Proof.KI.Chain
import proofs.«407439_j85349590106293_1_alg».proof.Proof.Val.KHost
import proofs.«407439_j85349590106293_1_alg».proof.Proof.Val.N1Val

set_option maxRecDepth 16384

noncomputable section

namespace Cert.KernelIdeal.Hand

open Cert.KernelIdeal.Gen Cert.KernelIdeal.HostVal
open Idealize.ShloMosaic Idealize.ShloMosaic.TcCoe Idealize.SL.Sem

variable {F : FTy → Type} [FloatOps F]

/-- A function of a compute kernel's six inputs. -/
abbrev Blk (F' : FTy → Type) (α : Type) : Type :=
  Vec F' S50000x128 .f32 → Vec F' S50000x128 .f32 → Vec F' S128x128 .f32 → Vec F' S1x128 .f32 → Vec F' S128x128 .f32 → Vec F' S1x128 .f32 → α
/-- A statistics line: two column reductions and the two stacked affine parameters give a row. -/
abbrev Stat (F' : FTy → Type) : Type :=
  Vec F' S1x128 .f32 → Vec F' S1x128 .f32 → Vec F' S3x128 .f32 → Vec F' S3x128 .f32 → Vec F' S1x128 .f32
/-- A normalize kernel's function of the main output and the scale and bias rows. -/
abbrev Nrm (F' : FTy → Type) : Type :=
  Vec F' S50000x128 .f32 → Vec F' S1x128 .f32 → Vec F' S1x128 .f32 → Vec F' S50000x128 .f32
/-- Every device's buffers. -/
abbrev Vals (F' : FTy → Type) : Type :=
  (c : Dev nD) → (b : Ref sig .tc) → Buf (Elt F') ((c : Thread nD τ).loc b)

/-- `X` at the neighbour aggregation of `h`, at `h` and at the layer's slices of the stacked parameters. -/
def kerBlk {α : Type} (X : Blk F α) (mat : Vec F S3x128x128 .f32 → Vec F S128x128 .f32) (row : Vec F S3x128 .f32 → Vec F S1x128 .f32)
    (h : Vec F S50000x128 .f32) (src dst : Vec F S1600000 .i32) (w1 : Vec F S3x128x128 .f32) (b1 : Vec F S3x128 .f32) (w2 : Vec F S3x128x128 .f32) (b2 : Vec F S3x128 .f32) : α :=
  X (kerAgg h src dst) h (mat w1) (row b1) (mat w2) (row b2)

/-- One layer: `G` of the main output `M` and of the rows `sc`, `bi` make of the reductions `S`, `Q` and the affine parameters. -/
def kerLayerOf (G : Nrm F) (M : Blk F (Vec F S50000x128 .f32)) (S Q : Blk F (Vec F S1x128 .f32)) (sc bi : Stat F)
    (mat : Vec F S3x128x128 .f32 → Vec F S128x128 .f32) (row : Vec F S3x128 .f32 → Vec F S1x128 .f32)
    (h : Vec F S50000x128 .f32) (src dst : Vec F S1600000 .i32) (w1 : Vec F S3x128x128 .f32) (b1 : Vec F S3x128 .f32) (w2 : Vec F S3x128x128 .f32) (b2 : Vec F S3x128 .f32)
    (g be : Vec F S3x128 .f32) : Vec F S50000x128 .f32 :=
  G (kerBlk M mat row h src dst w1 b1 w2 b2)
    (sc (kerBlk S mat row h src dst w1 b1 w2 b2) (kerBlk Q mat row h src dst w1 b1 w2 b2) g be)
    (bi (kerBlk S mat row h src dst w1 b1 w2 b2) (kerBlk Q mat row h src dst w1 b1 w2 b2) g be)

variable (m : (ℓ : Loc nD τ sig) → Buf (Elt F) ℓ) (ρ : Dev nD → PrngReg) (c : Dev nD)

/-- `kerBlk` with the edge list's rows and the stacked parameters read from the launch memory. -/
abbrev blkAt {α : Type} (X : Blk F α) (mat : Vec F S3x128x128 .f32 → Vec F S128x128 .f32) (row : Vec F S3x128 .f32 → Vec F S1x128 .f32)
    (h : Vec F S50000x128 .f32) : α :=
  kerBlk X mat row h (kerSrc (m (c, main_arg1))) (kerDst (m (c, main_arg1))) (m (c, main_arg3)) (m (c, main_arg4)) (m (c, main_arg5)) (m (c, main_arg6))

abbrev argRefs : List (Ref sig .tc) :=
  [main_arg0, main_arg1, main_arg2, main_arg3, main_arg4, main_arg5, main_arg6, main_arg7, main_arg8, main_arg9,
    main_arg10, main_arg11, main_arg12]
/-- The arrays no item after the first writes: the edge list's two rows and the arguments. -/
abbrev kept : List (Ref sig .tc) := main_v1 :: main_v3 :: argRefs

theorem argNW0 : ∀ r ∈ argRefs, r ∉ hostOps0_W := by decide
theorem W1_arg (r : Ref sig .tc) (hr : r ∈ argRefs) : W1 m ρ c r = m (c, r) :=
  W1_of m ρ c r (argNW0 r hr)
theorem W1_v1 : W1 m ρ c main_v1 = kerSrc (m (c, main_arg1)) := hostOps0_main_v1 (W0 m ρ c)
theorem W1_v3 : W1 m ρ c main_v3 = kerDst (m (c, main_arg1)) := hostOps0_main_v3 (W0 m ρ c)
theorem keptNW2 : ∀ r ∈ kept, r ∉ hostOps0_1_W := by decide
theorem W2_kept (r : Ref sig .tc) (hr : r ∈ kept) : W2 m ρ c r = W1 m ρ c r :=
  W2_of m ρ c r (keptNW2 r hr)
theorem keptNW3 : ∀ r ∈ kept, r ∉ hostOps0_2_W := by decide
theorem W3_kept (r : Ref sig .tc) (hr : r ∈ kept) : W3 m ρ c r = W1 m ρ c r :=
  (W3_of m ρ c r (keptNW3 r hr)).trans (W2_kept m ρ c r hr)
theorem keptNW4 : ∀ r ∈ kept, r ∉ ([main_v18_0, main_v18_1, main_v18_2] : List (Ref sig .tc)) := by decide
theorem W4_kept (r : Ref sig .tc) (hr : r ∈ kept) : W4 m ρ c r = W1 m ρ c r :=
  (W4_stay m ρ c r (keptNW4 r hr)).trans (W3_kept m ρ c r hr)
theorem keptNW5 : ∀ r ∈ kept, r ∉ hostOps1_W := by decide
theorem W5_kept (r : Ref sig .tc) (hr : r ∈ kept) : W5 m ρ c r = W1 m ρ c r :=
  (W5_of m ρ c r (keptNW5 r hr)).trans (W4_kept m ρ c r hr)
theorem keptNW6 : ∀ r ∈ kept, r ∉ ([main_v37] : List (Ref sig .tc)) := by decide
theorem W6_kept (r : Ref sig .tc) (hr : r ∈ kept) : W6 m ρ c r = W1 m ρ c r :=
  (W6_stay m ρ c r (keptNW6 r hr)).trans (W5_kept m ρ c r hr)
theorem keptNW7 : ∀ r ∈ kept, r ∉ hostOps2_W := by decide
theorem W7_kept (r : Ref sig .tc) (hr : r ∈ kept) : W7 m ρ c r = W1 m ρ c r :=
  (W7_of m ρ c r (keptNW7 r hr)).trans (W6_kept m ρ c r hr)
theorem keptNW8 : ∀ r ∈ kept, r ∉ hostOps2_1_W := by decide
theorem W8_kept (r : Ref sig .tc) (hr : r ∈ kept) : W8 m ρ c r = W1 m ρ c r :=
  (W8_of m ρ c r (keptNW8 r hr)).trans (W7_kept m ρ c r hr)
theorem keptNW9 : ∀ r ∈ kept, r ∉ ([main_v52_0, main_v52_1, main_v52_2] : List (Ref sig .tc)) := by decide
theorem W9_kept (r : Ref sig .tc) (hr : r ∈ kept) : W9 m ρ c r = W1 m ρ c r :=
  (W9_stay m ρ c r (keptNW9 r hr)).trans (W8_kept m ρ c r hr)
theorem keptNW10 : ∀ r ∈ kept, r ∉ hostOps3_W := by decide
theorem W10_kept (r : Ref sig .tc) (hr : r ∈ kept) : W10 m ρ c r = W1 m ρ c r :=
  (W10_of m ρ c r (keptNW10 r hr)).trans (W9_kept m ρ c r hr)
theorem keptNW11 : ∀ r ∈ kept, r ∉ ([main_v71] : List (Ref sig .tc)) := by decide
theorem W11_kept (r : Ref sig .tc) (hr : r ∈ kept) : W11 m ρ c r = W1 m ρ c r :=
  (W11_stay m ρ c r (keptNW11 r hr)).trans (W10_kept m ρ c r hr)
theorem keptNW12 : ∀ r ∈ kept, r ∉ hostOps4_W := by decide
theorem W12_kept (r : Ref sig .tc) (hr : r ∈ kept) : W12 m ρ c r = W1 m ρ c r :=
  (W12_of m ρ c r (keptNW12 r hr)).trans (W11_kept m ρ c r hr)
theorem keptNW13 : ∀ r ∈ kept, r ∉ hostOps4_1_W := by decide
theorem W13_kept (r : Ref sig .tc) (hr : r ∈ kept) : W13 m ρ c r = W1 m ρ c r :=
  (W13_of m ρ c r (keptNW13 r hr)).trans (W12_kept m ρ c r hr)
theorem keptNW14 : ∀ r ∈ kept, r ∉ ([main_v86_0, main_v86_1, main_v86_2] : List (Ref sig .tc)) := by decide
theorem W14_kept (r : Ref sig .tc) (hr : r ∈ kept) : W14 m ρ c r = W1 m ρ c r :=
  (W14_stay m ρ c r (keptNW14 r hr)).trans (W13_kept m ρ c r hr)
theorem keptNW15 : ∀ r ∈ kept, r ∉ hostOps5_W := by decide
theorem W15_kept (r : Ref sig .tc) (hr : r ∈ kept) : W15 m ρ c r = W1 m ρ c r :=
  (W15_of m ρ c r (keptNW15 r hr)).trans (W14_kept m ρ c r hr)
theorem keptNW16 : ∀ r ∈ kept, r ∉ ([main_v105] : List (Ref sig .tc)) := by decide
theorem W16_kept (r : Ref sig .tc) (hr : r ∈ kept) : W16 m ρ c r = W1 m ρ c r :=
  (W16_stay m ρ c r (keptNW16 r hr)).trans (W15_kept m ρ c r hr)
theorem keptNW17 : ∀ r ∈ kept, r ∉ hostOps6_W := by decide
theorem W17_kept (r : Ref sig .tc) (hr : r ∈ kept) : W17 m ρ c r = W1 m ρ c r :=
  (W17_of m ρ c r (keptNW17 r hr)).trans (W16_kept m ρ c r hr)

theorem W2_take0 : W2 m ρ c main_v4 = kerTake (m (c, main_arg0)) (kerSrc (m (c, main_arg1))) :=
  (hostOps0_1_main_v4 (W1 m ρ c)).trans (by rw [W1_arg m ρ c main_arg0 (by decide), W1_v1 m ρ c])

/-- Any function of the first compute kernel's six inputs, read where the kernel finds them. -/
theorem W3_blk {α : Type} (X : Blk F α) :
    X (W3 m ρ c main_v7) (W3 m ρ c main_arg0) (W3 m ρ c main_v9) (W3 m ρ c main_v12) (W3 m ρ c main_v14) (W3 m ρ c main_v17)
      = blkAt m c X kerMat0 kerRow0 (m (c, main_arg0)) := by
  rw [W3_kept m ρ c main_arg0 (by decide), W1_arg m ρ c main_arg0 (by decide)]
  dsimp only [W3]
  rw [hostOps0_2_main_v7 (W2 m ρ c), hostOps0_2_main_v9 (W2 m ρ c), hostOps0_2_main_v12 (W2 m ρ c), hostOps0_2_main_v14 (W2 m ρ c),
    hostOps0_2_main_v17 (W2 m ρ c), W2_kept m ρ c main_v3 (by decide), W1_v3 m ρ c, W2_take0 m ρ c,
    W2_kept m ρ c main_arg3 (by decide), W1_arg m ρ c main_arg3 (by decide),
    W2_kept m ρ c main_arg4 (by decide), W1_arg m ρ c main_arg4 (by decide),
    W2_kept m ρ c main_arg5 (by decide), W1_arg m ρ c main_arg5 (by decide),
    W2_kept m ρ c main_arg6 (by decide), W1_arg m ρ c main_arg6 (by decide)]
  rfl

variable {M0 : Blk F (Vec F S50000x128 .f32)} {S0 Q0 : Blk F (Vec F S1x128 .f32)} {sc0 bi0 : Stat F}
  (hM0 : ∀ (V : Vals F) (c : Dev nD), (dat0 V c).arrAt 6 cfg0.N = M0 (V c main_v7) (V c main_arg0) (V c main_v9) (V c main_v12) (V c main_v14) (V c main_v17))
  (hS0 : ∀ (V : Vals F) (c : Dev nD), (dat0 V c).arrAt 7 cfg0.N = S0 (V c main_v7) (V c main_arg0) (V c main_v9) (V c main_v12) (V c main_v14) (V c main_v17))
  (hQ0 : ∀ (V : Vals F) (c : Dev nD), (dat0 V c).arrAt 8 cfg0.N = Q0 (V c main_v7) (V c main_arg0) (V c main_v9) (V c main_v12) (V c main_v14) (V c main_v17))
  (hsc0 : ∀ W : Valuation τ sig (Elt F), StableHlo.after hostOps1 W main_v31 = sc0 (W main_v18_1) (W main_v18_2) (W main_arg7) (W main_arg8))
  (hbi0 : ∀ W : Valuation τ sig (Elt F), StableHlo.after hostOps1 W main_v36 = bi0 (W main_v18_1) (W main_v18_2) (W main_arg7) (W main_arg8))

include hM0 in
theorem W4_out0 : W4 m ρ c main_v18_0 = blkAt m c M0 kerMat0 kerRow0 (m (c, main_arg0)) :=
  (W4_arr m ρ c 6).trans ((hM0 (V3 m ρ) c).trans (W3_blk m ρ c M0))
include hS0 in
theorem W4_out1 : W4 m ρ c main_v18_1 = blkAt m c S0 kerMat0 kerRow0 (m (c, main_arg0)) :=
  (W4_arr m ρ c 7).trans ((hS0 (V3 m ρ) c).trans (W3_blk m ρ c S0))
include hQ0 in
theorem W4_out2 : W4 m ρ c main_v18_2 = blkAt m c Q0 kerMat0 kerRow0 (m (c, main_arg0)) :=
  (W4_arr m ρ c 8).trans ((hQ0 (V3 m ρ) c).trans (W3_blk m ρ c Q0))

include hM0 hS0 hQ0 hsc0 hbi0 in
/-- The first layer: what the first normalize kernel leaves is the layer function of the launch memory. -/
theorem W6_v37_of : W6 m ρ c main_v37
    = kerLayerOf G1 M0 S0 Q0 sc0 bi0 kerMat0 kerRow0 (m (c, main_arg0)) (kerSrc (m (c, main_arg1))) (kerDst (m (c, main_arg1))) (m (c, main_arg3)) (m (c, main_arg4)) (m (c, main_arg5)) (m (c, main_arg6)) (m (c, main_arg7)) (m (c, main_arg8)) :=
  (W6_arr m ρ c 3).trans ((final1 (V5 m ρ) c).trans (by
    show G1 (W5 m ρ c main_v18_0) (StableHlo.after hostOps1 (W4 m ρ c) main_v31) (StableHlo.after hostOps1 (W4 m ρ c) main_v36) = _
    rw [W5_of m ρ c main_v18_0 (by decide), hsc0 (W4 m ρ c), hbi0 (W4 m ρ c), W4_out0 m ρ c hM0, W4_out1 m ρ c hS0, W4_out2 m ρ c hQ0,
      W4_kept m ρ c main_arg7 (by decide), W1_arg m ρ c main_arg7 (by decide),
    W4_kept m ρ c main_arg8 (by decide), W1_arg m ρ c main_arg8 (by decide)]
    rfl))

end Cert.KernelIdeal.Hand

end
-- ==== Proof.Val.KChain1.lean ====
import proofs.«407439_j85349590106293_1_alg».proof.Proof.Val.KChain0

noncomputable section

namespace Cert.KernelIdeal.Hand

open Cert.KernelIdeal.Gen Cert.KernelIdeal.HostVal
open Idealize.ShloMosaic Idealize.ShloMosaic.TcCoe Idealize.SL.Sem

variable {F : FTy → Type} [FloatOps F]

variable (m : (ℓ : Loc nD τ sig) → Buf (Elt F) ℓ) (ρ : Dev nD → PrngReg) (c : Dev nD)

theorem W7_take1 : W7 m ρ c main_v38 = kerTake (W6 m ρ c main_v37) (kerSrc (m (c, main_arg1))) :=
  (hostOps2_main_v38 (W6 m ρ c)).trans (by rw [W6_kept m ρ c main_v1 (by decide), W1_v1 m ρ c])

/-- Any function of the compute kernel's six inputs, read where the kernel finds them. -/
theorem W8_blk {α : Type} (X : Blk F α) :
    X (W8 m ρ c main_v41) (W8 m ρ c main_v37) (W8 m ρ c main_v43) (W8 m ρ c main_v46) (W8 m ρ c main_v48) (W8 m ρ c main_v51)
      = blkAt m c X kerMat1 kerRow1 (W6 m ρ c main_v37) := by
  rw [W8_of m ρ c main_v37 (by decide), W7_of m ρ c main_v37 (by decide)]
  dsimp only [W8]
  rw [hostOps2_1_main_v41 (W7 m ρ c), hostOps2_1_main_v43 (W7 m ρ c), hostOps2_1_main_v46 (W7 m ρ c), hostOps2_1_main_v48 (W7 m ρ c),
    hostOps2_1_main_v51 (W7 m ρ c), W7_kept m ρ c main_v3 (by decide), W1_v3 m ρ c, W7_take1 m ρ c,
    W7_kept m ρ c main_arg3 (by decide), W1_arg m ρ c main_arg3 (by decide),
    W7_kept m ρ c main_arg4 (by decide), W1_arg m ρ c main_arg4 (by decide),
    W7_kept m ρ c main_arg5 (by decide), W1_arg m ρ c main_arg5 (by decide),
    W7_kept m ρ c main_arg6 (by decide), W1_arg m ρ c main_arg6 (by decide)]
  rfl

variable {M : Blk F (Vec F S50000x128 .f32)} {S Q : Blk F (Vec F S1x128 .f32)} {sc bi : Stat F} {G : Nrm F}
  (hM : ∀ (V : Vals F) (c : Dev nD), (dat2 V c).arrAt 6 cfg2.N = M (V c main_v41) (V c main_v37) (V c main_v43) (V c main_v46) (V c main_v48) (V c main_v51))
  (hS : ∀ (V : Vals F) (c : Dev nD), (dat2 V c).arrAt 7 cfg2.N = S (V c main_v41) (V c main_v37) (V c main_v43) (V c main_v46) (V c main_v48) (V c main_v51))
  (hQ : ∀ (V : Vals F) (c : Dev nD), (dat2 V c).arrAt 8 cfg2.N = Q (V c main_v41) (V c main_v37) (V c main_v43) (V c main_v46) (V c main_v48) (V c main_v51))
  (hsc : ∀ W : Valuation τ sig (Elt F), StableHlo.after hostOps3 W main_v65 = sc (W main_v52_1) (W main_v52_2) (W main_arg7) (W main_arg8))
  (hbi : ∀ W : Valuation τ sig (Elt F), StableHlo.after hostOps3 W main_v70 = bi (W main_v52_1) (W main_v52_2) (W main_arg7) (W main_arg8))
  (hG : ∀ (V : Vals F) (c : Dev nD), (dat3 V c).arrAt 3 cfg3.N = G (V c main_v52_0) (V c main_v65) (V c main_v70))

include hM in
theorem W9_out0 : W9 m ρ c main_v52_0 = blkAt m c M kerMat1 kerRow1 (W6 m ρ c main_v37) :=
  (W9_arr m ρ c 6).trans ((hM (V8 m ρ) c).trans (W8_blk m ρ c M))
include hS in
theorem W9_out1 : W9 m ρ c main_v52_1 = blkAt m c S kerMat1 kerRow1 (W6 m ρ c main_v37) :=
  (W9_arr m ρ c 7).trans ((hS (V8 m ρ) c).trans (W8_blk m ρ c S))
include hQ in
theorem W9_out2 : W9 m ρ c main_v52_2 = blkAt m c Q kerMat1 kerRow1 (W6 m ρ c main_v37) :=
  (W9_arr m ρ c 8).trans ((hQ (V8 m ρ) c).trans (W8_blk m ρ c Q))

include hM hS hQ hsc hbi hG in
/-- The layer: what its normalize kernel leaves is the layer function of the layer's input and the launch memory. -/
theorem W11_v71_of : W11 m ρ c main_v71
    = kerLayerOf G M S Q sc bi kerMat1 kerRow1 (W6 m ρ c main_v37) (kerSrc (m (c, main_arg1))) (kerDst (m (c, main_arg1))) (m (c, main_arg3)) (m (c, main_arg4)) (m (c, main_arg5)) (m (c, main_arg6)) (m (c, main_arg7)) (m (c, main_arg8)) :=
  (W11_arr m ρ c 3).trans ((hG (V10 m ρ) c).trans (by
    show G (W10 m ρ c main_v52_0) (StableHlo.after hostOps3 (W9 m ρ c) main_v65) (StableHlo.after hostOps3 (W9 m ρ c) main_v70) = _
    rw [W10_of m ρ c main_v52_0 (by decide), hsc (W9 m ρ c), hbi (W9 m ρ c), W9_out0 m ρ c hM, W9_out1 m ρ c hS, W9_out2 m ρ c hQ,
      W9_kept m ρ c main_arg7 (by decide), W1_arg m ρ c main_arg7 (by decide),
    W9_kept m ρ c main_arg8 (by decide), W1_arg m ρ c main_arg8 (by decide)]
    rfl))

end Cert.KernelIdeal.Hand

end
-- ==== Proof.Val.KChain2.lean ====
import proofs.«407439_j85349590106293_1_alg».proof.Proof.Val.KChain1

noncomputable section

namespace Cert.KernelIdeal.Hand

open Cert.KernelIdeal.Gen Cert.KernelIdeal.HostVal
open Idealize.ShloMosaic Idealize.ShloMosaic.TcCoe Idealize.SL.Sem

variable {F : FTy → Type} [FloatOps F]

variable (m : (ℓ : Loc nD τ sig) → Buf (Elt F) ℓ) (ρ : Dev nD → PrngReg) (c : Dev nD)

theorem W12_take2 : W12 m ρ c main_v72 = kerTake (W11 m ρ c main_v71) (kerSrc (m (c, main_arg1))) :=
  (hostOps4_main_v72 (W11 m ρ c)).trans (by rw [W11_kept m ρ c main_v1 (by decide), W1_v1 m ρ c])

/-- Any function of the compute kernel's six inputs, read where the kernel finds them. -/
theorem W13_blk {α : Type} (X : Blk F α) :
    X (W13 m ρ c main_v75) (W13 m ρ c main_v71) (W13 m ρ c main_v77) (W13 m ρ c main_v80) (W13 m ρ c main_v82) (W13 m ρ c main_v85)
      = blkAt m c X kerMat2 kerRow2 (W11 m ρ c main_v71) := by
  rw [W13_of m ρ c main_v71 (by decide), W12_of m ρ c main_v71 (by decide)]
  dsimp only [W13]
  rw [hostOps4_1_main_v75 (W12 m ρ c), hostOps4_1_main_v77 (W12 m ρ c), hostOps4_1_main_v80 (W12 m ρ c), hostOps4_1_main_v82 (W12 m ρ c),
    hostOps4_1_main_v85 (W12 m ρ c), W12_kept m ρ c main_v3 (by decide), W1_v3 m ρ c, W12_take2 m ρ c,
    W12_kept m ρ c main_arg3 (by decide), W1_arg m ρ c main_arg3 (by decide),
    W12_kept m ρ c main_arg4 (by decide), W1_arg m ρ c main_arg4 (by decide),
    W12_kept m ρ c main_arg5 (by decide), W1_arg m ρ c main_arg5 (by decide),
    W12_kept m ρ c main_arg6 (by decide), W1_arg m ρ c main_arg6 (by decide)]
  rfl

variable {M : Blk F (Vec F S50000x128 .f32)} {S Q : Blk F (Vec F S1x128 .f32)} {sc bi : Stat F} {G : Nrm F}
  (hM : ∀ (V : Vals F) (c : Dev nD), (dat4 V c).arrAt 6 cfg4.N = M (V c main_v75) (V c main_v71) (V c main_v77) (V c main_v80) (V c main_v82) (V c main_v85))
  (hS : ∀ (V : Vals F) (c : Dev nD), (dat4 V c).arrAt 7 cfg4.N = S (V c main_v75) (V c main_v71) (V c main_v77) (V c main_v80) (V c main_v82) (V c main_v85))
  (hQ : ∀ (V : Vals F) (c : Dev nD), (dat4 V c).arrAt 8 cfg4.N = Q (V c main_v75) (V c main_v71) (V c main_v77) (V c main_v80) (V c main_v82) (V c main_v85))
  (hsc : ∀ W : Valuation τ sig (Elt F), StableHlo.after hostOps5 W main_v99 = sc (W main_v86_1) (W main_v86_2) (W main_arg7) (W main_arg8))
  (hbi : ∀ W : Valuation τ sig (Elt F), StableHlo.after hostOps5 W main_v104 = bi (W main_v86_1) (W main_v86_2) (W main_arg7) (W main_arg8))
  (hG : ∀ (V : Vals F) (c : Dev nD), (dat5 V c).arrAt 3 cfg5.N = G (V c main_v86_0) (V c main_v99) (V c main_v104))

include hM in
theorem W14_out0 : W14 m ρ c main_v86_0 = blkAt m c M kerMat2 kerRow2 (W11 m ρ c main_v71) :=
  (W14_arr m ρ c 6).trans ((hM (V13 m ρ) c).trans (W13_blk m ρ c M))
include hS in
theorem W14_out1 : W14 m ρ c main_v86_1 = blkAt m c S kerMat2 kerRow2 (W11 m ρ c main_v71) :=
  (W14_arr m ρ c 7).trans ((hS (V13 m ρ) c).trans (W13_blk m ρ c S))
include hQ in
theorem W14_out2 : W14 m ρ c main_v86_2 = blkAt m c Q kerMat2 kerRow2 (W11 m ρ c main_v71) :=
  (W14_arr m ρ c 8).trans ((hQ (V13 m ρ) c).trans (W13_blk m ρ c Q))

include hM hS hQ hsc hbi hG in
/-- The layer: what its normalize kernel leaves is the layer function of the layer's input and the launch memory. -/
theorem W16_v105_of : W16 m ρ c main_v105
    = kerLayerOf G M S Q sc bi kerMat2 kerRow2 (W11 m ρ c main_v71) (kerSrc (m (c, main_arg1))) (kerDst (m (c, main_arg1))) (m (c, main_arg3)) (m (c, main_arg4)) (m (c, main_arg5)) (m (c, main_arg6)) (m (c, main_arg7)) (m (c, main_arg8)) :=
  (W16_arr m ρ c 3).trans ((hG (V15 m ρ) c).trans (by
    show G (W15 m ρ c main_v86_0) (StableHlo.after hostOps5 (W14 m ρ c) main_v99) (StableHlo.after hostOps5 (W14 m ρ c) main_v104) = _
    rw [W15_of m ρ c main_v86_0 (by decide), hsc (W14 m ρ c), hbi (W14 m ρ c), W14_out0 m ρ c hM, W14_out1 m ρ c hS, W14_out2 m ρ c hQ,
      W14_kept m ρ c main_arg7 (by decide), W1_arg m ρ c main_arg7 (by decide),
    W14_kept m ρ c main_arg8 (by decide), W1_arg m ρ c main_arg8 (by decide)]
    rfl))

end Cert.KernelIdeal.Hand

end
-- ==== Proof.Val.P6Val.lean ====
import proofs.«407439_j85349590106293_1_alg».proof.Proof.KI.P6
import Idealize.ShloMosaic.Lib.Pipeline.Value
import Idealize.ShloMosaic.Lib.ValueIdx

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

variable (V : (c : Dev nD) → (b : Ref sig .tc) → Buf (Elt F) ((c : Thread nD τ).loc b)) (c : Dev nD)

theorem hz6 : (![0, 0] : Fin 2 → Nat) = fun _ => 0 := funext fun a => by fin_cases a <;> rfl

theorem idx_facts6 : ∀ t : Fin cfg6.N, (∀ a, win6_0.index t a = 0) ∧ (∀ a, win6_1.index t a = 0) ∧ (∀ a, win6_2.index t a = 0)
    ∧ (∀ a, win6_3.index t a = 0) ∧ (∀ a, win6_4.index t a = 0) ∧ (∀ a, win6_5.index t a = 0) :=
  (by decide +kernel : ∀ t : Fin grid6.N, _)

-- A window at block index zero on every axis reads its whole array.
theorem iblk6_0_eq (t : Fin cfg6.N) : iblk6 V c 0 t = V c main_v109 :=
  funext fun r => congrArg (V c main_v109) (funext fun a => Fin.ext (win6_0.rect_emb_val_of_index_zero t a ((idx_facts6 t).1 a) r))

theorem iblk6_1_eq (t : Fin cfg6.N) : iblk6 V c 1 t = V c main_arg9 :=
  funext fun r => congrArg (V c main_arg9) (funext fun a => Fin.ext (win6_1.rect_emb_val_of_index_zero t a ((idx_facts6 t).2.1 a) r))

theorem iblk6_2_eq (t : Fin cfg6.N) : iblk6 V c 2 t = V c main_v110 :=
  funext fun r => congrArg (V c main_v110) (funext fun a => Fin.ext (win6_2.rect_emb_val_of_index_zero t a ((idx_facts6 t).2.2.1 a) r))

theorem iblk6_3_eq (t : Fin cfg6.N) : iblk6 V c 3 t = V c main_arg11 :=
  funext fun r => congrArg (V c main_arg11) (funext fun a => Fin.ext (win6_3.rect_emb_val_of_index_zero t a ((idx_facts6 t).2.2.2.1 a) r))

theorem iblk6_4_eq (t : Fin cfg6.N) : iblk6 V c 4 t = V c main_v111 :=
  funext fun r => congrArg (V c main_v111) (funext fun a => Fin.ext (win6_4.rect_emb_val_of_index_zero t a ((idx_facts6 t).2.2.2.2.1 a) r))

-- The block flushed at the one point is the payload of the five arrays at entry.
theorem flushed6_5_eq (t : Fin cfg6.N) :
    (dat6 V c).flushed 5 t = ((cfg6.win 5).blk t).view.read (Elt F)
      (k6_pay1 (V c main_v109) (V c main_arg9) (V c main_v110) (V c main_arg11) (V c main_v111)) := by
  show (cfg6.win 5).cut (grid6.coords t) ((dat6 V c).after 5 t) = _
  rw [after6_5, out6_5, View.canon_unit_zero hz6]
  simp only [View.ld_unit_zero (S := S512x384) hz6, View.ld_unit_zero (S := S384x384) hz6, View.ld_unit_zero (S := S1x384) hz6]
  rw [iblk6_0_eq, iblk6_1_eq, iblk6_2_eq, iblk6_3_eq, iblk6_4_eq]
  exact funext fun j => congrArg (k6_pay1 (V c main_v109) (V c main_arg9) (V c main_v110) (V c main_arg11) (V c main_v111))
    (funext fun a => Fin.ext (win6_5.rect_emb_val_of_index_zero t a ((idx_facts6 t).2.2.2.2.2 a) j).symm)

-- The one point's block is the whole output array.
theorem cover6_5_arr (i : S512x384.Idx) : ∃ t : Fin cfg6.N, (cfg6.win 5).flush t = true ∧ i ∈ ((cfg6.win 5).blk t).view.set := by
  have hi0 := idx2_lt0 i
  have hi1 := idx2_lt1 i
  have hN : cfg6.N = 1 := N_6
  obtain ⟨t, -⟩ : ∃ t : Fin cfg6.N, t.val = 0 := ⟨⟨0, by omega⟩, rfl⟩
  have e0 := (idx_facts6 t).2.2.2.2.2 (0 : Fin 2)
  have e1 := (idx_facts6 t).2.2.2.2.2 (1 : Fin 2)
  refine ⟨t, flush6_5 t, ?_⟩
  show i ∈ ((View.whole main_v112).slice (win6_5.rect t)).set
  rw [View.set_slice_whole, Rect.mem_set_unit]
  intro a
  match a with
  | ⟨0, _⟩ => show win6_5.index t (0 : Fin 2) * 512 ≤ (i 0).val ∧ (i 0).val < win6_5.index t (0 : Fin 2) * 512 + 512; omega
  | ⟨1, _⟩ => show win6_5.index t (1 : Fin 2) * 384 ≤ (i 1).val ∧ (i 1).val < win6_5.index t (1 : Fin 2) * 384 + 384; omega

theorem final6 : (dat6 V c).arrAt 5 cfg6.N
    = k6_pay1 (V c main_v109) (V c main_arg9) (V c main_v110) (V c main_arg11) (V c main_v111) :=
  (dat6 V c).arrAt_eq_of_cover 5 _ (fun t _ => flushed6_5_eq V c t) cover6_5_arr

end Cert.KernelIdeal.Hand

end
-- ==== Proof.Val.KChainHead.lean ====
import proofs.«407439_j85349590106293_1_alg».proof.Proof.Val.KChain2
import proofs.«407439_j85349590106293_1_alg».proof.Proof.Val.P6Val

noncomputable section

namespace Cert.KernelIdeal.Hand

open Cert.KernelIdeal.Gen Cert.KernelIdeal.HostVal
open Idealize.ShloMosaic Idealize.ShloMosaic.TcCoe Idealize.SL.Sem

variable {F : FTy → Type} [FloatOps F]

variable (m : (ℓ : Loc nD τ sig) → Buf (Elt F) ℓ) (ρ : Dev nD → PrngReg) (c : Dev nD)

/-- The result array in terms of the three layer outputs where they were written: they reach the pooling unchanged. -/
theorem W18_v112_layers : W18 m ρ c main_v112
    = k6_pay1 (kerPooled (W6 m ρ c main_v37) (W11 m ρ c main_v71) (W16 m ρ c main_v105) (m (c, main_arg2)))
        (m (c, main_arg9)) (kerBp (m (c, main_arg10))) (m (c, main_arg11)) (kerBp (m (c, main_arg12))) :=
  (W18_arr m ρ c 5).trans ((final6 (V17 m ρ) c).trans (by
    show k6_pay1 (StableHlo.after hostOps6 (W16 m ρ c) main_v109) (W17 m ρ c main_arg9) (StableHlo.after hostOps6 (W16 m ρ c) main_v110)
      (W17 m ρ c main_arg11) (StableHlo.after hostOps6 (W16 m ρ c) main_v111) = _
    rw [hostOps6_main_v109 (W16 m ρ c), hostOps6_main_v110 (W16 m ρ c), hostOps6_main_v111 (W16 m ρ c),
      W16_stay m ρ c main_v37 (by decide), W15_of m ρ c main_v37 (by decide), W14_stay m ρ c main_v37 (by decide), W13_of m ρ c main_v37 (by decide), W12_of m ρ c main_v37 (by decide), W11_stay m ρ c main_v37 (by decide), W10_of m ρ c main_v37 (by decide), W9_stay m ρ c main_v37 (by decide), W8_of m ρ c main_v37 (by decide), W7_of m ρ c main_v37 (by decide),
      W16_stay m ρ c main_v71 (by decide), W15_of m ρ c main_v71 (by decide), W14_stay m ρ c main_v71 (by decide), W13_of m ρ c main_v71 (by decide), W12_of m ρ c main_v71 (by decide),
      W16_kept m ρ c main_arg2 (by decide), W1_arg m ρ c main_arg2 (by decide),
    W16_kept m ρ c main_arg10 (by decide), W1_arg m ρ c main_arg10 (by decide),
    W16_kept m ρ c main_arg12 (by decide), W1_arg m ρ c main_arg12 (by decide),
      W17_kept m ρ c main_arg9 (by decide), W1_arg m ρ c main_arg9 (by decide),
    W17_kept m ρ c main_arg11 (by decide), W1_arg m ρ c main_arg11 (by decide)]))

/-- A layer as a function of its input, the edge list's two rows and the stacked parameters. -/
abbrev Lay (F' : FTy → Type) : Type :=
  Vec F' S50000x128 .f32 → Vec F' S1600000 .i32 → Vec F' S1600000 .i32 → Vec F' S3x128x128 .f32 → Vec F' S3x128 .f32 → Vec F' S3x128x128 .f32 → Vec F' S3x128 .f32 → Vec F' S3x128 .f32 → Vec F' S3x128 .f32 → Vec F' S50000x128 .f32

/-- The program's result given the three layer functions: each layer takes the previous one's output; the three outputs are pooled per graph and projected. -/
def kerResOf (L0 L1 L2 : Lay F)
    (x : Vec F S50000x128 .f32) (e : Vec F S2x1600000 .i32) (batch : Vec F S50000 .i32)
    (w1 : Vec F S3x128x128 .f32) (b1 : Vec F S3x128 .f32) (w2 : Vec F S3x128x128 .f32) (b2 : Vec F S3x128 .f32) (g be : Vec F S3x128 .f32)
    (wp1 : Vec F S384x384 .f32) (bp1 : Vec F S384 .f32) (wp2 : Vec F S384x384 .f32) (bp2 : Vec F S384 .f32) :
    Vec F S512x384 .f32 :=
  k6_pay1
    (kerPooled (L0 x (kerSrc e) (kerDst e) w1 b1 w2 b2 g be)
      (L1 (L0 x (kerSrc e) (kerDst e) w1 b1 w2 b2 g be) (kerSrc e) (kerDst e) w1 b1 w2 b2 g be)
      (L2 (L1 (L0 x (kerSrc e) (kerDst e) w1 b1 w2 b2 g be) (kerSrc e) (kerDst e) w1 b1 w2 b2 g be) (kerSrc e) (kerDst e)
        w1 b1 w2 b2 g be)
      batch)
    wp1 (kerBp bp1) wp2 (kerBp bp2)

end Cert.KernelIdeal.Hand

end
-- ==== Proof.Val.KChainInst.lean ====
import proofs.«407439_j85349590106293_1_alg».proof.Proof.Val.KChainHead
import proofs.«407439_j85349590106293_1_alg».proof.Proof.Val.C0Val
import proofs.«407439_j85349590106293_1_alg».proof.Proof.Val.C2Val
import proofs.«407439_j85349590106293_1_alg».proof.Proof.Val.C4Val
import proofs.«407439_j85349590106293_1_alg».proof.Proof.Val.KStats
import proofs.«407439_j85349590106293_1_alg».proof.Proof.Val.N3Val
import proofs.«407439_j85349590106293_1_alg».proof.Proof.Val.N5Val

noncomputable section

namespace Cert.KernelIdeal.Hand

open Cert.KernelIdeal.Gen Cert.KernelIdeal.HostVal
open Idealize.ShloMosaic Idealize.ShloMosaic.TcCoe Idealize.SL.Sem

variable {F : FTy → Type} [FloatOps F]

/-- The column sums and the column sums of squares a compute kernel accumulates over its 25 row blocks. -/
def kerS0 : Blk F (Vec F S1x128 .f32) := fun agg h w1 b1 w2 b2 => (acc0 agg h w1 b1 w2 b2 24 (by decide)).1
def kerQ0 : Blk F (Vec F S1x128 .f32) := fun agg h w1 b1 w2 b2 => (acc0 agg h w1 b1 w2 b2 24 (by decide)).2
def kerS2 : Blk F (Vec F S1x128 .f32) := fun agg h w1 b1 w2 b2 => (acc2 agg h w1 b1 w2 b2 24 (by decide)).1
def kerQ2 : Blk F (Vec F S1x128 .f32) := fun agg h w1 b1 w2 b2 => (acc2 agg h w1 b1 w2 b2 24 (by decide)).2
def kerS4 : Blk F (Vec F S1x128 .f32) := fun agg h w1 b1 w2 b2 => (acc4 agg h w1 b1 w2 b2 24 (by decide)).1
def kerQ4 : Blk F (Vec F S1x128 .f32) := fun agg h w1 b1 w2 b2 => (acc4 agg h w1 b1 w2 b2 24 (by decide)).2

def kerLayer0 : Lay F := kerLayerOf G1 G0_6 kerS0 kerQ0 kerScale_0 kerBias_0 kerMat0 kerRow0
def kerLayer1 : Lay F := kerLayerOf G3 G2_6 kerS2 kerQ2 kerScale_1 kerBias_1 kerMat1 kerRow1
def kerLayer2 : Lay F := kerLayerOf G5 G4_6 kerS4 kerQ4 kerScale_2 kerBias_2 kerMat2 kerRow2

/-- `kerResOf` at this program's three layers. -/
def kerRes (x : Vec F S50000x128 .f32) (e : Vec F S2x1600000 .i32) (batch : Vec F S50000 .i32)
    (w1 : Vec F S3x128x128 .f32) (b1 : Vec F S3x128 .f32) (w2 : Vec F S3x128x128 .f32) (b2 : Vec F S3x128 .f32) (g be : Vec F S3x128 .f32)
    (wp1 : Vec F S384x384 .f32) (bp1 : Vec F S384 .f32) (wp2 : Vec F S384x384 .f32) (bp2 : Vec F S384 .f32) :
    Vec F S512x384 .f32 :=
  kerResOf kerLayer0 kerLayer1 kerLayer2 x e batch w1 b1 w2 b2 g be wp1 bp1 wp2 bp2

/-- The result array after the program is `kerRes` of the launch contents of the thirteen argument arrays. -/
theorem W18_result (m : (ℓ : Loc nD τ sig) → Buf (Elt F) ℓ) (ρ : Dev nD → PrngReg) (c : Dev nD) : W18 m ρ c (Proc.devRef .tc main_v112)
    = kerRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W18_v112_layers m ρ c,
    W16_v105_of m ρ c (M := G4_6) (S := kerS4) (Q := kerQ4) (sc := kerScale_2) (bi := kerBias_2) (G := G5) final4_6 final4_7 final4_8 hostOps5_scale hostOps5_bias final5,
    W11_v71_of m ρ c (M := G2_6) (S := kerS2) (Q := kerQ2) (sc := kerScale_1) (bi := kerBias_1) (G := G3) final2_6 final2_7 final2_8 hostOps3_scale hostOps3_bias final3,
    W6_v37_of m ρ c (M0 := G0_6) (S0 := kerS0) (Q0 := kerQ0) (sc0 := kerScale_0) (bi0 := kerBias_0) final0_6 final0_7 final0_8 hostOps1_scale hostOps1_bias]
  rfl

end Cert.KernelIdeal.Hand

end
-- ==== Proof.Val.KSpec.lean ====
import proofs.«407439_j85349590106293_1_alg».proof.Proof.Val.KSpec0
import proofs.«407439_j85349590106293_1_alg».proof.Proof.Val.KSpec2
import proofs.«407439_j85349590106293_1_alg».proof.Proof.Val.KSpec4
import proofs.«407439_j85349590106293_1_alg».proof.Proof.Val.KChainInst

noncomputable section

namespace Cert.Val

open Cert.KernelIdeal Cert.KernelIdeal.Gen Cert.KernelIdeal.Hand Cert.KernelIdeal.HostVal
open Idealize.ShloMosaic Idealize.ShloMosaic.ValueIdx

variable (h : Vec Ideal S50000x128 .f32) (src dst : Vec Ideal S1600000 .i32)
  (W1 : Vec Ideal S3x128x128 .f32) (b1 : Vec Ideal S3x128 .f32) (W2 : Vec Ideal S3x128x128 .f32) (b2 : Vec Ideal S3x128 .f32)
  (g be : Vec Ideal S3x128 .f32) (n : Fin 50000) (j : Fin 128)

-- Each layer of the program is the specification's layer of the neighbour sums, the layer's input and its slices of the stacked parameters.
theorem kerLayer0_spec : kerLayer0 (F := Ideal) h src dst W1 b1 W2 b2 g be (ix2 n j)
    = Cert.Spec.layerK Nc epsc (fun n c => kerAgg (F := Ideal) h src dst (ix2 n c)) (fun n c => h (ix2 n c))
        (fun a c => W1 (ix3 (0 : Fin 3) a c)) (fun c => b1 (ix2 (0 : Fin 3) c))
        (fun a c => W2 (ix3 (0 : Fin 3) a c)) (fun c => b2 (ix2 (0 : Fin 3) c))
        (fun c => g (ix2 (0 : Fin 3) c)) (fun c => be (ix2 (0 : Fin 3) c)) n j :=
  layer0_spec (kerAgg h src dst) h W1 b1 W2 b2 g be n j

theorem kerLayer1_spec : kerLayer1 (F := Ideal) h src dst W1 b1 W2 b2 g be (ix2 n j)
    = Cert.Spec.layerK Nc epsc (fun n c => kerAgg (F := Ideal) h src dst (ix2 n c)) (fun n c => h (ix2 n c))
        (fun a c => W1 (ix3 (1 : Fin 3) a c)) (fun c => b1 (ix2 (1 : Fin 3) c))
        (fun a c => W2 (ix3 (1 : Fin 3) a c)) (fun c => b2 (ix2 (1 : Fin 3) c))
        (fun c => g (ix2 (1 : Fin 3) c)) (fun c => be (ix2 (1 : Fin 3) c)) n j :=
  layer1_spec (kerAgg h src dst) h W1 b1 W2 b2 g be n j

theorem kerLayer2_spec : kerLayer2 (F := Ideal) h src dst W1 b1 W2 b2 g be (ix2 n j)
    = Cert.Spec.layerK Nc epsc (fun n c => kerAgg (F := Ideal) h src dst (ix2 n c)) (fun n c => h (ix2 n c))
        (fun a c => W1 (ix3 (2 : Fin 3) a c)) (fun c => b1 (ix2 (2 : Fin 3) c))
        (fun a c => W2 (ix3 (2 : Fin 3) a c)) (fun c => b2 (ix2 (2 : Fin 3) c))
        (fun c => g (ix2 (2 : Fin 3) c)) (fun c => be (ix2 (2 : Fin 3) c)) n j :=
  layer2_spec (kerAgg h src dst) h W1 b1 W2 b2 g be n j

end Cert.Val

end
-- ==== Proof.Val.RefSpec.lean ====
import proofs.«407439_j85349590106293_1_alg».proof.Proof.Math.Spec
import proofs.«407439_j85349590106293_1_alg».proof.Proof.Gen.ReferenceIdeal
import proofs.«407439_j85349590106293_1_alg».proof.Proof.Val.Consts
import proofs.«407439_j85349590106293_1_alg».proof.Proof.RI.Defs
import Idealize.ShloMosaic.Lib.IdealHost
import Idealize.ShloMosaic.Lib.ValueLayout
import Idealize.ShloMosaic.Lib.ValueIdxCoords
import Idealize.ShloMosaic.Lib.StackMember
import Idealize.ShloMosaic.Lib.Pipeline.Value

noncomputable section

namespace Cert.Val

open Idealize.ShloMosaic Idealize.ShloMosaic.ValueIdx
open Cert.ReferenceIdeal
open Cert.ReferenceIdeal.Facts₀
open Cert.ReferenceIdeal.Hand (refZeros refRows refMean refVar refAgg)
open scoped BigOperators

variable (k : ℕ) (hk : k < 3) (hW : S3x128x128.Slices ![k, 0, 0] S1x128x128) (hb : S3x128.Slices ![k, 0] S1x128)

def matK (W : FVec Ideal S3x128x128 .f32) : FVec Ideal S128x128 .f32 :=
  shapeCast S128x128 (extractStridedSlice S1x128x128 ![k, 0, 0] W hW) shapeCasts_S1x128x128_S128x128

def rowK (p : FVec Ideal S3x128 .f32) : FVec Ideal S128 .f32 :=
  shapeCast S128 (extractStridedSlice S1x128 ![k, 0] p hb) shapeCasts_S1x128_S128

def hidOp (m : FVec Ideal S50000x128 .f32) (W : FVec Ideal S128x128 .f32) (b : FVec Ideal S128 .f32) :
    FVec Ideal S50000x128 .f32 :=
  maximumf (addf (Host.dotGeneral dot_S50000x128_S128x128_S50000x128_1_0_0_1_n_n none m W) (refRows (F := Ideal) b))
    (refZeros (F := Ideal))

-- Slice `k` of the stacked parameters in the reference's two affine maps, applied to `a + h`.
def mlpOps (a h : FVec Ideal S50000x128 .f32) (W1 : FVec Ideal S3x128x128 .f32) (b1 : FVec Ideal S3x128 .f32)
    (W2 : FVec Ideal S3x128x128 .f32) (b2 : FVec Ideal S3x128 .f32) : FVec Ideal S50000x128 .f32 :=
  hidOp (hidOp (addf a h) (matK k hW W1) (rowK k hb b1)) (matK k hW W2) (rowK k hb b2)

-- The reference's normalisation of `y` with slice `k` of the scale and shift.
def normOps (y : FVec Ideal S50000x128 .f32) (g be : FVec Ideal S3x128 .f32) : FVec Ideal S50000x128 .f32 :=
  addf
    (mulf
      (mulf (subf y (refRows (F := Ideal) (refMean (F := Ideal) y)))
        (refRows (F := Ideal) (Host.rsqrt (addf (refVar (F := Ideal) y)
          (broadcastInDim S128 ![] bcast_S_S128 (constant S_ .f32 0x3727C5AC#32)) : FVec Ideal S128 .f32))))
      (refRows (F := Ideal) (rowK k hb g)))
    (refRows (F := Ideal) (rowK k hb be))

theorem refZeros_apply (i : S50000x128.Idx) : refZeros (F := Ideal) i = 0 := by
  unfold refZeros
  rw [broadcastInDim_scalar_apply, constant_apply, Ideal.ofBits_zero_f32]

theorem matK_apply (W : FVec Ideal S3x128x128 .f32) (a c : Fin 128) :
    matK k hW W (ix2 a c) = W (ix3 (⟨k, hk⟩ : Fin 3) a c) := by
  unfold matK
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem rowK_apply (p : FVec Ideal S3x128 .f32) (c : Fin 128) :
    rowK k hb p (ix1 c) = p (ix2 (⟨k, hk⟩ : Fin 3) c) := by
  unfold rowK
  rw [shapeCast_1a_a_apply]
  exact extractStridedSlice_apply _ _ _ _ _ (fun ax => by
    match ax with
    | ⟨0, _⟩ => rfl
    | ⟨1, _⟩ => exact (Nat.zero_add _).symm)

theorem rows_apply (X : FVec Ideal S1x128 .f32) (n : Fin 50000) (c : Fin 128) :
    broadcastInDim S50000x128 ![0, 1] bcast_S1x128_S50000x128_0_1 X (ix2 n c) = X (ix2 (0 : Fin 1) c) :=
  broadcastInDim_apply _ _ _ _ (ix2 (0 : Fin 1) c) (fun a => by
    match a with
    | ⟨0, _⟩ => rfl
    | ⟨1, _⟩ => rfl)

theorem row1_apply (v : FVec Ideal S128 .f32) (c : Fin 128) :
    broadcastInDim S1x128 ![1] bcast_S128_S1x128_1 v (ix2 (0 : Fin 1) c) = v (ix1 c) :=
  broadcastInDim_apply _ _ _ _ (ix1 c) (fun a => by
    match a with
    | ⟨0, _⟩ => rfl)

theorem refRows_apply (v : FVec Ideal S128 .f32) (n : Fin 50000) (c : Fin 128) :
    refRows (F := Ideal) v (ix2 n c) = v (ix1 c) := by
  unfold refRows
  rw [rows_apply, row1_apply]

theorem dot_apply (m : FVec Ideal S50000x128 .f32) (W : FVec Ideal S128x128 .f32) (n : Fin 50000) (c : Fin 128) :
    Host.dotGeneral dot_S50000x128_S128x128_S50000x128_1_0_0_1_n_n none m W (ix2 n c)
      = ∑ a : Fin 128, m (ix2 n a) * W (ix2 a c) :=
  StackMember.dotGeneral_plain_apply none m W n c

theorem hidOp_apply (m : FVec Ideal S50000x128 .f32) (W : FVec Ideal S128x128 .f32) (b : FVec Ideal S128 .f32)
    (n : Fin 50000) (c : Fin 128) :
    hidOp m W b (ix2 n c) = Cert.Spec.hid (fun n a => m (ix2 n a)) (fun a c => W (ix2 a c)) (fun c => b (ix1 c)) n c := by
  unfold hidOp
  rw [maximumf_apply, addf_apply, dot_apply, refRows_apply, refZeros_apply]
  rfl

theorem reducesW : S50000x128.Reduces [0] S128 := by decide

-- A column sum from the initial value zero is the sum down the column.
theorem reduce0_apply (x : FVec Ideal S50000x128 .f32) (c : Fin 128) :
    Host.reduceAdd x (constant S_ .f32 0x00000000#32) reducesTo_S50000x128_S128_d0 h_S_ (ix1 c)
      = ∑ n : Fin 50000, x (ix2 n c) := by
  rw [hostReduceAdd_apply,
    Ideal.hostReduceAdd_single reducesTo_S50000x128_S128_d0 reducesW,
    constant_apply, Ideal.ofBits_zero_f32, zero_add]
  refine Finset.sum_congr rfl fun n _ => congrArg x (funext fun a => Fin.ext ?_)
  match a with
  | ⟨0, _⟩ => rfl
  | ⟨1, _⟩ => rfl

-- The variance's divisor `50000 − 0` is `Nc`.
theorem divisor_eq :
    (subf (constant S_ .f32 0x47435000#32) (sitofp (F := Ideal) .f32 (constantI S_ 32 0#32)) : FVec Ideal S_ .f32) ix0 = Nc := by
  rw [subf_apply, constant_apply, sitofp_apply, constantI_apply]
  show Nc - (((0#32 : BitVec 32).toInt : ℝ) : EReal) = Nc
  have h0 : (0#32 : BitVec 32).toInt = 0 := by decide
  rw [h0, Int.cast_zero, EReal.coe_zero, sub_zero]

-- The variance's guard `50000 − 0 > 0` holds.
theorem guard_eq (c : Fin 128) :
    (broadcastInDim S128 ![] bcast_S_S128
      (cmpf .ogt (subf (constant S_ .f32 0x47435000#32) (sitofp (F := Ideal) .f32 (constantI S_ 32 0#32)))
        (constant S_ .f32 0x00000000#32))) (ix1 c) = 1#1 := by
  rw [broadcastInDim_scalar_apply, cmpf_apply, divisor_eq, constant_apply, Ideal.ofBits_zero_f32]
  show Ideal.cmp .ogt Nc 0 = 1#1
  have hN : (0 : EReal) < Nc := by rw [Nc_eq]; exact_mod_cast (by norm_num : (0 : ℝ) < 50000)
  unfold Ideal.cmp
  simp [hN]

theorem refMean_apply (y : FVec Ideal S50000x128 .f32) (c : Fin 128) :
    refMean (F := Ideal) y (ix1 c) = Cert.Spec.mean Nc (fun n c => y (ix2 n c)) c := by
  unfold refMean
  rw [hostDivf_apply, reduce0_apply, broadcastInDim_scalar_apply, constant_apply]
  rfl

theorem refVar_apply (y : FVec Ideal S50000x128 .f32) (c : Fin 128) :
    refVar (F := Ideal) y (ix1 c) = Cert.Spec.varR Nc (fun n c => y (ix2 n c)) c := by
  unfold refVar
  rw [select_apply, guard_eq, select_one, hostDivf_apply, reduce0_apply, broadcastInDim_scalar_apply, divisor_eq]
  unfold Cert.Spec.varR
  refine congrArg (fun s => Ideal.div s Nc) (Finset.sum_congr rfl fun n _ => ?_)
  rw [mulf_apply, subf_apply, rows_apply, hostDivf_apply, row1_apply, reduce0_apply, broadcastInDim_scalar_apply,
    constant_apply]
  rfl

theorem hostRsqrt_apply {s : Shape} {φ : FTy} (x : FVec Ideal s φ) (i : s.Idx) : Host.rsqrt x i = Ideal.rsqrt (x i) := rfl

theorem normOps_apply (y : FVec Ideal S50000x128 .f32) (g be : FVec Ideal S3x128 .f32) (n : Fin 50000) (j : Fin 128) :
    normOps k hb y g be (ix2 n j)
      = Cert.Spec.normR Nc epsc (fun n c => y (ix2 n c)) (fun c => g (ix2 (⟨k, hk⟩ : Fin 3) c))
          (fun c => be (ix2 (⟨k, hk⟩ : Fin 3) c)) n j := by
  unfold normOps
  rw [addf_apply, mulf_apply, mulf_apply, subf_apply, refRows_apply, refRows_apply, refRows_apply, refRows_apply,
    refMean_apply, rowK_apply k hk, rowK_apply k hk, hostRsqrt_apply, addf_apply, refVar_apply, broadcastInDim_scalar_apply, constant_apply]
  rfl

theorem hid_congr {m m' : Cert.Spec.Feat} {W W' : Cert.Spec.Mat} {b b' : Cert.Spec.Row}
    (hm : ∀ n a, m n a = m' n a) (hW : ∀ a c, W a c = W' a c) (hb : ∀ c, b c = b' c) (n : Fin 50000) (c : Fin 128) :
    Cert.Spec.hid m W b n c = Cert.Spec.hid m' W' b' n c := by
  rw [funext₂ hm, funext₂ hW, funext hb]

theorem mlpOps_spec (s h : FVec Ideal S50000x128 .f32) (W1 : FVec Ideal S3x128x128 .f32) (b1 : FVec Ideal S3x128 .f32)
    (W2 : FVec Ideal S3x128x128 .f32) (b2 : FVec Ideal S3x128 .f32) (n : Fin 50000) (j : Fin 128) :
    mlpOps k hW hb s h W1 b1 W2 b2 (ix2 n j)
      = Cert.Spec.mlp (fun n c => s (ix2 n c) + h (ix2 n c))
          (fun a c => W1 (ix3 (⟨k, hk⟩ : Fin 3) a c)) (fun c => b1 (ix2 (⟨k, hk⟩ : Fin 3) c))
          (fun a c => W2 (ix3 (⟨k, hk⟩ : Fin 3) a c)) (fun c => b2 (ix2 (⟨k, hk⟩ : Fin 3) c)) n j := by
  unfold mlpOps
  rw [hidOp_apply]
  unfold Cert.Spec.mlp
  refine hid_congr (fun n a => ?_) (fun a c => matK_apply k hk hW W2 a c) (fun c => rowK_apply k hk hb b2 c) n j
  rw [hidOp_apply]
  exact hid_congr (fun n a => addf_apply _ _ _) (fun a c => matK_apply k hk hW W1 a c)
    (fun c => rowK_apply k hk hb b1 c) n a

-- Slice `k` of a layer of the reference, read at `(n, j)`, is the specification's layer.
theorem layerOps_spec (h : FVec Ideal S50000x128 .f32) (src dst : IVec S1600000 32)
    (W1 : FVec Ideal S3x128x128 .f32) (b1 : FVec Ideal S3x128 .f32) (W2 : FVec Ideal S3x128x128 .f32) (b2 : FVec Ideal S3x128 .f32)
    (g be : FVec Ideal S3x128 .f32) (n : Fin 50000) (j : Fin 128) :
    normOps k hb (mlpOps k hW hb (refAgg (F := Ideal) h src dst) h W1 b1 W2 b2) g be (ix2 n j)
      = Cert.Spec.layerR Nc epsc (fun n c => refAgg (F := Ideal) h src dst (ix2 n c)) (fun n c => h (ix2 n c))
          (fun a c => W1 (ix3 (⟨k, hk⟩ : Fin 3) a c)) (fun c => b1 (ix2 (⟨k, hk⟩ : Fin 3) c))
          (fun a c => W2 (ix3 (⟨k, hk⟩ : Fin 3) a c)) (fun c => b2 (ix2 (⟨k, hk⟩ : Fin 3) c))
          (fun c => g (ix2 (⟨k, hk⟩ : Fin 3) c)) (fun c => be (ix2 (⟨k, hk⟩ : Fin 3) c)) n j := by
  rw [normOps_apply k hk]
  unfold Cert.Spec.layerR
  rw [funext₂ (mlpOps_spec k hk hW hb (refAgg (F := Ideal) h src dst) h W1 b1 W2 b2)]

end Cert.Val

end
-- ==== Proof.Val.Bridge.lean ====
import proofs.«407439_j85349590106293_1_alg».proof.Proof.Val.BridgeCore
import proofs.«407439_j85349590106293_1_alg».proof.Proof.Val.KSpec
import proofs.«407439_j85349590106293_1_alg».proof.Proof.Val.RefSpec
import proofs.«407439_j85349590106293_1_alg».proof.Proof.Val.KChainInst
import proofs.«407439_j85349590106293_1_alg».proof.Proof.KI.Frame

noncomputable section

namespace Cert.Val

open Cert.KernelIdeal.Hand
open Idealize.ShloMosaic Idealize.SL.Sem

-- Each program's layers meet the specification and the kernel program's run ends in the head of its pooled layers.
theorem algebraic : Cert.algebraic_KernelIdeal_ReferenceIdeal :=
  Bridge.algebraic_of _ _ _ kerLayer0_spec kerLayer1_spec kerLayer2_spec
    (layerOps_spec 0 (by decide) _ _) (layerOps_spec 1 (by decide) _ _) (layerOps_spec 2 (by decide) _ _)
    (fun m ρ => (θ_run _ _ _).mono (fun r h c => ⟨(h c).1.trans (W18_result m ρ c), (h c).2⟩)
      (run_result (F := Ideal) m ρ))

end Cert.Val

end
-- ==== Proof.lean ====
import proofs.«407439_j85349590106293_1_alg».proof.Defs
import proofs.«407439_j85349590106293_1_alg».proof.Proof.Gen.Kernel
import proofs.«407439_j85349590106293_1_alg».proof.Proof.Gen.KernelIdeal
import proofs.«407439_j85349590106293_1_alg».proof.Proof.Gen.ReferenceIdeal
import proofs.«407439_j85349590106293_1_alg».proof.Proof.Gen.Pre_finite_inputs
import proofs.«407439_j85349590106293_1_alg».proof.Proof.K.Frame
import proofs.«407439_j85349590106293_1_alg».proof.Proof.KI.Frame
import proofs.«407439_j85349590106293_1_alg».proof.Proof.RI.Run
import proofs.«407439_j85349590106293_1_alg».proof.Proof.Val.Bridge

noncomputable section

namespace Cert.Proof

open Idealize.ShloMosaic Idealize.SL.Sem

/-- Each program's frame is its run with the result forgotten. -/
theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Val.algebraic⟩

end Cert.Proof

end
